-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S512x256 .f32) (main_arg5 : FVec F S256x512 .f32) (main_arg6 : FVec F S512x256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  main_v33

def fn {F : FTy → Type} [FloatOps F] (main_arg0 : FVec F S512x256 .f32) (main_arg1 : FVec F S256x512 .f32) (main_arg2 : FVec F S512x256 .f32) (main_arg3 : FVec F S256x512 .f32) (main_arg4 : FVec F S512x256 .f32) (main_arg5 : FVec F S256x512 .f32) (main_arg6 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Pre_finite_inputs_ReferenceIdeal.lean ====
abbrev S512x2048 : Shape := ⟨2, ![512, 2048]⟩
abbrev S2048x512 : Shape := ⟨2, ![2048, 512]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg4 : FVec F S512x2048 .f32) (main_arg5 : FVec F S2048x512 .f32) (main_arg6 : FVec F S512x2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S512x2048 .f32 := Host.absf main_arg6
  let main_cst_10 : FVec F S_ .f32 := constant S_ .f32 0x7F800000#32
  let main_v30 : FVec F S512x2048 .f32 := broadcastInDim S512x2048 ![] bcast_S_S512x2048 main_cst_10
  let main_v31 : IVec S512x2048 1 := cmpf .olt main_v29 main_v30
  let main_c_11 : IVec S_ 1 := constantI S_ 1 1#1
  let main_v32 : IVec S_ 1 := (fun x v => Host.reduce IntOp.andi x v reducesTo_S512x2048_S_d0_1 h_S_) main_v31 main_c_11
  let main_v33 : IVec S_ 1 := andi main_v28 main_v32
  main_v33

def fn {F : FTy → Type} [FloatOps F] (main_arg0 : FVec F S512x2048 .f32) (main_arg1 : FVec F S2048x512 .f32) (main_arg2 : FVec F S512x2048 .f32) (main_arg3 : FVec F S2048x512 .f32) (main_arg4 : FVec F S512x2048 .f32) (main_arg5 : FVec F S2048x512 .f32) (main_arg6 : FVec F S512x2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_v13 main_v16
-- ==== Kernel.lean ====
abbrev S512x256 : Shape := ⟨2, ![512, 256]⟩
abbrev S256x512 : Shape := ⟨2, ![256, 512]⟩
abbrev S8x64x512 : Shape := ⟨3, ![8, 64, 512]⟩
abbrev S64x512 : Shape := ⟨2, ![64, 512]⟩
abbrev S3x256x512 : Shape := ⟨3, ![3, 256, 512]⟩
abbrev S3x512x256 : Shape := ⟨3, ![3, 512, 256]⟩
abbrev S8 : Shape := ⟨1, ![8]⟩
abbrev S7 : Shape := ⟨1, ![7]⟩
abbrev S1 : Shape := ⟨1, ![1]⟩
abbrev S_ : Shape := ⟨0, ![]⟩
abbrev S1x512x256 : Shape := ⟨3, ![1, 512, 256]⟩
abbrev S1x256x512 : Shape := ⟨3, ![1, 256, 512]⟩
abbrev S512x512 : Shape := ⟨2, ![512, 512]⟩
abbrev S1x64x512 : Shape := ⟨3, ![1, 64, 512]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S8x64x512, .bf16⟩
  | .local _ .vmem, ⟨2, _⟩ => ⟨S8x64x512, .bf16⟩
  | .local _ .vmem, ⟨3, _⟩ => ⟨S8x64x512, .bf16⟩
  | .local _ .vmem, ⟨4, _⟩ => ⟨S8x64x512, .bf16⟩
  | .local _ .vmem, ⟨5, _⟩ => ⟨S8x64x512, .bf16⟩
  | .local _ .vmem, ⟨6, _⟩ => ⟨S8x64x512, .bf16⟩
  | .local _ .vmem, ⟨7, _⟩ => ⟨S8x64x512, .bf16⟩
  | .local _ .vmem, ⟨8, _⟩ => ⟨S8x64x512, .bf16⟩
  | .local _ .vmem, ⟨9, _⟩ => ⟨S64x512, .bf16⟩
  | .local _ .vmem, ⟨10, _⟩ => ⟨S64x512, .bf16⟩
  | .local _ .vmem, ⟨11, _⟩ => ⟨S64x512, .bf16⟩
  | .local _ .vmem, ⟨12, _⟩ => ⟨S8x64x512, .bf16⟩
  | .local _ .vmem, ⟨13, _⟩ => ⟨S512x256, .f32⟩
  | .local _ .vmem, ⟨14, _⟩ => ⟨S3x256x512, .f32⟩
  | .local _ .vmem, ⟨15, _⟩ => ⟨S3x512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  (ofTc nBuf bufTy 1 104 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v30 : BitVec 32 := Scalar.xori v2 c1_i32_19
  let c1_i32_21 : BitVec 32 := 1#32
  let v31 : BitVec 32 := Scalar.muli v30 c1_i32_21
  let v32 : BitVec 32 := Scalar.addi c0_i32_22 v31
  v32.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_23 : BitVec 32 := 2#32
  let v33 : BitVec 32 := Scalar.xori v2 c2_i32_23
  let c1_i32_25 : BitVec 32 := 1#32
  let v34 : BitVec 32 := Scalar.muli v33 c1_i32_25
  let v35 : BitVec 32 := Scalar.addi c0_i32_26 v34
  v35.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_27 : BitVec 32 := 3#32
  let v36 : BitVec 32 := Scalar.xori v2 c3_i32_27
  let c1_i32_29 : BitVec 32 := 1#32
  let v37 : BitVec 32 := Scalar.muli v36 c1_i32_29
  let v38 : BitVec 32 := Scalar.addi c0_i32_30 v37
  v38.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v39 : BitVec 32 := Scalar.xori v2 c4_i32_31
  let c1_i32_33 : BitVec 32 := 1#32
  let v40 : BitVec 32 := Scalar.muli v39 c1_i32_33
  let v41 : BitVec 32 := Scalar.addi c0_i32_34 v40
  v41.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_35 : BitVec 32 := 5#32
  let v42 : BitVec 32 := Scalar.xori v2 c5_i32_35
  let c1_i32_37 : BitVec 32 := 1#32
  let v43 : BitVec 32 := Scalar.muli v42 c1_i32_37
  let v44 : BitVec 32 := Scalar.addi c0_i32_38 v43
  v44.toNat
def k0_dev6 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_39 : BitVec 32 := 6#32
  let v45 : BitVec 32 := Scalar.xori v2 c6_i32_39
  let c1_i32_41 : BitVec 32 := 1#32
  let v46 : BitVec 32 := Scalar.muli v45 c1_i32_41
  let v47 : BitVec 32 := Scalar.addi c0_i32_42 v46
  v47.toNat
def k0_dev7 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v48 : BitVec 32 := Scalar.xori v2 c7_i32
  let c1_i32_44 : BitVec 32 := 1#32
  let v49 : BitVec 32 := Scalar.muli v48 c1_i32_44
  let v50 : BitVec 32 := Scalar.addi c0_i32_45 v49
  v50.toNat
def k0_off1 (d0 : Dev nD) (c6_i32_62 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v69 : BitVec 32 := Scalar.xori v2 c6_i32_62
  let c0_i32_70 : BitVec 32 := 0#32
  let c0_i32_71 : BitVec 32 := 0#32
  ![v69.toNat, 0, 0]
def k0_dev8 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_62 : BitVec 32 := 6#32
  let v69 : BitVec 32 := Scalar.xori v2 c6_i32_62
  let c1_i32_66 : BitVec 32 := 1#32
  let v70 : BitVec 32 := Scalar.muli v69 c1_i32_66
  let v71 : BitVec 32 := Scalar.addi c0_i32_67 v70
  v71.toNat
def k0_dev9 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_72 : BitVec 32 := 2#32
  let v80 : BitVec 32 := Scalar.xori v2 c2_i32_72
  let c1_i32_76 : BitVec 32 := 1#32
  let v81 : BitVec 32 := Scalar.muli v80 c1_i32_76
  let v82 : BitVec 32 := Scalar.addi c0_i32_77 v81
  v82.toNat
def k0_dev10 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_82 : BitVec 32 := 5#32
  let v91 : BitVec 32 := Scalar.xori v2 c5_i32_82
  let c1_i32_86 : BitVec 32 := 1#32
  let v92 : BitVec 32 := Scalar.muli v91 c1_i32_86
  let v93 : BitVec 32 := Scalar.addi c0_i32_87 v92
  v93.toNat
def k0_dev11 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_92 : BitVec 32 := 7#32
  let v102 : BitVec 32 := Scalar.xori v2 c7_i32_92
  let c1_i32_96 : BitVec 32 := 1#32
  let v103 : BitVec 32 := Scalar.muli v102 c1_i32_96
  let v104 : BitVec 32 := Scalar.addi c0_i32_97 v103
  v104.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v113 : BitVec 32 := Scalar.xori v2 c1_i32_102
  let c1_i32_106 : BitVec 32 := 1#32
  let v114 : BitVec 32 := Scalar.muli v113 c1_i32_106
  let v115 : BitVec 32 := Scalar.addi c0_i32_107 v114
  v115.toNat
def k0_dev13 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_112 : BitVec 32 := 3#32
  let v124 : BitVec 32 := Scalar.xori v2 c3_i32_112
  let c1_i32_116 : BitVec 32 := 1#32
  let v125 : BitVec 32 := Scalar.muli v124 c1_i32_116
  let v126 : BitVec 32 := Scalar.addi c0_i32_117 v125
  v126.toNat
def k0_dev14 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_122 : BitVec 32 := 4#32
  let v135 : BitVec 32 := Scalar.xori v2 c4_i32_122
  let c1_i32_126 : BitVec 32 := 1#32
  let v136 : BitVec 32 := Scalar.muli v135 c1_i32_126
  let v137 : BitVec 32 := Scalar.addi c0_i32_127 v136
  v137.toNat
def k0_dev15 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_149 : BitVec 32 := 6#32
  let v164 : BitVec 32 := Scalar.xori v2 c6_i32_149
  let c1_i32_153 : BitVec 32 := 1#32
  let v165 : BitVec 32 := Scalar.muli v164 c1_i32_153
  let v166 : BitVec 32 := Scalar.addi c0_i32_154 v165
  v166.toNat
def k0_dev16 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_159 : BitVec 32 := 2#32
  let v175 : BitVec 32 := Scalar.xori v2 c2_i32_159
  let c1_i32_163 : BitVec 32 := 1#32
  let v176 : BitVec 32 := Scalar.muli v175 c1_i32_163
  let v177 : BitVec 32 := Scalar.addi c0_i32_164 v176
  v177.toNat
def k0_dev17 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_169 : BitVec 32 := 5#32
  let v186 : BitVec 32 := Scalar.xori v2 c5_i32_169
  let c1_i32_173 : BitVec 32 := 1#32
  let v187 : BitVec 32 := Scalar.muli v186 c1_i32_173
  let v188 : BitVec 32 := Scalar.addi c0_i32_174 v187
  v188.toNat
def k0_dev18 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_179 : BitVec 32 := 7#32
  let v197 : BitVec 32 := Scalar.xori v2 c7_i32_179
  let c1_i32_183 : BitVec 32 := 1#32
  let v198 : BitVec 32 := Scalar.muli v197 c1_i32_183
  let v199 : BitVec 32 := Scalar.addi c0_i32_184 v198
  v199.toNat
def k0_dev19 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_189 : BitVec 32 := 1#32
  let v208 : BitVec 32 := Scalar.xori v2 c1_i32_189
  let c1_i32_193 : BitVec 32 := 1#32
  let v209 : BitVec 32 := Scalar.muli v208 c1_i32_193
  let v210 : BitVec 32 := Scalar.addi c0_i32_194 v209
  v210.toNat
def k0_dev20 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_199 : BitVec 32 := 3#32
  let v219 : BitVec 32 := Scalar.xori v2 c3_i32_199
  let c1_i32_203 : BitVec 32 := 1#32
  let v220 : BitVec 32 := Scalar.muli v219 c1_i32_203
  let v221 : BitVec 32 := Scalar.addi c0_i32_204 v220
  v221.toNat
def k0_dev21 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_209 : BitVec 32 := 4#32
  let v230 : BitVec 32 := Scalar.xori v2 c4_i32_209
  let c1_i32_213 : BitVec 32 := 1#32
  let v231 : BitVec 32 := Scalar.muli v230 c1_i32_213
  let v232 : BitVec 32 := Scalar.addi c0_i32_214 v231
  v232.toNat
def k0_dev22 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_233 : BitVec 32 := 6#32
  let v256 : BitVec 32 := Scalar.xori v2 c6_i32_233
  let c1_i32_237 : BitVec 32 := 1#32
  let v257 : BitVec 32 := Scalar.muli v256 c1_i32_237
  let v258 : BitVec 32 := Scalar.addi c0_i32_238 v257
  v258.toNat
def k0_dev23 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_243 : BitVec 32 := 2#32
  let v267 : BitVec 32 := Scalar.xori v2 c2_i32_243
  let c1_i32_247 : BitVec 32 := 1#32
  let v268 : BitVec 32 := Scalar.muli v267 c1_i32_247
  let v269 : BitVec 32 := Scalar.addi c0_i32_248 v268
  v269.toNat
def k0_dev24 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_253 : BitVec 32 := 5#32
  let v278 : BitVec 32 := Scalar.xori v2 c5_i32_253
  let c1_i32_257 : BitVec 32 := 1#32
  let v279 : BitVec 32 := Scalar.muli v278 c1_i32_257
  let v280 : BitVec 32 := Scalar.addi c0_i32_258 v279
  v280.toNat
def k0_dev25 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_263 : BitVec 32 := 7#32
  let v289 : BitVec 32 := Scalar.xori v2 c7_i32_263
  let c1_i32_267 : BitVec 32 := 1#32
  let v290 : BitVec 32 := Scalar.muli v289 c1_i32_267
  let v291 : BitVec 32 := Scalar.addi c0_i32_268 v290
  v291.toNat
def k0_dev26 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_273 : BitVec 32 := 1#32
  let v300 : BitVec 32 := Scalar.xori v2 c1_i32_273
  let c1_i32_277 : BitVec 32 := 1#32
  let v301 : BitVec 32 := Scalar.muli v300 c1_i32_277
  let v302 : BitVec 32 := Scalar.addi c0_i32_278 v301
  v302.toNat
def k0_dev27 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_283 : BitVec 32 := 3#32
  let v311 : BitVec 32 := Scalar.xori v2 c3_i32_283
  let c1_i32_287 : BitVec 32 := 1#32
  let v312 : BitVec 32 := Scalar.muli v311 c1_i32_287
  let v313 : BitVec 32 := Scalar.addi c0_i32_288 v312
  v313.toNat
def k0_dev28 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_293 : BitVec 32 := 4#32
  let v322 : BitVec 32 := Scalar.xori v2 c4_i32_293
  let c1_i32_297 : BitVec 32 := 1#32
  let v323 : BitVec 32 := Scalar.muli v322 c1_i32_297
  let v324 : BitVec 32 := Scalar.addi c0_i32_298 v323
  v324.toNat
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v333 : Index := Scalar.indexCast v2
  let c0_303 : Index := 0#32
  let c0_304 : Index := 0#32
  ![v333.toNat, 0, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev29 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_388 : BitVec 32 := 6#32
  let v429 : BitVec 32 := Scalar.xori v2 c6_i32_388
  let c1_i32_391 : BitVec 32 := 1#32
  let v430 : BitVec 32 := Scalar.muli v429 c1_i32_391
  let v431 : BitVec 32 := Scalar.addi c0_i32_392 v430
  v431.toNat
def k0_dev30 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_395 : BitVec 32 := 2#32
  let v438 : BitVec 32 := Scalar.xori v2 c2_i32_395
  let c1_i32_398 : BitVec 32 := 1#32
  let v439 : BitVec 32 := Scalar.muli v438 c1_i32_398
  let v440 : BitVec 32 := Scalar.addi c0_i32_399 v439
  v440.toNat
def k0_dev31 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_402 : BitVec 32 := 5#32
  let v447 : BitVec 32 := Scalar.xori v2 c5_i32_402
  let c1_i32_405 : BitVec 32 := 1#32
  let v448 : BitVec 32 := Scalar.muli v447 c1_i32_405
  let v449 : BitVec 32 := Scalar.addi c0_i32_406 v448
  v449.toNat
def k0_dev32 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_409 : BitVec 32 := 7#32
  let v456 : BitVec 32 := Scalar.xori v2 c7_i32_409
  let c1_i32_412 : BitVec 32 := 1#32
  let v457 : BitVec 32 := Scalar.muli v456 c1_i32_412
  let v458 : BitVec 32 := Scalar.addi c0_i32_413 v457
  v458.toNat
def k0_dev33 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_416 : BitVec 32 := 1#32
  let v465 : BitVec 32 := Scalar.xori v2 c1_i32_416
  let c1_i32_419 : BitVec 32 := 1#32
  let v466 : BitVec 32 := Scalar.muli v465 c1_i32_419
  let v467 : BitVec 32 := Scalar.addi c0_i32_420 v466
  v467.toNat
def k0_dev34 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_423 : BitVec 32 := 3#32
  let v474 : BitVec 32 := Scalar.xori v2 c3_i32_423
  let c1_i32_426 : BitVec 32 := 1#32
  let v475 : BitVec 32 := Scalar.muli v474 c1_i32_426
  let v476 : BitVec 32 := Scalar.addi c0_i32_427 v475
  v476.toNat
def k0_dev35 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_430 : BitVec 32 := 4#32
  let v483 : BitVec 32 := Scalar.xori v2 c4_i32_430
  let c1_i32_433 : BitVec 32 := 1#32
  let v484 : BitVec 32 := Scalar.muli v483 c1_i32_433
  let v485 : BitVec 32 := Scalar.addi c0_i32_434 v484
  v485.toNat
def k0_dev36 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_527 : BitVec 32 := 6#32
  let v588 : BitVec 32 := Scalar.xori v2 c6_i32_527
  let c1_i32_530 : BitVec 32 := 1#32
  let v589 : BitVec 32 := Scalar.muli v588 c1_i32_530
  let v590 : BitVec 32 := Scalar.addi c0_i32_531 v589
  v590.toNat
def k0_dev37 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_534 : BitVec 32 := 2#32
  let v597 : BitVec 32 := Scalar.xori v2 c2_i32_534
  let c1_i32_537 : BitVec 32 := 1#32
  let v598 : BitVec 32 := Scalar.muli v597 c1_i32_537
  let v599 : BitVec 32 := Scalar.addi c0_i32_538 v598
  v599.toNat
def k0_dev38 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_541 : BitVec 32 := 5#32
  let v606 : BitVec 32 := Scalar.xori v2 c5_i32_541
  let c1_i32_544 : BitVec 32 := 1#32
  let v607 : BitVec 32 := Scalar.muli v606 c1_i32_544
  let v608 : BitVec 32 := Scalar.addi c0_i32_545 v607
  v608.toNat
def k0_dev39 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_548 : BitVec 32 := 7#32
  let v615 : BitVec 32 := Scalar.xori v2 c7_i32_548
  let c1_i32_551 : BitVec 32 := 1#32
  let v616 : BitVec 32 := Scalar.muli v615 c1_i32_551
  let v617 : BitVec 32 := Scalar.addi c0_i32_552 v616
  v617.toNat
def k0_dev40 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_555 : BitVec 32 := 1#32
  let v624 : BitVec 32 := Scalar.xori v2 c1_i32_555
  let c1_i32_558 : BitVec 32 := 1#32
  let v625 : BitVec 32 := Scalar.muli v624 c1_i32_558
  let v626 : BitVec 32 := Scalar.addi c0_i32_559 v625
  v626.toNat
def k0_dev41 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_562 : BitVec 32 := 3#32
  let v633 : BitVec 32 := Scalar.xori v2 c3_i32_562
  let c1_i32_565 : BitVec 32 := 1#32
  let v634 : BitVec 32 := Scalar.muli v633 c1_i32_565
  let v635 : BitVec 32 := Scalar.addi c0_i32_566 v634
  v635.toNat
def k0_dev42 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_569 : BitVec 32 := 4#32
  let v642 : BitVec 32 := Scalar.xori v2 c4_i32_569
  let c1_i32_572 : BitVec 32 := 1#32
  let v643 : BitVec 32 := Scalar.muli v642 c1_i32_572
  let v644 : BitVec 32 := Scalar.addi c0_i32_573 v643
  v644.toNat
def k0_dev43 (d0 : Dev nD) : Nat :=
  let c0_i32_765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_761 : BitVec 32 := 6#32
  let v844 : BitVec 32 := Scalar.xori v2 c6_i32_761
  let c1_i32_764 : BitVec 32 := 1#32
  let v845 : BitVec 32 := Scalar.muli v844 c1_i32_764
  let v846 : BitVec 32 := Scalar.addi c0_i32_765 v845
  v846.toNat
def k0_dev44 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_768 : BitVec 32 := 2#32
  let v853 : BitVec 32 := Scalar.xori v2 c2_i32_768
  let c1_i32_771 : BitVec 32 := 1#32
  let v854 : BitVec 32 := Scalar.muli v853 c1_i32_771
  let v855 : BitVec 32 := Scalar.addi c0_i32_772 v854
  v855.toNat
def k0_dev45 (d0 : Dev nD) : Nat :=
  let c0_i32_779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_775 : BitVec 32 := 5#32
  let v862 : BitVec 32 := Scalar.xori v2 c5_i32_775
  let c1_i32_778 : BitVec 32 := 1#32
  let v863 : BitVec 32 := Scalar.muli v862 c1_i32_778
  let v864 : BitVec 32 := Scalar.addi c0_i32_779 v863
  v864.toNat
def k0_dev46 (d0 : Dev nD) : Nat :=
  let c0_i32_786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_782 : BitVec 32 := 7#32
  let v871 : BitVec 32 := Scalar.xori v2 c7_i32_782
  let c1_i32_785 : BitVec 32 := 1#32
  let v872 : BitVec 32 := Scalar.muli v871 c1_i32_785
  let v873 : BitVec 32 := Scalar.addi c0_i32_786 v872
  v873.toNat
def k0_dev47 (d0 : Dev nD) : Nat :=
  let c0_i32_793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_789 : BitVec 32 := 1#32
  let v880 : BitVec 32 := Scalar.xori v2 c1_i32_789
  let c1_i32_792 : BitVec 32 := 1#32
  let v881 : BitVec 32 := Scalar.muli v880 c1_i32_792
  let v882 : BitVec 32 := Scalar.addi c0_i32_793 v881
  v882.toNat
def k0_dev48 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_796 : BitVec 32 := 3#32
  let v889 : BitVec 32 := Scalar.xori v2 c3_i32_796
  let c1_i32_799 : BitVec 32 := 1#32
  let v890 : BitVec 32 := Scalar.muli v889 c1_i32_799
  let v891 : BitVec 32 := Scalar.addi c0_i32_800 v890
  v891.toNat
def k0_dev49 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_803 : BitVec 32 := 4#32
  let v898 : BitVec 32 := Scalar.xori v2 c4_i32_803
  let c1_i32_806 : BitVec 32 := 1#32
  let v899 : BitVec 32 := Scalar.muli v898 c1_i32_806
  let v900 : BitVec 32 := Scalar.addi c0_i32_807 v899
  v900.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S7_S1_0 : ∀ a, (![0] : Fin 1 → Nat) a + S1.size a ≤ S7.size a
  squeezes_S1_S_ : S1.Squeezes S_
  inb_S3x512x256_S1x512x256_0_0_0 : ∀ a, (![0, 0, 0] : Fin 3 → Nat) a + S1x512x256.size a ≤ S3x512x256.size a
  squeezes_S1x512x256_S512x256 : S1x512x256.Squeezes S512x256
  inb_S7_S1_1 : ∀ a, (![1] : Fin 1 → Nat) a + S1.size a ≤ S7.size a
  inb_S3x256x512_S1x256x512_1_0_0 : ∀ a, (![1, 0, 0] : Fin 3 → Nat) a + S1x256x512.size a ≤ S3x256x512.size a
  squeezes_S1x256x512_S256x512 : S1x256x512.Squeezes S256x512
  inb_S7_S1_2 : ∀ a, (![2] : Fin 1 → Nat) a + S1.size a ≤ S7.size a
  inb_S3x512x256_S1x512x256_1_0_0 : ∀ a, (![1, 0, 0] : Fin 3 → Nat) a + S1x512x256.size a ≤ S3x512x256.size a
  inb_S7_S1_3 : ∀ a, (![3] : Fin 1 → Nat) a + S1.size a ≤ S7.size a
  inb_S3x256x512_S1x256x512_2_0_0 : ∀ a, (![2, 0, 0] : Fin 3 → Nat) a + S1x256x512.size a ≤ S3x256x512.size a
  inb_S7_S1_4 : ∀ a, (![4] : Fin 1 → Nat) a + S1.size a ≤ S7.size a
  inb_S7_S1_5 : ∀ a, (![5] : Fin 1 → Nat) a + S1.size a ≤ S7.size a
  inb_S3x256x512_S1x256x512_0_0_0 : ∀ a, (![0, 0, 0] : Fin 3 → Nat) a + S1x256x512.size a ≤ S3x256x512.size a
  inb_S7_S1_6 : ∀ a, (![6] : Fin 1 → Nat) a + S1.size a ≤ S7.size a
  inb_S3x512x256_S1x512x256_2_0_0 : ∀ a, (![2, 0, 0] : Fin 3 → Nat) a + S1x512x256.size a ≤ S3x512x256.size a
  hamt_1 : (1#32 : BitVec 32).msb = false
  hamt_7 : (7#32 : BitVec 32).msb = false
  h_S1x512x256 : 0 < S1x512x256.numel
  shapeCasts_S1x512x256_S512x256 : S1x512x256.ShapeCasts S512x256
  h_S1x256x512 : 0 < S1x256x512.numel
  shapeCasts_S1x256x512_S256x512 : S1x256x512.ShapeCasts S256x512
  bitsLt_bf16_f32 : FTy.bits .bf16 < FTy.bits .f32
  shapeCasts_S512x512_S8x64x512 : S512x512.ShapeCasts S8x64x512
  inb_S8x64x512_S8x64x512_0_0_0 : ∀ a, (![0, 0, 0] : Fin 3 → Nat) a + S8x64x512.size a ≤ S8x64x512.size a
  h_S8x64x512 : 0 < S8x64x512.numel
  shapeCasts_S8x64x512_S8x64x512 : S8x64x512.ShapeCasts S8x64x512
  packedbf16_S8x64x512_S8x64x512_0_0_0 : (Rect.unit (s := S8x64x512) ![0, 0, 0] S8x64x512.size inb_S8x64x512_S8x64x512_0_0_0).PackedRows (EltTy.packing .bf16)
  inb_S8_S1_6 : ∀ a, (![6] : Fin 1 → Nat) a + S1.size a ≤ S8.size a
  inb_S8x64x512_S1x64x512_6_0_0 : ∀ a, (![6, 0, 0] : Fin 3 → Nat) a + S1x64x512.size a ≤ S8x64x512.size a
  squeezes_S1x64x512_S64x512 : S1x64x512.Squeezes S64x512
  wordsbf16_S8x64x512_S1x64x512_6_0_0 : (Rect.unit (s := S8x64x512) ![6, 0, 0] S1x64x512.size inb_S8x64x512_S1x64x512_6_0_0).WholeWords (EltTy.packing .bf16)
  inb_S8_S1_2 : ∀ a, (![2] : Fin 1 → Nat) a + S1.size a ≤ S8.size a
  inb_S8x64x512_S1x64x512_2_0_0 : ∀ a, (![2, 0, 0] : Fin 3 → Nat) a + S1x64x512.size a ≤ S8x64x512.size a
  wordsbf16_S8x64x512_S1x64x512_2_0_0 : (Rect.unit (s := S8x64x512) ![2, 0, 0] S1x64x512.size inb_S8x64x512_S1x64x512_2_0_0).WholeWords (EltTy.packing .bf16)
  inb_S8_S1_5 : ∀ a, (![5] : Fin 1 → Nat) a + S1.size a ≤ S8.size a
  inb_S8x64x512_S1x64x512_5_0_0 : ∀ a, (![5, 0, 0] : Fin 3 → Nat) a + S1x64x512.size a ≤ S8x64x512.size a
  wordsbf16_S8x64x512_S1x64x512_5_0_0 : (Rect.unit (s := S8x64x512) ![5, 0, 0] S1x64x512.size inb_S8x64x512_S1x64x512_5_0_0).WholeWords (EltTy.packing .bf16)
  inb_S8_S1_7 : ∀ a, (![7] : Fin 1 → Nat) a + S1.size a ≤ S8.size a
  inb_S8x64x512_S1x64x512_7_0_0 : ∀ a, (![7, 0, 0] : Fin 3 → Nat) a + S1x64x512.size a ≤ S8x64x512.size a
  wordsbf16_S8x64x512_S1x64x512_7_0_0 : (Rect.unit (s := S8x64x512) ![7, 0, 0] S1x64x512.size inb_S8x64x512_S1x64x512_7_0_0).WholeWords (EltTy.packing .bf16)
  inb_S8_S1_1 : ∀ a, (![1] : Fin 1 → Nat) a + S1.size a ≤ S8.size a
  inb_S8x64x512_S1x64x512_1_0_0 : ∀ a, (![1, 0, 0] : Fin 3 → Nat) a + S1x64x512.size a ≤ S8x64x512.size a
  wordsbf16_S8x64x512_S1x64x512_1_0_0 : (Rect.unit (s := S8x64x512) ![1, 0, 0] S1x64x512.size inb_S8x64x512_S1x64x512_1_0_0).WholeWords (EltTy.packing .bf16)
  inb_S8_S1_3 : ∀ a, (![3] : Fin 1 → Nat) a + S1.size a ≤ S8.size a
  inb_S8x64x512_S1x64x512_3_0_0 : ∀ a, (![3, 0, 0] : Fin 3 → Nat) a + S1x64x512.size a ≤ S8x64x512.size a
  wordsbf16_S8x64x512_S1x64x512_3_0_0 : (Rect.unit (s := S8x64x512) ![3, 0, 0] S1x64x512.size inb_S8x64x512_S1x64x512_3_0_0).WholeWords (EltTy.packing .bf16)
  inb_S8_S1_4 : ∀ a, (![4] : Fin 1 → Nat) a + S1.size a ≤ S8.size a
  inb_S8x64x512_S1x64x512_4_0_0 : ∀ a, (![4, 0, 0] : Fin 3 → Nat) a + S1x64x512.size a ≤ S8x64x512.size a
  wordsbf16_S8x64x512_S1x64x512_4_0_0 : (Rect.unit (s := S8x64x512) ![4, 0, 0] S1x64x512.size inb_S8x64x512_S1x64x512_4_0_0).WholeWords (EltTy.packing .bf16)
  inb_S512x256_S512x256_0_0 : ∀ a, (![0, 0] : Fin 2 → Nat) a + S512x256.size a ≤ S512x256.size a
  h_S512x256 : 0 < S512x256.numel
  h_S1x64x512 : 0 < S1x64x512.numel
  shapeCasts_S1x64x512_S64x512 : S1x64x512.ShapeCasts S64x512
  shapeCasts_S64x512_S1x64x512 : S64x512.ShapeCasts S1x64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  packedbf16_S64x512_S64x512_0_0 : (Rect.unit (s := S64x512) ![0, 0] S64x512.size inb_S64x512_S64x512_0_0).PackedRows (EltTy.packing .bf16)
  shapeCasts_S8x64x512_S512x512 : S8x64x512.ShapeCasts S512x512
  dot_S512x256_S256x512_S512x512_1_0_0_1_n_n_wf : DotDims.WF S512x256 S256x512 S512x512 [1] [0] [0] [1] [] []
  dot_S64x512_S512x512_S64x512_1_0_0_1_n_n_wf : DotDims.WF S64x512 S512x512 S64x512 [1] [0] [0] [1] [] []
  dot_S512x512_S512x256_S512x256_1_0_0_1_n_n_wf : DotDims.WF S512x512 S512x256 S512x256 [1] [0] [0] [1] [] []
  hcc0_scratch15 : 1 + S8.numel ≤ 104
  hcc0_scratch16 : 9 + S8.numel ≤ 104
  hcc0_scratch17 : 17 + S8.numel ≤ 104
  hcc0_scratch18 : 25 + S8.numel ≤ 104
  hcc0_scratch19 : 33 + S8.numel ≤ 104
  hcc0_scratch20 : 41 + S8.numel ≤ 104
  hcc0_scratch21 : 49 + S8.numel ≤ 104
  hcc0_scratch22 : 57 + S8.numel ≤ 104
  hcc0_scratch23 : 65 + S8.numel ≤ 104
  hcc0_scratch24 : 73 + S8.numel ≤ 104
  hcc0_scratch25 : 81 + S8.numel ≤ 104
  hcc0_scratch26 : 89 + S8.numel ≤ 104
  hcc0_scratch27 : 97 + S7.numel ≤ 104
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r : Fin 7), ∀ a, (k0_off1 d0 (BitVec.ofNat 32 (1 + r.val))) a + S1x64x512.size a ≤ S8x64x512.size a
  k0_off1_wordsbf16 : ∀ d0 : Dev nD, ∀ (r : Fin 7), (Rect.unit (s := S8x64x512) (k0_off1 d0 (BitVec.ofNat 32 (1 + r.val))) S1x64x512.size (k0_off1_inb d0 r)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_off2_inb : ∀ d0 : Dev nD, ∀ a, (k0_off2 d0) a + S1x64x512.size a ≤ S8x64x512.size a
  k0_off2_packedbf16 : ∀ d0 : Dev nD, (Rect.unit (s := S8x64x512) (k0_off2 d0) S1x64x512.size (k0_off2_inb d0)).PackedRows (EltTy.packing .bf16)
  k0_off3_inb : ∀ d0 : Dev nD, ∀ a, (k0_off3 d0) a + S1x64x512.size a ≤ S8x64x512.size a
  k0_off3_wordsbf16 : ∀ d0 : Dev nD, (Rect.unit (s := S8x64x512) (k0_off3 d0) S1x64x512.size (k0_off3_inb d0)).WholeWords (EltTy.packing .bf16)
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  hstage0_0 : ∀ j, (stage0_0 j).IsWhole

variable [Facts₀]

abbrev cc0_scratch15 : DmaSems sig S8 := SemArray.consecutive 1 S8 hcc0_scratch15
abbrev cc0_scratch16 : DmaSems sig S8 := SemArray.consecutive 9 S8 hcc0_scratch16
abbrev cc0_scratch17 : DmaSems sig S8 := SemArray.consecutive 17 S8 hcc0_scratch17
abbrev cc0_scratch18 : DmaSems sig S8 := SemArray.consecutive 25 S8 hcc0_scratch18
abbrev cc0_scratch19 : DmaSems sig S8 := SemArray.consecutive 33 S8 hcc0_scratch19
abbrev cc0_scratch20 : DmaSems sig S8 := SemArray.consecutive 41 S8 hcc0_scratch20
abbrev cc0_scratch21 : DmaSems sig S8 := SemArray.consecutive 49 S8 hcc0_scratch21
abbrev cc0_scratch22 : DmaSems sig S8 := SemArray.consecutive 57 S8 hcc0_scratch22
abbrev cc0_scratch23 : DmaSems sig S8 := SemArray.consecutive 65 S8 hcc0_scratch23
abbrev cc0_scratch24 : DmaSems sig S8 := SemArray.consecutive 73 S8 hcc0_scratch24
abbrev cc0_scratch25 : DmaSems sig S8 := SemArray.consecutive 81 S8 hcc0_scratch25
abbrev cc0_scratch26 : DmaSems sig S8 := SemArray.consecutive 89 S8 hcc0_scratch26
abbrev cc0_scratch27 : DmaSems sig S7 := SemArray.consecutive 97 S7 hcc0_scratch27
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S512x2048 : Shape := ⟨2, ![512, 2048]⟩
abbrev S2048x512 : Shape := ⟨2, ![2048, 512]⟩
abbrev S512x512 : Shape := ⟨2, ![512, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .hbm, ⟨2, _⟩ => ⟨S512x2048, .f32⟩
  | .hbm, ⟨3, _⟩ => ⟨S2048x512, .f32⟩
  | .hbm, ⟨4, _⟩ => ⟨S512x2048, .f32⟩
  | .hbm, ⟨5, _⟩ => ⟨S2048x512, .f32⟩
  | .hbm, ⟨6, _⟩ => ⟨S512x2048, .f32⟩
  | .hbm, ⟨7, _⟩ => ⟨S512x512, .f32⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S512x2048, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x2048, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

class Facts : Prop extends Facts₀ where

variable [Facts]
-- ==== Proof.Peers.lean ====
import proofs.«900577_g7700000000000578_dist_mlpseq_tp1dT_cs_cs_b512_d256_h512_v7x_i8_f32_1_alg».proof.Proof.Gen.KernelIdeal

noncomputable section

namespace Cert.KernelIdeal.Hand

open Idealize.ShloMosaic Cert.KernelIdeal Cert.KernelIdeal.Gen

def px (c : Dev nD) (k : Fin 8) : Dev nD := ⟨c.val ^^^ k.val, Nat.xor_lt_two_pow (n := 3) c.isLt k.isLt⟩

theorem px_px (c : Dev nD) (k : Fin 8) : px (px c k) k = c := by revert c k; decide
theorem px_zero (c : Dev nD) : px c 0 = c := by revert c; decide

def pxEquiv (k : Fin 8) : Dev nD ≃ Dev nD where
  toFun c := px c k
  invFun c := px c k
  left_inv c := px_px c k
  right_inv c := px_px c k

theorem dev1_eq (c : Dev nD) : (⟨k0_dev1 c, k0_dev1_lt c⟩ : Dev nD) = px c 1 := by revert c; decide +kernel
theorem dev2_eq (c : Dev nD) : (⟨k0_dev2 c, k0_dev2_lt c⟩ : Dev nD) = px c 2 := by revert c; decide +kernel
theorem dev3_eq (c : Dev nD) : (⟨k0_dev3 c, k0_dev3_lt c⟩ : Dev nD) = px c 3 := by revert c; decide +kernel
theorem dev4_eq (c : Dev nD) : (⟨k0_dev4 c, k0_dev4_lt c⟩ : Dev nD) = px c 4 := by revert c; decide +kernel
theorem dev5_eq (c : Dev nD) : (⟨k0_dev5 c, k0_dev5_lt c⟩ : Dev nD) = px c 5 := by revert c; decide +kernel
theorem dev6_eq (c : Dev nD) : (⟨k0_dev6 c, k0_dev6_lt c⟩ : Dev nD) = px c 6 := by revert c; decide +kernel
theorem dev7_eq (c : Dev nD) : (⟨k0_dev7 c, k0_dev7_lt c⟩ : Dev nD) = px c 7 := by revert c; decide +kernel

theorem dev8_eq (c : Dev nD) : (⟨k0_dev8 c, k0_dev8_lt c⟩ : Dev nD) = px c 6 := by revert c; decide +kernel
theorem dev9_eq (c : Dev nD) : (⟨k0_dev9 c, k0_dev9_lt c⟩ : Dev nD) = px c 2 := by revert c; decide +kernel
theorem dev10_eq (c : Dev nD) : (⟨k0_dev10 c, k0_dev10_lt c⟩ : Dev nD) = px c 5 := by revert c; decide +kernel
theorem dev11_eq (c : Dev nD) : (⟨k0_dev11 c, k0_dev11_lt c⟩ : Dev nD) = px c 7 := by revert c; decide +kernel
theorem dev12_eq (c : Dev nD) : (⟨k0_dev12 c, k0_dev12_lt c⟩ : Dev nD) = px c 1 := by revert c; decide +kernel
theorem dev13_eq (c : Dev nD) : (⟨k0_dev13 c, k0_dev13_lt c⟩ : Dev nD) = px c 3 := by revert c; decide +kernel
theorem dev14_eq (c : Dev nD) : (⟨k0_dev14 c, k0_dev14_lt c⟩ : Dev nD) = px c 4 := by revert c; decide +kernel

theorem dev15_eq (c : Dev nD) : (⟨k0_dev15 c, k0_dev15_lt c⟩ : Dev nD) = px c 6 := by revert c; decide +kernel
theorem dev16_eq (c : Dev nD) : (⟨k0_dev16 c, k0_dev16_lt c⟩ : Dev nD) = px c 2 := by revert c; decide +kernel
theorem dev17_eq (c : Dev nD) : (⟨k0_dev17 c, k0_dev17_lt c⟩ : Dev nD) = px c 5 := by revert c; decide +kernel
theorem dev18_eq (c : Dev nD) : (⟨k0_dev18 c, k0_dev18_lt c⟩ : Dev nD) = px c 7 := by revert c; decide +kernel
theorem dev19_eq (c : Dev nD) : (⟨k0_dev19 c, k0_dev19_lt c⟩ : Dev nD) = px c 1 := by revert c; decide +kernel
theorem dev20_eq (c : Dev nD) : (⟨k0_dev20 c, k0_dev20_lt c⟩ : Dev nD) = px c 3 := by revert c; decide +kernel
theorem dev21_eq (c : Dev nD) : (⟨k0_dev21 c, k0_dev21_lt c⟩ : Dev nD) = px c 4 := by revert c; decide +kernel

theorem dev22_eq (c : Dev nD) : (⟨k0_dev22 c, k0_dev22_lt c⟩ : Dev nD) = px c 6 := by revert c; decide +kernel
theorem dev23_eq (c : Dev nD) : (⟨k0_dev23 c, k0_dev23_lt c⟩ : Dev nD) = px c 2 := by revert c; decide +kernel
theorem dev24_eq (c : Dev nD) : (⟨k0_dev24 c, k0_dev24_lt c⟩ : Dev nD) = px c 5 := by revert c; decide +kernel
theorem dev25_eq (c : Dev nD) : (⟨k0_dev25 c, k0_dev25_lt c⟩ : Dev nD) = px c 7 := by revert c; decide +kernel
theorem dev26_eq (c : Dev nD) : (⟨k0_dev26 c, k0_dev26_lt c⟩ : Dev nD) = px c 1 := by revert c; decide +kernel
theorem dev27_eq (c : Dev nD) : (⟨k0_dev27 c, k0_dev27_lt c⟩ : Dev nD) = px c 3 := by revert c; decide +kernel
theorem dev28_eq (c : Dev nD) : (⟨k0_dev28 c, k0_dev28_lt c⟩ : Dev nD) = px c 4 := by revert c; decide +kernel

theorem dev29_eq (c : Dev nD) : (⟨k0_dev29 c, k0_dev29_lt c⟩ : Dev nD) = px c 6 := by revert c; decide +kernel
theorem dev30_eq (c : Dev nD) : (⟨k0_dev30 c, k0_dev30_lt c⟩ : Dev nD) = px c 2 := by revert c; decide +kernel
theorem dev31_eq (c : Dev nD) : (⟨k0_dev31 c, k0_dev31_lt c⟩ : Dev nD) = px c 5 := by revert c; decide +kernel
theorem dev32_eq (c : Dev nD) : (⟨k0_dev32 c, k0_dev32_lt c⟩ : Dev nD) = px c 7 := by revert c; decide +kernel
theorem dev33_eq (c : Dev nD) : (⟨k0_dev33 c, k0_dev33_lt c⟩ : Dev nD) = px c 1 := by revert c; decide +kernel
theorem dev34_eq (c : Dev nD) : (⟨k0_dev34 c, k0_dev34_lt c⟩ : Dev nD) = px c 3 := by revert c; decide +kernel
theorem dev35_eq (c : Dev nD) : (⟨k0_dev35 c, k0_dev35_lt c⟩ : Dev nD) = px c 4 := by revert c; decide +kernel

theorem dev36_eq (c : Dev nD) : (⟨k0_dev36 c, k0_dev36_lt c⟩ : Dev nD) = px c 6 := by revert c; decide +kernel
theorem dev37_eq (c : Dev nD) : (⟨k0_dev37 c, k0_dev37_lt c⟩ : Dev nD) = px c 2 := by revert c; decide +kernel
theorem dev38_eq (c : Dev nD) : (⟨k0_dev38 c, k0_dev38_lt c⟩ : Dev nD) = px c 5 := by revert c; decide +kernel
theorem dev39_eq (c : Dev nD) : (⟨k0_dev39 c, k0_dev39_lt c⟩ : Dev nD) = px c 7 := by revert c; decide +kernel
theorem dev40_eq (c : Dev nD) : (⟨k0_dev40 c, k0_dev40_lt c⟩ : Dev nD) = px c 1 := by revert c; decide +kernel
theorem dev41_eq (c : Dev nD) : (⟨k0_dev41 c, k0_dev41_lt c⟩ : Dev nD) = px c 3 := by revert c; decide +kernel
theorem dev42_eq (c : Dev nD) : (⟨k0_dev42 c, k0_dev42_lt c⟩ : Dev nD) = px c 4 := by revert c; decide +kernel

theorem dev43_eq (c : Dev nD) : (⟨k0_dev43 c, k0_dev43_lt c⟩ : Dev nD) = px c 6 := by revert c; decide +kernel
theorem dev44_eq (c : Dev nD) : (⟨k0_dev44 c, k0_dev44_lt c⟩ : Dev nD) = px c 2 := by revert c; decide +kernel
theorem dev45_eq (c : Dev nD) : (⟨k0_dev45 c, k0_dev45_lt c⟩ : Dev nD) = px c 5 := by revert c; decide +kernel
theorem dev46_eq (c : Dev nD) : (⟨k0_dev46 c, k0_dev46_lt c⟩ : Dev nD) = px c 7 := by revert c; decide +kernel
theorem dev47_eq (c : Dev nD) : (⟨k0_dev47 c, k0_dev47_lt c⟩ : Dev nD) = px c 1 := by revert c; decide +kernel
theorem dev48_eq (c : Dev nD) : (⟨k0_dev48 c, k0_dev48_lt c⟩ : Dev nD) = px c 3 := by revert c; decide +kernel
theorem dev49_eq (c : Dev nD) : (⟨k0_dev49 c, k0_dev49_lt c⟩ : Dev nD) = px c 4 := by revert c; decide +kernel

theorem off1_1 (c : Dev nD) : k0_off1 c 1#32 = ![(px c 1).val, 0, 0] := by revert c; decide +kernel
theorem off1_2 (c : Dev nD) : k0_off1 c 2#32 = ![(px c 2).val, 0, 0] := by revert c; decide +kernel
theorem off1_3 (c : Dev nD) : k0_off1 c 3#32 = ![(px c 3).val, 0, 0] := by revert c; decide +kernel
theorem off1_4 (c : Dev nD) : k0_off1 c 4#32 = ![(px c 4).val, 0, 0] := by revert c; decide +kernel
theorem off1_5 (c : Dev nD) : k0_off1 c 5#32 = ![(px c 5).val, 0, 0] := by revert c; decide +kernel
theorem off1_6 (c : Dev nD) : k0_off1 c 6#32 = ![(px c 6).val, 0, 0] := by revert c; decide +kernel
theorem off1_7 (c : Dev nD) : k0_off1 c 7#32 = ![(px c 7).val, 0, 0] := by revert c; decide +kernel

end Cert.KernelIdeal.Hand

end
-- ==== Proof.Contents.lean ====
import proofs.«900577_g7700000000000578_dist_mlpseq_tp1dT_cs_cs_b512_d256_h512_v7x_i8_f32_1_alg».proof.Proof.Gen.KernelIdeal.Skeleton
import proofs.«900577_g7700000000000578_dist_mlpseq_tp1dT_cs_cs_b512_d256_h512_v7x_i8_f32_1_alg».proof.Proof.Peers
import Idealize.ShloMosaic.Lib.ValueIdx

noncomputable section

namespace Cert.KernelIdeal.Hand

open Idealize.ShloMosaic Idealize.ShloMosaic.TcCoe Cert.KernelIdeal Cert.KernelIdeal.Gen
open Idealize.ShloMosaic.ValueIdx (ix2 ix3)

variable {F : FTy → Type} [FloatOps F]

def up3 {A B : Nat} {e : EltTy} (X : Vec F ⟨2, ![A, B]⟩ e) : Vec F ⟨3, ![1, A, B]⟩ e := fun i => X (ix2 (i 1) (i 2))

def slot3 {N A B : Nat} {e : EltTy} (X : Vec F ⟨3, ![N, A, B]⟩ e) (s : Fin N) : Vec F ⟨3, ![1, A, B]⟩ e := fun i => X (ix3 s (i 1) (i 2))

def stack8 {A B : Nat} {e : EltTy} (X : Fin 8 → Vec F ⟨2, ![A, B]⟩ e) : Vec F ⟨3, ![8, A, B]⟩ e := fun i => X (i 0) (ix2 (i 1) (i 2))

def mat {A B : Nat} {e : EltTy} (X : Vec F ⟨2, ![A, B]⟩ e) : Fin A → Fin B → Elt F e := fun a b => X (ix2 a b)

variable (m : (ℓ : Loc nD τ sig) → Buf (Elt F) ℓ)

def aX (c : Dev nD) : Vec F S512x256 .f32 := m ((c : Thread nD τ).loc main_arg0)
def aWi0 (c : Dev nD) : Vec F S256x512 .f32 := m ((c : Thread nD τ).loc main_arg1)
def aWo0 (c : Dev nD) : Vec F S512x256 .f32 := m ((c : Thread nD τ).loc main_arg2)
def aWi1 (c : Dev nD) : Vec F S256x512 .f32 := m ((c : Thread nD τ).loc main_arg3)
def aWo1 (c : Dev nD) : Vec F S512x256 .f32 := m ((c : Thread nD τ).loc main_arg4)
def aWi2 (c : Dev nD) : Vec F S256x512 .f32 := m ((c : Thread nD τ).loc main_arg5)
def aWo2 (c : Dev nD) : Vec F S512x256 .f32 := m ((c : Thread nD τ).loc main_arg6)

def part1 (c : Dev nD) : Vec F S8x64x512 .bf16 := k0_pay1 (up3 (aWo0 m c)) (up3 (aWi1 m c))
def part2 (c : Dev nD) : Vec F S8x64x512 .bf16 := k0_pay2 (up3 (aWo1 m c)) (up3 (aWi2 m c))
def part0 (c : Dev nD) : Vec F S8x64x512 .bf16 := k0_pay4 (k0_pay3 (aX m c) (up3 (aWi0 m c)))

def in1 (c : Dev nD) (k : Fin 8) : Vec F S1x64x512 .bf16 := slot3 (part1 m (px c k)) c
def in2 (c : Dev nD) (k : Fin 8) : Vec F S1x64x512 .bf16 := slot3 (part2 m (px c k)) c
def in0 (c : Dev nD) (k : Fin 8) : Vec F S1x64x512 .bf16 := slot3 (part0 m (px c k)) c

def rs1C (c : Dev nD) : Vec F S8x64x512 .bf16 := fun i => in1 m c (i 0) (ix3 0 (i 1) (i 2))
def rs2C (c : Dev nD) : Vec F S8x64x512 .bf16 := fun i => in2 m c (i 0) (ix3 0 (i 1) (i 2))
def rs0C (c : Dev nD) : Vec F S8x64x512 .bf16 := fun i => in0 m c (i 0) (ix3 0 (i 1) (i 2))

def own1 (c : Dev nD) : Vec F S64x512 .bf16 :=
  k0_pay8 (k0_pay7 (k0_pay6 (k0_pay5 (slot3 (part1 m c) c)) (in1 m c 1) (in1 m c 3) (in1 m c 4)) (in1 m c 2) (in1 m c 5)) (in1 m c 7) (in1 m c 6)
def own2 (c : Dev nD) : Vec F S64x512 .bf16 :=
  k0_pay15 (k0_pay13 (k0_pay12 (k0_pay11 (slot3 (part2 m c) c)) (in2 m c 1) (in2 m c 3)) (in2 m c 4) (in2 m c 2)) (k0_pay14 (in2 m c 5)) (in2 m c 7) (in2 m c 6)
def h0 (c : Dev nD) : Vec F S64x512 .f32 :=
  k0_pay21 (k0_pay20 (k0_pay19 (k0_pay18 (slot3 (part0 m c) c) (in0 m c 1) (in0 m c 3)) (in0 m c 4) (in0 m c 2)) (in0 m c 5) (in0 m c 7)) (in0 m c 6)

def full1 : Vec F S8x64x512 .bf16 := stack8 fun e => own1 m e
def full2 : Vec F S8x64x512 .bf16 := stack8 fun e => own2 m e

def h1 (c : Dev nD) : Vec F S64x512 .f32 := k0_pay22 (h0 m c) (full1 m)
def h2own (c : Dev nD) : Vec F S64x512 .bf16 := k0_pay24 (h1 m c) (full2 m)
def hfull : Vec F S8x64x512 .bf16 := stack8 fun e => h2own m e

def outC (c : Dev nD) : Vec F S512x256 .f32 := k0_pay26 (hfull m) (up3 (aWo2 m c))

def r1a (c : Dev nD) : Vec F S64x512 .f32 := k0_pay5 (slot3 (part1 m c) c)
def r1b (c : Dev nD) : Vec F S64x512 .f32 := k0_pay6 (r1a m c) (in1 m c 1) (in1 m c 3) (in1 m c 4)
def r1c (c : Dev nD) : Vec F S64x512 .f32 := k0_pay7 (r1b m c) (in1 m c 2) (in1 m c 5)

def r2a (c : Dev nD) : Vec F S64x512 .f32 := k0_pay11 (slot3 (part2 m c) c)
def r2b (c : Dev nD) : Vec F S64x512 .f32 := k0_pay12 (r2a m c) (in2 m c 1) (in2 m c 3)
def r2c (c : Dev nD) : Vec F S64x512 .f32 := k0_pay13 (r2b m c) (in2 m c 4) (in2 m c 2)
def r2d (c : Dev nD) : Vec F S64x512 .f32 := k0_pay14 (in2 m c 5)

def r0b (c : Dev nD) : Vec F S64x512 .f32 := k0_pay18 (slot3 (part0 m c) c) (in0 m c 1) (in0 m c 3)
def r0c (c : Dev nD) : Vec F S64x512 .f32 := k0_pay19 (r0b m c) (in0 m c 4) (in0 m c 2)
def r0d (c : Dev nD) : Vec F S64x512 .f32 := k0_pay20 (r0c m c) (in0 m c 5) (in0 m c 7)

def h2 (c : Dev nD) : Vec F S64x512 .f32 := k0_pay23 (h1 m c) (full2 m)

end Cert.KernelIdeal.Hand

end
-- ==== Proof.Proto.lean ====
import proofs.«900577_g7700000000000578_dist_mlpseq_tp1dT_cs_cs_b512_d256_h512_v7x_i8_f32_1_alg».proof.Proof.Contents
import proofs.«900577_g7700000000000578_dist_mlpseq_tp1dT_cs_cs_b512_d256_h512_v7x_i8_f32_1_alg».proof.Proof.Gen.KernelIdeal.Launch
import proofs.«900577_g7700000000000578_dist_mlpseq_tp1dT_cs_cs_b512_d256_h512_v7x_i8_f32_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.Transfers

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds
open Idealize.ShloMosaic.Pipeline (Dat Cfg Window BodyObligation cellOf)

variable {F : FTy → Type} [FloatOps F]

abbrev UB : Type := URounds (GSem nD τ sig) (Fin 8)

abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

def s₀ : MemSt nD τ sig (Elt F) := ⟨m, fun _ => 0, ρ⟩

abbrev barS : Sem sig := (SemArray.scalar (sig.barrier 0 rfl) : Sems sig S_).sem
abbrev barCell (c : Dev nD) : GSem nD τ sig := ((c : Thread nD τ), .reg barS)

def xsem (a : Fin 12) (k : Fin 8) : DmaSem sig := ⟨1 + 8 * a.val + k.val, by have := a.isLt; have := k.isLt; decide +revert⟩
abbrev xCell (c : Dev nD) (a : Fin 12) (k : Fin 8) : GSem nD τ sig := ((c : Thread nD τ), .dma (xsem a k))

def xOf (s : DmaSem sig) : Option (Fin 12 × Fin 8) :=
  if h : 1 ≤ s.val ∧ s.val < 97 ∧ (s.val - 1) % 8 ≠ 0 then some (⟨(s.val - 1) / 8, by omega⟩, ⟨(s.val - 1) % 8, by omega⟩) else none

theorem xOf_xsem (a : Fin 12) (k : Fin 8) (hk : k ≠ 0) : xOf (xsem a k) = some (a, k) := by revert a k; decide +kernel

theorem inb3 (s : Fin 8) : ∀ a, (![s.val, 0, 0] : Fin 3 → Nat) a + S1x64x512.size a ≤ S8x64x512.size a := by
  intro a; have := s.isLt; fin_cases a <;> simp [Shape.size] <;> omega

abbrev slotM (M : Memref sig .tc .vmem S8x64x512 .bf16) (s : Fin 8) : Memref sig .tc .vmem S64x512 .bf16 :=
  (M.slice (Rect.unit (s := S8x64x512) ![s.val, 0, 0] S1x64x512.size (inb3 s)) (fun _ => rfl)).squeeze S64x512 squeezes_S1x64x512_S64x512

def slotPts (c : Dev nD) (M : Memref sig .tc .vmem S8x64x512 .bf16) (s : Fin 8) (f : Buf (Elt F) ((slotM M s).view.loc (c : Thread nD τ))) : sProp 𝕄 :=
  (slotM M s).view.loc (c : Thread nD τ) ↦[(slotM M s).view.set]{fullShare} f

def chunkPts (c : Dev nD) (M : Memref sig .tc .vmem S64x512 .bf16) (q : PosShare TreeShare) (f : Buf (Elt F) (M.view.loc (c : Thread nD τ))) : sProp 𝕄 :=
  M.view.loc (c : Thread nD τ) ↦[M.view.set]{q} f

def shr (k : Fin 8) : PosShare TreeShare :=
  let h1 := if k.val / 4 = 0 then fullShare.left else fullShare.right
  let h2 := if (k.val / 2) % 2 = 0 then h1.left else h1.right
  if k.val % 2 = 0 then h2.left else h2.right

abbrev N : ℕ := (slotM (Memref.whole cc0_scratch1) 1).view.dmaCredit

def xPay (c : Dev nD) (a : Fin 12) (k : Fin 8) : sProp 𝕄 :=
  match a with
  | 0 => slotPts c (Memref.whole cc0_scratch0) (px c k) (part0 m c)
  | 1 => slotPts c (Memref.whole cc0_scratch1) k (rs0C m c)
  | 2 => slotPts c (Memref.whole cc0_scratch2) (px c k) (part1 m c)
  | 3 => slotPts c (Memref.whole cc0_scratch3) k (rs1C m c)
  | 4 => slotPts c (Memref.whole cc0_scratch5) (px c k) (part2 m c)
  | 5 => slotPts c (Memref.whole cc0_scratch6) k (rs2C m c)
  | 6 => chunkPts c (Memref.whole cc0_scratch8) (shr k) (own1 m c)
  | 7 => slotPts c (Memref.whole cc0_scratch4) (px c k) (full1 m)
  | 8 => chunkPts c (Memref.whole cc0_scratch9) (shr k) (own2 m c)
  | 9 => slotPts c (Memref.whole cc0_scratch7) (px c k) (full2 m)
  | 10 => chunkPts c (Memref.whole cc0_scratch10) (shr k) (h2own m c)
  | 11 => slotPts c (Memref.whole cc0_scratch11) (px c k) (hfull m)

def barPay (c : Dev nD) (k : Fin 8) : sProp 𝕄 :=
  iprop((∃ f, slotPts (px c k) (Memref.whole cc0_scratch1) k f) ∗ (∃ f, slotPts (px c k) (Memref.whole cc0_scratch3) k f) ∗ (∃ f, slotPts (px c k) (Memref.whole cc0_scratch6) k f)
    ∗ (∃ f, slotPts (px c k) (Memref.whole cc0_scratch4) c f) ∗ (∃ f, slotPts (px c k) (Memref.whole cc0_scratch7) c f) ∗ (∃ f, slotPts (px c k) (Memref.whole cc0_scratch11) c f)
    ∗ reached ER (xCell (px c k) 1 k) 0 ∗ reached ER (xCell (px c k) 3 k) 0 ∗ reached ER (xCell (px c k) 5 k) 0
    ∗ reached ER (xCell (px c k) 7 k) 0 ∗ reached ER (xCell (px c k) 9 k) 0 ∗ reached ER (xCell (px c k) 11 k) 0)

def sched : Rounds.Schedule (GSem nD τ sig) (Fin 8) 𝕄 where
  duties g r :=
    if r = 0 ∧ g.1.2 = .tc then
      match g.2 with
      | .reg s => if s = barS then Finset.univ.erase 0 else ∅
      | .dma s => if (xOf s).isSome then {0} else ∅
    else ∅
  amount g _ _ := match g.2 with | .reg _ => 1 | .dma _ => N
  payload g _ d :=
    match g.2 with
    | .reg s => if s = barS then barPay g.1.1 d else iprop(emp)
    | .dma s => match xOf s with | some (a, k) => xPay m g.1.1 a k | none => iprop(emp)
  amount_pos g _ _ _ := by
    cases g.2 with
    | reg s => exact Nat.one_pos
    | dma s => exact View.dmaCredit_pos _ (by decide)

instance slotPts_storable (c : Dev nD) (M : Memref sig .tc .vmem S8x64x512 .bf16) (s : Fin 8)
    (f : Buf (Elt F) ((slotM M s).view.loc (c : Thread nD τ))) : BI.Storable (upEmb : UEmb _ 𝕄) (slotPts c M s f) := by
  unfold slotPts; infer_instance

instance chunkPts_storable (c : Dev nD) (M : Memref sig .tc .vmem S64x512 .bf16) (q : PosShare TreeShare)
    (f : Buf (Elt F) (M.view.loc (c : Thread nD τ))) : BI.Storable (upEmb : UEmb _ 𝕄) (chunkPts c M q f) := by
  unfold chunkPts; infer_instance

instance xPay_storable (c : Dev nD) (a : Fin 12) (k : Fin 8) : BI.Storable (upEmb : UEmb _ 𝕄) (xPay m c a k) := by
  unfold xPay; split <;> infer_instance

instance barPay_storable (c : Dev nD) (k : Fin 8) : BI.Storable (upEmb : UEmb _ 𝕄) (barPay (F := F) c k) := by
  unfold barPay; infer_instance

instance sched_payload_storable (g : GSem nD τ sig) (r : ℕ) (d : Fin 8) :
    BI.Storable (upEmb : UEmb _ 𝕄) ((sched (F := F) m).payload g r d) := by
  show BI.Storable upEmb (match g.2 with
    | .reg s => if s = barS then barPay g.1.1 d else iprop(emp)
    | .dma s => match xOf s with | some (a, k) => xPay m g.1.1 a k | none => iprop(emp))
  (repeat' split) <;> infer_instance

def farK : List (Fin 8) := [6, 2, 5, 7, 1, 3, 4]

def recvOrder : List (Fin 12) := [3, 5, 1, 7, 9, 11]

def debts (c : Dev nD) : List (GSem nD τ sig × ℕ) :=
  ([1, 2, 3, 4, 5, 6, 7] : List (Fin 8)).map (fun k => (barCell (px c k), 1))
    ++ (recvOrder.flatMap fun a => farK.map fun k => (xCell (px c k) a k, N))

def owedAfter (c : Dev nD) (n : ℕ) : CellTallies nD τ sig Unit :=
  ((debts c).drop n).foldr (fun d acc => acc + tallyAt d.1 () d.2) 0

def O₀ (c : Dev nD) : CellTallies nD τ sig Unit := owedAfter c 0

def L (g : GSem nD τ sig) : Finset Unit := if g.1.2 = .tc then {()} else ∅

def lv (g : GSem nD τ sig) (_ : Unit) : ℕ :=
  match g.2 with
  | .reg s => if s = barS then 1 else 0
  | .dma s => match xOf s with
    | some (a, _) => if a = 1 ∨ a = 3 ∨ a = 5 then 2 else if a = 7 ∨ a = 9 then 3 else if a = 11 then 4 else 0
    | none => 0

theorem L_of_ne (g : GSem nD τ sig) (h : g.1.2 ≠ .tc) : L g = ∅ := if_neg h
theorem L_tc (c : Dev nD) (sm : SemLoc sig) : L ((c : Thread nD τ), sm) = {()} := if_pos rfl

abbrev CIx : Type := Option (Fin 12 × Fin 7)
abbrev kcell (ck : Dev nD × CIx) : GSem nD τ sig :=
  match ck.2 with
  | none => barCell ck.1
  | some (a, j) => xCell ck.1 a j.succ

def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)

def payToks (c : Dev nD) : sProp 𝕄 :=
  iprop((bigSep Finset.univ fun j : Fin 7 => dutyTok ER (barCell (px c j.succ)) 0 j.succ)
    ∗ (bigSep Finset.univ fun bj : Fin 6 × Fin 7 => dutyTok ER (xCell c ⟨2 * bj.1.val, by omega⟩ bj.2.succ) 0 0)
    ∗ (bigSep Finset.univ fun bj : Fin 6 × Fin 7 => dutyTok ER (xCell (px c bj.2.succ) ⟨2 * bj.1.val + 1, by omega⟩ bj.2.succ) 0 0))

def positions (c : Dev nD) : sProp 𝕄 := bigSep Finset.univ fun i : CIx => atPos ER (kcell (c, i)) 0 ∅ 0

def ghost (K : Dev nD × CIx → ℕ) (c : Dev nD) : sProp 𝕄 := iprop(records m K ∗ positions c ∗ payToks c)

def idleSems (c : Dev nD) : sProp 𝕄 :=
  iprop((bigSep Finset.univ fun a : Fin 12 => semVal (xCell c a 0) 0)
    ∗ bigSep Finset.univ fun i : Fin 7 => semVal ((c : Thread nD τ), SemLoc.dma (⟨97 + i.val, by have := i.isLt; decide +revert⟩ : DmaSem sig)) 0)

def creds (c : Dev nD) : sProp 𝕄 :=
  iprop(cred (tallyAt (barCell c) () 7)
    ∗ bigSep Finset.univ fun bj : Fin 6 × Fin 7 => cred (tallyAt (xCell c ⟨2 * bj.1.val + 1, by omega⟩ bj.2.succ) () N))

def start (c : Dev nD) : sProp 𝕄 :=
  iprop((∃ K, ghost m K c) ∗ idleSems c ∗ creds c ∗ levAts L lv)

def argsPts (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_arg2) ↦{fullShare} m ((c : Thread nD τ).loc main_arg2)) ∗ (((c : Thread nD τ).loc main_arg3) ↦{fullShare} m ((c : Thread nD τ).loc main_arg3))
    ∗ (((c : Thread nD τ).loc main_arg4) ↦{fullShare} m ((c : Thread nD τ).loc main_arg4)) ∗ (((c : Thread nD τ).loc main_arg5) ↦{fullShare} m ((c : Thread nD τ).loc main_arg5))
    ∗ (((c : Thread nD τ).loc main_arg6) ↦{fullShare} m ((c : Thread nD τ).loc main_arg6)))

def scratchPts (c : Dev nD) : sProp 𝕄 := Pipeline.scopedRest (Ix := Unit) (Name := ℕ) (U := UU) (Lvl := ℕ) (Val := Elt F) spec0 c

def Φ₀ (c : Dev nD) : sProp 𝕄 := iprop(start m c ∗ argsPts m c ∗ scratchPts c)

def Φ₁ (c : Dev nD) : sProp 𝕄 :=
  iprop(argsPts m c ∗ scratchPts c ∗ idleSems c
    ∗ bigSep Finset.univ fun aj : Fin 12 × Fin 7 => semVal (xCell c aj.1 aj.2.succ) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outC m c))

end Cert.KernelIdeal.Hand

end
-- ==== Proof.Local.lean ====
import proofs.«900577_g7700000000000578_dist_mlpseq_tp1dT_cs_cs_b512_d256_h512_v7x_i8_f32_1_alg».proof.Proof.Proto

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

abbrev held (c : Dev nD) (b : Ref sig .tc) (f : b.ty.Contents (Elt F)) : sProp 𝕄 :=
  (Memref.whole b).view.loc (c : Thread nD τ) ↦{fullShare} f

abbrev ls0 : DmaSem sig := ⟨97, by decide⟩
abbrev ls1 : DmaSem sig := ⟨98, by decide⟩
abbrev ls2 : DmaSem sig := ⟨99, by decide⟩
abbrev ls3 : DmaSem sig := ⟨100, by decide⟩
abbrev ls4 : DmaSem sig := ⟨101, by decide⟩
abbrev ls5 : DmaSem sig := ⟨102, by decide⟩
abbrev ls6 : DmaSem sig := ⟨103, by decide⟩

abbrev v2w (c : Dev nD) : BitVec 32 := Scalar.remsi (Scalar.divsi (Dev.word c) 1#32) 8#32

macro "bodyArgs% " f:term:max : term => `($f (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27)

abbrev wovW0 : Memref sig .tc .vmem S512x256 .f32 := ((Memref.whole cc0_scratch14).slice (Rect.unit (s := S3x512x256) ![0, 0, 0] S1x512x256.size inb_S3x512x256_S1x512x256_0_0_0) (fun _ => rfl)).squeeze S512x256 squeezes_S1x512x256_S512x256
abbrev wovW1 : Memref sig .tc .vmem S512x256 .f32 := ((Memref.whole cc0_scratch14).slice (Rect.unit (s := S3x512x256) ![1, 0, 0] S1x512x256.size inb_S3x512x256_S1x512x256_1_0_0) (fun _ => rfl)).squeeze S512x256 squeezes_S1x512x256_S512x256
abbrev wovW2 : Memref sig .tc .vmem S512x256 .f32 := ((Memref.whole cc0_scratch14).slice (Rect.unit (s := S3x512x256) ![2, 0, 0] S1x512x256.size inb_S3x512x256_S1x512x256_2_0_0) (fun _ => rfl)).squeeze S512x256 squeezes_S1x512x256_S512x256

abbrev wivW0 : Memref sig .tc .vmem S256x512 .f32 := ((Memref.whole cc0_scratch13).slice (Rect.unit (s := S3x256x512) ![0, 0, 0] S1x256x512.size inb_S3x256x512_S1x256x512_0_0_0) (fun _ => rfl)).squeeze S256x512 squeezes_S1x256x512_S256x512
abbrev wivW1 : Memref sig .tc .vmem S256x512 .f32 := ((Memref.whole cc0_scratch13).slice (Rect.unit (s := S3x256x512) ![1, 0, 0] S1x256x512.size inb_S3x256x512_S1x256x512_1_0_0) (fun _ => rfl)).squeeze S256x512 squeezes_S1x256x512_S256x512
abbrev wivW2 : Memref sig .tc .vmem S256x512 .f32 := ((Memref.whole cc0_scratch13).slice (Rect.unit (s := S3x256x512) ![2, 0, 0] S1x256x512.size inb_S3x256x512_S1x256x512_2_0_0) (fun _ => rfl)).squeeze S256x512 squeezes_S1x256x512_S256x512

section
variable (m : (ℓ : Loc nD τ sig) → Buf (Elt F) ℓ) (c : Dev nD)

abbrev pay (b : Ref sig .tc) := ReadAs.same.apply (View.read (Elt F) (Memref.whole b).view (m ((c : Thread nD τ).loc b)))

abbrev srcLent (b : Ref sig .tc) : sProp 𝕄 :=
  View.loc (c : Thread nD τ) (Memref.whole b).view ↦[(Memref.whole b).view.set]{fullShare} m ((c : Thread nD τ).loc b)
abbrev srcRest (b : Ref sig .tc) : sProp 𝕄 :=
  View.loc (c : Thread nD τ) (Memref.whole b).view ↦[Finset.univ \ (Memref.whole b).view.set]{fullShare} m ((c : Thread nD τ).loc b)

abbrev g14_1 (f14 : cc0_scratch14.ty.Contents (Elt F)) : cc0_scratch14.ty.Contents (Elt F) := View.write (Elt F) wovW0.view f14 (pay m c main_arg2) Finset.univ
abbrev g14_2 (f14 : cc0_scratch14.ty.Contents (Elt F)) : cc0_scratch14.ty.Contents (Elt F) := View.write (Elt F) wovW1.view (g14_1 m c f14) (pay m c main_arg4) Finset.univ
abbrev g14_3 (f14 : cc0_scratch14.ty.Contents (Elt F)) : cc0_scratch14.ty.Contents (Elt F) := View.write (Elt F) wovW2.view (g14_2 m c f14) (pay m c main_arg6) Finset.univ

abbrev g13_1 (f13 : cc0_scratch13.ty.Contents (Elt F)) : cc0_scratch13.ty.Contents (Elt F) := View.write (Elt F) wivW1.view f13 (pay m c main_arg3) Finset.univ
abbrev g13_2 (f13 : cc0_scratch13.ty.Contents (Elt F)) : cc0_scratch13.ty.Contents (Elt F) := View.write (Elt F) wivW2.view (g13_1 m c f13) (pay m c main_arg5) Finset.univ
abbrev g13_3 (f13 : cc0_scratch13.ty.Contents (Elt F)) : cc0_scratch13.ty.Contents (Elt F) := View.write (Elt F) wivW0.view (g13_2 m c f13) (pay m c main_arg1) Finset.univ

abbrev g12 (f12 : cc0_scratch12.ty.Contents (Elt F)) : cc0_scratch12.ty.Contents (Elt F) := View.write (Elt F) (Memref.whole cc0_scratch12).view f12 (pay m c main_arg0) Finset.univ

abbrev lflight0 (f14 : cc0_scratch14.ty.Contents (Elt F)) : sProp 𝕄 :=
  Transfers.Flight countersEmb (c : Thread nD τ) (SemLoc.dma ls0) default 16384
    iprop((View.loc (c : Thread nD τ) (Memref.whole cc0_scratch14).view ↦[wovW0.view.set]{fullShare} g14_1 m c f14) ∗ srcLent m c main_arg2)

abbrev lflight1 (f13 : cc0_scratch13.ty.Contents (Elt F)) : sProp 𝕄 :=
  Transfers.Flight countersEmb (c : Thread nD τ) (SemLoc.dma ls1) default 16384
    iprop((View.loc (c : Thread nD τ) (Memref.whole cc0_scratch13).view ↦[wivW1.view.set]{fullShare} g13_1 m c f13) ∗ srcLent m c main_arg3)

abbrev lflight2 (f14 : cc0_scratch14.ty.Contents (Elt F)) : sProp 𝕄 :=
  Transfers.Flight countersEmb (c : Thread nD τ) (SemLoc.dma ls2) default 16384
    iprop((View.loc (c : Thread nD τ) (Memref.whole cc0_scratch14).view ↦[wovW1.view.set]{fullShare} g14_2 m c f14) ∗ srcLent m c main_arg4)

abbrev lflight3 (f13 : cc0_scratch13.ty.Contents (Elt F)) : sProp 𝕄 :=
  Transfers.Flight countersEmb (c : Thread nD τ) (SemLoc.dma ls3) default 16384
    iprop((View.loc (c : Thread nD τ) (Memref.whole cc0_scratch13).view ↦[wivW2.view.set]{fullShare} g13_2 m c f13) ∗ srcLent m c main_arg5)

abbrev lflight4 (f12 : cc0_scratch12.ty.Contents (Elt F)) : sProp 𝕄 :=
  Transfers.Flight countersEmb (c : Thread nD τ) (SemLoc.dma ls4) default 16384
    iprop((View.loc (c : Thread nD τ) (Memref.whole cc0_scratch12).view ↦{fullShare} g12 m c f12) ∗ srcLent m c main_arg0)

abbrev lflight5 (f13 : cc0_scratch13.ty.Contents (Elt F)) : sProp 𝕄 :=
  Transfers.Flight countersEmb (c : Thread nD τ) (SemLoc.dma ls5) default 16384
    iprop((View.loc (c : Thread nD τ) (Memref.whole cc0_scratch13).view ↦[wivW0.view.set]{fullShare} g13_3 m c f13) ∗ srcLent m c main_arg1)

abbrev lflight6 (f14 : cc0_scratch14.ty.Contents (Elt F)) : sProp 𝕄 :=
  Transfers.Flight countersEmb (c : Thread nD τ) (SemLoc.dma ls6) default 16384
    iprop((View.loc (c : Thread nD τ) (Memref.whole cc0_scratch14).view ↦[wovW2.view.set]{fullShare} g14_3 m c f14) ∗ srcLent m c main_arg6)

abbrev rest14_2 (f14 : cc0_scratch14.ty.Contents (Elt F)) : sProp 𝕄 :=
  View.loc (c : Thread nD τ) (Memref.whole cc0_scratch14).view ↦[(Finset.univ \ wovW0.view.set) \ wovW1.view.set]{fullShare} g14_2 m c f14
abbrev rest14_3 (f14 : cc0_scratch14.ty.Contents (Elt F)) : sProp 𝕄 :=
  View.loc (c : Thread nD τ) (Memref.whole cc0_scratch14).view ↦[((Finset.univ \ wovW0.view.set) \ wovW1.view.set) \ wovW2.view.set]{fullShare} g14_3 m c f14

abbrev rest13_3 (f13 : cc0_scratch13.ty.Contents (Elt F)) : sProp 𝕄 :=
  View.loc (c : Thread nD τ) (Memref.whole cc0_scratch13).view ↦[((Finset.univ \ wivW1.view.set) \ wivW2.view.set) \ wivW0.view.set]{fullShare} g13_3 m c f13

end

end Cert.KernelIdeal.Hand

end
-- ==== Proof.Sched.lean ====
import proofs.«900577_g7700000000000578_dist_mlpseq_tp1dT_cs_cs_b512_d256_h512_v7x_i8_f32_1_alg».proof.Proof.Proto

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem duties_bar (c : Dev nD) : (sched (F := F) m).duties (barCell c) 0 = Finset.univ.erase 0 := by
  show (if (0 : ℕ) = 0 ∧ (c : Thread nD τ).2 = .tc then (if barS = barS then Finset.univ.erase (0 : Fin 8) else ∅) else ∅) = _
  rw [if_pos ⟨rfl, rfl⟩, if_pos rfl]

theorem duties_x (c : Dev nD) (a : Fin 12) (k : Fin 8) (hk : k ≠ 0) : (sched (F := F) m).duties (xCell c a k) 0 = {0} := by
  show (if (0 : ℕ) = 0 ∧ (c : Thread nD τ).2 = .tc then (if (xOf (xsem a k)).isSome then ({0} : Finset (Fin 8)) else ∅) else ∅) = _
  rw [if_pos ⟨rfl, rfl⟩, xOf_xsem a k hk]
  rfl

theorem duties_later (g : GSem nD τ sig) : ∀ r, 1 ≤ r → (sched (F := F) m).duties g r = ∅ :=
  fun r hr => if_neg fun h => by have := h.1; omega

theorem amount_bar (c : Dev nD) (d : Fin 8) : (sched (F := F) m).amount (barCell c) 0 d = 1 := rfl

theorem amount_x (c : Dev nD) (a : Fin 12) (k : Fin 8) (d : Fin 8) : (sched (F := F) m).amount (xCell c a k) 0 d = N := rfl

theorem expect_bar (c : Dev nD) : (sched (F := F) m).expect (barCell c) 0 = 7 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]

theorem expect_x (c : Dev nD) (a : Fin 12) (k : Fin 8) (hk : k ≠ 0) : (sched (F := F) m).expect (xCell c a k) 0 = N := by
  unfold Schedule.expect Schedule.amountOf
  rw [duties_x m c a k hk, Finset.sum_singleton, amount_x]

theorem payload_bar (c : Dev nD) (d : Fin 8) : (sched (F := F) m).payload (barCell c) 0 d = barPay c d := by
  show (if barS = barS then barPay c d else iprop(emp)) = barPay c d
  exact if_pos rfl

theorem payload_x (c : Dev nD) (a : Fin 12) (k : Fin 8) (hk : k ≠ 0) (d : Fin 8) :
    (sched (F := F) m).payload (xCell c a k) 0 d = xPay m c a k := by
  show (match xOf (xsem a k) with | some (a, k) => xPay m c a k | none => iprop(emp)) = xPay m c a k
  rw [xOf_xsem a k hk]

theorem rest_x (c : Dev nD) (a : Fin 12) (k : Fin 8) (hk : k ≠ 0) :
    bigSep ((sched (F := F) m).duties (xCell c a k) 0 \ ∅) (fun d => (sched (F := F) m).payload (xCell c a k) 0 d)
      = xPay m c a k := by
  rw [Finset.sdiff_empty, duties_x m c a k hk, bigSep_singleton, payload_x m c a k hk]

omit m in

theorem owedAfter_succ (c : Dev nD) (n : ℕ) (h : n < (debts c).length) :
    owedAfter c n = owedAfter c (n + 1) + tallyAt ((debts c)[n]).1 () ((debts c)[n]).2 := by
  unfold owedAfter
  rw [List.drop_eq_getElem_cons h]
  rfl

omit m in

theorem owedAfter_step (c : Dev nD) (n : ℕ) (g : GSem nD τ sig) (a : ℕ) (h : (debts c)[n]? = some (g, a)) :
    owedAfter c n = owedAfter c (n + 1) + tallyAt g () a := by
  obtain ⟨hn, hg⟩ := List.getElem?_eq_some_iff.mp h
  rw [owedAfter_succ c n hn, hg]

omit m in
theorem owedAfter_all (c : Dev nD) : owedAfter c 49 = 0 := rfl

example (c : Dev nD) : owedAfter c 0 = owedAfter c 1 + tallyAt (barCell (px c 1)) () 1 := owedAfter_step c 0 _ _ rfl
example (c : Dev nD) : owedAfter c 7 = owedAfter c 8 + tallyAt (xCell (px c 6) 3 6) () N := owedAfter_step c 7 _ _ rfl
example (c : Dev nD) : owedAfter c 48 = owedAfter c 49 + tallyAt (xCell (px c 4) 11 4) () N := owedAfter_step c 48 _ _ rfl

end Cert.KernelIdeal.Hand

end
-- ==== Proof.Steps.lean ====
import proofs.«900577_g7700000000000578_dist_mlpseq_tp1dT_cs_cs_b512_d256_h512_v7x_i8_f32_1_alg».proof.Proof.Proto
import proofs.«900577_g7700000000000578_dist_mlpseq_tp1dT_cs_cs_b512_d256_h512_v7x_i8_f32_1_alg».proof.Proof.Sched
import Idealize.ShloMosaic.Lib.Pipeline.Value

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem owedAfter_pos {c : Dev nD} {n : ℕ} {g : GSem nD τ sig} {u : Unit} (h : 0 < owedAfter c n g u) :
    ∃ d ∈ (debts c).drop n, d.1 = g := by
  unfold owedAfter at h
  generalize (debts c).drop n = l at h ⊢
  induction l with
  | nil => exact absurd h (by simp)
  | cons d l ih =>
    rw [List.foldr_cons] at h
    rcases Pipeline.add_pos_cases h with h | h
    · obtain ⟨d', hd', e⟩ := ih h
      exact ⟨d', List.mem_cons_of_mem _ hd', e⟩
    · rw [tallyAt_apply] at h
      by_cases hg : g = d.1 ∧ u = ()
      · exact ⟨d, List.mem_cons_self, hg.1.symm⟩
      · rw [if_neg hg] at h; exact absurd h (Nat.lt_irrefl 0)

theorem mem_drop_of_le {β : Type} {l : List β} {t n : ℕ} (h : t ≤ n) {d : β} (hd : d ∈ l.drop n) : d ∈ l.drop t := by
  have e : l.drop n = (l.drop t).drop (n - t) := by rw [List.drop_drop]; congr 1; omega
  rw [e] at hd
  exact List.mem_of_mem_drop hd

theorem mayWait_of_tail (c : Dev nD) (sm : SemLoc sig) (n ℓ : ℕ) (hℓ : lv ((c : Thread nD τ), sm) () = ℓ)
    (h : ∀ d ∈ (debts c).drop n, d.1.1.2 = .tc ∧ ℓ < lv d.1 ()) :
    (levAts L lv : sProp 𝕄) ⊢ MayWait (c : Thread nD τ) sm () (owedAfter c n) :=
  Pipeline.mayWait_of_levAts (L := L) (lev := lv) (by rw [L_tc]; exact Finset.mem_singleton_self _)
    (fun g i hg => by
      obtain ⟨d, hd, rfl⟩ := owedAfter_pos hg
      obtain ⟨h1, h2⟩ := h d hd
      refine ⟨?_, ?_⟩
      · unfold L; rw [if_pos h1]; exact Finset.mem_singleton.mpr rfl
      · rw [hℓ]; exact h2)

theorem debts_drop_7 (c : Dev nD) :
    (debts c).drop 7 = recvOrder.flatMap fun a => farK.map fun k => (xCell (px c k) a k, N) := rfl

theorem debts_drop_28 (c : Dev nD) :
    (debts c).drop 28 = ([7, 9, 11] : List (Fin 12)).flatMap fun a => farK.map fun k => (xCell (px c k) a k, N) := rfl

theorem debts_drop_42 (c : Dev nD) :
    (debts c).drop 42 = ([11] : List (Fin 12)).flatMap fun a => farK.map fun k => (xCell (px c k) a k, N) := rfl

theorem lv_x (c : Dev nD) (a : Fin 12) (k : Fin 8) (hk : k ≠ 0) :
    lv (xCell c a k) () = if a = 1 ∨ a = 3 ∨ a = 5 then 2 else if a = 7 ∨ a = 9 then 3 else if a = 11 then 4 else 0 := by
  dsimp only [lv]; rw [xOf_xsem a k hk]

theorem farK_ne_zero {k : Fin 8} (h : k ∈ farK) : k ≠ 0 := by revert k; decide

theorem tail_levels (c : Dev nD) (arrs : List (Fin 12)) (ℓ : ℕ)
    (harrs : ∀ a ∈ arrs, ℓ < (if a = 1 ∨ a = 3 ∨ a = 5 then 2 else if a = 7 ∨ a = 9 then 3 else if a = 11 then 4 else 0 : ℕ))
    (d : GSem nD τ sig × ℕ) (hd : d ∈ arrs.flatMap fun a => farK.map fun k => (xCell (px c k) a k, N)) :
    d.1.1.2 = .tc ∧ ℓ < lv d.1 () := by
  obtain ⟨a, ha, hd⟩ := List.mem_flatMap.mp hd
  obtain ⟨k, hk, rfl⟩ := List.mem_map.mp hd
  exact ⟨rfl, by rw [lv_x (px c k) a k (farK_ne_zero hk)]; exact harrs a ha⟩

theorem mayWait_bar (c : Dev nD) {n : ℕ} (hn : 7 ≤ n) :
    (levAts L lv : sProp 𝕄) ⊢ MayWait (c : Thread nD τ) (.reg barS) () (owedAfter c n) :=
  mayWait_of_tail c (.reg barS) n 1 (by dsimp only [lv]; exact if_pos rfl) (fun d hd => by
    have hd := mem_drop_of_le hn hd
    rw [debts_drop_7] at hd
    exact tail_levels c recvOrder 1 (by decide) d hd)

theorem mayWait_x_exchange (c : Dev nD) (a : Fin 12) (ha : a = 1 ∨ a = 3 ∨ a = 5) (k : Fin 8) (hk : k ≠ 0) {n : ℕ} (hn : 28 ≤ n) :
    (levAts L lv : sProp 𝕄) ⊢ MayWait (c : Thread nD τ) (.dma (xsem a k)) () (owedAfter c n) :=
  mayWait_of_tail c (.dma (xsem a k)) n 2 (by rw [lv_x c a k hk, if_pos ha]) (fun d hd => by
    have hd := mem_drop_of_le hn hd
    rw [debts_drop_28] at hd
    exact tail_levels c [7, 9, 11] 2 (by decide) d hd)

theorem mayWait_x_gather (c : Dev nD) (a : Fin 12) (ha : a = 7 ∨ a = 9) (k : Fin 8) (hk : k ≠ 0) {n : ℕ} (hn : 42 ≤ n) :
    (levAts L lv : sProp 𝕄) ⊢ MayWait (c : Thread nD τ) (.dma (xsem a k)) () (owedAfter c n) :=
  mayWait_of_tail c (.dma (xsem a k)) n 3
    (by rw [lv_x c a k hk, if_neg (by rcases ha with rfl | rfl <;> decide), if_pos ha]) (fun d hd => by
    have hd := mem_drop_of_le hn hd
    rw [debts_drop_42] at hd
    exact tail_levels c [11] 3 (by decide) d hd)

theorem step_signal (c n : Dev nD) (k : Fin 8) (hk : k ≠ 0) (hn : n = px c k) {κ : ℕ} {a : ℕ} (ha : a = 1)
    {O₀' : CellTallies nD τ sig Unit} (O : CellTallies nD τ sig Unit) (hO : O₀' = O + tallyAt (barCell (px c k)) () 1)
    {W : Waits sig Unit} {α : Type} {Q : α → sProp 𝕄} {kk : PUnit → Prog (TpuEff nD τ sig (Elt F) Λ₀ .tc) α} :
    iprop(cellInv ER (sched m) κ (barCell (px c k)) ∗ owes (c : Thread nD τ) O₀' W
        ∗ dutyTok ER (barCell (px c k)) 0 k ∗ barPay (px c k) k ∗ reached ER (barCell (px c k)) 0)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (Dev.tc n : Thread nD τ) barS a) kk) Q) := by
  subst hn; subst ha
  have h := Rounds.wp_signal 𝒱₀ ER (sched m) (c : Thread nD τ) none (defs := defs₀ (F := F)) (Γ := .empty) (dst := (px c k : Thread nD τ)) (sem := barS)
    (r := 0) (d := k) (k := kk) (κ := κ) (Q := Q)
    (by rw [duties_bar]; exact Finset.mem_erase.mpr ⟨hk, Finset.mem_univ _⟩) (amount_bar m (px c k) k) () O hO (W := W) (Es := Set.univ)
  rw [payload_bar] at h
  exact h

theorem step_barwait (c : Dev nD) {κ : ℕ} {a : ℕ} (ha : a = 7) {O : CellTallies nD τ sig Unit} {W : Waits sig Unit}
    {α : Type} {Q : α → sProp 𝕄} {kk : PUnit → Prog (TpuEff nD τ sig (Elt F) Λ₀ .tc) α} :
    iprop(cellInv ER (sched m) κ (barCell c) ∗ cred (tallyAt (barCell c) () 7) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1
              ∗ bigSep (Finset.univ.erase (0 : Fin 8)) (fun k => barPay (F := F) c k))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS a) kk) Q) := by
  subst ha
  have h := Rounds.wp_wait_rest_token 𝒱₀ ER (sched m) (c : Thread nD τ) none (defs := defs₀ (F := F)) (κ := κ) (w := .semWait barS 7)
    (sm := .reg barS) (k' := 7) (Es := Set.univ) (wpE_semWait_eq 𝒱₀ (c : Thread nD τ) none Set.univ) (Set.mem_univ _)
    (k := kk) () (O := O) (W := W) (R := 0) (m := 0) (T := ∅) (Q := Q) (by rw [expect_bar])
  rw [Finset.sdiff_empty, duties_bar] at h
  simp only [payload_bar] at h
  exact h

theorem step_wait_x (c : Dev nD) (a : Fin 12) (k : Fin 8) (hk : k ≠ 0) {κ : ℕ}
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {O : CellTallies nD τ sig Unit} {W : Waits sig Unit}
    {α : Type} {Q : α → sProp 𝕄} {kk : PUnit → Prog (TpuEff nD τ sig (Elt F) Λ₀ .tc) α} :
    iprop(cellInv ER (sched m) κ (xCell c a k) ∗ cred (tallyAt (xCell c a k) () N) ∗ owes (c : Thread nD τ) O W
        ∗ MayWait (c : Thread nD τ) (.dma (xsem a k)) () O ∗ atPos ER (xCell c a k) 0 ∅ 0)
      ⊢ iprop(((owes (c : Thread nD τ) O (insert (SemLoc.dma (xsem a k), ()) W) ∗ atPos ER (xCell c a k) 1 ∅ 0 ∗ reached ER (xCell c a k) 1
              ∗ xPay m c a k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (xsem a k) src dst hsrc hdst) kk) Q) := by
  have h := Rounds.wp_wait_rest_token 𝒱₀ ER (sched m) (c : Thread nD τ) none (defs := defs₀ (F := F)) (κ := κ)
    (w := .waitDma2 (xsem a k) src dst hsrc hdst) (sm := .dma (xsem a k)) (k' := dst.view.dmaCredit) (Es := Set.univ)
    (wpE_waitDma2_eq 𝒱₀ (c : Thread nD τ) none Set.univ) (Set.mem_univ _)
    (k := kk) () (O := O) (W := W) (R := 0) (m := 0) (T := ∅) (Q := Q) (by rw [expect_x m c a k hk, hN, Nat.zero_add])
  rw [hN, rest_x m c a k hk] at h
  exact h

theorem close_x (c : Dev nD) (a : Fin 12) (k : Fin 8) {κ : ℕ} :
    iprop(cellInv ER (sched m) κ (xCell c a k) ∗ atPos ER (xCell c a k) 1 ∅ 0) ⊢ iprop(|={Set.univ}=> semVal (xCell c a k) 0) :=
  Rounds.cell_close ER (sched m) (Set.mem_univ κ) (fun h => h) (R := 1) (duties_later m (xCell c a k))

theorem landed_eq {c p : Thread nD τ} {sp sp' : Space} {s : Shape} {e : EltTy}
    (vs : View sig c.2.kind sp s e) (vd : View sig p.2.kind sp' s e) (q : PosShare TreeShare)
    (fs : Buf (Elt F) (vs.loc c)) (fd G : Buf (Elt F) (vd.loc p))
    (h : ∀ y : s.Idx, vd.read (Elt F) G y = vs.read (Elt F) fs y) :
    (vd.loc p ↦[vd.set]{q} vd.write (Elt F) fd (vs.read (Elt F) fs) Finset.univ : sProp 𝕄) = (vd.loc p ↦[vd.set]{q} G) := by
  refine BI.Region.is_congr fun i hi => ?_
  obtain ⟨y, rfl⟩ := View.exists_emb_of_mem_set vd hi
  rw [View.write_emb_of_mem _ _ (Finset.mem_univ y), ← h y, View.read_apply, cast_cast, cast_eq]

theorem step_send_gen (c n : Dev nD) (k : Fin 8) (hk : k ≠ 0) (hn : n = px c k) (aS aR : Fin 12) {κ₁ κ₂ : ℕ}
    {sp sp' : Space} {s : Shape} {e : EltTy} (src : Memref sig .tc sp s e) (dst : Memref sig .tc sp' s e)
    {hsc : (dst : Memref sig (Dev.tc n : Thread nD τ).2.kind sp' s e).view.ref.isScScratch = false}
    {hsrc : src.view.WordExact} {hdst : dst.view.WordExact}
    {hsem : DmaTarget.Typed sp (.dma (xsem aR k)) (.remote (Dev.tc n : Thread nD τ) dst (.dma (xsem aS k)) hsc)}
    (q : PosShare TreeShare) (fs : Buf (Elt F) (src.view.loc (c : Thread nD τ))) (fd : Buf (Elt F) (dst.view.loc (px c k : Thread nD τ)))
    (hN : dst.view.dmaCredit = N)
    (hpay₁ : (src.view.loc (c : Thread nD τ) ↦[src.view.set]{q} fs : sProp 𝕄) ⊢ xPay m c aS k)
    (hpay₂ : (dst.view.loc (px c k : Thread nD τ) ↦[dst.view.set]{fullShare} (dst.view.write (Elt F) fd (src.view.read (Elt F) fs) Finset.univ) : sProp 𝕄)
      ⊢ xPay m (px c k) aR k)
    {O₀' : CellTallies nD τ sig Unit} (O : CellTallies nD τ sig Unit) (hO : O₀' = O + tallyAt (xCell (px c k) aR k) () N)
    {W : Waits sig Unit} {α : Type} {Q : α → sProp 𝕄} {kk : PUnit → Prog (TpuEff nD τ sig (Elt F) Λ₀ .tc) α} :
    iprop(cellInv ER (sched m) κ₁ (xCell c aS k) ∗ cellInv ER (sched m) κ₂ (xCell (px c k) aR k)
        ∗ (src.view.loc (c : Thread nD τ) ↦[src.view.set]{q} fs) ∗ (dst.view.loc (px c k : Thread nD τ) ↦[dst.view.set]{fullShare} fd)
        ∗ owes (c : Thread nD τ) O₀' W
        ∗ dutyTok ER (xCell c aS k) 0 0 ∗ reached ER (xCell c aS k) 0
        ∗ dutyTok ER (xCell (px c k) aR k) 0 0 ∗ reached ER (xCell (px c k) aR k) 0)
      ⊢ iprop(((cred (tallyAt (xCell c aS k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma (xsem aS k)) hsc) (.dma (xsem aR k)) hsrc hdst hsem) kk) Q) := by
  subst hn
  exact Rounds.wp_send_pointsTo 𝒱₀ ER (sched m) (c : Thread nD τ) none (κ₁ := κ₁) (κ₂ := κ₂) (src := src) (dst := dst) (c' := (px c k : Thread nD τ)) (sS := .dma (xsem aS k)) (sem := .dma (xsem aR k))
    (r₁ := 0) (r₂ := 0) (d₁ := 0) (d₂ := 0) (q := q) (fs := fs) (fd := fd)
    (by rw [duties_x m c aS k hk]; exact Finset.mem_singleton_self _)
    (by rw [duties_x m (px c k) aR k hk]; exact Finset.mem_singleton_self _)
    () () N hN (amount_x m c aS k 0) (amount_x m (px c k) aR k 0) O hO (W := W)
    (by rw [payload_x m c aS k hk 0]; exact hpay₁)
    (by rw [payload_x m (px c k) aR k hk 0]; exact hpay₂)

open Idealize.ShloMosaic.ValueIdx (ix2 ix3)

theorem slotM_emb (M : Memref sig .tc .vmem S8x64x512 .bf16) (s : Fin 8) (y : S64x512.Idx) :
    (slotM M s).view.emb y = M.view.emb (ix3 (n0 := 8) (n1 := 64) (n2 := 512) s (y 0) (y 1)) := by
  have e : Shape.reshapeEquiv (s := S1x64x512) (s' := S64x512) squeezes_S1x64x512_S64x512.numel_eq y
      = ix3 (n0 := 1) (n1 := 64) (n2 := 512) 0 (y 0) (y 1) :=
    Shape.reshapeEquiv_eq_of_rowMajor _ (by
      have h3 := Shape.rowMajor_val_three (d := ![1, 64, 512]) (ix3 (n0 := 1) (n1 := 64) (n2 := 512) 0 (y 0) (y 1))
      have h2 := Shape.rowMajor_val_two (d := ![64, 512]) y
      refine h3.trans (Eq.trans ?_ h2.symm)
      show ((0 : ℕ) * 64 + (y 0).val) * 512 + (y 1).val = (y 0).val * 512 + (y 1).val
      omega)
  show M.view.emb ((Rect.unit (s := S8x64x512) ![s.val, 0, 0] S1x64x512.size (inb3 s)).emb
    (Shape.reshapeEquiv (s := S1x64x512) (s' := S64x512) squeezes_S1x64x512_S64x512.numel_eq y)) = _
  rw [e]
  refine congrArg M.view.emb (funext fun a => Fin.ext ?_)
  match a with
  | ⟨0, _⟩ => show s.val + 1 * 0 = s.val; omega
  | ⟨1, _⟩ => show 0 + 1 * (y 0).val = (y 0).val; omega
  | ⟨2, _⟩ => show 0 + 1 * (y 1).val = (y 1).val; omega

theorem slotM_read (M : Memref sig .tc .vmem S8x64x512 .bf16) (s : Fin 8) (f : M.view.ty.Contents (Elt F)) (y : S64x512.Idx) :
    (slotM M s).view.read (Elt F) f y = M.view.read (Elt F) f (ix3 (n0 := 8) (n1 := 64) (n2 := 512) s (y 0) (y 1)) := by
  rw [View.read_apply, View.read_apply, slotM_emb]

theorem landed_slot_eq (c p : Dev nD) (Ms Md : Memref sig .tc .vmem S8x64x512 .bf16) (s k : Fin 8)
    (fs : Buf (Elt F) ((slotM Ms s).view.loc (c : Thread nD τ))) (fd G : Buf (Elt F) ((slotM Md k).view.loc (p : Thread nD τ)))
    (h : ∀ y : S64x512.Idx, Md.view.read (Elt F) G (ix3 (n0 := 8) (n1 := 64) (n2 := 512) k (y 0) (y 1))
      = Ms.view.read (Elt F) fs (ix3 (n0 := 8) (n1 := 64) (n2 := 512) s (y 0) (y 1))) :
    ((slotM Md k).view.loc (p : Thread nD τ) ↦[(slotM Md k).view.set]{fullShare}
        (slotM Md k).view.write (Elt F) fd ((slotM Ms s).view.read (Elt F) fs) Finset.univ : sProp 𝕄)
      = slotPts p Md k G := by
  unfold slotPts
  exact landed_eq (c := (c : Thread nD τ)) (p := (p : Thread nD τ)) (slotM Ms s).view (slotM Md k).view fullShare fs fd G
    (fun y => by rw [slotM_read, slotM_read]; exact h y)

theorem landed_rs0 (c : Dev nD) (k : Fin 8) (fd : Buf (Elt F) ((slotM (Memref.whole cc0_scratch1) k).view.loc (px c k : Thread nD τ))) :
    ((slotM (Memref.whole cc0_scratch1) k).view.loc (px c k : Thread nD τ) ↦[(slotM (Memref.whole cc0_scratch1) k).view.set]{fullShare}
        (slotM (Memref.whole cc0_scratch1) k).view.write (Elt F) fd ((slotM (Memref.whole cc0_scratch0) (px c k)).view.read (Elt F) (part0 m c)) Finset.univ : sProp 𝕄)
      = slotPts (px c k) (Memref.whole cc0_scratch1) k (rs0C m (px c k)) :=
  landed_slot_eq c (px c k) (Memref.whole cc0_scratch0) (Memref.whole cc0_scratch1) (px c k) k (part0 m c) fd (rs0C m (px c k)) (fun y => by
    show part0 m (px (px c k) k) (ix3 (n0 := 8) (n1 := 64) (n2 := 512) (px c k) (y 0) (y 1)) = part0 m c (ix3 (n0 := 8) (n1 := 64) (n2 := 512) (px c k) (y 0) (y 1))
    rw [px_px])

theorem landed_rs1 (c : Dev nD) (k : Fin 8) (fd : Buf (Elt F) ((slotM (Memref.whole cc0_scratch3) k).view.loc (px c k : Thread nD τ))) :
    ((slotM (Memref.whole cc0_scratch3) k).view.loc (px c k : Thread nD τ) ↦[(slotM (Memref.whole cc0_scratch3) k).view.set]{fullShare}
        (slotM (Memref.whole cc0_scratch3) k).view.write (Elt F) fd ((slotM (Memref.whole cc0_scratch2) (px c k)).view.read (Elt F) (part1 m c)) Finset.univ : sProp 𝕄)
      = slotPts (px c k) (Memref.whole cc0_scratch3) k (rs1C m (px c k)) :=
  landed_slot_eq c (px c k) (Memref.whole cc0_scratch2) (Memref.whole cc0_scratch3) (px c k) k (part1 m c) fd (rs1C m (px c k)) (fun y => by
    show part1 m (px (px c k) k) (ix3 (n0 := 8) (n1 := 64) (n2 := 512) (px c k) (y 0) (y 1)) = part1 m c (ix3 (n0 := 8) (n1 := 64) (n2 := 512) (px c k) (y 0) (y 1))
    rw [px_px])

theorem landed_rs2 (c : Dev nD) (k : Fin 8) (fd : Buf (Elt F) ((slotM (Memref.whole cc0_scratch6) k).view.loc (px c k : Thread nD τ))) :
    ((slotM (Memref.whole cc0_scratch6) k).view.loc (px c k : Thread nD τ) ↦[(slotM (Memref.whole cc0_scratch6) k).view.set]{fullShare}
        (slotM (Memref.whole cc0_scratch6) k).view.write (Elt F) fd ((slotM (Memref.whole cc0_scratch5) (px c k)).view.read (Elt F) (part2 m c)) Finset.univ : sProp 𝕄)
      = slotPts (px c k) (Memref.whole cc0_scratch6) k (rs2C m (px c k)) :=
  landed_slot_eq c (px c k) (Memref.whole cc0_scratch5) (Memref.whole cc0_scratch6) (px c k) k (part2 m c) fd (rs2C m (px c k)) (fun y => by
    show part2 m (px (px c k) k) (ix3 (n0 := 8) (n1 := 64) (n2 := 512) (px c k) (y 0) (y 1)) = part2 m c (ix3 (n0 := 8) (n1 := 64) (n2 := 512) (px c k) (y 0) (y 1))
    rw [px_px])

theorem slotPts_slot_congr (p : Dev nD) (M : Memref sig .tc .vmem S8x64x512 .bf16) {s s' : Fin 8} (h : s = s')
    (f : Buf (Elt F) (M.view.loc (p : Thread nD τ))) : (slotPts p M s f : sProp 𝕄) = slotPts p M s' f := by
  subst h; rfl

theorem landed_chunk_eq (c p : Dev nD) (Ms : Memref sig .tc .vmem S64x512 .bf16) (Md : Memref sig .tc .vmem S8x64x512 .bf16) (s : Fin 8)
    (fs : Buf (Elt F) (Ms.view.loc (c : Thread nD τ))) (fd G : Buf (Elt F) ((slotM Md s).view.loc (p : Thread nD τ)))
    (h : ∀ y : S64x512.Idx, Md.view.read (Elt F) G (ix3 (n0 := 8) (n1 := 64) (n2 := 512) s (y 0) (y 1)) = Ms.view.read (Elt F) fs y) :
    ((slotM Md s).view.loc (p : Thread nD τ) ↦[(slotM Md s).view.set]{fullShare}
        (slotM Md s).view.write (Elt F) fd (Ms.view.read (Elt F) fs) Finset.univ : sProp 𝕄)
      = slotPts p Md s G := by
  unfold slotPts
  exact landed_eq (c := (c : Thread nD τ)) (p := (p : Thread nD τ)) Ms.view (slotM Md s).view fullShare fs fd G
    (fun y => by rw [slotM_read]; exact h y)

theorem landed_full1 (c : Dev nD) (k : Fin 8) (fd : Buf (Elt F) ((slotM (Memref.whole cc0_scratch4) c).view.loc (px c k : Thread nD τ))) :
    ((slotM (Memref.whole cc0_scratch4) c).view.loc (px c k : Thread nD τ) ↦[(slotM (Memref.whole cc0_scratch4) c).view.set]{fullShare}
        (slotM (Memref.whole cc0_scratch4) c).view.write (Elt F) fd ((Memref.whole cc0_scratch8 : Memref sig .tc .vmem S64x512 .bf16).view.read (Elt F) (own1 m c)) Finset.univ : sProp 𝕄)
      = slotPts (px c k) (Memref.whole cc0_scratch4) (px (px c k) k) (full1 m) := by
  rw [slotPts_slot_congr (px c k) (Memref.whole cc0_scratch4) (px_px c k) (full1 m)]
  exact landed_chunk_eq c (px c k) (Memref.whole cc0_scratch8) (Memref.whole cc0_scratch4) c (own1 m c) fd (full1 m) (fun y => by
    exact congrArg (own1 m c) (ValueIdx.eq_ix2 (n0 := 64) (n1 := 512) y).symm)

theorem landed_full2 (c : Dev nD) (k : Fin 8) (fd : Buf (Elt F) ((slotM (Memref.whole cc0_scratch7) c).view.loc (px c k : Thread nD τ))) :
    ((slotM (Memref.whole cc0_scratch7) c).view.loc (px c k : Thread nD τ) ↦[(slotM (Memref.whole cc0_scratch7) c).view.set]{fullShare}
        (slotM (Memref.whole cc0_scratch7) c).view.write (Elt F) fd ((Memref.whole cc0_scratch9 : Memref sig .tc .vmem S64x512 .bf16).view.read (Elt F) (own2 m c)) Finset.univ : sProp 𝕄)
      = slotPts (px c k) (Memref.whole cc0_scratch7) (px (px c k) k) (full2 m) := by
  rw [slotPts_slot_congr (px c k) (Memref.whole cc0_scratch7) (px_px c k) (full2 m)]
  exact landed_chunk_eq c (px c k) (Memref.whole cc0_scratch9) (Memref.whole cc0_scratch7) c (own2 m c) fd (full2 m) (fun y => by
    exact congrArg (own2 m c) (ValueIdx.eq_ix2 (n0 := 64) (n1 := 512) y).symm)

theorem landed_hfull (c : Dev nD) (k : Fin 8) (fd : Buf (Elt F) ((slotM (Memref.whole cc0_scratch11) c).view.loc (px c k : Thread nD τ))) :
    ((slotM (Memref.whole cc0_scratch11) c).view.loc (px c k : Thread nD τ) ↦[(slotM (Memref.whole cc0_scratch11) c).view.set]{fullShare}
        (slotM (Memref.whole cc0_scratch11) c).view.write (Elt F) fd ((Memref.whole cc0_scratch10 : Memref sig .tc .vmem S64x512 .bf16).view.read (Elt F) (h2own m c)) Finset.univ : sProp 𝕄)
      = slotPts (px c k) (Memref.whole cc0_scratch11) (px (px c k) k) (hfull m) := by
  rw [slotPts_slot_congr (px c k) (Memref.whole cc0_scratch11) (px_px c k) (hfull m)]
  exact landed_chunk_eq c (px c k) (Memref.whole cc0_scratch10) (Memref.whole cc0_scratch11) c (h2own m c) fd (hfull m) (fun y => by
    exact congrArg (h2own m c) (ValueIdx.eq_ix2 (n0 := 64) (n1 := 512) y).symm)

-- The slot cut at the device's own offset is the slot of its position.
theorem off3_slot (M : Memref sig .tc .vmem S8x64x512 .bf16) (c : Dev nD) :
    (M.slice (Rect.unit (s := S8x64x512) (k0_off3 c) S1x64x512.size (k0_off3_inb c)) (fun _ => rfl)).squeeze S64x512 squeezes_S1x64x512_S64x512 = slotM M c :=
  congrArg (fun M' => Memref.squeeze M' S64x512 squeezes_S1x64x512_S64x512)
    (Memref.slice_unit_congr M (k0_off3_eq c) (k0_off3_inb c) (inb3 c) (fun _ => rfl) (fun _ => rfl))

-- One copy of a gather: a share of the sender's summed chunk goes to the slot of the sender's position in the peer's stack.
theorem step_send_chunk (c n : Dev nD) (k : Fin 8) (hk : k ≠ 0) (hn : n = px c k) (aS aR : Fin 12)
    (Ms : Memref sig .tc .vmem S64x512 .bf16) (Md : Memref sig .tc .vmem S8x64x512 .bf16) (P : Buf (Elt F) (Ms.view.loc (c : Thread nD τ))) {κ₁ κ₂ : ℕ}
    {dst : Memref sig .tc .vmem S64x512 .bf16} (hd : dst = slotM Md c)
    {hsc : (dst : Memref sig (Dev.tc n : Thread nD τ).2.kind .vmem S64x512 .bf16).view.ref.isScScratch = false}
    {hsrc : Ms.view.WordExact} {hdst : dst.view.WordExact}
    {hsem : DmaTarget.Typed .vmem (.dma (xsem aR k)) (.remote (Dev.tc n : Thread nD τ) dst (.dma (xsem aS k)) hsc)}
    (fd : Buf (Elt F) ((slotM Md c).view.loc (px c k : Thread nD τ)))
    (h₁ : (chunkPts c Ms (shr k) P : sProp 𝕄) ⊢ xPay m c aS k)
    (h₂ : ((slotM Md c).view.loc (px c k : Thread nD τ) ↦[(slotM Md c).view.set]{fullShare}
        (slotM Md c).view.write (Elt F) fd (Ms.view.read (Elt F) P) Finset.univ : sProp 𝕄) ⊢ xPay m (px c k) aR k)
    {O₀' : CellTallies nD τ sig Unit} (O : CellTallies nD τ sig Unit) (hO : O₀' = O + tallyAt (xCell (px c k) aR k) () N)
    {W : Waits sig Unit} {α : Type} {Q : α → sProp 𝕄} {kk : PUnit → Prog (TpuEff nD τ sig (Elt F) Λ₀ .tc) α} :
    iprop(cellInv ER (sched m) κ₁ (xCell c aS k) ∗ cellInv ER (sched m) κ₂ (xCell (px c k) aR k)
        ∗ chunkPts c Ms (shr k) P ∗ slotPts (px c k) Md c fd
        ∗ owes (c : Thread nD τ) O₀' W
        ∗ dutyTok ER (xCell c aS k) 0 0 ∗ reached ER (xCell c aS k) 0
        ∗ dutyTok ER (xCell (px c k) aR k) 0 0 ∗ reached ER (xCell (px c k) aR k) 0)
      ⊢ iprop(((cred (tallyAt (xCell c aS k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma Ms (.remote (Dev.tc n : Thread nD τ) dst (.dma (xsem aS k)) hsc) (.dma (xsem aR k)) hsrc hdst hsem) kk) Q) := by
  subst hd
  unfold chunkPts at h₁
  unfold slotPts chunkPts
  exact step_send_gen m c n k hk hn aS aR Ms (slotM Md c) (shr k) P fd rfl h₁ h₂ O hO

end Cert.KernelIdeal.Hand

end
-- ==== Proof.Slots.lean ====
import proofs.«900577_g7700000000000578_dist_mlpseq_tp1dT_cs_cs_b512_d256_h512_v7x_i8_f32_1_alg».proof.Proof.Proto

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev slotRect (s : Fin 8) : Rect S8x64x512 := Rect.unit (s := S8x64x512) ![s.val, 0, 0] S1x64x512.size (inb3 s)

theorem mem_slotRect (s : Fin 8) (i : S8x64x512.Idx) : i ∈ (slotRect s).set ↔ (i 0).val = s.val := by
  rw [Rect.mem_set_unit]
  constructor
  · intro h
    have h0 := h 0
    have e1 : (![s.val, 0, 0] : Fin 3 → Nat) 0 = s.val := rfl
    have e2 : S1x64x512.size 0 = 1 := rfl
    rw [e1, e2] at h0
    omega
  · intro h a
    have hi := (i a).isLt
    match a with
    | ⟨0, _⟩ =>
      have e1 : (![s.val, 0, 0] : Fin 3 → Nat) ⟨0, by decide⟩ = s.val := rfl
      have e2 : S1x64x512.size ⟨0, by decide⟩ = 1 := rfl
      rw [e1, e2]
      have : (i ⟨0, by decide⟩).val = s.val := h
      omega
    | ⟨1, _⟩ =>
      have e1 : (![s.val, 0, 0] : Fin 3 → Nat) ⟨1, by decide⟩ = 0 := rfl
      have e2 : S1x64x512.size ⟨1, by decide⟩ = S8x64x512.size ⟨1, by decide⟩ := rfl
      rw [e1, e2]
      omega
    | ⟨2, _⟩ =>
      have e1 : (![s.val, 0, 0] : Fin 3 → Nat) ⟨2, by decide⟩ = 0 := rfl
      have e2 : S1x64x512.size ⟨2, by decide⟩ = S8x64x512.size ⟨2, by decide⟩ := rfl
      rw [e1, e2]
      omega

theorem slotRect_disjoint (s t : Fin 8) (h : s ≠ t) : Disjoint (slotRect s).set (slotRect t).set :=
  Rect.unit_disjoint 0 (by
    show s.val + 1 ≤ t.val ∨ t.val + 1 ≤ s.val
    have := Fin.val_ne_of_ne h
    omega)

theorem slotM_set (M : Memref sig .tc .vmem S8x64x512 .bf16) (s : Fin 8) :
    (slotM M s).view.set = (slotRect s).set.map M.view.emb := by
  show ((M.view.slice (slotRect s)).reshape S64x512 _).set = _
  rw [View.set_reshape, View.set_slice]

theorem slotM_set_disjoint (M : Memref sig .tc .vmem S8x64x512 .bf16) (s t : Fin 8) (h : s ≠ t) :
    Disjoint (slotM M s).view.set (slotM M t).view.set := by
  rw [slotM_set, slotM_set, Finset.disjoint_map]
  exact slotRect_disjoint s t h

theorem map_biUnion_eq {α β γ : Type} [DecidableEq β] [DecidableEq γ] (e : β ↪ γ) (S : Finset α) (t : α → Finset β) :
    (S.biUnion t).map e = S.biUnion fun a => (t a).map e := by
  ext x
  simp only [Finset.mem_map, Finset.mem_biUnion]
  constructor
  · rintro ⟨b, ⟨a, ha, hb⟩, rfl⟩
    exact ⟨a, ha, b, hb, rfl⟩
  · rintro ⟨a, ha, b, hb, rfl⟩
    exact ⟨b, ⟨a, ha, hb⟩, rfl⟩

theorem slotRect_cover : (Finset.univ : Finset S8x64x512.Idx) = Finset.univ.biUnion fun s : Fin 8 => (slotRect s).set := by
  ext i
  rw [Finset.mem_biUnion]
  exact ⟨fun _ => ⟨⟨(i 0).val, (i 0).isLt⟩, Finset.mem_univ _, (mem_slotRect _ i).mpr rfl⟩, fun _ => Finset.mem_univ i⟩

theorem set_eq_biUnion (M : Memref sig .tc .vmem S8x64x512 .bf16) :
    M.view.set = Finset.univ.biUnion fun s : Fin 8 => (slotM M s).view.set :=
  calc M.view.set = (Finset.univ : Finset S8x64x512.Idx).map M.view.emb := rfl
    _ = (Finset.univ.biUnion fun s : Fin 8 => (slotRect s).set).map M.view.emb := congrArg (fun I => I.map M.view.emb) slotRect_cover
    _ = Finset.univ.biUnion fun s : Fin 8 => (slotRect s).set.map M.view.emb := map_biUnion_eq _ _ _
    _ = Finset.univ.biUnion fun s : Fin 8 => (slotM M s).view.set := Finset.biUnion_congr rfl fun s _ => (slotM_set M s).symm

theorem slotPts_eq (c : Dev nD) (M : Memref sig .tc .vmem S8x64x512 .bf16) (s : Fin 8) (f : Buf (Elt F) (M.view.loc (c : Thread nD τ))) :
    slotPts c M s f = (M.view.loc (c : Thread nD τ) ↦[(slotM M s).view.set]{fullShare} f : sProp 𝕄) := rfl

theorem slots_step1 (c : Dev nD) (M : Memref sig .tc .vmem S8x64x512 .bf16) (f : Buf (Elt F) (M.view.loc (c : Thread nD τ))) :
    (M.view.loc (c : Thread nD τ) ↦[M.view.set]{fullShare} f : sProp 𝕄)
      = (M.view.loc (c : Thread nD τ) ↦[Finset.univ.biUnion fun s : Fin 8 => (slotM M s).view.set]{fullShare} f) :=
  congrArg (fun I => (M.view.loc (c : Thread nD τ) ↦[I]{fullShare} f : sProp 𝕄)) (set_eq_biUnion M)

theorem slots_step2 (c : Dev nD) (M : Memref sig .tc .vmem S8x64x512 .bf16) (f : Buf (Elt F) (M.view.loc (c : Thread nD τ))) :
    (M.view.loc (c : Thread nD τ) ↦[Finset.univ.biUnion fun s : Fin 8 => (slotM M s).view.set]{fullShare} f : sProp 𝕄)
      = bigSep Finset.univ fun s : Fin 8 => (M.view.loc (c : Thread nD τ) ↦[(slotM M s).view.set]{fullShare} f) :=
  by
  have hd : ∀ s ∈ (Finset.univ : Finset (Fin 8)), ∀ t ∈ (Finset.univ : Finset (Fin 8)), s ≠ t →
      Disjoint ((slotM M s).view.set : Finset (Idx (M.view.loc (c : Thread nD τ)))) ((slotM M t).view.set) :=
    fun s _ t _ h => slotM_set_disjoint M s t h
  have h := pointsTo_biUnion (nD := nD) (τ := τ) (sig := sig) (Ix := Unit) (Val := Elt F) (Name := ℕ) (U := UU) (Lvl := ℕ)
    (ℓ := M.view.loc (c : Thread nD τ)) (q := fullShare) (f := f) (Finset.univ : Finset (Fin 8))
    (fun s => ((slotM M s).view.set : Finset (Idx (M.view.loc (c : Thread nD τ))))) hd
  exact h

theorem slots_step3 (c : Dev nD) (M : Memref sig .tc .vmem S8x64x512 .bf16) (f : Buf (Elt F) (M.view.loc (c : Thread nD τ))) :
    (bigSep Finset.univ fun s : Fin 8 => (M.view.loc (c : Thread nD τ) ↦[(slotM M s).view.set]{fullShare} f) : sProp 𝕄)
      = bigSep Finset.univ fun s : Fin 8 => slotPts c M s f :=
  bigSep_congr fun s _ => (slotPts_eq c M s f).symm

theorem slots_eq (c : Dev nD) (M : Memref sig .tc .vmem S8x64x512 .bf16) (f : Buf (Elt F) (M.view.loc (c : Thread nD τ))) :
    (M.view.loc (c : Thread nD τ) ↦[M.view.set]{fullShare} f : sProp 𝕄) = bigSep Finset.univ fun s : Fin 8 => slotPts c M s f :=
  (slots_step1 c M f).trans ((slots_step2 c M f).trans (slots_step3 c M f))

theorem slots_flat (c : Dev nD) (M : Memref sig .tc .vmem S8x64x512 .bf16) (f : Buf (Elt F) (M.view.loc (c : Thread nD τ))) :
    (bigSep Finset.univ fun s : Fin 8 => slotPts c M s f : sProp 𝕄)
      = iprop(slotPts c M 0 f ∗ slotPts c M 1 f ∗ slotPts c M 2 f ∗ slotPts c M 3 f ∗ slotPts c M 4 f ∗ slotPts c M 5 f
          ∗ slotPts c M 6 f ∗ slotPts c M 7 f) := by
  rw [bigSep_univ_eq_bigSepL [0, 1, 2, 3, 4, 5, 6, 7] (by decide) (by decide)]
  rfl

theorem slots_whole_eq (c : Dev nD) (M : Memref sig .tc .vmem S8x64x512 .bf16) (hM : M.IsWhole)
    (f : Buf (Elt F) (M.view.loc (c : Thread nD τ))) :
    (M.view.loc (c : Thread nD τ) ↦{fullShare} f : sProp 𝕄) = bigSep Finset.univ fun s : Fin 8 => slotPts c M s f :=
  (congrArg (fun I => (M.view.loc (c : Thread nD τ) ↦[I]{fullShare} f : sProp 𝕄)) hM.set_eq_univ.symm).trans (slots_eq c M f)

theorem peers_univ (c : Dev nD) :
    (Finset.univ : Finset (Fin 8)) = ([c, px c 1, px c 2, px c 3, px c 4, px c 5, px c 6, px c 7] : List (Fin 8)).toFinset := by
  revert c; decide
theorem peers_nodup (c : Dev nD) : ([c, px c 1, px c 2, px c 3, px c 4, px c 5, px c 6, px c 7] : List (Fin 8)).Nodup := by
  revert c; decide

theorem slots_peers (c : Dev nD) (M : Memref sig .tc .vmem S8x64x512 .bf16) (f : Buf (Elt F) (M.view.loc (c : Thread nD τ))) :
    (bigSep Finset.univ fun s : Fin 8 => slotPts c M s f : sProp 𝕄)
      = iprop(slotPts c M c f ∗ slotPts c M (px c 1) f ∗ slotPts c M (px c 2) f ∗ slotPts c M (px c 3) f ∗ slotPts c M (px c 4) f
          ∗ slotPts c M (px c 5) f ∗ slotPts c M (px c 6) f ∗ slotPts c M (px c 7) f) := by
  rw [bigSep_univ_eq_bigSepL _ (peers_univ c) (peers_nodup c)]
  rfl

theorem slot_congr (c : Dev nD) (M : Memref sig .tc .vmem S8x64x512 .bf16) (s : Fin 8) (f g : Buf (Elt F) (M.view.loc (c : Thread nD τ)))
    (h : ∀ (r : Fin 64) (q : Fin 512), M.view.read (Elt F) f (ValueIdx.ix3 s r q) = M.view.read (Elt F) g (ValueIdx.ix3 s r q)) :
    slotPts c M s f = slotPts c M s g := by
  rw [slotPts_eq, slotPts_eq]
  refine pointsTo_congr fun i hi => ?_
  rw [slotM_set] at hi
  obtain ⟨x, hx, rfl⟩ := Finset.mem_map.mp hi
  have hx0 : x 0 = s := Fin.ext ((mem_slotRect s x).mp hx)
  have hxe : x = ValueIdx.ix3 s (x 1) (x 2) := by rw [← hx0]; exact ValueIdx.eq_ix3 x
  have e1 : M.view.read (Elt F) f x = M.view.read (Elt F) f (ValueIdx.ix3 s (x 1) (x 2)) := congrArg (M.view.read (Elt F) f) hxe
  have e2 : M.view.read (Elt F) g x = M.view.read (Elt F) g (ValueIdx.ix3 s (x 1) (x 2)) := congrArg (M.view.read (Elt F) g) hxe
  have hrd : M.view.read (Elt F) f x = M.view.read (Elt F) g x := e1.trans ((h (x 1) (x 2)).trans e2.symm)
  rw [View.read_apply, View.read_apply] at hrd
  exact (cast_inj _).mp hrd

theorem shr_0 : shr 0 = fullShare.left.left.left := rfl
theorem shr_1 : shr 1 = fullShare.left.left.right := rfl
theorem shr_2 : shr 2 = fullShare.left.right.left := rfl
theorem shr_3 : shr 3 = fullShare.left.right.right := rfl
theorem shr_4 : shr 4 = fullShare.right.left.left := rfl
theorem shr_5 : shr 5 = fullShare.right.left.right := rfl
theorem shr_6 : shr 6 = fullShare.right.right.left := rfl
theorem shr_7 : shr 7 = fullShare.right.right.right := rfl

theorem chunk_halve (c : Dev nD) (M : Memref sig .tc .vmem S64x512 .bf16) (q : PosShare TreeShare) (f : Buf (Elt F) (M.view.loc (c : Thread nD τ))) :
    (chunkPts c M q f : sProp 𝕄) = iprop(chunkPts c M q.left f ∗ chunkPts c M q.right f) := by
  have hs : (M.view.loc (c : Thread nD τ) ↦[M.view.set]{q} f : sProp 𝕄)
      ⊣⊢ iprop((M.view.loc (c : Thread nD τ) ↦[M.view.set]{q.left} f) ∗ M.view.loc (c : Thread nD τ) ↦[M.view.set]{q.right} f) :=
    pointsTo_share (PosShare.mem_left_op_right q)
  exact equiv_iff.mp ⟨hs.1, hs.2⟩

theorem shares_eq (c : Dev nD) (M : Memref sig .tc .vmem S64x512 .bf16) (f : Buf (Elt F) (M.view.loc (c : Thread nD τ))) :
    (chunkPts c M fullShare f : sProp 𝕄)
      = iprop(chunkPts c M (shr 0) f ∗ chunkPts c M (shr 1) f ∗ chunkPts c M (shr 2) f ∗ chunkPts c M (shr 3) f ∗ chunkPts c M (shr 4) f
          ∗ chunkPts c M (shr 5) f ∗ chunkPts c M (shr 6) f ∗ chunkPts c M (shr 7) f) := by
  have A : ∀ P Q R : sProp 𝕄, iprop((P ∗ Q) ∗ R) = iprop(P ∗ Q ∗ R) := fun P Q R => equiv_iff.mp ⟨Idealize.SL.BI.sep_assoc, Idealize.SL.BI.sep_assoc'⟩
  rw [shr_0, shr_1, shr_2, shr_3, shr_4, shr_5, shr_6, shr_7,
    chunk_halve c M fullShare, chunk_halve c M fullShare.left, chunk_halve c M fullShare.right,
    chunk_halve c M fullShare.left.left, chunk_halve c M fullShare.left.right, chunk_halve c M fullShare.right.left,
    chunk_halve c M fullShare.right.right]
  simp only [A]

theorem slot_idx (s : Fin 8) (x : S1x64x512.Idx) : (slotRect s).toLoadRect.idx x = ValueIdx.ix3 s (x 1) (x 2) := by
  funext a
  apply Fin.ext
  have h0 : (x 0).val < 1 := (x 0).isLt
  match a with
  | ⟨0, _⟩ =>
    show s.val + 1 * (x ⟨0, by decide⟩).val = s.val
    have : (x ⟨0, by decide⟩).val = (x 0).val := rfl
    omega
  | ⟨1, _⟩ =>
    show 0 + 1 * (x ⟨1, by decide⟩).val = (x 1).val
    have : (x ⟨1, by decide⟩).val = (x 1).val := rfl
    omega
  | ⟨2, _⟩ =>
    show 0 + 1 * (x ⟨2, by decide⟩).val = (x 2).val
    have : (x ⟨2, by decide⟩).val = (x 2).val := rfl
    omega

theorem slot_readAt (M : Memref sig .tc .vmem S8x64x512 .bf16) (s : Fin 8) (f : M.view.ty.Contents (Elt F)) :
    M.view.readAt (Elt F) (slotRect s).toLoadRect f = slot3 (M.view.read (Elt F) f) s := by
  funext x
  show M.view.read (Elt F) f ((slotRect s).toLoadRect.idx x) = M.view.read (Elt F) f (ValueIdx.ix3 s (x 1) (x 2))
  exact congrArg (M.view.read (Elt F) f) (slot_idx s x)

theorem slot_setOn (M : Memref sig .tc .vmem S8x64x512 .bf16) (s : Fin 8) :
    M.view.setOn (slotRect s).toLoadRect.set = (slotM M s).view.set := (slotM_set M s).symm

theorem slot_access_setOn (M : Memref sig .tc .vmem S8x64x512 .bf16) (s : Fin 8) :
    (M.access (slotRect s)).setOn Finset.univ = (slotM M s).view.set := by
  rw [View.setOn_univ, slotM_set]
  exact View.set_slice _ _

theorem wp_load_slot {Λ : Labels} {defs : Defs nD τ sig (Elt F) Λ} (𝒱 : Variants) (c : Dev nD) (bd : Option 𝒱.V) (E : Set ℕ)
    (M : Memref sig .tc .vmem S8x64x512 .bf16) (s : Fin 8) {off : Fin 3 → Nat} (hoff : off = ![s.val, 0, 0])
    {inb : ∀ a, off a + S1x64x512.size a ≤ S8x64x512.size a}
    {hl : M.view.LoadsAt (Rect.unit (s := S8x64x512) off S1x64x512.size inb).toLoadRect}
    (f : Buf (Elt F) (M.view.loc (c : Thread nD τ))) {α : Type}
    {k : Vec F S1x64x512 .bf16 → Prog (TpuEff nD τ sig (Elt F) Λ .tc) α} {Q : α → sProp 𝕄} :
    slotPts c M s f
      ⊢ iprop((slotPts c M s f -∗ wp frame (wpE defs 𝒱 (c : Thread nD τ) bd) E (k (slot3 (M.view.read (Elt F) f) s)) Q)
        -∗ wp frame (wpE defs 𝒱 (c : Thread nD τ) bd) E
            (.op (.load M (Rect.unit (s := S8x64x512) off S1x64x512.size inb).toLoadRect hl) k) Q) := by
  subst hoff
  have h := wp_load (nD := nD) (τ := τ) (sig := sig) (Ix := Unit) (Val := Elt F) (Name := ℕ) (U := UU) (Lvl := ℕ) (Λ := Λ)
    (defs := defs) 𝒱 (c : Thread nD τ) bd (Γ := .empty) E (cs := .vmem) (m := M) (r := (slotRect s).toLoadRect) (hl := hl) (k := k)
    (S := (slotM M s).view.set) (q := fullShare) (f := f) (Q := Q) (le_of_eq (slot_setOn M s))
  rw [slot_readAt] at h
  exact h

theorem wp_store_slot {Λ : Labels} {defs : Defs nD τ sig (Elt F) Λ} (𝒱 : Variants) (c : Dev nD) (bd : Option 𝒱.V) (E : Set ℕ)
    (M : Memref sig .tc .vmem S8x64x512 .bf16) (s : Fin 8) {off : Fin 3 → Nat} (hoff : off = ![s.val, 0, 0])
    {inb : ∀ a, off a + S1x64x512.size a ≤ S8x64x512.size a} {w : Vec F S1x64x512 .bf16}
    {hx : (M.access (Rect.unit (s := S8x64x512) off S1x64x512.size inb)).Stores Finset.univ}
    {hm : (Finset.univ : Finset (Rect.unit (s := S8x64x512) off S1x64x512.size inb).shape.Idx) = Finset.univ
      ∨ ∀ a, (Rect.unit (s := S8x64x512) off S1x64x512.size inb).stride a = 1}
    (f g : Buf (Elt F) (M.view.loc (c : Thread nD τ)))
    (hg : ∀ (r : Fin 64) (q : Fin 512), M.view.read (Elt F) g (ValueIdx.ix3 s r q) = w (ValueIdx.ix3 0 r q))
    {α : Type} {k : PUnit → Prog (TpuEff nD τ sig (Elt F) Λ .tc) α} {Q : α → sProp 𝕄} :
    slotPts c M s f
      ⊢ iprop((slotPts c M s g -∗ wp frame (wpE defs 𝒱 (c : Thread nD τ) bd) E (k ⟨⟩) Q)
        -∗ wp frame (wpE defs 𝒱 (c : Thread nD τ) bd) E
            (.op (.store M (Rect.unit (s := S8x64x512) off S1x64x512.size inb) w Finset.univ hx hm) k) Q) := by
  subst hoff
  have e : slotPts c M s ((M.access (slotRect s)).write (Elt F) f w Finset.univ) = slotPts c M s g := by
    refine slot_congr c M s _ g fun r q => ?_
    rw [hg r q]
    have hw := congrFun (View.read_write_univ (v := M.access (slotRect s)) (Val := Elt F) f w) (ValueIdx.ix3 0 r q)
    have hi : (slotRect s).toLoadRect.idx (ValueIdx.ix3 0 r q) = ValueIdx.ix3 s r q := slot_idx s _
    rw [← hi]
    exact hw
  have h := wp_store (nD := nD) (τ := τ) (sig := sig) (Ix := Unit) (Val := Elt F) (Name := ℕ) (U := UU) (Lvl := ℕ) (Λ := Λ)
    (defs := defs) 𝒱 (c : Thread nD τ) bd (Γ := .empty) E (cs := .vmem) (m := M) (r := slotRect s) (w := w) (Mk := Finset.univ)
    (hx := hx) (hm := hm) (k := k) (S := (slotM M s).view.set) (f := f) (Q := Q) (le_of_eq (slot_access_setOn M s))
  rw [← e]
  exact h

example {Λ : Labels} {defs : Defs nD τ sig (Elt F) Λ} (𝒱 : Variants) (c : Dev nD) (bd : Option 𝒱.V) (E : Set ℕ)
    (M : Memref sig .tc .vmem S8x64x512 .bf16) (f : Buf (Elt F) (M.view.loc (c : Thread nD τ))) {α : Type}
    {hl : M.view.LoadsAt (Rect.unit (s := S8x64x512) (k0_off2 c) S1x64x512.size (k0_off2_inb c)).toLoadRect}
    {k : Vec F S1x64x512 .bf16 → Prog (TpuEff nD τ sig (Elt F) Λ .tc) α} {Q : α → sProp 𝕄} :
    slotPts c M c f
      ⊢ iprop((slotPts c M c f -∗ wp frame (wpE defs 𝒱 (c : Thread nD τ) bd) E (k (slot3 (M.view.read (Elt F) f) c)) Q)
        -∗ wp frame (wpE defs 𝒱 (c : Thread nD τ) bd) E
            (.op (.load M (Rect.unit (s := S8x64x512) (k0_off2 c) S1x64x512.size (k0_off2_inb c)).toLoadRect hl) k) Q) :=
  wp_load_slot 𝒱 c bd E M c (k0_off2_eq c) f

example {Λ : Labels} {defs : Defs nD τ sig (Elt F) Λ} (𝒱 : Variants) (c : Dev nD) (bd : Option 𝒱.V) (E : Set ℕ)
    (M : Memref sig .tc .vmem S8x64x512 .bf16) (f : Buf (Elt F) (M.view.loc (c : Thread nD τ))) {α : Type}
    {hl : M.view.LoadsAt (Rect.unit (s := S8x64x512) ![7, 0, 0] S1x64x512.size inb_S8x64x512_S1x64x512_7_0_0).toLoadRect}
    {k : Vec F S1x64x512 .bf16 → Prog (TpuEff nD τ sig (Elt F) Λ .tc) α} {Q : α → sProp 𝕄} :
    slotPts c M 7 f
      ⊢ iprop((slotPts c M 7 f -∗ wp frame (wpE defs 𝒱 (c : Thread nD τ) bd) E (k (slot3 (M.view.read (Elt F) f) 7)) Q)
        -∗ wp frame (wpE defs 𝒱 (c : Thread nD τ) bd) E
            (.op (.load M (Rect.unit (s := S8x64x512) ![7, 0, 0] S1x64x512.size inb_S8x64x512_S1x64x512_7_0_0).toLoadRect hl) k) Q) :=
  wp_load_slot 𝒱 c bd E M 7 rfl f

end Cert.KernelIdeal.Hand

end
-- ==== Proof.Compose.lean ====
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.Sched
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Slots

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem fin6_flat (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem fin7_flat (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem fin12_flat (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

theorem bigSep_option_split {α : Type} [Fintype α] [DecidableEq α] (Φ : Option α → sProp 𝕄) :
    bigSep Finset.univ Φ = iprop(Φ none ∗ bigSep Finset.univ fun a => Φ (some a)) := by
  rw [bigSep_univ_at Φ none]
  have h : (Finset.univ.erase (none : Option α)) = Finset.univ.map Function.Embedding.some := by
    ext x; cases x <;> simp
  rw [h, bigSep_map]; rfl

def posA (c : Dev nD) (a : Fin 12) : sProp 𝕄 := bigSep Finset.univ fun j : Fin 7 => atPos ER (xCell c a j.succ) 0 ∅ 0
def tokB (c : Dev nD) : sProp 𝕄 := bigSep Finset.univ fun j : Fin 7 => dutyTok ER (barCell (px c j.succ)) 0 j.succ
def tokS (c : Dev nD) (b : Fin 6) : sProp 𝕄 := bigSep Finset.univ fun j : Fin 7 => dutyTok ER (xCell c ⟨2 * b.val, by omega⟩ j.succ) 0 0
def tokR (c : Dev nD) (b : Fin 6) : sProp 𝕄 := bigSep Finset.univ fun j : Fin 7 => dutyTok ER (xCell (px c j.succ) ⟨2 * b.val + 1, by omega⟩ j.succ) 0 0
def credR (c : Dev nD) (b : Fin 6) : sProp 𝕄 := bigSep Finset.univ fun j : Fin 7 => cred (tallyAt (xCell c ⟨2 * b.val + 1, by omega⟩ j.succ) () N)
def semX (c : Dev nD) (a : Fin 12) : sProp 𝕄 := bigSep Finset.univ fun j : Fin 7 => semVal (xCell c a j.succ) 0
def sem0s (c : Dev nD) : sProp 𝕄 := bigSep Finset.univ fun a : Fin 12 => semVal (xCell c a 0) 0

theorem positions_flat (c : Dev nD) : (positions c : sProp 𝕄)
    = iprop(atPos ER (barCell c) 0 ∅ 0 ∗ posA c 0 ∗ posA c 1 ∗ posA c 2 ∗ posA c 3 ∗ posA c 4 ∗ posA c 5 ∗ posA c 6 ∗ posA c 7 ∗ posA c 8 ∗ posA c 9 ∗ posA c 10 ∗ posA c 11) := by
  unfold positions
  rw [bigSep_option_split, bigSep_univ_prod, fin12_flat]
  rfl

theorem payToks_flat (c : Dev nD) : (payToks c : sProp 𝕄)
    = iprop(tokB c ∗ (tokS c 0 ∗ tokS c 1 ∗ tokS c 2 ∗ tokS c 3 ∗ tokS c 4 ∗ tokS c 5) ∗ (tokR c 0 ∗ tokR c 1 ∗ tokR c 2 ∗ tokR c 3 ∗ tokR c 4 ∗ tokR c 5)) := by
  unfold payToks
  rw [bigSep_univ_prod (fun bj : Fin 6 × Fin 7 => (dutyTok ER (xCell c ⟨2 * bj.1.val, by omega⟩ bj.2.succ) 0 0 : sProp 𝕄)), fin6_flat,
    bigSep_univ_prod (fun bj : Fin 6 × Fin 7 => (dutyTok ER (xCell (px c bj.2.succ) ⟨2 * bj.1.val + 1, by omega⟩ bj.2.succ) 0 0 : sProp 𝕄)), fin6_flat]
  rfl

theorem creds_flat (c : Dev nD) : (creds c : sProp 𝕄)
    = iprop(cred (tallyAt (barCell c) () 7) ∗ credR c 0 ∗ credR c 1 ∗ credR c 2 ∗ credR c 3 ∗ credR c 4 ∗ credR c 5) := by
  unfold creds
  rw [bigSep_univ_prod, fin6_flat]
  rfl

theorem idleSems_flat (c : Dev nD) : (idleSems c : sProp 𝕄)
    = iprop(sem0s c ∗ semVal ((c : Thread nD τ), SemLoc.dma ls0) 0 ∗ semVal ((c : Thread nD τ), SemLoc.dma ls1) 0 ∗ semVal ((c : Thread nD τ), SemLoc.dma ls2) 0 ∗ semVal ((c : Thread nD τ), SemLoc.dma ls3) 0 ∗ semVal ((c : Thread nD τ), SemLoc.dma ls4) 0 ∗ semVal ((c : Thread nD τ), SemLoc.dma ls5) 0 ∗ semVal ((c : Thread nD τ), SemLoc.dma ls6) 0) := by
  unfold idleSems
  rw [fin7_flat]
  rfl

theorem semX_flat (c : Dev nD) : (bigSep Finset.univ fun aj : Fin 12 × Fin 7 => semVal (xCell c aj.1 aj.2.succ) 0 : sProp 𝕄)
    = iprop(semX c 0 ∗ semX c 1 ∗ semX c 2 ∗ semX c 3 ∗ semX c 4 ∗ semX c 5 ∗ semX c 6 ∗ semX c 7 ∗ semX c 8 ∗ semX c 9 ∗ semX c 10 ∗ semX c 11) := by
  rw [bigSep_univ_prod, fin12_flat]
  rfl

instance records_persistent' (m : (ℓ : Loc nD τ sig) → Buf (Elt F) ℓ) (K : Dev nD × CIx → ℕ) : BI.Persistent (records m K) := by unfold records; infer_instance
theorem inv_at' (m : (ℓ : Loc nD τ sig) → Buf (Elt F) ℓ) (K : Dev nD × CIx → ℕ) (ck : Dev nD × CIx) :
    (bigSep Finset.univ fun ck : Dev nD × CIx => (cellInv ER (sched m) (K ck) (kcell ck) : sProp 𝕄)) ⊢ cellInv ER (sched m) (K ck) (kcell ck) :=
  bigSep_elim (Finset.mem_univ ck)
theorem reached_at' (ck : Dev nD × CIx) :
    (bigSep Finset.univ fun ck : Dev nD × CIx => (reached ER (kcell ck) 0 : sProp 𝕄)) ⊢ reached ER (kcell ck) 0 :=
  bigSep_elim (Finset.mem_univ ck)
theorem inv_at (m : (ℓ : Loc nD τ sig) → Buf (Elt F) ℓ) (K : Dev nD × CIx → ℕ) (ck : Dev nD × CIx) : records m K ⊢ cellInv ER (sched m) (K ck) (kcell ck) := by
  unfold records; iintro ⟨H, -⟩; iapply (inv_at' m K ck); iexact H
theorem reached_at (m : (ℓ : Loc nD τ sig) → Buf (Elt F) ℓ) (K : Dev nD × CIx → ℕ) (ck : Dev nD × CIx) : records m K ⊢ reached ER (kcell ck) 0 := by
  unfold records; iintro ⟨-, H⟩; iapply (reached_at' (F := F) ck); iexact H

variable (m : (ℓ : Loc nD τ sig) → Buf (Elt F) ℓ) (ρ : Dev nD → PrngReg)

def flat₀ (K : Dev nD × CIx → ℕ) (c : Dev nD) (W : Waits sig Unit) : sProp 𝕄 :=
  iprop(records m K ∗ levAts L lv
    ∗ (atPos ER (barCell c) 0 ∅ 0 ∗ posA c 0 ∗ posA c 1 ∗ posA c 2 ∗ posA c 3 ∗ posA c 4 ∗ posA c 5 ∗ posA c 6 ∗ posA c 7 ∗ posA c 8 ∗ posA c 9 ∗ posA c 10 ∗ posA c 11)
    ∗ (tokB c ∗ (tokS c 0 ∗ tokS c 1 ∗ tokS c 2 ∗ tokS c 3 ∗ tokS c 4 ∗ tokS c 5) ∗ (tokR c 0 ∗ tokR c 1 ∗ tokR c 2 ∗ tokR c 3 ∗ tokR c 4 ∗ tokR c 5))
    ∗ (sem0s c ∗ semVal ((c : Thread nD τ), SemLoc.dma ls0) 0 ∗ semVal ((c : Thread nD τ), SemLoc.dma ls1) 0 ∗ semVal ((c : Thread nD τ), SemLoc.dma ls2) 0 ∗ semVal ((c : Thread nD τ), SemLoc.dma ls3) 0 ∗ semVal ((c : Thread nD τ), SemLoc.dma ls4) 0 ∗ semVal ((c : Thread nD τ), SemLoc.dma ls5) 0 ∗ semVal ((c : Thread nD τ), SemLoc.dma ls6) 0)
    ∗ (cred (tallyAt (barCell c) () 7) ∗ credR c 0 ∗ credR c 1 ∗ credR c 2 ∗ credR c 3 ∗ credR c 4 ∗ credR c 5)
    ∗ (held c main_arg0 (m ((c : Thread nD τ).loc main_arg0)) ∗ held c main_arg1 (m ((c : Thread nD τ).loc main_arg1)) ∗ held c main_arg2 (m ((c : Thread nD τ).loc main_arg2)) ∗ held c main_arg3 (m ((c : Thread nD τ).loc main_arg3)) ∗ held c main_arg4 (m ((c : Thread nD τ).loc main_arg4)) ∗ held c main_arg5 (m ((c : Thread nD τ).loc main_arg5)) ∗ held c main_arg6 (m ((c : Thread nD τ).loc main_arg6)))
    ∗ ((∃ f, held c cc0_scratch0 f) ∗ (∃ f, held c cc0_scratch1 f) ∗ (∃ f, held c cc0_scratch2 f) ∗ (∃ f, held c cc0_scratch3 f) ∗ (∃ f, held c cc0_scratch4 f) ∗ (∃ f, held c cc0_scratch5 f) ∗ (∃ f, held c cc0_scratch6 f) ∗ (∃ f, held c cc0_scratch7 f) ∗ (∃ f, held c cc0_scratch8 f) ∗ (∃ f, held c cc0_scratch9 f) ∗ (∃ f, held c cc0_scratch10 f) ∗ (∃ f, held c cc0_scratch11 f) ∗ (∃ f, held c cc0_scratch12 f) ∗ (∃ f, held c cc0_scratch13 f) ∗ (∃ f, held c cc0_scratch14 f))
    ∗ owes (c : Thread nD τ) (owedAfter c 0) W
    ∗ (∃ f, held c cc0_stg0_0 f))

theorem prologue (c : Dev nD) : bodyPre m ρ c ⊢ iprop(∃ K W, flat₀ m K c W) := by
  unfold bodyPre Φ₀ start ghost argsPts scratchPts Dat.owesAt Pipeline.owesWithin
  rw [scopedRest0_eq, positions_flat, payToks_flat, creds_flat, idleSems_flat]
  iintro ⟨⟨⟨⟨%K, HR, Hpos, Htok⟩, Hidle, Hcr, Hlev⟩, Hargs, Hscr⟩, ⟨%W, -, HO⟩, ⟨%d, %f, -, Hstg⟩⟩
  iexists K; iexists W
  unfold flat₀
  isplitl [HR]; · iexact HR
  isplitl [Hlev]; · iexact Hlev
  isplitl [Hpos]; · iexact Hpos
  isplitl [Htok]; · iexact Htok
  isplitl [Hidle]; · iexact Hidle
  isplitl [Hcr]; · iexact Hcr
  isplitl [Hargs]; · iexact Hargs
  isplitl [Hscr]; · iexact Hscr
  isplitl [HO]; · iexact HO
  iexists f; iexact Hstg

theorem epilogue (c : Dev nD) (W' : Waits sig Unit) :
    iprop((held c main_arg0 (m ((c : Thread nD τ).loc main_arg0)) ∗ held c main_arg1 (m ((c : Thread nD τ).loc main_arg1)) ∗ held c main_arg2 (m ((c : Thread nD τ).loc main_arg2)) ∗ held c main_arg3 (m ((c : Thread nD τ).loc main_arg3)) ∗ held c main_arg4 (m ((c : Thread nD τ).loc main_arg4)) ∗ held c main_arg5 (m ((c : Thread nD τ).loc main_arg5)) ∗ held c main_arg6 (m ((c : Thread nD τ).loc main_arg6)))
      ∗ ((∃ f, held c cc0_scratch0 f) ∗ (∃ f, held c cc0_scratch1 f) ∗ (∃ f, held c cc0_scratch2 f) ∗ (∃ f, held c cc0_scratch3 f) ∗ (∃ f, held c cc0_scratch4 f) ∗ (∃ f, held c cc0_scratch5 f) ∗ (∃ f, held c cc0_scratch6 f) ∗ (∃ f, held c cc0_scratch7 f) ∗ (∃ f, held c cc0_scratch8 f) ∗ (∃ f, held c cc0_scratch9 f) ∗ (∃ f, held c cc0_scratch10 f) ∗ (∃ f, held c cc0_scratch11 f) ∗ (∃ f, held c cc0_scratch12 f) ∗ (∃ f, held c cc0_scratch13 f) ∗ (∃ f, held c cc0_scratch14 f))
      ∗ (sem0s c ∗ semVal ((c : Thread nD τ), SemLoc.dma ls0) 0 ∗ semVal ((c : Thread nD τ), SemLoc.dma ls1) 0 ∗ semVal ((c : Thread nD τ), SemLoc.dma ls2) 0 ∗ semVal ((c : Thread nD τ), SemLoc.dma ls3) 0 ∗ semVal ((c : Thread nD τ), SemLoc.dma ls4) 0 ∗ semVal ((c : Thread nD τ), SemLoc.dma ls5) 0 ∗ semVal ((c : Thread nD τ), SemLoc.dma ls6) 0)
      ∗ (semX c 0 ∗ semX c 1 ∗ semX c 2 ∗ semX c 3 ∗ semX c 4 ∗ semX c 5 ∗ semX c 6 ∗ semX c 7 ∗ semX c 8 ∗ semX c 9 ∗ semX c 10 ∗ semX c 11)
      ∗ owes (c : Thread nD τ) (owedAfter c 49) W'
      ∗ held c cc0_stg0_0 (outC m c))
      ⊢ bodyPost m ρ c := by
  unfold bodyPost Φ₁ argsPts scratchPts Dat.owesAt Pipeline.owesWithin
  rw [scopedRest0_eq, idleSems_flat, semX_flat, show (dats m ρ 0 c).owed t₀.succ = 0 from rfl, ← owedAfter_all c]
  iintro ⟨Hargs, Hscr, Hidle, Hx, HO, Hstg⟩
  isplitr [HO Hstg]
  · isplitl [Hargs]; · iexact Hargs
    isplitl [Hscr]; · iexact Hscr
    isplitl [Hidle]; · iexact Hidle
    iexact Hx
  isplitl [HO]
  · iexists W'
    isplitr; · ipureintro; exact fun _ _ => Or.inl trivial
    iexact HO
  iexists _; isplitr; · (ipureintro; rfl)
  iexact Hstg

end Cert.KernelIdeal.Hand

end
-- ==== Proof.Rest.lean ====
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

set_option maxRecDepth 65536

variable (arg0 : Memref sig .tc .hbm S512x256 .f32) (harg0 : arg0.IsWhole) (arg1 : Memref sig .tc .hbm S256x512 .f32) (harg1 : arg1.IsWhole) (arg2 : Memref sig .tc .hbm S512x256 .f32) (harg2 : arg2.IsWhole) (arg3 : Memref sig .tc .hbm S256x512 .f32) (harg3 : arg3.IsWhole) (arg4 : Memref sig .tc .hbm S512x256 .f32) (harg4 : arg4.IsWhole) (arg5 : Memref sig .tc .hbm S256x512 .f32) (harg5 : arg5.IsWhole) (arg6 : Memref sig .tc .hbm S512x256 .f32) (harg6 : arg6.IsWhole) (arg7 : Memref sig .tc .vmem S512x256 .f32) (harg7 : arg7.IsWhole) (arg8 : Memref sig .tc .vmem S8x64x512 .bf16) (harg8 : arg8.IsWhole) (arg9 : Memref sig .tc .vmem S8x64x512 .bf16) (harg9 : arg9.IsWhole) (arg10 : Memref sig .tc .vmem S8x64x512 .bf16) (harg10 : arg10.IsWhole) (arg11 : Memref sig .tc .vmem S8x64x512 .bf16) (harg11 : arg11.IsWhole) (arg12 : Memref sig .tc .vmem S8x64x512 .bf16) (harg12 : arg12.IsWhole) (arg13 : Memref sig .tc .vmem S8x64x512 .bf16) (harg13 : arg13.IsWhole) (arg14 : Memref sig .tc .vmem S8x64x512 .bf16) (harg14 : arg14.IsWhole) (arg15 : Memref sig .tc .vmem S8x64x512 .bf16) (harg15 : arg15.IsWhole) (arg16 : Memref sig .tc .vmem S64x512 .bf16) (harg16 : arg16.IsWhole) (arg17 : Memref sig .tc .vmem S64x512 .bf16) (harg17 : arg17.IsWhole) (arg18 : Memref sig .tc .vmem S64x512 .bf16) (harg18 : arg18.IsWhole) (arg19 : Memref sig .tc .vmem S8x64x512 .bf16) (harg19 : arg19.IsWhole) (arg20 : Memref sig .tc .vmem S512x256 .f32) (harg20 : arg20.IsWhole) (arg21 : Memref sig .tc .vmem S3x256x512 .f32) (harg21 : arg21.IsWhole) (arg22 : Memref sig .tc .vmem S3x512x256 .f32) (harg22 : arg22.IsWhole) (arg23 : DmaSems sig S8) (arg24 : DmaSems sig S8) (arg25 : DmaSems sig S8) (arg26 : DmaSems sig S8) (arg27 : DmaSems sig S8) (arg28 : DmaSems sig S8) (arg29 : DmaSems sig S8) (arg30 : DmaSems sig S8) (arg31 : DmaSems sig S8) (arg32 : DmaSems sig S8) (arg33 : DmaSems sig S8) (arg34 : DmaSems sig S8) (arg35 : DmaSems sig S7)

section
variable (d0 : Dev nD)

-- The root sequence of the body from part 34 on; each earlier suffix below ends in the one before it.
def rest34 :
    Prog (TpuEff nD τ sig (Elt F) Λ₀ .tc) (Dev nD) := do
  k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0
  k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0
  k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0
  k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0
  k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0
  k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0
  k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0
  k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0
  let v1159 : Memref sig .tc .vmem S1x64x512 .bf16 := arg19.slice (Rect.unit (s := S8x64x512) (k0_off3 d0) S1x64x512.size (k0_off3_inb d0)) (fun _ => rfl)
  let v1160 : Memref sig .tc .vmem S64x512 .bf16 := v1159.squeeze S64x512 squeezes_S1x64x512_S64x512
  let v1157 : DmaSems sig S1 := arg33.slice (Rect.unit (s := S8) ![1] S1.size inb_S8_S1_1)
  let v1158 : DmaSems sig S_ := v1157.squeeze S_ squeezes_S1_S_
  Prog.lift (.waitDma2 v1158.sem v1160 arg18 ((harg19.wordExact_slice rfl _ (k0_off3_wordsbf16 d0)).reshape _ _) harg18.wordExact)
  let v1161 : DmaSems sig S1 := arg33.slice (Rect.unit (s := S8) ![3] S1.size inb_S8_S1_3)
  let v1162 : DmaSems sig S_ := v1161.squeeze S_ squeezes_S1_S_
  let v1163 : Memref sig .tc .vmem S1x64x512 .bf16 := arg19.slice (Rect.unit (s := S8x64x512) (k0_off3 d0) S1x64x512.size (k0_off3_inb d0)) (fun _ => rfl)
  let v1164 : Memref sig .tc .vmem S64x512 .bf16 := v1163.squeeze S64x512 squeezes_S1x64x512_S64x512
  Prog.lift (.waitDma2 v1162.sem v1164 arg18 ((harg19.wordExact_slice rfl _ (k0_off3_wordsbf16 d0)).reshape _ _) harg18.wordExact)
  pure d0

def rest28 (v2 v588 v597 v606 v615 v633 v642 : BitVec 32) (v787 : FVec F S64x512 .f32) :
    Prog (TpuEff nD τ sig (Elt F) Λ₀ .tc) (Dev nD) := do
  k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v597 v606 v615 v633 v642
  let v844 : BitVec 32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v588 v787
  let ⟨v853, v862, v871, v880, v881, c0_i32_793⟩ : Σ' (v853 : BitVec 32) (v862 : BitVec 32) (v871 : BitVec 32) (v880 : BitVec 32) (v881 : BitVec 32), BitVec 32 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2
  let ⟨v889, v898, c1_i32_818⟩ : Σ' (v889 : BitVec 32) (v898 : BitVec 32), BitVec 32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v880 v881 c0_i32_793
  k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v853 v862 v871 v889 v898 c1_i32_818
  k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v844
  rest34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0

def rest23 (v2 v256 v267 v278 v289 v300 v311 v322 v429 v438 v447 v456 v465 v474 v483 v588 v597 v606 v615 v624 v633 v642 : BitVec 32) :
    Prog (TpuEff nD τ sig (Elt F) Λ₀ .tc) (Dev nD) := do
  let v678 : FVec F S64x512 .f32 ← k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v300 v311
  let v702 : FVec F S64x512 .f32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v267 v278 v322 v678
  let v726 : FVec F S64x512 .f32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v256 v289 v702
  let v740 : FVec F S64x512 .f32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v438 v465 v474 v483 v726
  let v787 : FVec F S64x512 .f32 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v429 v447 v456 v624 v740
  rest28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v588 v597 v606 v615 v633 v642 v787

def rest18 (v2 v164 v175 v186 v197 v208 v219 v230 v256 v267 v278 v289 v300 v311 v322 v429 v438 v447 v456 v465 v474 v483 : BitVec 32) (v495 : FVec F S64x512 .f32) (c1_i32_442 : BitVec 32) :
    Prog (TpuEff nD τ sig (Elt F) Λ₀ .tc) (Dev nD) := do
  let v519 : FVec F S64x512 .f32 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v208 v219 v230 v495 c1_i32_442
  let ⟨v543, v554⟩ : Σ' (v543 : FVec F S64x512 .f32), FVec F S64x512 .f32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v175 v186 v519
  let v580 : FVec F S64x512 .bf16 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v164 v197 v543 v554
  let ⟨v588, v597, v606, v615⟩ : Σ' (v588 : BitVec 32) (v597 : BitVec 32) (v606 : BitVec 32), BitVec 32 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v580
  let ⟨v624, v633, v642⟩ : Σ' (v624 : BitVec 32) (v633 : BitVec 32), BitVec 32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v615
  rest23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v256 v267 v278 v289 v300 v311 v322 v429 v438 v447 v456 v465 v474 v483 v588 v597 v606 v615 v624 v633 v642

def rest13 (v2 v69 v80 v91 v102 v124 v135 v164 v175 v186 v197 v208 v219 v230 v256 v267 v278 v289 v300 v311 v322 : BitVec 32) (v336 : FVec F S64x512 .f32) :
    Prog (TpuEff nD τ sig (Elt F) Λ₀ .tc) (Dev nD) := do
  let v372 : FVec F S64x512 .f32 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v124 v135 v336
  let v396 : FVec F S64x512 .f32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v80 v91 v102 v372
  let v429 : BitVec 32 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v69 v396
  let ⟨v438, v447, v456, c1_i32_416⟩ : Σ' (v438 : BitVec 32) (v447 : BitVec 32) (v456 : BitVec 32), BitVec 32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2
  let ⟨v465, v474, v483, v495, c1_i32_442⟩ : Σ' (v465 : BitVec 32) (v474 : BitVec 32) (v483 : BitVec 32) (v495 : FVec F S64x512 .f32), BitVec 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 c1_i32_416
  rest18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v164 v175 v186 v197 v208 v219 v230 v256 v267 v278 v289 v300 v311 v322 v429 v438 v447 v456 v465 v474 v483 v495 c1_i32_442

def rest09 (v2 v69 v80 v91 v102 v113 v124 v135 v164 v175 v186 v197 v208 v219 : BitVec 32) :
    Prog (TpuEff nD τ sig (Elt F) Λ₀ .tc) (Dev nD) := do
  let ⟨v230, v252⟩ : Σ' (v230 : BitVec 32), FVec F S8x64x512 .bf16 ← k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2
  let ⟨v256, v267, v278⟩ : Σ' (v256 : BitVec 32) (v267 : BitVec 32), BitVec 32 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v252
  let ⟨v289, v300, v311, v312, c0_i32_288⟩ : Σ' (v289 : BitVec 32) (v300 : BitVec 32) (v311 : BitVec 32) (v312 : BitVec 32), BitVec 32 ← k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2
  let ⟨v322, v336⟩ : Σ' (v322 : BitVec 32), FVec F S64x512 .f32 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v113 v312 c0_i32_288
  rest13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v69 v80 v91 v102 v124 v135 v164 v175 v186 v197 v208 v219 v230 v256 v267 v278 v289 v300 v311 v322 v336

end

-- The root sequence is its first eight parts followed by the rest.
theorem skel42_eq :
    k0_part42_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 = (do
  let ⟨d0, v2⟩ : Σ' (d0 : Dev nD), BitVec 32 ← k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35
  let v29 : Sems sig S_ ← k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2
  let v69 : BitVec 32 ← k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v29
  let ⟨v80, v91, v102⟩ : Σ' (v80 : BitVec 32) (v91 : BitVec 32), BitVec 32 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2
  let ⟨v113, v124, v135⟩ : Σ' (v113 : BitVec 32) (v124 : BitVec 32), BitVec 32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2
  let v164 : BitVec 32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v135
  let ⟨v175, v186⟩ : Σ' (v175 : BitVec 32), BitVec 32 ← k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v164
  let ⟨v197, v208, v219⟩ : Σ' (v197 : BitVec 32) (v208 : BitVec 32), BitVec 32 ← k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2
  rest09 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 arg24 arg25 arg26 arg27 arg28 arg29 arg30 arg31 arg32 arg33 arg34 arg35 d0 v2 v69 v80 v91 v102 v113 v124 v135 v164 v175 v186 v197 v208 v219) := rfl

end Cert.KernelIdeal.Hand

end
-- ==== Proof.Part01.lean ====
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part01 (m : (ℓ : Loc nD τ sig) → Buf (Elt F) ℓ) (c : Dev nD)
    (f12 : cc0_scratch12.ty.Contents (Elt F)) (f13 : cc0_scratch13.ty.Contents (Elt F)) (f14 : cc0_scratch14.ty.Contents (Elt F)) :
    iprop(semVal ((c : Thread nD τ), SemLoc.dma ls0) 0 ∗ semVal ((c : Thread nD τ), SemLoc.dma ls1) 0
      ∗ semVal ((c : Thread nD τ), SemLoc.dma ls2) 0 ∗ semVal ((c : Thread nD τ), SemLoc.dma ls3) 0
      ∗ semVal ((c : Thread nD τ), SemLoc.dma ls4) 0 ∗ semVal ((c : Thread nD τ), SemLoc.dma ls5) 0
      ∗ held c main_arg0 (m ((c : Thread nD τ).loc main_arg0)) ∗ held c main_arg1 (m ((c : Thread nD τ).loc main_arg1))
      ∗ held c main_arg2 (m ((c : Thread nD τ).loc main_arg2)) ∗ held c main_arg3 (m ((c : Thread nD τ).loc main_arg3))
      ∗ held c main_arg4 (m ((c : Thread nD τ).loc main_arg4)) ∗ held c main_arg5 (m ((c : Thread nD τ).loc main_arg5))
      ∗ held c cc0_scratch12 f12 ∗ held c cc0_scratch13 f13 ∗ held c cc0_scratch14 f14)
      ⊢ wp frame (wpE (defs₀ (F := F)) 𝒱₀ (c : Thread nD τ) none) Set.univ (bodyArgs% k0_part1)
          (fun r => iprop(⌜r = ⟨c, v2w c⟩⌝
            ∗ lflight0 m c f14 ∗ lflight1 m c f13 ∗ lflight2 m c f14 ∗ lflight3 m c f13 ∗ lflight4 m c f12 ∗ lflight5 m c f13
            ∗ srcRest m c main_arg0 ∗ srcRest m c main_arg1 ∗ srcRest m c main_arg2 ∗ srcRest m c main_arg3
            ∗ srcRest m c main_arg4 ∗ srcRest m c main_arg5
            ∗ rest13_3 m c f13 ∗ rest14_2 m c f14)) := by
  iintro ⟨H0, H1, H2, H3, H4, H5, A0, A1, A2, A3, A4, A5, H12, H13, H14⟩
  rw [k0_part1_eq_skeleton]
  unfold k0_part1_skel
  set_option sl_exec.dmaWindow true in
  sl_exec
  sl_step
  sl_close

end Cert.KernelIdeal.Hand

end
-- ==== Proof.Part02.lean ====
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.Steps

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part02 (m : (ℓ : Loc nD τ sig) → Buf (Elt F) ℓ) (c : Dev nD) (f14 : cc0_scratch14.ty.Contents (Elt F))
    (W : Waits sig Unit) {κ1 κ2 κ3 κ4 κ5 κ6 : ℕ} :
    iprop(semVal ((c : Thread nD τ), SemLoc.dma ls6) 0 ∗ held c main_arg6 (m ((c : Thread nD τ).loc main_arg6)) ∗ rest14_2 m c f14
      ∗ owes (c : Thread nD τ) (owedAfter c 0) W
      ∗ cellInv ER (sched m) κ1 (barCell (px c 1)) ∗ dutyTok ER (barCell (px c 1)) 0 1 ∗ barPay (px c 1) 1 ∗ reached ER (barCell (px c 1)) 0
      ∗ cellInv ER (sched m) κ2 (barCell (px c 2)) ∗ dutyTok ER (barCell (px c 2)) 0 2 ∗ barPay (px c 2) 2 ∗ reached ER (barCell (px c 2)) 0
      ∗ cellInv ER (sched m) κ3 (barCell (px c 3)) ∗ dutyTok ER (barCell (px c 3)) 0 3 ∗ barPay (px c 3) 3 ∗ reached ER (barCell (px c 3)) 0
      ∗ cellInv ER (sched m) κ4 (barCell (px c 4)) ∗ dutyTok ER (barCell (px c 4)) 0 4 ∗ barPay (px c 4) 4 ∗ reached ER (barCell (px c 4)) 0
      ∗ cellInv ER (sched m) κ5 (barCell (px c 5)) ∗ dutyTok ER (barCell (px c 5)) 0 5 ∗ barPay (px c 5) 5 ∗ reached ER (barCell (px c 5)) 0
      ∗ cellInv ER (sched m) κ6 (barCell (px c 6)) ∗ dutyTok ER (barCell (px c 6)) 0 6 ∗ barPay (px c 6) 6 ∗ reached ER (barCell (px c 6)) 0)
      ⊢ wp frame (wpE (defs₀ (F := F)) 𝒱₀ (c : Thread nD τ) none) Set.univ ((bodyArgs% k0_part2) c (v2w c))
          (fun r => iprop(⌜r = (SemArray.scalar (sig.barrier 0 rfl) : Sems sig S_)⌝
            ∗ lflight6 m c f14 ∗ srcRest m c main_arg6 ∗ rest14_3 m c f14 ∗ owes (c : Thread nD τ) (owedAfter c 6) W)) := by
  iintro ⟨HS6, A6, H14, HO, I1, T1, P1, R1, I2, T2, P2, R2, I3, T3, P3, R3, I4, T4, P4, R4, I5, T5, P5, R5, I6, T6, P6, R6⟩
  rw [k0_part2_eq_skeleton]
  unfold k0_part2_skel
  set_option sl_exec.dmaWindow true in
  sl_exec
  iapply (step_signal m c _ 1 (by decide) (dev1_eq c) rfl (owedAfter c 1) (owedAfter_step c 0 _ _ rfl)) $$ [I1 HO T1 P1 R1]
  · sl_close
  iintro HO
  first | sl_step | skip
  iapply (step_signal m c _ 2 (by decide) (dev2_eq c) rfl (owedAfter c 2) (owedAfter_step c 1 _ _ rfl)) $$ [I2 HO T2 P2 R2]
  · sl_close
  iintro HO
  first | sl_step | skip
  iapply (step_signal m c _ 3 (by decide) (dev3_eq c) rfl (owedAfter c 3) (owedAfter_step c 2 _ _ rfl)) $$ [I3 HO T3 P3 R3]
  · sl_close
  iintro HO
  first | sl_step | skip
  iapply (step_signal m c _ 4 (by decide) (dev4_eq c) rfl (owedAfter c 4) (owedAfter_step c 3 _ _ rfl)) $$ [I4 HO T4 P4 R4]
  · sl_close
  iintro HO
  first | sl_step | skip
  iapply (step_signal m c _ 5 (by decide) (dev5_eq c) rfl (owedAfter c 5) (owedAfter_step c 4 _ _ rfl)) $$ [I5 HO T5 P5 R5]
  · sl_close
  iintro HO
  first | sl_step | skip
  iapply (step_signal m c _ 6 (by decide) (dev6_eq c) rfl (owedAfter c 6) (owedAfter_step c 5 _ _ rfl)) $$ [I6 HO T6 P6 R6]
  · sl_close
  iintro HO
  first | sl_step | skip
  first | sl_step | (unfold Prog.bind; sl_step)
  sl_close

end Cert.KernelIdeal.Hand

end
-- ==== Proof.LocalWait.lean ====
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.Steps
import Idealize.ShloMosaic.Lib.ValueLayout

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

open Idealize.ShloMosaic.ValueIdx (ix2 ix3)

theorem lv_local (c : Dev nD) (s : DmaSem sig) (hs : 97 ≤ s.val) : lv ((c : Thread nD τ), SemLoc.dma s) () = 0 := by
  have h : xOf s = none := by unfold xOf; exact dif_neg (by omega)
  dsimp only [lv]; rw [h]

theorem mayWait_local (c : Dev nD) (s : DmaSem sig) (hs : 97 ≤ s.val) {n : ℕ} (hn : 7 ≤ n) :
    (levAts L lv : sProp 𝕄) ⊢ MayWait (c : Thread nD τ) (.dma s) () (owedAfter c n) :=
  mayWait_of_tail c (.dma s) n 0 (lv_local c s hs) (fun d hd => by
    have hd := mem_drop_of_le hn hd
    rw [debts_drop_7] at hd
    exact tail_levels c recvOrder 0 (by decide) d hd)

theorem eq_up3_of_cast {A B : Nat} {e : EltTy} (v : Vec F ⟨3, ![1, A, B]⟩ e) (P : Vec F ⟨2, ![A, B]⟩ e)
    (hc : (⟨3, ![1, A, B]⟩ : Shape).ShapeCasts ⟨2, ![A, B]⟩) (h : shapeCast ⟨2, ![A, B]⟩ v hc = P) : v = up3 P := by
  funext i
  obtain ⟨a, b, d, rfl⟩ : ∃ (a : Fin 1) (b : Fin A) (d : Fin B), i = ix3 a b d := ⟨i 0, i 1, i 2, ValueIdx.eq_ix3 i⟩
  have ha : a = 0 := Subsingleton.elim _ _
  subst ha
  rw [← h]
  exact (ValueIdx.shapeCast_1ab_ab_apply v hc b d).symm

end Cert.KernelIdeal.Hand

end
-- ==== Proof.Part03.lean ====
import proofs.«900577_g7700000000000578_dist_mlpseq_tp1dT_cs_cs_b512_d256_h512_v7x_i8_f32_1_alg».proof.Proof.LocalWait

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

open Idealize.ShloMosaic.ValueIdx (ix2 ix3)

theorem writes_full_s2 (f2 : cc0_scratch2.ty.Contents (Elt F)) (w : S8x64x512.Idx → Elt F .bf16) :
    (Memref.whole cc0_scratch2).view.writes (Elt F) f2 [⟨Rect.unit (s := S8x64x512) ![0, 0, 0] S8x64x512.size inb_S8x64x512_S8x64x512_0_0_0, w⟩] = w := by
  show ((View.whole cc0_scratch2).slice (Rect.unit (s := S8x64x512) ![0, 0, 0] S8x64x512.size inb_S8x64x512_S8x64x512_0_0_0)).write (Elt F) f2 w Finset.univ = w
  funext i
  have hy : ((View.whole cc0_scratch2).slice (Rect.unit (s := S8x64x512) ![0, 0, 0] S8x64x512.size inb_S8x64x512_S8x64x512_0_0_0)).emb i = i := by
    funext a; apply Fin.ext
    rw [View.emb_slice, Function.Embedding.trans_apply, View.emb_whole, Function.Embedding.refl_apply, Rect.emb_apply]
    show (![0, 0, 0] : Fin 3 → Nat) a + 1 * (i a).val = (i a).val
    fin_cases a <;> simp
  conv_lhs => rw [← hy, View.write_emb_of_mem _ _ (Finset.mem_univ _)]
  rfl

theorem part1_stored (m : (ℓ : Loc nD τ sig) → Buf (Elt F) ℓ) (c : Dev nD)
    (f13 : cc0_scratch13.ty.Contents (Elt F)) (f14 : cc0_scratch14.ty.Contents (Elt F)) (f2 : cc0_scratch2.ty.Contents (Elt F)) :
    (Memref.whole cc0_scratch2).view.writes (Elt F) f2
      [⟨Rect.unit (s := S8x64x512) ![0, 0, 0] S8x64x512.size inb_S8x64x512_S8x64x512_0_0_0,
        k0_pay1 (View.readAt (Elt F) (Memref.whole cc0_scratch14).view (Rect.unit (s := S3x512x256) ![0, 0, 0] S1x512x256.size inb_S3x512x256_S1x512x256_0_0_0).toLoadRect (g14_1 m c f14))
          (View.readAt (Elt F) (Memref.whole cc0_scratch13).view (Rect.unit (s := S3x256x512) ![1, 0, 0] S1x256x512.size inb_S3x256x512_S1x256x512_1_0_0).toLoadRect (g13_1 m c f13))⟩]
      = part1 m c := by
  rw [writes_full_s2]
  unfold part1
  congr 1
  · refine eq_up3_of_cast _ _ shapeCasts_S1x512x256_S512x256 ?_
    show wovW0.view.read (Elt F) (wovW0.view.write (Elt F) f14 (pay m c main_arg2) Finset.univ) = aWo0 m c
    rw [View.read_write_univ]; rfl
  · refine eq_up3_of_cast _ _ shapeCasts_S1x256x512_S256x512 ?_
    show wivW1.view.read (Elt F) (wivW1.view.write (Elt F) f13 (pay m c main_arg3) Finset.univ) = aWi1 m c
    rw [View.read_write_univ]; rfl

theorem part03 (m : (ℓ : Loc nD τ sig) → Buf (Elt F) ℓ) (c : Dev nD)
    (f13 : cc0_scratch13.ty.Contents (Elt F)) (f14 : cc0_scratch14.ty.Contents (Elt F)) (f2 : cc0_scratch2.ty.Contents (Elt F))
    (W : Waits sig Unit) {κ7 κb : ℕ} :
    iprop(owes (c : Thread nD τ) (owedAfter c 6) W
      ∗ cellInv ER (sched m) κ7 (barCell (px c 7)) ∗ dutyTok ER (barCell (px c 7)) 0 7 ∗ barPay (px c 7) 7 ∗ reached ER (barCell (px c 7)) 0
      ∗ cellInv ER (sched m) κb (barCell c) ∗ cred (tallyAt (barCell c) () 7) ∗ atPos ER (barCell c) 0 ∅ 0 ∗ levAts L lv
      ∗ lflight0 m c f14 ∗ srcRest m c main_arg2 ∗ lflight1 m c f13 ∗ srcRest m c main_arg3
      ∗ held c cc0_scratch2 f2)
      ⊢ wp frame (wpE (defs₀ (F := F)) 𝒱₀ (c : Thread nD τ) none) Set.univ
          ((bodyArgs% k0_part3) c (v2w c) (SemArray.scalar (sig.barrier 0 rfl)))
          (fun r => iprop(⌜r = Scalar.xori (v2w c) 6#32⌝
            ∗ (∃ W', owes (c : Thread nD τ) (owedAfter c 7) W')
            ∗ atPos ER (barCell c) 1 ∅ 0 ∗ reached ER (barCell c) 1
            ∗ bigSep (Finset.univ.erase (0 : Fin 8)) (fun k => barPay (F := F) c k)
            ∗ held c main_arg2 (m ((c : Thread nD τ).loc main_arg2)) ∗ held c main_arg3 (m ((c : Thread nD τ).loc main_arg3))
            ∗ semVal ((c : Thread nD τ), SemLoc.dma ls0) 0 ∗ semVal ((c : Thread nD τ), SemLoc.dma ls1) 0
            ∗ (wovW0.view.loc (c : Thread nD τ) ↦[wovW0.view.set]{fullShare} g14_1 m c f14)
            ∗ (wivW1.view.loc (c : Thread nD τ) ↦[wivW1.view.set]{fullShare} g13_1 m c f13)
            ∗ held c cc0_scratch2 (part1 m c))) := by
  iintro ⟨HO, I7, T7, P7, R7, Ib, Cb, Pb, #HL, F0, S2, F1, S3, H2⟩
  rw [k0_part3_eq_skeleton]
  unfold k0_part3_skel
  iapply (step_signal m c _ 7 (by decide) (dev7_eq c) rfl (owedAfter c 7) (owedAfter_step c 6 _ _ rfl)) $$ [I7 HO T7 P7 R7]
  · sl_close
  iintro HO
  first | sl_step | skip
  ihave HMb := (mayWait_bar c (le_refl 7)) $$ HL
  iapply (step_barwait m c rfl) $$ [Ib Cb HO HMb Pb]
  · sl_close
  iintro ⟨HO, Pb, Rb, Pays⟩
  first | sl_step | unfold Prog.bind
  have hmw0 := mayWait_local (F := F) c ls0 (by decide) (le_refl 7)
  have hmw1 := mayWait_local (F := F) c ls1 (by decide) (le_refl 7)
  sl_exec
  ihave W0 : (wovW0.view.loc (c : Thread nD τ) ↦[wovW0.view.set]{fullShare} g14_1 m c f14) $$ [F0_dst]
  · iexact F0_dst
  ihave W1 : (wivW1.view.loc (c : Thread nD τ) ↦[wivW1.view.set]{fullShare} g13_1 m c f13) $$ [F1_dst]
  · iexact F1_dst
  sl_exec
  ihave H2' : (held c cc0_scratch2 (part1 m c)) $$ [H2]
  · rw [← part1_stored m c f13 f14 f2]; iexact H2
  sl_step
  sl_close

end Cert.KernelIdeal.Hand

end
-- ==== Proof.SendAt.lean ====
import proofs.«900577_g7700000000000578_dist_mlpseq_tp1dT_cs_cs_b512_d256_h512_v7x_i8_f32_1_alg».proof.Proof.Proto
import proofs.«900577_g7700000000000578_dist_mlpseq_tp1dT_cs_cs_b512_d256_h512_v7x_i8_f32_1_alg».proof.Proof.Sched
import proofs.«900577_g7700000000000578_dist_mlpseq_tp1dT_cs_cs_b512_d256_h512_v7x_i8_f32_1_alg».proof.Proof.Steps

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

-- One copy of an exchange: the sender's slot for the peer at offset `k` goes to slot `k` of that peer's stack, once each landing is shown to tell its waiter what the schedule promises.
theorem step_send_at (c n : Dev nD) (k : Fin 8) (hk : k ≠ 0) (hn : n = px c k) (aS aR : Fin 12)
    (Ms Md : Memref sig .tc .vmem S8x64x512 .bf16) (P : Buf (Elt F) (Ms.view.loc (c : Thread nD τ))) {κ₁ κ₂ : ℕ}
    {off : Fin 3 → ℕ} (hoff : off = ![(px c k).val, 0, 0])
    {hin : ∀ a, off a + S1x64x512.size a ≤ S8x64x512.size a}
    {hst : ∀ a, (Rect.unit (s := S8x64x512) off S1x64x512.size hin).stride a = 1}
    {hsc : (slotM Md k : Memref sig (Dev.tc n : Thread nD τ).2.kind .vmem S64x512 .bf16).view.ref.isScScratch = false}
    {hsrc : ((Ms.slice (Rect.unit (s := S8x64x512) off S1x64x512.size hin) hst).squeeze S64x512 squeezes_S1x64x512_S64x512).view.WordExact}
    {hdst : (slotM Md k).view.WordExact}
    {hsem : DmaTarget.Typed .vmem (.dma (xsem aR k)) (.remote (Dev.tc n : Thread nD τ) (slotM Md k) (.dma (xsem aS k)) hsc)}
    (fd : Buf (Elt F) ((slotM Md k).view.loc (px c k : Thread nD τ)))
    (h₁ : (slotPts c Ms (px c k) P : sProp 𝕄) ⊢ xPay m c aS k)
    (h₂ : ((slotM Md k).view.loc (px c k : Thread nD τ) ↦[(slotM Md k).view.set]{fullShare}
        (slotM Md k).view.write (Elt F) fd ((slotM Ms (px c k)).view.read (Elt F) P) Finset.univ : sProp 𝕄) ⊢ xPay m (px c k) aR k)
    {O₀' : CellTallies nD τ sig Unit} (O : CellTallies nD τ sig Unit) (hO : O₀' = O + tallyAt (xCell (px c k) aR k) () N)
    {W : Waits sig Unit} {α : Type} {Q : α → sProp 𝕄} {kk : PUnit → Prog (TpuEff nD τ sig (Elt F) Λ₀ .tc) α} :
    iprop(cellInv ER (sched m) κ₁ (xCell c aS k) ∗ cellInv ER (sched m) κ₂ (xCell (px c k) aR k)
        ∗ slotPts c Ms (px c k) P ∗ slotPts (px c k) Md k fd
        ∗ owes (c : Thread nD τ) O₀' W
        ∗ dutyTok ER (xCell c aS k) 0 0 ∗ reached ER (xCell c aS k) 0
        ∗ dutyTok ER (xCell (px c k) aR k) 0 0 ∗ reached ER (xCell (px c k) aR k) 0)
      ⊢ iprop(((cred (tallyAt (xCell c aS k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((Ms.slice (Rect.unit (s := S8x64x512) off S1x64x512.size hin) hst).squeeze S64x512 squeezes_S1x64x512_S64x512)
                (.remote (Dev.tc n : Thread nD τ) (slotM Md k) (.dma (xsem aS k)) hsc)
                (.dma (xsem aR k)) hsrc hdst hsem) kk) Q) := by
  subst hoff
  unfold slotPts at h₁ ⊢
  exact step_send_gen m c n k hk hn aS aR (slotM Ms (px c k)) (slotM Md k) fullShare P fd rfl h₁ h₂ O hO

end Cert.KernelIdeal.Hand

end
-- ==== Proof.Part04.lean ====
import proofs.«900577_g7700000000000578_dist_mlpseq_tp1dT_cs_cs_b512_d256_h512_v7x_i8_f32_1_alg».proof.Proof.Proto
import proofs.«900577_g7700000000000578_dist_mlpseq_tp1dT_cs_cs_b512_d256_h512_v7x_i8_f32_1_alg».proof.Proof.Sched
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.SendAt

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part04 (c : Dev nD) (v2 : BitVec 32) (κs κr : Fin 8 → ℕ) (W : Waits sig Unit) :
    iprop((cellInv ER (sched m) (κs 6) (xCell c 2 6) ∗ cellInv ER (sched m) (κr 6) (xCell (px c 6) 3 6)
        ∗ slotPts c (Memref.whole cc0_scratch2) (px c 6) (part1 m c) ∗ (∃ f, slotPts (px c 6) (Memref.whole cc0_scratch3) 6 f)
        ∗ dutyTok ER (xCell c 2 6) 0 0 ∗ reached ER (xCell c 2 6) 0
        ∗ dutyTok ER (xCell (px c 6) 3 6) 0 0 ∗ reached ER (xCell (px c 6) 3 6) 0)
      ∗ (cellInv ER (sched m) (κs 2) (xCell c 2 2) ∗ cellInv ER (sched m) (κr 2) (xCell (px c 2) 3 2)
        ∗ slotPts c (Memref.whole cc0_scratch2) (px c 2) (part1 m c) ∗ (∃ f, slotPts (px c 2) (Memref.whole cc0_scratch3) 2 f)
        ∗ dutyTok ER (xCell c 2 2) 0 0 ∗ reached ER (xCell c 2 2) 0
        ∗ dutyTok ER (xCell (px c 2) 3 2) 0 0 ∗ reached ER (xCell (px c 2) 3 2) 0)
      ∗ (cellInv ER (sched m) (κs 5) (xCell c 2 5) ∗ cellInv ER (sched m) (κr 5) (xCell (px c 5) 3 5)
        ∗ slotPts c (Memref.whole cc0_scratch2) (px c 5) (part1 m c) ∗ (∃ f, slotPts (px c 5) (Memref.whole cc0_scratch3) 5 f)
        ∗ dutyTok ER (xCell c 2 5) 0 0 ∗ reached ER (xCell c 2 5) 0
        ∗ dutyTok ER (xCell (px c 5) 3 5) 0 0 ∗ reached ER (xCell (px c 5) 3 5) 0)
      ∗ owes (c : Thread nD τ) (owedAfter c 7) W)
      ⊢ wp frame (wpE (defs₀ (F := F)) 𝒱₀ (c : Thread nD τ) none) Set.univ
          (k0_part4 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27 c v2)
          (fun r => iprop(⌜r = ⟨Scalar.xori v2 2#32, Scalar.xori v2 5#32, Scalar.xori v2 7#32⟩⌝
            ∗ cred (tallyAt (xCell c 2 6) () N) ∗ cred (tallyAt (xCell c 2 2) () N) ∗ cred (tallyAt (xCell c 2 5) () N)
            ∗ owes (c : Thread nD τ) (owedAfter c 10) W)) := by
  iintro ⟨⟨I6s, I6r, S6, D6, T6s, R6s, T6r, R6r⟩, ⟨I2s, I2r, S2, D2, T2s, R2s, T2r, R2r⟩, ⟨I5s, I5r, S5, D5, T5s, R5s, T5r, R5r⟩, Ho⟩
  rw [k0_part4_eq_skeleton]
  unfold k0_part4_skel
  sl_exec
  icases D6 with ⟨%fd6, D6⟩
  iapply (step_send_at m c ⟨k0_dev8 c, k0_dev8_lt c⟩ 6 (by decide) (dev8_eq c) 2 3 (Memref.whole cc0_scratch2) (Memref.whole cc0_scratch3) (part1 m c) (off1_6 c) fd6 Entails.rfl (Entails.of_eq (landed_rs1 m c 6 fd6)) (owedAfter c 8) (owedAfter_step c 7 _ _ rfl)) $$ [I6s I6r S6 D6 Ho T6s R6s T6r R6r]
  · iframe
  iintro ⟨C6, Ho⟩
  sl_exec
  icases D2 with ⟨%fd2, D2⟩
  iapply (step_send_at m c ⟨k0_dev9 c, k0_dev9_lt c⟩ 2 (by decide) (dev9_eq c) 2 3 (Memref.whole cc0_scratch2) (Memref.whole cc0_scratch3) (part1 m c) (off1_2 c) fd2 Entails.rfl (Entails.of_eq (landed_rs1 m c 2 fd2)) (owedAfter c 9) (owedAfter_step c 8 _ _ rfl)) $$ [I2s I2r S2 D2 Ho T2s R2s T2r R2r]
  · iframe
  iintro ⟨C2, Ho⟩
  sl_exec
  icases D5 with ⟨%fd5, D5⟩
  iapply (step_send_at m c ⟨k0_dev10 c, k0_dev10_lt c⟩ 5 (by decide) (dev10_eq c) 2 3 (Memref.whole cc0_scratch2) (Memref.whole cc0_scratch3) (part1 m c) (off1_5 c) fd5 Entails.rfl (Entails.of_eq (landed_rs1 m c 5 fd5)) (owedAfter c 10) (owedAfter_step c 9 _ _ rfl)) $$ [I5s I5r S5 D5 Ho T5s R5s T5r R5r]
  · iframe
  iintro ⟨C5, Ho⟩
  sl_exec
  sl_step
  isplitr
  · ipureintro; rfl
  sl_close

end Cert.KernelIdeal.Hand

end
-- ==== Proof.Part05.lean ====
import proofs.«900577_g7700000000000578_dist_mlpseq_tp1dT_cs_cs_b512_d256_h512_v7x_i8_f32_1_alg».proof.Proof.Proto
import proofs.«900577_g7700000000000578_dist_mlpseq_tp1dT_cs_cs_b512_d256_h512_v7x_i8_f32_1_alg».proof.Proof.Sched
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.SendAt

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part05 (c : Dev nD) (v2 : BitVec 32) (κs κr : Fin 8 → ℕ) (W : Waits sig Unit) :
    iprop((cellInv ER (sched m) (κs 7) (xCell c 2 7) ∗ cellInv ER (sched m) (κr 7) (xCell (px c 7) 3 7)
        ∗ slotPts c (Memref.whole cc0_scratch2) (px c 7) (part1 m c) ∗ (∃ f, slotPts (px c 7) (Memref.whole cc0_scratch3) 7 f)
        ∗ dutyTok ER (xCell c 2 7) 0 0 ∗ reached ER (xCell c 2 7) 0
        ∗ dutyTok ER (xCell (px c 7) 3 7) 0 0 ∗ reached ER (xCell (px c 7) 3 7) 0)
      ∗ (cellInv ER (sched m) (κs 1) (xCell c 2 1) ∗ cellInv ER (sched m) (κr 1) (xCell (px c 1) 3 1)
        ∗ slotPts c (Memref.whole cc0_scratch2) (px c 1) (part1 m c) ∗ (∃ f, slotPts (px c 1) (Memref.whole cc0_scratch3) 1 f)
        ∗ dutyTok ER (xCell c 2 1) 0 0 ∗ reached ER (xCell c 2 1) 0
        ∗ dutyTok ER (xCell (px c 1) 3 1) 0 0 ∗ reached ER (xCell (px c 1) 3 1) 0)
      ∗ (cellInv ER (sched m) (κs 3) (xCell c 2 3) ∗ cellInv ER (sched m) (κr 3) (xCell (px c 3) 3 3)
        ∗ slotPts c (Memref.whole cc0_scratch2) (px c 3) (part1 m c) ∗ (∃ f, slotPts (px c 3) (Memref.whole cc0_scratch3) 3 f)
        ∗ dutyTok ER (xCell c 2 3) 0 0 ∗ reached ER (xCell c 2 3) 0
        ∗ dutyTok ER (xCell (px c 3) 3 3) 0 0 ∗ reached ER (xCell (px c 3) 3 3) 0)
      ∗ owes (c : Thread nD τ) (owedAfter c 10) W)
      ⊢ wp frame (wpE (defs₀ (F := F)) 𝒱₀ (c : Thread nD τ) none) Set.univ
          (k0_part5 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27 c v2)
          (fun r => iprop(⌜r = ⟨Scalar.xori v2 1#32, Scalar.xori v2 3#32, Scalar.xori v2 4#32⟩⌝
            ∗ cred (tallyAt (xCell c 2 7) () N) ∗ cred (tallyAt (xCell c 2 1) () N) ∗ cred (tallyAt (xCell c 2 3) () N)
            ∗ owes (c : Thread nD τ) (owedAfter c 13) W)) := by
  iintro ⟨⟨I7s, I7r, S7, D7, T7s, R7s, T7r, R7r⟩, ⟨I1s, I1r, S1, D1, T1s, R1s, T1r, R1r⟩, ⟨I3s, I3r, S3, D3, T3s, R3s, T3r, R3r⟩, Ho⟩
  rw [k0_part5_eq_skeleton]
  unfold k0_part5_skel
  sl_exec
  icases D7 with ⟨%fd7, D7⟩
  iapply (step_send_at m c ⟨k0_dev11 c, k0_dev11_lt c⟩ 7 (by decide) (dev11_eq c) 2 3 (Memref.whole cc0_scratch2) (Memref.whole cc0_scratch3) (part1 m c) (off1_7 c) fd7 Entails.rfl (Entails.of_eq (landed_rs1 m c 7 fd7)) (owedAfter c 11) (owedAfter_step c 10 _ _ rfl)) $$ [I7s I7r S7 D7 Ho T7s R7s T7r R7r]
  · iframe
  iintro ⟨C7, Ho⟩
  sl_exec
  icases D1 with ⟨%fd1, D1⟩
  iapply (step_send_at m c ⟨k0_dev12 c, k0_dev12_lt c⟩ 1 (by decide) (dev12_eq c) 2 3 (Memref.whole cc0_scratch2) (Memref.whole cc0_scratch3) (part1 m c) (off1_1 c) fd1 Entails.rfl (Entails.of_eq (landed_rs1 m c 1 fd1)) (owedAfter c 12) (owedAfter_step c 11 _ _ rfl)) $$ [I1s I1r S1 D1 Ho T1s R1s T1r R1r]
  · iframe
  iintro ⟨C1, Ho⟩
  sl_exec
  icases D3 with ⟨%fd3, D3⟩
  iapply (step_send_at m c ⟨k0_dev13 c, k0_dev13_lt c⟩ 3 (by decide) (dev13_eq c) 2 3 (Memref.whole cc0_scratch2) (Memref.whole cc0_scratch3) (part1 m c) (off1_3 c) fd3 Entails.rfl (Entails.of_eq (landed_rs1 m c 3 fd3)) (owedAfter c 13) (owedAfter_step c 12 _ _ rfl)) $$ [I3s I3r S3 D3 Ho T3s R3s T3r R3r]
  · iframe
  iintro ⟨C3, Ho⟩
  sl_exec
  sl_step
  isplitr
  · ipureintro; rfl
  sl_close

end Cert.KernelIdeal.Hand

end
-- ==== Proof.Part06.lean ====
import proofs.«900577_g7700000000000578_dist_mlpseq_tp1dT_cs_cs_b512_d256_h512_v7x_i8_f32_1_alg».proof.Proof.Proto
import proofs.«900577_g7700000000000578_dist_mlpseq_tp1dT_cs_cs_b512_d256_h512_v7x_i8_f32_1_alg».proof.Proof.Sched
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.SendAt
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.LocalWait

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.ValueIdx (ix2 ix3)

theorem writes_full_s5 (f5 : cc0_scratch5.ty.Contents (Elt F)) (w : S8x64x512.Idx → Elt F .bf16) :
    (Memref.whole cc0_scratch5).view.writes (Elt F) f5 [⟨Rect.unit (s := S8x64x512) ![0, 0, 0] S8x64x512.size inb_S8x64x512_S8x64x512_0_0_0, w⟩] = w := by
  show ((View.whole cc0_scratch5).slice (Rect.unit (s := S8x64x512) ![0, 0, 0] S8x64x512.size inb_S8x64x512_S8x64x512_0_0_0)).write (Elt F) f5 w Finset.univ = w
  funext i
  have hy : ((View.whole cc0_scratch5).slice (Rect.unit (s := S8x64x512) ![0, 0, 0] S8x64x512.size inb_S8x64x512_S8x64x512_0_0_0)).emb i = i := by
    funext a; apply Fin.ext
    rw [View.emb_slice, Function.Embedding.trans_apply, View.emb_whole, Function.Embedding.refl_apply, Rect.emb_apply]
    show (![0, 0, 0] : Fin 3 → Nat) a + 1 * (i a).val = (i a).val
    fin_cases a <;> simp
  conv_lhs => rw [← hy, View.write_emb_of_mem _ _ (Finset.mem_univ _)]
  rfl

theorem part2_stored (c : Dev nD)
    (f13 : cc0_scratch13.ty.Contents (Elt F)) (f14 : cc0_scratch14.ty.Contents (Elt F)) (f5 : cc0_scratch5.ty.Contents (Elt F)) :
    (Memref.whole cc0_scratch5).view.writes (Elt F) f5
      [⟨Rect.unit (s := S8x64x512) ![0, 0, 0] S8x64x512.size inb_S8x64x512_S8x64x512_0_0_0,
        k0_pay2 (View.readAt (Elt F) (Memref.whole cc0_scratch14).view (Rect.unit (s := S3x512x256) ![1, 0, 0] S1x512x256.size inb_S3x512x256_S1x512x256_1_0_0).toLoadRect (g14_2 m c f14))
          (View.readAt (Elt F) (Memref.whole cc0_scratch13).view (Rect.unit (s := S3x256x512) ![2, 0, 0] S1x256x512.size inb_S3x256x512_S1x256x512_2_0_0).toLoadRect (g13_2 m c f13))⟩]
      = part2 m c := by
  rw [writes_full_s5]
  unfold part2
  congr 1
  · refine eq_up3_of_cast _ _ shapeCasts_S1x512x256_S512x256 ?_
    show wovW1.view.read (Elt F) (wovW1.view.write (Elt F) (g14_1 m c f14) (pay m c main_arg4) Finset.univ) = aWo1 m c
    rw [View.read_write_univ]; rfl
  · refine eq_up3_of_cast _ _ shapeCasts_S1x256x512_S256x512 ?_
    show wivW2.view.read (Elt F) (wivW2.view.write (Elt F) (g13_1 m c f13) (pay m c main_arg5) Finset.univ) = aWi2 m c
    rw [View.read_write_univ]; rfl

theorem part06 (c : Dev nD) (v2 v135 : BitVec 32) (f5 : cc0_scratch5.ty.Contents (Elt F))
    (f13 : cc0_scratch13.ty.Contents (Elt F)) (f14 : cc0_scratch14.ty.Contents (Elt F)) (κs κr : Fin 8 → ℕ) (W : Waits sig Unit) :
    iprop((cellInv ER (sched m) (κs 4) (xCell c 2 4) ∗ cellInv ER (sched m) (κr 4) (xCell (px c 4) 3 4)
        ∗ slotPts c (Memref.whole cc0_scratch2) (px c 4) (part1 m c) ∗ (∃ f, slotPts (px c 4) (Memref.whole cc0_scratch3) 4 f)
        ∗ dutyTok ER (xCell c 2 4) 0 0 ∗ reached ER (xCell c 2 4) 0
        ∗ dutyTok ER (xCell (px c 4) 3 4) 0 0 ∗ reached ER (xCell (px c 4) 3 4) 0)
      ∗ owes (c : Thread nD τ) (owedAfter c 13) W
      ∗ levAts L lv
      ∗ lflight2 m c f14 ∗ srcRest m c main_arg4 ∗ lflight3 m c f13 ∗ srcRest m c main_arg5
      ∗ held c cc0_scratch5 f5)
      ⊢ wp frame (wpE (defs₀ (F := F)) 𝒱₀ (c : Thread nD τ) none) Set.univ
          (k0_part6 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27 c v2 v135)
          (fun r => iprop(⌜r = Scalar.xori v2 6#32⌝
            ∗ cred (tallyAt (xCell c 2 4) () N)
            ∗ owes (c : Thread nD τ) (owedAfter c 14) (insert (SemLoc.dma ls3, ()) (insert (SemLoc.dma ls2, ()) W))
            ∗ held c main_arg4 (m ((c : Thread nD τ).loc main_arg4)) ∗ held c main_arg5 (m ((c : Thread nD τ).loc main_arg5))
            ∗ semVal ((c : Thread nD τ), SemLoc.dma ls2) 0 ∗ semVal ((c : Thread nD τ), SemLoc.dma ls3) 0
            ∗ (wovW1.view.loc (c : Thread nD τ) ↦[wovW1.view.set]{fullShare} g14_2 m c f14)
            ∗ (wivW2.view.loc (c : Thread nD τ) ↦[wivW2.view.set]{fullShare} g13_2 m c f13)
            ∗ held c cc0_scratch5 (part2 m c))) := by
  iintro ⟨⟨I4s, I4r, S4, D4, T4s, R4s, T4r, R4r⟩, Ho, #HL, Fl2, Sr4, Fl3, Sr5, H5⟩
  rw [k0_part6_eq_skeleton]
  unfold k0_part6_skel
  sl_exec
  icases D4 with ⟨%fd4, D4⟩
  iapply (step_send_at m c ⟨k0_dev14 c, k0_dev14_lt c⟩ 4 (by decide) (dev14_eq c) 2 3 (Memref.whole cc0_scratch2) (Memref.whole cc0_scratch3) (part1 m c) (off1_4 c) fd4 Entails.rfl (Entails.of_eq (landed_rs1 m c 4 fd4)) (owedAfter c 14) (owedAfter_step c 13 _ _ rfl)) $$ [I4s I4r S4 D4 Ho T4s R4s T4r R4r]
  · iframe
  iintro ⟨C4, Ho⟩
  first | sl_step | skip
  have hmw2 := mayWait_local (F := F) c ls2 (by decide) (n := 14) (by decide)
  have hmw3 := mayWait_local (F := F) c ls3 (by decide) (n := 14) (by decide)
  sl_exec
  ihave W1 : (wovW1.view.loc (c : Thread nD τ) ↦[wovW1.view.set]{fullShare} g14_2 m c f14) $$ [Fl2_dst]
  · iexact Fl2_dst
  ihave W2 : (wivW2.view.loc (c : Thread nD τ) ↦[wivW2.view.set]{fullShare} g13_2 m c f13) $$ [Fl3_dst]
  · iexact Fl3_dst
  sl_exec
  ihave H5' : (held c cc0_scratch5 (part2 m c)) $$ [H5]
  · rw [← part2_stored m c f13 f14 f5]; iexact H5
  sl_step
  sl_close

end Cert.KernelIdeal.Hand

end
-- ==== Proof.Part07.lean ====
import proofs.«900577_g7700000000000578_dist_mlpseq_tp1dT_cs_cs_b512_d256_h512_v7x_i8_f32_1_alg».proof.Proof.Proto
import proofs.«900577_g7700000000000578_dist_mlpseq_tp1dT_cs_cs_b512_d256_h512_v7x_i8_f32_1_alg».proof.Proof.Sched
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.SendAt

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part07 (c : Dev nD) (v2 : BitVec 32) (v164 : BitVec 32) (κs κr : Fin 8 → ℕ) (W : Waits sig Unit) :
    iprop((cellInv ER (sched m) (κs 6) (xCell c 4 6) ∗ cellInv ER (sched m) (κr 6) (xCell (px c 6) 5 6)
        ∗ slotPts c (Memref.whole cc0_scratch5) (px c 6) (part2 m c) ∗ (∃ f, slotPts (px c 6) (Memref.whole cc0_scratch6) 6 f)
        ∗ dutyTok ER (xCell c 4 6) 0 0 ∗ reached ER (xCell c 4 6) 0
        ∗ dutyTok ER (xCell (px c 6) 5 6) 0 0 ∗ reached ER (xCell (px c 6) 5 6) 0)
      ∗ (cellInv ER (sched m) (κs 2) (xCell c 4 2) ∗ cellInv ER (sched m) (κr 2) (xCell (px c 2) 5 2)
        ∗ slotPts c (Memref.whole cc0_scratch5) (px c 2) (part2 m c) ∗ (∃ f, slotPts (px c 2) (Memref.whole cc0_scratch6) 2 f)
        ∗ dutyTok ER (xCell c 4 2) 0 0 ∗ reached ER (xCell c 4 2) 0
        ∗ dutyTok ER (xCell (px c 2) 5 2) 0 0 ∗ reached ER (xCell (px c 2) 5 2) 0)
      ∗ owes (c : Thread nD τ) (owedAfter c 14) W)
      ⊢ wp frame (wpE (defs₀ (F := F)) 𝒱₀ (c : Thread nD τ) none) Set.univ
          (k0_part7 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27 c v2 v164)
          (fun r => iprop(⌜r = ⟨Scalar.xori v2 2#32, Scalar.xori v2 5#32⟩⌝
            ∗ cred (tallyAt (xCell c 4 6) () N) ∗ cred (tallyAt (xCell c 4 2) () N)
            ∗ owes (c : Thread nD τ) (owedAfter c 16) W)) := by
  iintro ⟨⟨I6s, I6r, S6, D6, T6s, R6s, T6r, R6r⟩, ⟨I2s, I2r, S2, D2, T2s, R2s, T2r, R2r⟩, Ho⟩
  rw [k0_part7_eq_skeleton]
  unfold k0_part7_skel
  sl_exec
  icases D6 with ⟨%fd6, D6⟩
  iapply (step_send_at m c ⟨k0_dev15 c, k0_dev15_lt c⟩ 6 (by decide) (dev15_eq c) 4 5 (Memref.whole cc0_scratch5) (Memref.whole cc0_scratch6) (part2 m c) (off1_6 c) fd6 Entails.rfl (Entails.of_eq (landed_rs2 m c 6 fd6)) (owedAfter c 15) (owedAfter_step c 14 _ _ rfl)) $$ [I6s I6r S6 D6 Ho T6s R6s T6r R6r]
  · iframe
  iintro ⟨C6, Ho⟩
  sl_exec
  icases D2 with ⟨%fd2, D2⟩
  iapply (step_send_at m c ⟨k0_dev16 c, k0_dev16_lt c⟩ 2 (by decide) (dev16_eq c) 4 5 (Memref.whole cc0_scratch5) (Memref.whole cc0_scratch6) (part2 m c) (off1_2 c) fd2 Entails.rfl (Entails.of_eq (landed_rs2 m c 2 fd2)) (owedAfter c 16) (owedAfter_step c 15 _ _ rfl)) $$ [I2s I2r S2 D2 Ho T2s R2s T2r R2r]
  · iframe
  iintro ⟨C2, Ho⟩
  sl_exec
  sl_step
  isplitr
  · ipureintro; rfl
  sl_close

end Cert.KernelIdeal.Hand

end
-- ==== Proof.Part08.lean ====
import proofs.«900577_g7700000000000578_dist_mlpseq_tp1dT_cs_cs_b512_d256_h512_v7x_i8_f32_1_alg».proof.Proof.Proto
import proofs.«900577_g7700000000000578_dist_mlpseq_tp1dT_cs_cs_b512_d256_h512_v7x_i8_f32_1_alg».proof.Proof.Sched
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.SendAt

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part08 (c : Dev nD) (v2 : BitVec 32) (κs κr : Fin 8 → ℕ) (W : Waits sig Unit) :
    iprop((cellInv ER (sched m) (κs 5) (xCell c 4 5) ∗ cellInv ER (sched m) (κr 5) (xCell (px c 5) 5 5)
        ∗ slotPts c (Memref.whole cc0_scratch5) (px c 5) (part2 m c) ∗ (∃ f, slotPts (px c 5) (Memref.whole cc0_scratch6) 5 f)
        ∗ dutyTok ER (xCell c 4 5) 0 0 ∗ reached ER (xCell c 4 5) 0
        ∗ dutyTok ER (xCell (px c 5) 5 5) 0 0 ∗ reached ER (xCell (px c 5) 5 5) 0)
      ∗ (cellInv ER (sched m) (κs 7) (xCell c 4 7) ∗ cellInv ER (sched m) (κr 7) (xCell (px c 7) 5 7)
        ∗ slotPts c (Memref.whole cc0_scratch5) (px c 7) (part2 m c) ∗ (∃ f, slotPts (px c 7) (Memref.whole cc0_scratch6) 7 f)
        ∗ dutyTok ER (xCell c 4 7) 0 0 ∗ reached ER (xCell c 4 7) 0
        ∗ dutyTok ER (xCell (px c 7) 5 7) 0 0 ∗ reached ER (xCell (px c 7) 5 7) 0)
      ∗ (cellInv ER (sched m) (κs 1) (xCell c 4 1) ∗ cellInv ER (sched m) (κr 1) (xCell (px c 1) 5 1)
        ∗ slotPts c (Memref.whole cc0_scratch5) (px c 1) (part2 m c) ∗ (∃ f, slotPts (px c 1) (Memref.whole cc0_scratch6) 1 f)
        ∗ dutyTok ER (xCell c 4 1) 0 0 ∗ reached ER (xCell c 4 1) 0
        ∗ dutyTok ER (xCell (px c 1) 5 1) 0 0 ∗ reached ER (xCell (px c 1) 5 1) 0)
      ∗ owes (c : Thread nD τ) (owedAfter c 16) W)
      ⊢ wp frame (wpE (defs₀ (F := F)) 𝒱₀ (c : Thread nD τ) none) Set.univ
          (k0_part8 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27 c v2)
          (fun r => iprop(⌜r = ⟨Scalar.xori v2 7#32, Scalar.xori v2 1#32, Scalar.xori v2 3#32⟩⌝
            ∗ cred (tallyAt (xCell c 4 5) () N) ∗ cred (tallyAt (xCell c 4 7) () N) ∗ cred (tallyAt (xCell c 4 1) () N)
            ∗ owes (c : Thread nD τ) (owedAfter c 19) W)) := by
  iintro ⟨⟨I5s, I5r, S5, D5, T5s, R5s, T5r, R5r⟩, ⟨I7s, I7r, S7, D7, T7s, R7s, T7r, R7r⟩, ⟨I1s, I1r, S1, D1, T1s, R1s, T1r, R1r⟩, Ho⟩
  rw [k0_part8_eq_skeleton]
  unfold k0_part8_skel
  sl_exec
  icases D5 with ⟨%fd5, D5⟩
  iapply (step_send_at m c ⟨k0_dev17 c, k0_dev17_lt c⟩ 5 (by decide) (dev17_eq c) 4 5 (Memref.whole cc0_scratch5) (Memref.whole cc0_scratch6) (part2 m c) (off1_5 c) fd5 Entails.rfl (Entails.of_eq (landed_rs2 m c 5 fd5)) (owedAfter c 17) (owedAfter_step c 16 _ _ rfl)) $$ [I5s I5r S5 D5 Ho T5s R5s T5r R5r]
  · iframe
  iintro ⟨C5, Ho⟩
  sl_exec
  icases D7 with ⟨%fd7, D7⟩
  iapply (step_send_at m c ⟨k0_dev18 c, k0_dev18_lt c⟩ 7 (by decide) (dev18_eq c) 4 5 (Memref.whole cc0_scratch5) (Memref.whole cc0_scratch6) (part2 m c) (off1_7 c) fd7 Entails.rfl (Entails.of_eq (landed_rs2 m c 7 fd7)) (owedAfter c 18) (owedAfter_step c 17 _ _ rfl)) $$ [I7s I7r S7 D7 Ho T7s R7s T7r R7r]
  · iframe
  iintro ⟨C7, Ho⟩
  sl_exec
  icases D1 with ⟨%fd1, D1⟩
  iapply (step_send_at m c ⟨k0_dev19 c, k0_dev19_lt c⟩ 1 (by decide) (dev19_eq c) 4 5 (Memref.whole cc0_scratch5) (Memref.whole cc0_scratch6) (part2 m c) (off1_1 c) fd1 Entails.rfl (Entails.of_eq (landed_rs2 m c 1 fd1)) (owedAfter c 19) (owedAfter_step c 18 _ _ rfl)) $$ [I1s I1r S1 D1 Ho T1s R1s T1r R1r]
  · iframe
  iintro ⟨C1, Ho⟩
  sl_exec
  sl_step
  isplitr
  · ipureintro; rfl
  sl_close

end Cert.KernelIdeal.Hand

end
-- ==== Proof.Part09.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.SendAt
import proofs.«900577_g7700000000000578_dist_mlpseq_tp1dT_cs_cs_b512_d256_h512_v7x_i8_f32_1_alg».proof.Proof.LocalWait

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

private theorem read_x (c : Dev nD) (f12 : cc0_scratch12.ty.Contents (Elt F)) :
    (Memref.whole cc0_scratch12).view.readAt (Elt F) (Rect.unit (s := S512x256) ![0, 0] S512x256.size inb_S512x256_S512x256_0_0).toLoadRect (g12 m c f12)
      = aX m c := by
  have h := Memref.readAt_unit_zero (Elt F) cc0_scratch12 (off := ![0, 0]) (funext fun a => by fin_cases a <;> rfl)
    inb_S512x256_S512x256_0_0 (g12 m c f12)
  refine h.trans ?_
  exact View.read_write_univ (v := (Memref.whole cc0_scratch12).view) f12 (pay m c main_arg0)

private theorem read_wi0 (c : Dev nD) (f13 : cc0_scratch13.ty.Contents (Elt F)) :
    (Memref.whole cc0_scratch13).view.readAt (Elt F) (Rect.unit (s := S3x256x512) ![0, 0, 0] S1x256x512.size inb_S3x256x512_S1x256x512_0_0_0).toLoadRect (g13_3 m c f13)
      = up3 (aWi0 m c) := by
  refine eq_up3_of_cast _ _ shapeCasts_S1x256x512_S256x512 ?_
  show wivW0.view.read (Elt F) (wivW0.view.write (Elt F) (g13_2 m c f13) (pay m c main_arg1) Finset.univ) = aWi0 m c
  rw [View.read_write_univ]; rfl

theorem part09 (c : Dev nD) (v2 : BitVec 32) (κs κr : Fin 8 → ℕ) (W : Waits sig Unit)
    (f0 : cc0_scratch0.ty.Contents (Elt F)) (f12 : cc0_scratch12.ty.Contents (Elt F)) (f13 : cc0_scratch13.ty.Contents (Elt F)) :
    iprop((cellInv ER (sched m) (κs 3) (xCell c 4 3) ∗ cellInv ER (sched m) (κr 3) (xCell (px c 3) 5 3)
        ∗ slotPts c (Memref.whole cc0_scratch5) (px c 3) (part2 m c) ∗ (∃ f, slotPts (px c 3) (Memref.whole cc0_scratch6) 3 f)
        ∗ dutyTok ER (xCell c 4 3) 0 0 ∗ reached ER (xCell c 4 3) 0
        ∗ dutyTok ER (xCell (px c 3) 5 3) 0 0 ∗ reached ER (xCell (px c 3) 5 3) 0)
      ∗ (cellInv ER (sched m) (κs 4) (xCell c 4 4) ∗ cellInv ER (sched m) (κr 4) (xCell (px c 4) 5 4)
        ∗ slotPts c (Memref.whole cc0_scratch5) (px c 4) (part2 m c) ∗ (∃ f, slotPts (px c 4) (Memref.whole cc0_scratch6) 4 f)
        ∗ dutyTok ER (xCell c 4 4) 0 0 ∗ reached ER (xCell c 4 4) 0
        ∗ dutyTok ER (xCell (px c 4) 5 4) 0 0 ∗ reached ER (xCell (px c 4) 5 4) 0)
      ∗ owes (c : Thread nD τ) (owedAfter c 19) W
      ∗ levAts L lv
      ∗ lflight4 m c f12 ∗ srcRest m c main_arg0 ∗ lflight5 m c f13 ∗ srcRest m c main_arg1
      ∗ held c cc0_scratch0 f0)
      ⊢ wp frame (wpE (defs₀ (F := F)) 𝒱₀ (c : Thread nD τ) none) Set.univ
          (k0_part9 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27 c v2)
          (fun r => iprop(⌜r = ⟨Scalar.xori v2 4#32, k0_pay3 (aX m c) (up3 (aWi0 m c))⟩⌝
            ∗ cred (tallyAt (xCell c 4 3) () N) ∗ cred (tallyAt (xCell c 4 4) () N)
            ∗ (∃ W', owes (c : Thread nD τ) (owedAfter c 21) W')
            ∗ held c main_arg0 (m ((c : Thread nD τ).loc main_arg0)) ∗ held c main_arg1 (m ((c : Thread nD τ).loc main_arg1))
            ∗ semVal ((c : Thread nD τ), SemLoc.dma ls4) 0 ∗ semVal ((c : Thread nD τ), SemLoc.dma ls5) 0
            ∗ held c cc0_scratch12 (g12 m c f12)
            ∗ (wivW0.view.loc (c : Thread nD τ) ↦[wivW0.view.set]{fullShare} g13_3 m c f13)
            ∗ held c cc0_scratch0 f0)) := by
  iintro ⟨⟨I3s, I3r, S3, D3, T3s, R3s, T3r, R3r⟩, ⟨I4s, I4r, S4, D4, T4s, R4s, T4r, R4r⟩, HO, #HL, Fl4, A0, Fl5, A1, H0⟩
  rw [k0_part9_eq_skeleton]
  unfold k0_part9_skel
  sl_exec

  icases D3 with ⟨%fd3, D3⟩
  iapply (step_send_at m c ⟨k0_dev20 c, k0_dev20_lt c⟩ 3 (by decide) (dev20_eq c) 4 5 (Memref.whole cc0_scratch5) (Memref.whole cc0_scratch6) (part2 m c) (off1_3 c) fd3 Entails.rfl (Entails.of_eq (landed_rs2 m c 3 fd3)) (owedAfter c 20) (owedAfter_step c 19 _ _ rfl)) $$ [I3s I3r S3 D3 HO T3s R3s T3r R3r]
  · iframe
  iintro ⟨C3, HO⟩
  sl_exec

  icases D4 with ⟨%fd4, D4⟩
  iapply (step_send_at m c ⟨k0_dev21 c, k0_dev21_lt c⟩ 4 (by decide) (dev21_eq c) 4 5 (Memref.whole cc0_scratch5) (Memref.whole cc0_scratch6) (part2 m c) (off1_4 c) fd4 Entails.rfl (Entails.of_eq (landed_rs2 m c 4 fd4)) (owedAfter c 21) (owedAfter_step c 20 _ _ rfl)) $$ [I4s I4r S4 D4 HO T4s R4s T4r R4r]
  · iframe
  iintro ⟨C4, HO⟩
  first | sl_step | skip

  have hmw4 := mayWait_local (F := F) c ls4 (by decide) (n := 21) (by decide)
  have hmw5 := mayWait_local (F := F) c ls5 (by decide) (n := 21) (by decide)
  sl_exec
  ihave W0 : (wivW0.view.loc (c : Thread nD τ) ↦[wivW0.view.set]{fullShare} g13_3 m c f13) $$ [Fl5_dst]
  · iexact Fl5_dst
  sl_exec
  rw [show part09.sl.v247 m c f12 = aX m c from read_x m c f12, read_wi0 m c f13]
  first | sl_step | (unfold Prog.bind; sl_step)
  sl_close

end Cert.KernelIdeal.Hand

end
-- ==== Proof.Part10.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.SendAt
import proofs.«900577_g7700000000000578_dist_mlpseq_tp1dT_cs_cs_b512_d256_h512_v7x_i8_f32_1_alg».proof.Proof.Slots

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit m in

private theorem writes_full_s0 (f0 : cc0_scratch0.ty.Contents (Elt F)) (w : S8x64x512.Idx → Elt F .bf16) :
    (Memref.whole cc0_scratch0).view.writes (Elt F) f0 [⟨Rect.unit (s := S8x64x512) ![0, 0, 0] S8x64x512.size inb_S8x64x512_S8x64x512_0_0_0, w⟩] = w := by
  show ((View.whole cc0_scratch0).slice (Rect.unit (s := S8x64x512) ![0, 0, 0] S8x64x512.size inb_S8x64x512_S8x64x512_0_0_0)).write (Elt F) f0 w Finset.univ = w
  funext i
  have hy : ((View.whole cc0_scratch0).slice (Rect.unit (s := S8x64x512) ![0, 0, 0] S8x64x512.size inb_S8x64x512_S8x64x512_0_0_0)).emb i = i := by
    funext a; apply Fin.ext
    rw [View.emb_slice, Function.Embedding.trans_apply, View.emb_whole, Function.Embedding.refl_apply, Rect.emb_apply]
    show (![0, 0, 0] : Fin 3 → Nat) a + 1 * (i a).val = (i a).val
    fin_cases a <;> simp
  conv_lhs => rw [← hy, View.write_emb_of_mem _ _ (Finset.mem_univ _)]
  rfl

private theorem part0_stored (c : Dev nD) (f0 : cc0_scratch0.ty.Contents (Elt F)) :
    (Memref.whole cc0_scratch0).view.writes (Elt F) f0
      [⟨Rect.unit (s := S8x64x512) ![0, 0, 0] S8x64x512.size inb_S8x64x512_S8x64x512_0_0_0, k0_pay4 (k0_pay3 (aX m c) (up3 (aWi0 m c)))⟩]
      = part0 m c := by
  rw [writes_full_s0]
  rfl

theorem part10 (c : Dev nD) (v2 : BitVec 32) (κs κr : Fin 8 → ℕ) (W : Waits sig Unit) (f0 : cc0_scratch0.ty.Contents (Elt F)) :
    iprop(held c cc0_scratch0 f0
      ∗ (cellInv ER (sched m) (κs 6) (xCell c 0 6) ∗ cellInv ER (sched m) (κr 6) (xCell (px c 6) 1 6)
        ∗ (∃ f, slotPts (px c 6) (Memref.whole cc0_scratch1) 6 f)
        ∗ dutyTok ER (xCell c 0 6) 0 0 ∗ reached ER (xCell c 0 6) 0
        ∗ dutyTok ER (xCell (px c 6) 1 6) 0 0 ∗ reached ER (xCell (px c 6) 1 6) 0)
      ∗ (cellInv ER (sched m) (κs 2) (xCell c 0 2) ∗ cellInv ER (sched m) (κr 2) (xCell (px c 2) 1 2)
        ∗ (∃ f, slotPts (px c 2) (Memref.whole cc0_scratch1) 2 f)
        ∗ dutyTok ER (xCell c 0 2) 0 0 ∗ reached ER (xCell c 0 2) 0
        ∗ dutyTok ER (xCell (px c 2) 1 2) 0 0 ∗ reached ER (xCell (px c 2) 1 2) 0)
      ∗ owes (c : Thread nD τ) (owedAfter c 21) W)
      ⊢ wp frame (wpE (defs₀ (F := F)) 𝒱₀ (c : Thread nD τ) none) Set.univ
          (k0_part10 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27 c v2 (k0_pay3 (aX m c) (up3 (aWi0 m c))))
          (fun r => iprop(⌜r = ⟨Scalar.xori v2 6#32, Scalar.xori v2 2#32, Scalar.xori v2 5#32⟩⌝
            ∗ cred (tallyAt (xCell c 0 6) () N) ∗ cred (tallyAt (xCell c 0 2) () N)
            ∗ owes (c : Thread nD τ) (owedAfter c 23) W
            ∗ slotPts c (Memref.whole cc0_scratch0) c (part0 m c) ∗ slotPts c (Memref.whole cc0_scratch0) (px c 1) (part0 m c)
            ∗ slotPts c (Memref.whole cc0_scratch0) (px c 3) (part0 m c) ∗ slotPts c (Memref.whole cc0_scratch0) (px c 4) (part0 m c)
            ∗ slotPts c (Memref.whole cc0_scratch0) (px c 5) (part0 m c) ∗ slotPts c (Memref.whole cc0_scratch0) (px c 7) (part0 m c))) := by
  iintro ⟨H0, ⟨I6s, I6r, D6, T6s, R6s, T6r, R6r⟩, ⟨I2s, I2r, D2, T2s, R2s, T2r, R2r⟩, HO⟩
  rw [k0_part10_eq_skeleton]
  unfold k0_part10_skel
  sl_exec

  ihave H0' : (held c cc0_scratch0 (part0 m c)) $$ [H0]
  · rw [← part0_stored m c f0]; iexact H0
  ihave Hs := (Entails.of_eq ((slots_whole_eq c (Memref.whole cc0_scratch0) (Memref.isWhole_whole _) (part0 m c)).trans
    (slots_peers c (Memref.whole cc0_scratch0) (part0 m c)))) $$ H0'
  icases Hs with ⟨Sc, S1, S2, S3, S4, S5, S6, S7⟩

  icases D6 with ⟨%fd6, D6⟩
  iapply (step_send_at m c ⟨k0_dev22 c, k0_dev22_lt c⟩ 6 (by decide) (dev22_eq c) 0 1 (Memref.whole cc0_scratch0) (Memref.whole cc0_scratch1) (part0 m c) (off1_6 c) fd6 Entails.rfl (Entails.of_eq (landed_rs0 m c 6 fd6)) (owedAfter c 22) (owedAfter_step c 21 _ _ rfl)) $$ [I6s I6r S6 D6 HO T6s R6s T6r R6r]
  · iframe
  iintro ⟨C6, HO⟩
  sl_exec

  icases D2 with ⟨%fd2, D2⟩
  iapply (step_send_at m c ⟨k0_dev23 c, k0_dev23_lt c⟩ 2 (by decide) (dev23_eq c) 0 1 (Memref.whole cc0_scratch0) (Memref.whole cc0_scratch1) (part0 m c) (off1_2 c) fd2 Entails.rfl (Entails.of_eq (landed_rs0 m c 2 fd2)) (owedAfter c 23) (owedAfter_step c 22 _ _ rfl)) $$ [I2s I2r S2 D2 HO T2s R2s T2r R2r]
  · iframe
  iintro ⟨C2, HO⟩
  first | sl_step | skip
  sl_exec
  first | sl_step | (unfold Prog.bind; sl_step)
  sl_close

end Cert.KernelIdeal.Hand

end
-- ==== Proof.Part11.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.SendAt

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part11 (c : Dev nD) (v2 : BitVec 32) (κs κr : Fin 8 → ℕ) (W : Waits sig Unit) :
    iprop((cellInv ER (sched m) (κs 5) (xCell c 0 5) ∗ cellInv ER (sched m) (κr 5) (xCell (px c 5) 1 5)
        ∗ slotPts c (Memref.whole cc0_scratch0) (px c 5) (part0 m c) ∗ (∃ f, slotPts (px c 5) (Memref.whole cc0_scratch1) 5 f)
        ∗ dutyTok ER (xCell c 0 5) 0 0 ∗ reached ER (xCell c 0 5) 0
        ∗ dutyTok ER (xCell (px c 5) 1 5) 0 0 ∗ reached ER (xCell (px c 5) 1 5) 0)
      ∗ (cellInv ER (sched m) (κs 7) (xCell c 0 7) ∗ cellInv ER (sched m) (κr 7) (xCell (px c 7) 1 7)
        ∗ slotPts c (Memref.whole cc0_scratch0) (px c 7) (part0 m c) ∗ (∃ f, slotPts (px c 7) (Memref.whole cc0_scratch1) 7 f)
        ∗ dutyTok ER (xCell c 0 7) 0 0 ∗ reached ER (xCell c 0 7) 0
        ∗ dutyTok ER (xCell (px c 7) 1 7) 0 0 ∗ reached ER (xCell (px c 7) 1 7) 0)
      ∗ (cellInv ER (sched m) (κs 1) (xCell c 0 1) ∗ cellInv ER (sched m) (κr 1) (xCell (px c 1) 1 1)
        ∗ slotPts c (Memref.whole cc0_scratch0) (px c 1) (part0 m c) ∗ (∃ f, slotPts (px c 1) (Memref.whole cc0_scratch1) 1 f)
        ∗ dutyTok ER (xCell c 0 1) 0 0 ∗ reached ER (xCell c 0 1) 0
        ∗ dutyTok ER (xCell (px c 1) 1 1) 0 0 ∗ reached ER (xCell (px c 1) 1 1) 0)
      ∗ owes (c : Thread nD τ) (owedAfter c 23) W)
      ⊢ wp frame (wpE (defs₀ (F := F)) 𝒱₀ (c : Thread nD τ) none) Set.univ
          (k0_part11 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27 c v2)
          (fun r => iprop(⌜r = ⟨Scalar.xori v2 7#32, Scalar.xori v2 1#32, Scalar.xori v2 3#32, Scalar.muli (Scalar.xori v2 3#32) 1#32, 0#32⟩⌝
            ∗ cred (tallyAt (xCell c 0 5) () N) ∗ cred (tallyAt (xCell c 0 7) () N) ∗ cred (tallyAt (xCell c 0 1) () N)
            ∗ owes (c : Thread nD τ) (owedAfter c 26) W)) := by
  iintro ⟨⟨I5s, I5r, S5, D5, T5s, R5s, T5r, R5r⟩, ⟨I7s, I7r, S7, D7, T7s, R7s, T7r, R7r⟩, ⟨I1s, I1r, S1, D1, T1s, R1s, T1r, R1r⟩, HO⟩
  rw [k0_part11_eq_skeleton]
  unfold k0_part11_skel
  sl_exec
  icases D5 with ⟨%fd5, D5⟩
  iapply (step_send_at m c ⟨k0_dev24 c, k0_dev24_lt c⟩ 5 (by decide) (dev24_eq c) 0 1 (Memref.whole cc0_scratch0) (Memref.whole cc0_scratch1) (part0 m c) (off1_5 c) fd5 Entails.rfl (Entails.of_eq (landed_rs0 m c 5 fd5)) (owedAfter c 24) (owedAfter_step c 23 _ _ rfl)) $$ [I5s I5r S5 D5 HO T5s R5s T5r R5r]
  · iframe
  iintro ⟨C5, HO⟩
  sl_exec
  icases D7 with ⟨%fd7, D7⟩
  iapply (step_send_at m c ⟨k0_dev25 c, k0_dev25_lt c⟩ 7 (by decide) (dev25_eq c) 0 1 (Memref.whole cc0_scratch0) (Memref.whole cc0_scratch1) (part0 m c) (off1_7 c) fd7 Entails.rfl (Entails.of_eq (landed_rs0 m c 7 fd7)) (owedAfter c 25) (owedAfter_step c 24 _ _ rfl)) $$ [I7s I7r S7 D7 HO T7s R7s T7r R7r]
  · iframe
  iintro ⟨C7, HO⟩
  sl_exec
  icases D1 with ⟨%fd1, D1⟩
  iapply (step_send_at m c ⟨k0_dev26 c, k0_dev26_lt c⟩ 1 (by decide) (dev26_eq c) 0 1 (Memref.whole cc0_scratch0) (Memref.whole cc0_scratch1) (part0 m c) (off1_1 c) fd1 Entails.rfl (Entails.of_eq (landed_rs0 m c 1 fd1)) (owedAfter c 26) (owedAfter_step c 25 _ _ rfl)) $$ [I1s I1r S1 D1 HO T1s R1s T1r R1r]
  · iframe
  iintro ⟨C1, HO⟩
  sl_exec
  sl_step
  sl_close

end Cert.KernelIdeal.Hand

end
-- ==== Proof.SlotRead.lean ====
import proofs.«900577_g7700000000000578_dist_mlpseq_tp1dT_cs_cs_b512_d256_h512_v7x_i8_f32_1_alg».proof.Proof.Proto

noncomputable section

namespace Cert.KernelIdeal.Hand

open Cert.KernelIdeal Cert.KernelIdeal.Gen
open Idealize.ShloMosaic
open Idealize.ShloMosaic.TcCoe
open Idealize.ShloMosaic.ValueIdx (ix2 ix3)

variable {F : FTy → Type} [FloatOps F]

theorem slotRead_apply (M : Memref sig .tc .vmem S8x64x512 .bf16) (k : Fin 8) {off : Fin 3 → Nat} (h : off = ![k.val, 0, 0])
    (inb : ∀ a, off a + S1x64x512.size a ≤ S8x64x512.size a) (f : M.view.ty.Contents (Elt F)) (x : S1x64x512.Idx) :
    M.view.readAt (Elt F) (Rect.unit (s := S8x64x512) off S1x64x512.size inb).toLoadRect f x
      = M.view.read (Elt F) f (ix3 (n0 := 8) (n1 := 64) (n2 := 512) k (x 1) (x 2)) := by
  subst h
  rw [View.readAt_apply]
  refine congrArg (M.view.read (Elt F) f) (funext fun a => Fin.ext ?_)
  have hx : (x 0).val < 1 := (x 0).isLt
  match a with
  | ⟨0, _⟩ => show k.val + 1 * (x 0).val = k.val; omega
  | ⟨1, _⟩ => show 0 + 1 * (x 1).val = (x 1).val; omega
  | ⟨2, _⟩ => show 0 + 1 * (x 2).val = (x 2).val; omega

theorem slotRead_eq (M : Memref sig .tc .vmem S8x64x512 .bf16) (k : Fin 8) {off : Fin 3 → Nat} (h : off = ![k.val, 0, 0])
    (inb : ∀ a, off a + S1x64x512.size a ≤ S8x64x512.size a) (f : M.view.ty.Contents (Elt F)) (G : Vec F S1x64x512 .bf16)
    (hG : ∀ x : S1x64x512.Idx, M.view.read (Elt F) f (ix3 (n0 := 8) (n1 := 64) (n2 := 512) k (x 1) (x 2)) = G x) :
    M.view.readAt (Elt F) (Rect.unit (s := S8x64x512) off S1x64x512.size inb).toLoadRect f = G :=
  funext fun x => (slotRead_apply M k h inb f x).trans (hG x)

theorem idx1_eq (x : S1x64x512.Idx) : ix3 (n0 := 1) (n1 := 64) (n2 := 512) 0 (x 1) (x 2) = x := by
  funext a
  match a with
  | ⟨0, _⟩ => exact Fin.ext (by have hx : (x 0).val < 1 := (x 0).isLt; show (0 : ℕ) = (x 0).val; omega)
  | ⟨1, _⟩ => rfl
  | ⟨2, _⟩ => rfl

variable (m : (ℓ : Loc nD τ sig) → Buf (Elt F) ℓ)

theorem slotRead_rs1C (c : Dev nD) (k : Fin 8) {off : Fin 3 → Nat} (h : off = ![k.val, 0, 0])
    (inb : ∀ a, off a + S1x64x512.size a ≤ S8x64x512.size a) :
    (Memref.whole cc0_scratch3).view.readAt (Elt F) (Rect.unit (s := S8x64x512) off S1x64x512.size inb).toLoadRect (rs1C m c) = in1 m c k :=
  slotRead_eq (Memref.whole cc0_scratch3) k h inb (rs1C m c) (in1 m c k) (fun x => by
    show in1 m c k (ix3 0 (x 1) (x 2)) = in1 m c k x
    rw [idx1_eq])

theorem slotRead_part1 (c : Dev nD) {off : Fin 3 → Nat} (h : off = ![c.val, 0, 0])
    (inb : ∀ a, off a + S1x64x512.size a ≤ S8x64x512.size a) :
    (Memref.whole cc0_scratch2).view.readAt (Elt F) (Rect.unit (s := S8x64x512) off S1x64x512.size inb).toLoadRect (part1 m c) = slot3 (part1 m c) c :=
  slotRead_eq (Memref.whole cc0_scratch2) c h inb (part1 m c) (slot3 (part1 m c) c) (fun x => rfl)

theorem slotRead_part2 (c : Dev nD) {off : Fin 3 → Nat} (h : off = ![c.val, 0, 0])
    (inb : ∀ a, off a + S1x64x512.size a ≤ S8x64x512.size a) :
    (Memref.whole cc0_scratch5).view.readAt (Elt F) (Rect.unit (s := S8x64x512) off S1x64x512.size inb).toLoadRect (part2 m c) = slot3 (part2 m c) c :=
  slotRead_eq (Memref.whole cc0_scratch5) c h inb (part2 m c) (slot3 (part2 m c) c) (fun x => rfl)

end Cert.KernelIdeal.Hand

end
-- ==== Proof.Part12.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.SendAt
import proofs.«900577_g7700000000000578_dist_mlpseq_tp1dT_cs_cs_b512_d256_h512_v7x_i8_f32_1_alg».proof.Proof.SlotRead

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part12 (c : Dev nD) (v2 v113 v312 c0 : BitVec 32) (κs κr : Fin 8 → ℕ) (κ : ℕ) (W : Waits sig Unit) :
    iprop((cellInv ER (sched m) (κs 3) (xCell c 0 3) ∗ cellInv ER (sched m) (κr 3) (xCell (px c 3) 1 3)
        ∗ slotPts c (Memref.whole cc0_scratch0) (px c 3) (part0 m c) ∗ (∃ f, slotPts (px c 3) (Memref.whole cc0_scratch1) 3 f)
        ∗ dutyTok ER (xCell c 0 3) 0 0 ∗ reached ER (xCell c 0 3) 0
        ∗ dutyTok ER (xCell (px c 3) 1 3) 0 0 ∗ reached ER (xCell (px c 3) 1 3) 0)
      ∗ (cellInv ER (sched m) (κs 4) (xCell c 0 4) ∗ cellInv ER (sched m) (κr 4) (xCell (px c 4) 1 4)
        ∗ slotPts c (Memref.whole cc0_scratch0) (px c 4) (part0 m c) ∗ (∃ f, slotPts (px c 4) (Memref.whole cc0_scratch1) 4 f)
        ∗ dutyTok ER (xCell c 0 4) 0 0 ∗ reached ER (xCell c 0 4) 0
        ∗ dutyTok ER (xCell (px c 4) 1 4) 0 0 ∗ reached ER (xCell (px c 4) 1 4) 0)
      ∗ owes (c : Thread nD τ) (owedAfter c 26) W
      ∗ levAts L lv
      ∗ slotPts c (Memref.whole cc0_scratch2) c (part1 m c)
      ∗ cellInv ER (sched m) κ (xCell c 3 1) ∗ cred (tallyAt (xCell c 3 1) () N) ∗ atPos ER (xCell c 3 1) 0 ∅ 0)
      ⊢ wp frame (wpE (defs₀ (F := F)) 𝒱₀ (c : Thread nD τ) none) Set.univ
          (k0_part12 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t₀ 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27 c v2 v113 v312 c0)
          (fun r => iprop(⌜r = ⟨Scalar.xori v2 4#32, r1a m c⟩⌝
            ∗ cred (tallyAt (xCell c 0 3) () N) ∗ cred (tallyAt (xCell c 0 4) () N)
            ∗ (∃ W', owes (c : Thread nD τ) (owedAfter c 28) W')
            ∗ slotPts c (Memref.whole cc0_scratch2) c (part1 m c)
            ∗ slotPts c (Memref.whole cc0_scratch3) 1 (rs1C m c) ∗ semVal (xCell c 3 1) 0)) := by
  iintro ⟨⟨I3s, I3r, S3, D3, T3s, R3s, T3r, R3r⟩, ⟨I4s, I4r, S4, D4, T4s, R4s, T4r, R4r⟩, HO, #Hlev, Sown, #Ix, Cx, Px⟩
  rw [k0_part12_eq_skeleton]
  unfold k0_part12_skel
  sl_exec
  icases D3 with ⟨%fd3, D3⟩
  iapply (step_send_at m c ⟨k0_dev27 c, k0_dev27_lt c⟩ 3 (by decide) (dev27_eq c) 0 1 (Memref.whole cc0_scratch0) (Memref.whole cc0_scratch1) (part0 m c) (off1_3 c) fd3 Entails.rfl (Entails.of_eq (landed_rs0 m c 3 fd3)) (owedAfter c 27) (owedAfter_step c 26 _ _ rfl)) $$ [I3s I3r S3 D3 HO T3s R3s T3r R3r]
  · iframe
  iintro ⟨C3, HO⟩
  sl_exec
  icases D4 with ⟨%fd4, D4⟩
  iapply (step_send_at m c ⟨k0_dev28 c, k0_dev28_lt c⟩ 4 (by decide) (dev28_eq c) 0 1 (Memref.whole cc0_scratch0) (Memref.whole cc0_scratch1) (part0 m c) (off1_4 c) fd4 Entails.rfl (Entails.of_eq (landed_rs0 m c 4 fd4)) (owedAfter c 28) (owedAfter_step c 27 _ _ rfl)) $$ [I4s I4r S4 D4 HO T4s R4s T4r R4r]
  · iframe
  iintro ⟨C4, HO⟩
  unfold slotPts
  have hoff := k0_off2_eq c
  sl_exec
  iapply (step_wait_x m c 3 1 (by decide) (κ := κ) (dst := slotM (Memref.whole cc0_scratch3) 1) rfl) $$ [Cx HO Px]
  · isplitr; · iexact Ix
    isplitl [Cx]; · iexact Cx
    isplitl [HO]; · iexact HO
    isplitr; · iapply (mayWait_x_exchange c 3 (by decide) 1 (by decide) (n := 28) (le_refl _)); iexact Hlev
    iexact Px
  iintro ⟨HO, Px, -, X1⟩
  imod (close_x m c 3 1 (κ := κ)) $$ [Px] with Z1
  · sl_close
  ihave S1 := (Entails.of_eq (show xPay m c 3 1 = ((slotM (Memref.whole cc0_scratch3) 1).view.loc (c : Thread nD τ) ↦[(slotM (Memref.whole cc0_scratch3) 1).view.set]{fullShare} rs1C m c : sProp 𝕄) from rfl)) $$ X1
  first | sl_step | (unfold Prog.bind; sl_step)
  isplitr
  · ipureintro
    rw [slotRead_part1 m c (k0_off2_eq c)]
    rfl
  isplitl [C3]; · iexact C3
  isplitl [C4]; · iexact C4
  isplitl [HO]; · iexists _; iexact HO
  sl_close

end Cert.KernelIdeal.Hand

end
-- ==== Proof.RecvWait.lean ====
import proofs.«900577_g7700000000000578_dist_mlpseq_tp1dT_cs_cs_b512_d256_h512_v7x_i8_f32_1_alg».proof.Proof.Steps

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem recv_wait (c : Dev nD) (a : Fin 12) (ha : a = 1 ∨ a = 3 ∨ a = 5) (k : Fin 8) (hk : k ≠ 0) {n : ℕ} (hn : 28 ≤ n) {κ : ℕ}
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {W : Waits sig Unit} {α : Type} {Q : α → sProp 𝕄} {kk : PUnit → Prog (TpuEff nD τ sig (Elt F) Λ₀ .tc) α} :
    iprop(cellInv ER (sched m) κ (xCell c a k) ∗ cred (tallyAt (xCell c a k) () N) ∗ atPos ER (xCell c a k) 0 ∅ 0
        ∗ levAts L lv ∗ owes (c : Thread nD τ) (owedAfter c n) W)
      ⊢ iprop(((owes (c : Thread nD τ) (owedAfter c n) (insert (SemLoc.dma (xsem a k), ()) W) ∗ semVal (xCell c a k) 0 ∗ xPay m c a k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (xsem a k) src dst hsrc hdst) kk) Q) := by
  iintro ⟨#I, C, P, #Hlev, Ho⟩ Hk
  iapply (step_wait_x m c a k hk (κ := κ) hN) $$ [C Ho P]
  · isplitr; · iexact I
    isplitl [C]; · iexact C
    isplitl [Ho]; · iexact Ho
    isplitr; · iapply (mayWait_x_exchange c a ha k hk hn); iexact Hlev
    iexact P
  iintro ⟨Ho, P, -, X⟩
  imod (close_x m c a k (κ := κ)) $$ [P] with Z
  · sl_close
  iapply Hk
  sl_close

theorem xPay_3 (c : Dev nD) (k : Fin 8) :
    xPay m c 3 k = ((slotM (Memref.whole cc0_scratch3) k).view.loc (c : Thread nD τ) ↦[(slotM (Memref.whole cc0_scratch3) k).view.set]{fullShare} rs1C m c : sProp 𝕄) := rfl

end Cert.KernelIdeal.Hand

end
-- ==== Proof.Part13.lean ====
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.SlotRead
import proofs.«900577_g7700000000000578_dist_mlpseq_tp1dT_cs_cs_b512_d256_h512_v7x_i8_f32_1_alg».proof.Proof.RecvWait

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part13 (m : (ℓ : Loc nD τ sig) → Buf (Elt F) ℓ) (c : Dev nD) (κ3 κ4 : ℕ) (W : Waits sig Unit) (w1 w2 : BitVec 32) :
    iprop(slotPts c (Memref.whole cc0_scratch3) 1 (rs1C m c)
      ∗ cellInv ER (sched m) κ3 (xCell c 3 3) ∗ cred (tallyAt (xCell c 3 3) () N) ∗ atPos ER (xCell c 3 3) 0 ∅ 0
      ∗ cellInv ER (sched m) κ4 (xCell c 3 4) ∗ cred (tallyAt (xCell c 3 4) () N) ∗ atPos ER (xCell c 3 4) 0 ∅ 0
      ∗ levAts L lv ∗ owes (c : Thread nD τ) (owedAfter c 28) W)
      ⊢ wp frame (wpE (defs₀ (F := F)) 𝒱₀ (c : Thread nD τ) none) Set.univ ((bodyArgs% k0_part13) c w1 w2 (r1a m c))
          (fun r => iprop(⌜r = r1b m c⌝
            ∗ slotPts c (Memref.whole cc0_scratch3) 1 (rs1C m c) ∗ slotPts c (Memref.whole cc0_scratch3) 3 (rs1C m c)
            ∗ slotPts c (Memref.whole cc0_scratch3) 4 (rs1C m c)
            ∗ semVal (xCell c 3 3) 0 ∗ semVal (xCell c 3 4) 0
            ∗ ∃ W', owes (c : Thread nD τ) (owedAfter c 28) W')) := by
  unfold slotPts
  iintro ⟨S1, #I3, C3, P3, #I4, C4, P4, #Hlev, Ho⟩
  rw [k0_part13_eq_skeleton]
  unfold k0_part13_skel

  sl_exec

  iapply (recv_wait m c 3 (by decide) 3 (by decide) (n := 28) (le_refl _) (κ := κ3) (dst := slotM (Memref.whole cc0_scratch3) 3) rfl) $$ [C3 P3 Ho]
  · sl_close
  iintro ⟨Ho, Z3, X3⟩
  first | sl_step | skip
  ihave S3 := (Entails.of_eq (xPay_3 m c 3)) $$ X3
  sl_exec

  iapply (recv_wait m c 3 (by decide) 4 (by decide) (n := 28) (le_refl _) (κ := κ4) (dst := slotM (Memref.whole cc0_scratch3) 4) rfl) $$ [C4 P4 Ho]
  · sl_close
  iintro ⟨Ho, Z4, X4⟩
  first | sl_step | skip
  ihave S4 := (Entails.of_eq (xPay_3 m c 4)) $$ X4
  sl_exec
  first | sl_step | (unfold Prog.bind; sl_step)

  isplitr
  · ipureintro
    rw [slotRead_rs1C m c 1 (off := ![1, 0, 0]) rfl, slotRead_rs1C m c 3 (off := ![3, 0, 0]) rfl, slotRead_rs1C m c 4 (off := ![4, 0, 0]) rfl]
    rfl
  isplitl [S1]; · iexact S1
  isplitl [S3]; · iexact S3
  isplitl [S4]; · iexact S4
  isplitl [Z3]; · iexact Z3
  isplitl [Z4]; · iexact Z4
  iexists _; iexact Ho

end Cert.KernelIdeal.Hand

end
-- ==== Proof.Part14.lean ====
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.SlotRead

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part14 (m : (ℓ : Loc nD τ sig) → Buf (Elt F) ℓ) (c : Dev nD) (κ2 κ5 : ℕ) (W : Waits sig Unit) (w1 w2 w3 : BitVec 32) :
    iprop(cellInv ER (sched m) κ2 (xCell c 3 2) ∗ cred (tallyAt (xCell c 3 2) () N) ∗ atPos ER (xCell c 3 2) 0 ∅ 0
      ∗ cellInv ER (sched m) κ5 (xCell c 3 5) ∗ cred (tallyAt (xCell c 3 5) () N) ∗ atPos ER (xCell c 3 5) 0 ∅ 0
      ∗ levAts L lv ∗ owes (c : Thread nD τ) (owedAfter c 28) W)
      ⊢ wp frame (wpE (defs₀ (F := F)) 𝒱₀ (c : Thread nD τ) none) Set.univ ((bodyArgs% k0_part14) c w1 w2 w3 (r1b m c))
          (fun r => iprop(⌜r = r1c m c⌝
            ∗ slotPts c (Memref.whole cc0_scratch3) 2 (rs1C m c) ∗ slotPts c (Memref.whole cc0_scratch3) 5 (rs1C m c)
            ∗ semVal (xCell c 3 2) 0 ∗ semVal (xCell c 3 5) 0
            ∗ ∃ W', owes (c : Thread nD τ) (owedAfter c 28) W')) := by
  unfold slotPts
  iintro ⟨#I2, C2, P2, #I5, C5, P5, #Hlev, Ho⟩
  rw [k0_part14_eq_skeleton]
  unfold k0_part14_skel
  first | sl_exec | skip
  iapply (step_wait_x m c 3 2 (by decide) (κ := κ2) (dst := slotM (Memref.whole cc0_scratch3) 2) rfl) $$ [C2 Ho P2]
  · isplitr; · iexact I2
    isplitl [C2]; · iexact C2
    isplitl [Ho]; · iexact Ho
    isplitr; · iapply (mayWait_x_exchange c 3 (by decide) 2 (by decide) (n := 28) (le_refl _)); iexact Hlev
    iexact P2
  iintro ⟨Ho, P2, -, X2⟩
  first | sl_step | skip
  imod (close_x m c 3 2 (κ := κ2)) $$ [P2] with Z2
  · sl_close
  ihave S2 := (Entails.of_eq (show xPay m c 3 2 = ((slotM (Memref.whole cc0_scratch3) 2).view.loc (c : Thread nD τ) ↦[(slotM (Memref.whole cc0_scratch3) 2).view.set]{fullShare} rs1C m c : sProp 𝕄) from rfl)) $$ X2
  sl_exec
  iapply (step_wait_x m c 3 5 (by decide) (κ := κ5) (dst := slotM (Memref.whole cc0_scratch3) 5) rfl) $$ [C5 Ho P5]
  · isplitr; · iexact I5
    isplitl [C5]; · iexact C5
    isplitl [Ho]; · iexact Ho
    isplitr; · iapply (mayWait_x_exchange c 3 (by decide) 5 (by decide) (n := 28) (le_refl _)); iexact Hlev
    iexact P5
  iintro ⟨Ho, P5, -, X5⟩
  first | sl_step | skip
  imod (close_x m c 3 5 (κ := κ5)) $$ [P5] with Z5
  · sl_close
  ihave S5 := (Entails.of_eq (show xPay m c 3 5 = ((slotM (Memref.whole cc0_scratch3) 5).view.loc (c : Thread nD τ) ↦[(slotM (Memref.whole cc0_scratch3) 5).view.set]{fullShare} rs1C m c : sProp 𝕄) from rfl)) $$ X5
  sl_exec
  first | sl_step | (unfold Prog.bind; sl_step)
  isplitr
  · ipureintro
    rw [slotRead_rs1C m c 2 (off := ![2, 0, 0]) rfl, slotRead_rs1C m c 5 (off := ![5, 0, 0]) rfl]
    rfl
  isplitl [S2]; · iexact S2
  isplitl [S5]; · iexact S5
  isplitl [Z2]; · iexact Z2
  isplitl [Z5]; · iexact Z5
  iexists _; iexact Ho

end Cert.KernelIdeal.Hand

end
-- ==== Proof.Part15.lean ====
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.SlotRead
import Idealize.ShloMosaic.Lib.ValueLayout

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

open Idealize.ShloMosaic.ValueIdx (ix2 ix3)

private theorem slotBox_emb (s : Fin 8) (inb : ∀ a, (![s.val, 0, 0] : Fin 3 → Nat) a + S1x64x512.size a ≤ S8x64x512.size a) (r : Fin 64) (j : Fin 512) :
    (Rect.unit (s := S8x64x512) ![s.val, 0, 0] S1x64x512.size inb).emb (ix3 (n0 := 1) (n1 := 64) (n2 := 512) 0 r j)
      = ix3 (n0 := 8) (n1 := 64) (n2 := 512) s r j := by
  funext a
  refine Fin.ext ?_
  match a with
  | ⟨0, _⟩ => show s.val + 1 * 0 = s.val; omega
  | ⟨1, _⟩ => show 0 + 1 * r.val = r.val; omega
  | ⟨2, _⟩ => show 0 + 1 * j.val = j.val; omega

private theorem stored_slot_eq (p : Dev nD) (M : Memref sig .tc .vmem S8x64x512 .bf16) (s : Fin 8) {off : Fin 3 → Nat} (h : off = ![s.val, 0, 0])
    (inb : ∀ a, off a + S1x64x512.size a ≤ S8x64x512.size a)
    (fd G : Buf (Elt F) (M.view.loc (p : Thread nD τ))) (P : Vec F S1x64x512 .bf16)
    (hG : ∀ (r : Fin 64) (j : Fin 512), M.view.read (Elt F) G (ix3 (n0 := 8) (n1 := 64) (n2 := 512) s r j) = P (ix3 (n0 := 1) (n1 := 64) (n2 := 512) 0 r j)) :
    ((slotM M s).view.loc (p : Thread nD τ) ↦[(slotM M s).view.set]{fullShare}
        (M.access (Rect.unit (s := S8x64x512) off S1x64x512.size inb)).write (Elt F) fd P Finset.univ : sProp 𝕄)
      = slotPts p M s G := by
  subst h
  unfold slotPts
  refine pointsTo_congr fun i hi => ?_
  obtain ⟨y, rfl⟩ := View.exists_emb_of_mem_set (slotM M s).view hi
  have e : (slotM M s).view.emb y
      = (M.access (Rect.unit (s := S8x64x512) ![s.val, 0, 0] S1x64x512.size inb)).emb (ix3 (n0 := 1) (n1 := 64) (n2 := 512) 0 (y 0) (y 1)) := by
    rw [slotM_emb]
    exact congrArg M.view.emb (slotBox_emb s inb (y 0) (y 1)).symm
  rw [e, View.write_emb_of_mem _ _ (Finset.mem_univ _), ← hG (y 0) (y 1), View.read_apply, cast_cast, cast_eq]
  exact congrArg (fun t => G (M.view.emb t)) (slotBox_emb s inb (y 0) (y 1)).symm

private theorem writes_full_s8 (f8 : cc0_scratch8.ty.Contents (Elt F)) (w : S64x512.Idx → Elt F .bf16) :
    (Memref.whole cc0_scratch8).view.writes (Elt F) f8 [⟨Rect.unit (s := S64x512) ![0, 0] S64x512.size inb_S64x512_S64x512_0_0, w⟩] = w :=
  Memref.write_access_unit_zero_univ (Elt F) cc0_scratch8 (off := ![0, 0]) (by funext a; fin_cases a <;> rfl) inb_S64x512_S64x512_0_0 f8 w

section
variable (m : (ℓ : Loc nD τ sig) → Buf (Elt F) ℓ) (c : Dev nD)

private theorem own1_stored (f8 : cc0_scratch8.ty.Contents (Elt F)) :
    (Memref.whole cc0_scratch8).view.writes (Elt F) f8
      [⟨Rect.unit (s := S64x512) ![0, 0] S64x512.size inb_S64x512_S64x512_0_0,
        k0_pay10 (r1c m c)
          (View.readAt (Elt F) (Memref.whole cc0_scratch3).view (Rect.unit (s := S8x64x512) ![7, 0, 0] S1x64x512.size inb_S8x64x512_S1x64x512_7_0_0).toLoadRect (rs1C m c))
          (View.readAt (Elt F) (Memref.whole cc0_scratch3).view (Rect.unit (s := S8x64x512) ![6, 0, 0] S1x64x512.size inb_S8x64x512_S1x64x512_6_0_0).toLoadRect (rs1C m c))⟩]
      = own1 m c := by
  rw [writes_full_s8, slotRead_rs1C m c 7 (off := ![7, 0, 0]) rfl, slotRead_rs1C m c 6 (off := ![6, 0, 0]) rfl]
  show shapeCast S64x512 (k0_pay8 (r1c m c) (in1 m c 7) (in1 m c 6)) shapeCasts_S64x512_S64x512 = own1 m c
  rw [shapeCast_self]
  rfl

private theorem own1_slot (r : Fin 64) (j : Fin 512) :
    (Memref.whole cc0_scratch4).view.read (Elt F) (full1 m) (ix3 (n0 := 8) (n1 := 64) (n2 := 512) c r j)
      = k0_pay9 (r1c m c)
          (View.readAt (Elt F) (Memref.whole cc0_scratch3).view (Rect.unit (s := S8x64x512) ![7, 0, 0] S1x64x512.size inb_S8x64x512_S1x64x512_7_0_0).toLoadRect (rs1C m c))
          (View.readAt (Elt F) (Memref.whole cc0_scratch3).view (Rect.unit (s := S8x64x512) ![6, 0, 0] S1x64x512.size inb_S8x64x512_S1x64x512_6_0_0).toLoadRect (rs1C m c))
          (ix3 (n0 := 1) (n1 := 64) (n2 := 512) 0 r j) := by
  rw [slotRead_rs1C m c 7 (off := ![7, 0, 0]) rfl, slotRead_rs1C m c 6 (off := ![6, 0, 0]) rfl]
  show own1 m c (ix2 r j) = shapeCast S1x64x512 (k0_pay8 (r1c m c) (in1 m c 7) (in1 m c 6)) shapeCasts_S64x512_S1x64x512 (ix3 0 r j)
  rw [ValueIdx.shapeCast_ab_1ab_apply]
  rfl

end

theorem part15 (m : (ℓ : Loc nD τ sig) → Buf (Elt F) ℓ) (c : Dev nD) (κ7 κ6 : ℕ) (W : Waits sig Unit) (v2 w : BitVec 32)
    (f4 : cc0_scratch4.ty.Contents (Elt F)) (f8 : cc0_scratch8.ty.Contents (Elt F)) :
    iprop(cellInv ER (sched m) κ7 (xCell c 3 7) ∗ cred (tallyAt (xCell c 3 7) () N) ∗ atPos ER (xCell c 3 7) 0 ∅ 0
      ∗ cellInv ER (sched m) κ6 (xCell c 3 6) ∗ cred (tallyAt (xCell c 3 6) () N) ∗ atPos ER (xCell c 3 6) 0 ∅ 0
      ∗ levAts L lv ∗ owes (c : Thread nD τ) (owedAfter c 28) W
      ∗ slotPts c (Memref.whole cc0_scratch4) c f4 ∗ held c cc0_scratch8 f8)
      ⊢ wp frame (wpE (defs₀ (F := F)) 𝒱₀ (c : Thread nD τ) none) Set.univ ((bodyArgs% k0_part15) c v2 w (r1c m c))
          (fun r => iprop(⌜r = Scalar.xori v2 6#32⌝
            ∗ slotPts c (Memref.whole cc0_scratch3) 7 (rs1C m c) ∗ slotPts c (Memref.whole cc0_scratch3) 6 (rs1C m c)
            ∗ semVal (xCell c 3 7) 0 ∗ semVal (xCell c 3 6) 0
            ∗ (∃ W', owes (c : Thread nD τ) (owedAfter c 28) W')
            ∗ slotPts c (Memref.whole cc0_scratch4) c (full1 m) ∗ held c cc0_scratch8 (own1 m c))) := by
  unfold slotPts
  iintro ⟨#I7, C7, P7, #I6, C6, P6, #Hlev, Ho, S4c, H8⟩
  rw [k0_part15_eq_skeleton]
  unfold k0_part15_skel
  first | sl_exec | skip
  iapply (step_wait_x m c 3 7 (by decide) (κ := κ7) (dst := slotM (Memref.whole cc0_scratch3) 7) rfl) $$ [C7 Ho P7]
  · isplitr; · iexact I7
    isplitl [C7]; · iexact C7
    isplitl [Ho]; · iexact Ho
    isplitr; · iapply (mayWait_x_exchange c 3 (by decide) 7 (by decide) (n := 28) (le_refl _)); iexact Hlev
    iexact P7
  iintro ⟨Ho, P7, -, X7⟩
  first | sl_step | skip
  imod (close_x m c 3 7 (κ := κ7)) $$ [P7] with Z7
  · sl_close
  ihave S7 := (Entails.of_eq (show xPay m c 3 7 = ((slotM (Memref.whole cc0_scratch3) 7).view.loc (c : Thread nD τ) ↦[(slotM (Memref.whole cc0_scratch3) 7).view.set]{fullShare} rs1C m c : sProp 𝕄) from rfl)) $$ X7
  sl_exec
  iapply (step_wait_x m c 3 6 (by decide) (κ := κ6) (dst := slotM (Memref.whole cc0_scratch3) 6) rfl) $$ [C6 Ho P6]
  · isplitr; · iexact I6
    isplitl [C6]; · iexact C6
    isplitl [Ho]; · iexact Ho
    isplitr; · iapply (mayWait_x_exchange c 3 (by decide) 6 (by decide) (n := 28) (le_refl _)); iexact Hlev
    iexact P6
  iintro ⟨Ho, P6, -, X6⟩
  first | sl_step | skip
  imod (close_x m c 3 6 (κ := κ6)) $$ [P6] with Z6
  · sl_close
  ihave S6 := (Entails.of_eq (show xPay m c 3 6 = ((slotM (Memref.whole cc0_scratch3) 6).view.loc (c : Thread nD τ) ↦[(slotM (Memref.whole cc0_scratch3) 6).view.set]{fullShare} rs1C m c : sProp 𝕄) from rfl)) $$ X6
  sl_exec
  first | sl_step | (unfold Prog.bind; sl_step)
  ihave H8' : (held c cc0_scratch8 (own1 m c)) $$ [H8]
  · rw [← own1_stored m c f8]; iexact H8
  ihave S4' : ((slotM (Memref.whole cc0_scratch4) c).view.loc (c : Thread nD τ) ↦[(slotM (Memref.whole cc0_scratch4) c).view.set]{fullShare} full1 m) $$ [S4c]
  · have hS := stored_slot_eq (F := F) c (Memref.whole cc0_scratch4) c (k0_off2_eq c) (k0_off2_inb c) f4 (full1 m) _ (own1_slot m c)
    unfold slotPts at hS
    iapply (Entails.of_eq hS)
    iexact S4c
  isplitr; · ipureintro; rfl
  isplitl [S7]; · iexact S7
  isplitl [S6]; · iexact S6
  isplitl [Z7]; · iexact Z7
  isplitl [Z6]; · iexact Z6
  isplitl [Ho]; · iexists _; iexact Ho
  sl_close

end Cert.KernelIdeal.Hand

end
-- ==== Proof.Part16.lean ====
import proofs.«900577_g7700000000000578_dist_mlpseq_tp1dT_cs_cs_b512_d256_h512_v7x_i8_f32_1_alg».proof.Proof.Proto
import proofs.«900577_g7700000000000578_dist_mlpseq_tp1dT_cs_cs_b512_d256_h512_v7x_i8_f32_1_alg».proof.Proof.Sched
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part16 (m : (ℓ : Loc nD τ sig) → Buf (Elt F) ℓ) (c : Dev nD) (κs6 κr6 κs2 κr2 κs5 κr5 κs7 κr7 : ℕ) (W : Waits sig Unit) (v2 : BitVec 32) :
    iprop(owes (c : Thread nD τ) (owedAfter c 28) W
      ∗ cellInv ER (sched m) κs6 (xCell c 6 6) ∗ cellInv ER (sched m) κr6 (xCell (px c 6) 7 6)
      ∗ chunkPts c (Memref.whole cc0_scratch8) (shr 6) (own1 m c) ∗ (∃ f, slotPts (px c 6) (Memref.whole cc0_scratch4) c f)
      ∗ dutyTok ER (xCell c 6 6) 0 0 ∗ reached ER (xCell c 6 6) 0
      ∗ dutyTok ER (xCell (px c 6) 7 6) 0 0 ∗ reached ER (xCell (px c 6) 7 6) 0
      ∗ cellInv ER (sched m) κs2 (xCell c 6 2) ∗ cellInv ER (sched m) κr2 (xCell (px c 2) 7 2)
      ∗ chunkPts c (Memref.whole cc0_scratch8) (shr 2) (own1 m c) ∗ (∃ f, slotPts (px c 2) (Memref.whole cc0_scratch4) c f)
      ∗ dutyTok ER (xCell c 6 2) 0 0 ∗ reached ER (xCell c 6 2) 0
      ∗ dutyTok ER (xCell (px c 2) 7 2) 0 0 ∗ reached ER (xCell (px c 2) 7 2) 0
      ∗ cellInv ER (sched m) κs5 (xCell c 6 5) ∗ cellInv ER (sched m) κr5 (xCell (px c 5) 7 5)
      ∗ chunkPts c (Memref.whole cc0_scratch8) (shr 5) (own1 m c) ∗ (∃ f, slotPts (px c 5) (Memref.whole cc0_scratch4) c f)
      ∗ dutyTok ER (xCell c 6 5) 0 0 ∗ reached ER (xCell c 6 5) 0
      ∗ dutyTok ER (xCell (px c 5) 7 5) 0 0 ∗ reached ER (xCell (px c 5) 7 5) 0
      ∗ cellInv ER (sched m) κs7 (xCell c 6 7) ∗ cellInv ER (sched m) κr7 (xCell (px c 7) 7 7)
      ∗ chunkPts c (Memref.whole cc0_scratch8) (shr 7) (own1 m c) ∗ (∃ f, slotPts (px c 7) (Memref.whole cc0_scratch4) c f)
      ∗ dutyTok ER (xCell c 6 7) 0 0 ∗ reached ER (xCell c 6 7) 0
      ∗ dutyTok ER (xCell (px c 7) 7 7) 0 0 ∗ reached ER (xCell (px c 7) 7 7) 0)
      ⊢ wp frame (wpE (defs₀ (F := F)) 𝒱₀ (c : Thread nD τ) none) Set.univ ((bodyArgs% k0_part16) c v2)
          (fun r => iprop(⌜r = ⟨Scalar.xori v2 2#32, Scalar.xori v2 5#32, Scalar.xori v2 7#32, 1#32⟩⌝
            ∗ cred (tallyAt (xCell c 6 6) () N) ∗ cred (tallyAt (xCell c 6 2) () N)
            ∗ cred (tallyAt (xCell c 6 5) () N) ∗ cred (tallyAt (xCell c 6 7) () N)
            ∗ owes (c : Thread nD τ) (owedAfter c 32) W)) := by
  iintro ⟨Ho, I6s, I6r, S6, D6, T6s, R6s, T6r, R6r, I2s, I2r, S2, D2, T2s, R2s, T2r, R2r, I5s, I5r, S5, D5, T5s, R5s, T5r, R5r, I7s, I7r, S7, D7, T7s, R7s, T7r, R7r⟩
  rw [k0_part16_eq_skeleton]
  unfold k0_part16_skel
  sl_exec
  icases D6 with ⟨%fd6, D6⟩
  iapply (step_send_chunk m c ⟨k0_dev29 c, k0_dev29_lt c⟩ 6 (by decide) (dev29_eq c) 6 7 (Memref.whole cc0_scratch8) (Memref.whole cc0_scratch4) (own1 m c) (off3_slot _ c) fd6 Entails.rfl (Entails.of_eq (landed_full1 m c 6 fd6)) (owedAfter c 29) (owedAfter_step c 28 _ _ rfl)) $$ [I6s I6r S6 D6 Ho T6s R6s T6r R6r]
  · iframe
  iintro ⟨C6, Ho⟩
  sl_exec
  icases D2 with ⟨%fd2, D2⟩
  iapply (step_send_chunk m c ⟨k0_dev30 c, k0_dev30_lt c⟩ 2 (by decide) (dev30_eq c) 6 7 (Memref.whole cc0_scratch8) (Memref.whole cc0_scratch4) (own1 m c) (off3_slot _ c) fd2 Entails.rfl (Entails.of_eq (landed_full1 m c 2 fd2)) (owedAfter c 30) (owedAfter_step c 29 _ _ rfl)) $$ [I2s I2r S2 D2 Ho T2s R2s T2r R2r]
  · iframe
  iintro ⟨C2, Ho⟩
  sl_exec
  icases D5 with ⟨%fd5, D5⟩
  iapply (step_send_chunk m c ⟨k0_dev31 c, k0_dev31_lt c⟩ 5 (by decide) (dev31_eq c) 6 7 (Memref.whole cc0_scratch8) (Memref.whole cc0_scratch4) (own1 m c) (off3_slot _ c) fd5 Entails.rfl (Entails.of_eq (landed_full1 m c 5 fd5)) (owedAfter c 31) (owedAfter_step c 30 _ _ rfl)) $$ [I5s I5r S5 D5 Ho T5s R5s T5r R5r]
  · iframe
  iintro ⟨C5, Ho⟩
  sl_exec
  icases D7 with ⟨%fd7, D7⟩
  iapply (step_send_chunk m c ⟨k0_dev32 c, k0_dev32_lt c⟩ 7 (by decide) (dev32_eq c) 6 7 (Memref.whole cc0_scratch8) (Memref.whole cc0_scratch4) (own1 m c) (off3_slot _ c) fd7 Entails.rfl (Entails.of_eq (landed_full1 m c 7 fd7)) (owedAfter c 32) (owedAfter_step c 31 _ _ rfl)) $$ [I7s I7r S7 D7 Ho T7s R7s T7r R7r]
  · iframe
  iintro ⟨C7, Ho⟩
  sl_exec
  sl_step
  isplitr
  · ipureintro; rfl
  sl_close

end Cert.KernelIdeal.Hand

end
-- ==== Proof.Part17.lean ====
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.SlotRead

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part17 (m : (ℓ : Loc nD τ sig) → Buf (Elt F) ℓ) (c : Dev nD) (κs1 κr1 κs3 κr3 κs4 κr4 : ℕ) (W : Waits sig Unit) (v2 w : BitVec 32) :
    iprop(owes (c : Thread nD τ) (owedAfter c 32) W
      ∗ cellInv ER (sched m) κs1 (xCell c 6 1) ∗ cellInv ER (sched m) κr1 (xCell (px c 1) 7 1)
      ∗ chunkPts c (Memref.whole cc0_scratch8) (shr 1) (own1 m c) ∗ (∃ f, slotPts (px c 1) (Memref.whole cc0_scratch4) c f)
      ∗ dutyTok ER (xCell c 6 1) 0 0 ∗ reached ER (xCell c 6 1) 0
      ∗ dutyTok ER (xCell (px c 1) 7 1) 0 0 ∗ reached ER (xCell (px c 1) 7 1) 0
      ∗ cellInv ER (sched m) κs3 (xCell c 6 3) ∗ cellInv ER (sched m) κr3 (xCell (px c 3) 7 3)
      ∗ chunkPts c (Memref.whole cc0_scratch8) (shr 3) (own1 m c) ∗ (∃ f, slotPts (px c 3) (Memref.whole cc0_scratch4) c f)
      ∗ dutyTok ER (xCell c 6 3) 0 0 ∗ reached ER (xCell c 6 3) 0
      ∗ dutyTok ER (xCell (px c 3) 7 3) 0 0 ∗ reached ER (xCell (px c 3) 7 3) 0
      ∗ cellInv ER (sched m) κs4 (xCell c 6 4) ∗ cellInv ER (sched m) κr4 (xCell (px c 4) 7 4)
      ∗ chunkPts c (Memref.whole cc0_scratch8) (shr 4) (own1 m c) ∗ (∃ f, slotPts (px c 4) (Memref.whole cc0_scratch4) c f)
      ∗ dutyTok ER (xCell c 6 4) 0 0 ∗ reached ER (xCell c 6 4) 0
      ∗ dutyTok ER (xCell (px c 4) 7 4) 0 0 ∗ reached ER (xCell (px c 4) 7 4) 0
      ∗ slotPts c (Memref.whole cc0_scratch5) c (part2 m c))
      ⊢ wp frame (wpE (defs₀ (F := F)) 𝒱₀ (c : Thread nD τ) none) Set.univ ((bodyArgs% k0_part17) c v2 w)
          (fun r => iprop(⌜r = ⟨Scalar.xori v2 w, Scalar.xori v2 3#32, Scalar.xori v2 4#32, r2a m c, 1#32⟩⌝
            ∗ cred (tallyAt (xCell c 6 1) () N) ∗ cred (tallyAt (xCell c 6 3) () N) ∗ cred (tallyAt (xCell c 6 4) () N)
            ∗ (∃ W', owes (c : Thread nD τ) (owedAfter c 35) W')
            ∗ slotPts c (Memref.whole cc0_scratch5) c (part2 m c))) := by
  iintro ⟨HO, #Is1, #Ir1, Hq1, ⟨%f1, Hd1⟩, Ts1, #Rs1, Tr1, #Rr1, #Is3, #Ir3, Hq3, ⟨%f3, Hd3⟩, Ts3, #Rs3, Tr3, #Rr3,
    #Is4, #Ir4, Hq4, ⟨%f4, Hd4⟩, Ts4, #Rs4, Tr4, #Rr4, Hx5⟩
  rw [k0_part17_eq_skeleton]
  unfold k0_part17_skel
  sl_exec

  iapply (step_send_chunk m c _ 1 (by decide) (dev33_eq c) 6 7 (Memref.whole cc0_scratch8) (Memref.whole cc0_scratch4) (own1 m c) (off3_slot _ c) f1 Entails.rfl (Entails.of_eq (landed_full1 m c 1 f1)) (owedAfter c 33) (owedAfter_step c 32 _ _ rfl)) $$ [Hq1 Hd1 HO Ts1 Tr1]
  · sl_close
  iintro ⟨Hcr1, HO⟩
  first | sl_step | unfold Prog.bind | skip
  first | sl_exec | skip

  iapply (step_send_chunk m c _ 3 (by decide) (dev34_eq c) 6 7 (Memref.whole cc0_scratch8) (Memref.whole cc0_scratch4) (own1 m c) (off3_slot _ c) f3 Entails.rfl (Entails.of_eq (landed_full1 m c 3 f3)) (owedAfter c 34) (owedAfter_step c 33 _ _ rfl)) $$ [Hq3 Hd3 HO Ts3 Tr3]
  · sl_close
  iintro ⟨Hcr3, HO⟩
  first | sl_step | unfold Prog.bind | skip
  first | sl_exec | skip

  iapply (step_send_chunk m c _ 4 (by decide) (dev35_eq c) 6 7 (Memref.whole cc0_scratch8) (Memref.whole cc0_scratch4) (own1 m c) (off3_slot _ c) f4 Entails.rfl (Entails.of_eq (landed_full1 m c 4 f4)) (owedAfter c 35) (owedAfter_step c 34 _ _ rfl)) $$ [Hq4 Hd4 HO Ts4 Tr4]
  · sl_close
  iintro ⟨Hcr4, HO⟩
  first | sl_step | unfold Prog.bind | skip

  unfold slotPts
  first | sl_exec | skip
  first | sl_step | (unfold Prog.bind; sl_step) | skip
  isplitr
  · ipureintro
    rw [slotRead_part2 m c (k0_off2_eq c)]
    rfl
  isplitl [Hcr1]; · iexact Hcr1
  isplitl [Hcr3]; · iexact Hcr3
  isplitl [Hcr4]; · iexact Hcr4
  isplitl [HO]; · iexists _; iexact HO
  iexact Hx5

end Cert.KernelIdeal.Hand

end
-- ==== Proof.SegC.lean ====
import proofs.«900577_g7700000000000578_dist_mlpseq_tp1dT_cs_cs_b512_d256_h512_v7x_i8_f32_1_alg».proof.Proof.Part13
import proofs.«900577_g7700000000000578_dist_mlpseq_tp1dT_cs_cs_b512_d256_h512_v7x_i8_f32_1_alg».proof.Proof.Part14
import proofs.«900577_g7700000000000578_dist_mlpseq_tp1dT_cs_cs_b512_d256_h512_v7x_i8_f32_1_alg».proof.Proof.Part15
import proofs.«900577_g7700000000000578_dist_mlpseq_tp1dT_cs_cs_b512_d256_h512_v7x_i8_f32_1_alg».proof.Proof.Part16
import proofs.«900577_g7700000000000578_dist_mlpseq_tp1dT_cs_cs_b512_d256_h512_v7x_i8_f32_1_alg».proof.Proof.Part17
import proofs.«900577_g7700000000000578_dist_mlpseq_tp1dT_cs_cs_b512_d256_h512_v7x_i8_f32_1_alg».proof.Proof.Rest
import proofs.«900577_g7700000000000578_dist_mlpseq_tp1dT_cs_cs_b512_d256_h512_v7x_i8_f32_1_alg».proof.Proof.Slots

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def segC_R (c : Dev nD) (κx κs κr : Fin 8 → ℕ) (W : Waits sig Unit)
    (f4 : cc0_scratch4.ty.Contents (Elt F)) (f8 : cc0_scratch8.ty.Contents (Elt F)) : sProp 𝕄 :=
  iprop(levAts L lv
    ∗ (cellInv ER (sched m) (κx 2) (xCell c 3 2) ∗ cellInv ER (sched m) (κx 3) (xCell c 3 3) ∗ cellInv ER (sched m) (κx 4) (xCell c 3 4)
      ∗ cellInv ER (sched m) (κx 5) (xCell c 3 5) ∗ cellInv ER (sched m) (κx 6) (xCell c 3 6) ∗ cellInv ER (sched m) (κx 7) (xCell c 3 7))
    ∗ (cellInv ER (sched m) (κs 1) (xCell c 6 1) ∗ cellInv ER (sched m) (κs 2) (xCell c 6 2) ∗ cellInv ER (sched m) (κs 3) (xCell c 6 3)
      ∗ cellInv ER (sched m) (κs 4) (xCell c 6 4) ∗ cellInv ER (sched m) (κs 5) (xCell c 6 5) ∗ cellInv ER (sched m) (κs 6) (xCell c 6 6)
      ∗ cellInv ER (sched m) (κs 7) (xCell c 6 7))
    ∗ (reached ER (xCell c 6 1) 0 ∗ reached ER (xCell c 6 2) 0 ∗ reached ER (xCell c 6 3) 0 ∗ reached ER (xCell c 6 4) 0
      ∗ reached ER (xCell c 6 5) 0 ∗ reached ER (xCell c 6 6) 0 ∗ reached ER (xCell c 6 7) 0)
    ∗ (cellInv ER (sched m) (κr 1) (xCell (px c 1) 7 1) ∗ cellInv ER (sched m) (κr 2) (xCell (px c 2) 7 2) ∗ cellInv ER (sched m) (κr 3) (xCell (px c 3) 7 3)
      ∗ cellInv ER (sched m) (κr 4) (xCell (px c 4) 7 4) ∗ cellInv ER (sched m) (κr 5) (xCell (px c 5) 7 5) ∗ cellInv ER (sched m) (κr 6) (xCell (px c 6) 7 6)
      ∗ cellInv ER (sched m) (κr 7) (xCell (px c 7) 7 7))
    ∗ (reached ER (xCell (px c 1) 7 1) 0 ∗ reached ER (xCell (px c 2) 7 2) 0 ∗ reached ER (xCell (px c 3) 7 3) 0 ∗ reached ER (xCell (px c 4) 7 4) 0
      ∗ reached ER (xCell (px c 5) 7 5) 0 ∗ reached ER (xCell (px c 6) 7 6) 0 ∗ reached ER (xCell (px c 7) 7 7) 0)
    ∗ owes (c : Thread nD τ) (owedAfter c 28) W
    ∗ (cred (tallyAt (xCell c 3 2) () N) ∗ cred (tallyAt (xCell c 3 3) () N) ∗ cred (tallyAt (xCell c 3 4) () N)
      ∗ cred (tallyAt (xCell c 3 5) () N) ∗ cred (tallyAt (xCell c 3 6) () N) ∗ cred (tallyAt (xCell c 3 7) () N))
    ∗ (atPos ER (xCell c 3 2) 0 ∅ 0 ∗ atPos ER (xCell c 3 3) 0 ∅ 0 ∗ atPos ER (xCell c 3 4) 0 ∅ 0
      ∗ atPos ER (xCell c 3 5) 0 ∅ 0 ∗ atPos ER (xCell c 3 6) 0 ∅ 0 ∗ atPos ER (xCell c 3 7) 0 ∅ 0)
    ∗ (slotPts c (Memref.whole cc0_scratch3) 1 (rs1C m c) ∗ slotPts c (Memref.whole cc0_scratch4) c f4 ∗ held c cc0_scratch8 f8
      ∗ slotPts c (Memref.whole cc0_scratch5) c (part2 m c))
    ∗ (dutyTok ER (xCell c 6 1) 0 0 ∗ dutyTok ER (xCell c 6 2) 0 0 ∗ dutyTok ER (xCell c 6 3) 0 0 ∗ dutyTok ER (xCell c 6 4) 0 0
      ∗ dutyTok ER (xCell c 6 5) 0 0 ∗ dutyTok ER (xCell c 6 6) 0 0 ∗ dutyTok ER (xCell c 6 7) 0 0)
    ∗ (dutyTok ER (xCell (px c 1) 7 1) 0 0 ∗ dutyTok ER (xCell (px c 2) 7 2) 0 0 ∗ dutyTok ER (xCell (px c 3) 7 3) 0 0 ∗ dutyTok ER (xCell (px c 4) 7 4) 0 0
      ∗ dutyTok ER (xCell (px c 5) 7 5) 0 0 ∗ dutyTok ER (xCell (px c 6) 7 6) 0 0 ∗ dutyTok ER (xCell (px c 7) 7 7) 0 0)
    ∗ ((∃ f, slotPts (px c 1) (Memref.whole cc0_scratch4) c f) ∗ (∃ f, slotPts (px c 2) (Memref.whole cc0_scratch4) c f)
      ∗ (∃ f, slotPts (px c 3) (Memref.whole cc0_scratch4) c f) ∗ (∃ f, slotPts (px c 4) (Memref.whole cc0_scratch4) c f)
      ∗ (∃ f, slotPts (px c 5) (Memref.whole cc0_scratch4) c f) ∗ (∃ f, slotPts (px c 6) (Memref.whole cc0_scratch4) c f)
      ∗ (∃ f, slotPts (px c 7) (Memref.whole cc0_scratch4) c f)))

def segC_Post (c : Dev nD) : sProp 𝕄 :=
  iprop((slotPts c (Memref.whole cc0_scratch3) 1 (rs1C m c) ∗ slotPts c (Memref.whole cc0_scratch3) 3 (rs1C m c)
      ∗ slotPts c (Memref.whole cc0_scratch3) 4 (rs1C m c) ∗ semVal (xCell c 3 3) 0 ∗ semVal (xCell c 3 4) 0)
    ∗ (slotPts c (Memref.whole cc0_scratch3) 2 (rs1C m c) ∗ slotPts c (Memref.whole cc0_scratch3) 5 (rs1C m c)
      ∗ semVal (xCell c 3 2) 0 ∗ semVal (xCell c 3 5) 0)
    ∗ (slotPts c (Memref.whole cc0_scratch3) 7 (rs1C m c) ∗ slotPts c (Memref.whole cc0_scratch3) 6 (rs1C m c)
      ∗ semVal (xCell c 3 7) 0 ∗ semVal (xCell c 3 6) 0 ∗ slotPts c (Memref.whole cc0_scratch4) c (full1 m))
    ∗ chunkPts c (Memref.whole cc0_scratch8) (shr 0) (own1 m c)
    ∗ (cred (tallyAt (xCell c 6 6) () N) ∗ cred (tallyAt (xCell c 6 2) () N) ∗ cred (tallyAt (xCell c 6 5) () N) ∗ cred (tallyAt (xCell c 6 7) () N))
    ∗ (cred (tallyAt (xCell c 6 1) () N) ∗ cred (tallyAt (xCell c 6 3) () N) ∗ cred (tallyAt (xCell c 6 4) () N)
      ∗ (∃ W', owes (c : Thread nD τ) (owedAfter c 35) W') ∗ slotPts c (Memref.whole cc0_scratch5) c (part2 m c)))

theorem segC (c : Dev nD) (κx κs κr : Fin 8 → ℕ) (W : Waits sig Unit)
    (f4 : cc0_scratch4.ty.Contents (Elt F)) (f8 : cc0_scratch8.ty.Contents (Elt F))
    (v2 v69 v80 v91 v102 v124 v135 v164 v175 v186 v197 v208 v219 v230 v256 v267 v278 v289 v300 v311 v322 : BitVec 32)
    (Q : Dev nD → sProp 𝕄) :
    iprop(segC_R m c κx κs κr W f4 f8
      ∗ (segC_Post m c -∗ wp frame (wpE (defs₀ (F := F)) 𝒱₀ (c : Thread nD τ) none) Set.univ
          ((bodyArgs% rest18) c v2 v164 v175 v186 v197 v208 v219 v230 v256 v267 v278 v289 v300 v311 v322
            (Scalar.xori v2 6#32) (Scalar.xori v2 2#32) (Scalar.xori v2 5#32) (Scalar.xori v2 7#32)
            (Scalar.xori v2 1#32) (Scalar.xori v2 3#32) (Scalar.xori v2 4#32) (r2a m c) 1#32) Q))
      ⊢ wp frame (wpE (defs₀ (F := F)) 𝒱₀ (c : Thread nD τ) none) Set.univ
          ((bodyArgs% rest13) c v2 v69 v80 v91 v102 v124 v135 v164 v175 v186 v197 v208 v219 v230 v256 v267 v278 v289 v300 v311 v322 (r1a m c)) Q := by
  unfold segC_R
  iintro ⟨⟨#Hlev, ⟨I32, I33, I34, I35, I36, I37⟩, ⟨Is1, Is2, Is3, Is4, Is5, Is6, Is7⟩, ⟨Rs1, Rs2, Rs3, Rs4, Rs5, Rs6, Rs7⟩,
    ⟨Ir1, Ir2, Ir3, Ir4, Ir5, Ir6, Ir7⟩, ⟨Rr1, Rr2, Rr3, Rr4, Rr5, Rr6, Rr7⟩, Ho, ⟨C32, C33, C34, C35, C36, C37⟩,
    ⟨P32, P33, P34, P35, P36, P37⟩, ⟨S1, S4c, H8, S5c⟩, ⟨Ts1, Ts2, Ts3, Ts4, Ts5, Ts6, Ts7⟩, ⟨Tr1, Tr2, Tr3, Tr4, Tr5, Tr6, Tr7⟩,
    ⟨D1, D2, D3, D4, D5, D6, D7⟩⟩, Hk⟩
  unfold rest13

  iapply (exec_cut frame _ Set.univ (part13 m c (κx 3) (κx 4) W v124 v135)) $$ [S1 I33 C33 P33 I34 C34 P34 Ho]
  · sl_close
  iintro %r13 HQ
  icases HQ with ⟨%hr, S1, S3, S4, Z3, Z4, ⟨%W1, Ho⟩⟩
  subst hr

  iapply (exec_cut frame _ Set.univ (part14 m c (κx 2) (κx 5) W1 v80 v91 v102)) $$ [I32 C32 P32 I35 C35 P35 Ho]
  · sl_close
  iintro %r14 HQ
  icases HQ with ⟨%hr, S2, S5, Z2, Z5, ⟨%W2, Ho⟩⟩
  subst hr

  iapply (exec_cut frame _ Set.univ (part15 m c (κx 7) (κx 6) W2 v2 v69 f4 f8)) $$ [I37 C37 P37 I36 C36 P36 Ho S4c H8]
  · sl_close
  iintro %r15 HQ
  icases HQ with ⟨%hr, S7, S6, Z7, Z6, ⟨%W3, Ho⟩, S4c, H8⟩
  subst hr

  ihave H8s := (Entails.of_eq ((congrArg (fun I => ((Memref.whole cc0_scratch8).view.loc (c : Thread nD τ) ↦[I]{fullShare} own1 m c : sProp 𝕄))
    (Memref.isWhole_whole cc0_scratch8).set_eq_univ.symm).trans (shares_eq c (Memref.whole cc0_scratch8) (own1 m c)))) $$ H8
  icases H8s with ⟨Sh0, Sh1, Sh2, Sh3, Sh4, Sh5, Sh6, Sh7⟩

  iapply (exec_cut frame _ Set.univ (part16 m c (κs 6) (κr 6) (κs 2) (κr 2) (κs 5) (κr 5) (κs 7) (κr 7) W3 v2))
    $$ [Ho Is6 Ir6 Sh6 D6 Ts6 Rs6 Tr6 Rr6 Is2 Ir2 Sh2 D2 Ts2 Rs2 Tr2 Rr2 Is5 Ir5 Sh5 D5 Ts5 Rs5 Tr5 Rr5 Is7 Ir7 Sh7 D7 Ts7 Rs7 Tr7 Rr7]
  · iframe
  iintro %r16 HQ
  icases HQ with ⟨%hr, K6, K2, K5, K7, Ho⟩
  subst hr

  iapply (exec_cut frame _ Set.univ (part17 m c (κs 1) (κr 1) (κs 3) (κr 3) (κs 4) (κr 4) W3 v2 1#32))
    $$ [Ho Is1 Ir1 Sh1 D1 Ts1 Rs1 Tr1 Rr1 Is3 Ir3 Sh3 D3 Ts3 Rs3 Tr3 Rr3 Is4 Ir4 Sh4 D4 Ts4 Rs4 Tr4 Rr4 S5c]
  · iframe
  iintro %r17 HQ
  icases HQ with ⟨%hr, K1, K3, K4, HoE, S5c⟩
  subst hr
  iapply Hk
  unfold segC_Post
  iframe

end Cert.KernelIdeal.Hand

end
-- ==== Proof.SecondProduct.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.Slots
import Idealize.ShloMosaic.Lib.ValueLayout

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem slot_credit (M : Memref sig .tc .vmem S8x64x512 .bf16) (s : Fin 8) : (slotM M s).view.dmaCredit = N := rfl

open Idealize.ShloMosaic.ValueIdx (ix2 ix3) in

theorem read_rs2C (m : (ℓ : Loc nD τ sig) → Buf (Elt F) ℓ) (c : Dev nD) (k : Fin 8)
    (inb : ∀ a, (![k.val, 0, 0] : Fin 3 → Nat) a + S1x64x512.size a ≤ S8x64x512.size a) :
    (Memref.whole cc0_scratch6 : Memref sig .tc .vmem S8x64x512 .bf16).view.readAt (Elt F)
      (Rect.unit (s := S8x64x512) ![k.val, 0, 0] S1x64x512.size inb).toLoadRect (rs2C m c) = in2 m c k := by
  funext x
  have x0 : (x 0).val = 0 := by have := (x 0).isLt; exact Nat.lt_one_iff.mp this
  have hx : x = ix3 (n0 := 1) (n1 := 64) (n2 := 512) 0 (x 1) (x 2) := by
    funext a
    match a with
    | ⟨0, _⟩ => exact Fin.ext x0
    | ⟨1, _⟩ => rfl
    | ⟨2, _⟩ => rfl
  rw [View.readAt_apply]
  show rs2C m c ((Rect.unit (s := S8x64x512) ![k.val, 0, 0] S1x64x512.size inb).idx x) = in2 m c k x
  unfold rs2C
  have h0 : ((Rect.unit (s := S8x64x512) ![k.val, 0, 0] S1x64x512.size inb).idx x) 0 = k :=
    Fin.ext (by show k.val + 1 * (x 0).val = k.val; omega)
  have h1 : ((Rect.unit (s := S8x64x512) ![k.val, 0, 0] S1x64x512.size inb).idx x) 1 = x 1 :=
    Fin.ext (by show 0 + 1 * (x 1).val = (x 1).val; omega)
  have h2 : ((Rect.unit (s := S8x64x512) ![k.val, 0, 0] S1x64x512.size inb).idx x) 2 = x 2 :=
    Fin.ext (by show 0 + 1 * (x 2).val = (x 2).val; omega)
  show in2 m c (((Rect.unit (s := S8x64x512) ![k.val, 0, 0] S1x64x512.size inb).idx x) 0)
      (ix3 0 (((Rect.unit (s := S8x64x512) ![k.val, 0, 0] S1x64x512.size inb).idx x) 1) (((Rect.unit (s := S8x64x512) ![k.val, 0, 0] S1x64x512.size inb).idx x) 2)) = in2 m c k x
  rw [h0, h1, h2]
  exact congrArg (in2 m c k) hx.symm

open Idealize.ShloMosaic.ValueIdx (ix2 ix3) in

theorem slot_written (c : Dev nD) (M : Memref sig .tc .vmem S8x64x512 .bf16) (s : Fin 8) (off : Fin 3 → Nat) (hoff : off = ![s.val, 0, 0])
    (inb : ∀ a, off a + S1x64x512.size a ≤ S8x64x512.size a)
    (f G : Buf (Elt F) (M.view.loc (c : Thread nD τ))) (w : Vec F S1x64x512 .bf16)
    (h : ∀ (r : Fin 64) (q : Fin 512), w (ix3 (n0 := 1) (n1 := 64) (n2 := 512) 0 r q) = M.view.read (Elt F) G (ix3 (n0 := 8) (n1 := 64) (n2 := 512) s r q)) :
    ((slotM M s).view.loc (c : Thread nD τ) ↦[(slotM M s).view.set]{fullShare}
        View.write (Elt F) (M.access (Rect.unit (s := S8x64x512) off S1x64x512.size inb)) f w Finset.univ : sProp 𝕄)
      = slotPts c M s G := by
  subst hoff
  unfold slotPts
  refine BI.Region.is_congr fun i hi => ?_
  have hs : (slotM M s).view.set = (M.access (Rect.unit (s := S8x64x512) ![s.val, 0, 0] S1x64x512.size inb)).set := by
    show ((M.view.slice (Rect.unit (s := S8x64x512) ![s.val, 0, 0] S1x64x512.size (inb3 s))).reshape S64x512 _).set = _
    rw [View.set_reshape]
  rw [hs] at hi
  obtain ⟨y, rfl⟩ := View.exists_emb_of_mem_set _ hi
  rw [View.write_emb_of_mem _ _ (Finset.mem_univ y)]
  have y0 : (y 0).val = 0 := by have := (y 0).isLt; exact Nat.lt_one_iff.mp this
  have hy : y = ix3 (n0 := 1) (n1 := 64) (n2 := 512) 0 (y 1) (y 2) := by
    funext a
    match a with
    | ⟨0, _⟩ => exact Fin.ext y0
    | ⟨1, _⟩ => rfl
    | ⟨2, _⟩ => rfl
  have he : (M.access (Rect.unit (s := S8x64x512) ![s.val, 0, 0] S1x64x512.size inb)).emb y
      = M.view.emb (ix3 (n0 := 8) (n1 := 64) (n2 := 512) s (y 1) (y 2)) := by
    show M.view.emb ((Rect.unit (s := S8x64x512) ![s.val, 0, 0] S1x64x512.size inb).emb y) = _
    refine congrArg M.view.emb (funext fun a => Fin.ext ?_)
    match a with
    | ⟨0, _⟩ => show s.val + 1 * (y 0).val = s.val; omega
    | ⟨1, _⟩ => show 0 + 1 * (y 1).val = (y 1).val; omega
    | ⟨2, _⟩ => show 0 + 1 * (y 2).val = (y 2).val; omega
  have hw := h (y 1) (y 2)
  rw [← hy, View.read_apply] at hw
  rw [hw, he, cast_cast, cast_eq]

open Idealize.ShloMosaic.ValueIdx (ix2 ix3) in

theorem own_slot_full2 (m : (ℓ : Loc nD τ sig) → Buf (Elt F) ℓ) (c : Dev nD)
    (f : Buf (Elt F) ((Memref.whole cc0_scratch7 : Memref sig .tc .vmem S8x64x512 .bf16).view.loc (c : Thread nD τ))) :
    ((slotM (Memref.whole cc0_scratch7) c).view.loc (c : Thread nD τ) ↦[(slotM (Memref.whole cc0_scratch7) c).view.set]{fullShare}
        View.write (Elt F) ((Memref.whole cc0_scratch7 : Memref sig .tc .vmem S8x64x512 .bf16).access
          (Rect.unit (s := S8x64x512) (k0_off2 c) S1x64x512.size (k0_off2_inb c))) f
          (k0_pay16 (r2c m c) (r2d m c) (in2 m c 7) (in2 m c 6)) Finset.univ : sProp 𝕄)
      = slotPts c (Memref.whole cc0_scratch7) c (full2 m) :=
  slot_written c (Memref.whole cc0_scratch7) c (k0_off2 c) (k0_off2_eq c) (k0_off2_inb c) f (full2 m) _ (fun r q => by
    show k0_pay16 (r2c m c) (r2d m c) (in2 m c 7) (in2 m c 6) (ix3 (n0 := 1) (n1 := 64) (n2 := 512) 0 r q) = own2 m c (ix2 r q)
    unfold k0_pay16
    exact ValueIdx.shapeCast_ab_1ab_apply _ _ 0 r q)

theorem src9_stored (m : (ℓ : Loc nD τ sig) → Buf (Elt F) ℓ) (c : Dev nD) (f9 : cc0_scratch9.ty.Contents (Elt F)) :
    ((Memref.whole cc0_scratch9 : Memref sig .tc .vmem S64x512 .bf16).view.loc (c : Thread nD τ) ↦{fullShare}
        (Memref.whole cc0_scratch9 : Memref sig .tc .vmem S64x512 .bf16).view.writes (Elt F) f9
          [⟨Rect.unit (s := S64x512) ![0, 0] S64x512.size inb_S64x512_S64x512_0_0, k0_pay17 (own2 m c)⟩] : sProp 𝕄)
      = chunkPts c (Memref.whole cc0_scratch9) fullShare (own2 m c) := by
  have hw : (Memref.whole cc0_scratch9 : Memref sig .tc .vmem S64x512 .bf16).view.writes (Elt F) f9
      [⟨Rect.unit (s := S64x512) ![0, 0] S64x512.size inb_S64x512_S64x512_0_0, k0_pay17 (own2 m c)⟩] = own2 m c := by
    have h1 : (Memref.whole cc0_scratch9 : Memref sig .tc .vmem S64x512 .bf16).view.writes (Elt F) f9
        [⟨Rect.unit (s := S64x512) ![0, 0] S64x512.size inb_S64x512_S64x512_0_0, k0_pay17 (own2 m c)⟩] = k0_pay17 (own2 m c) := by
      show ((Memref.whole cc0_scratch9 : Memref sig .tc .vmem S64x512 .bf16).access (Rect.unit (s := S64x512) ![0, 0] S64x512.size inb_S64x512_S64x512_0_0)).write (Elt F) f9 (k0_pay17 (own2 m c)) Finset.univ = k0_pay17 (own2 m c)
      exact Memref.write_access_unit_zero_univ (Elt F) cc0_scratch9 (off := ![0, 0]) (by funext a; fin_cases a <;> rfl) inb_S64x512_S64x512_0_0 f9 _
    rw [h1]
    unfold k0_pay17
    exact shapeCast_self _ _
  rw [hw]
  unfold chunkPts
  exact congrArg (fun I => ((Memref.whole cc0_scratch9 : Memref sig .tc .vmem S64x512 .bf16).view.loc (c : Thread nD τ) ↦[I]{fullShare} own2 m c : sProp 𝕄))
    (Memref.isWhole_whole cc0_scratch9).set_eq_univ.symm

end Cert.KernelIdeal.Hand

end
-- ==== Proof.Part18.lean ====
import proofs.«900577_g7700000000000578_dist_mlpseq_tp1dT_cs_cs_b512_d256_h512_v7x_i8_f32_1_alg».proof.Proof.SecondProduct

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part18 (m : (ℓ : Loc nD τ sig) → Buf (Elt F) ℓ) (c : Dev nD) (w1 w2 w3 w4 : BitVec 32) (κ1 κ3 : ℕ) (W : Waits sig Unit) :
    iprop(levAts L lv
      ∗ cellInv ER (sched m) κ1 (xCell c 5 1) ∗ cellInv ER (sched m) κ3 (xCell c 5 3)
      ∗ cred (tallyAt (xCell c 5 1) () N) ∗ cred (tallyAt (xCell c 5 3) () N)
      ∗ atPos ER (xCell c 5 1) 0 ∅ 0 ∗ atPos ER (xCell c 5 3) 0 ∅ 0
      ∗ owes (c : Thread nD τ) (owedAfter c 35) W)
      ⊢ wp frame (wpE (defs₀ (F := F)) 𝒱₀ (c : Thread nD τ) none) Set.univ ((bodyArgs% k0_part18) c w1 w2 w3 (r2a m c) w4)
          (fun r => iprop(⌜r = r2b m c⌝
            ∗ slotPts c (Memref.whole cc0_scratch6) 1 (rs2C m c) ∗ slotPts c (Memref.whole cc0_scratch6) 3 (rs2C m c)
            ∗ atPos ER (xCell c 5 1) 1 ∅ 0 ∗ atPos ER (xCell c 5 3) 1 ∅ 0
            ∗ ∃ W', owes (c : Thread nD τ) (owedAfter c 35) W')) := by
  iintro ⟨#HL, #I1, #I3, C1, C3, A1, A3, HO⟩
  rw [k0_part18_eq_skeleton]
  unfold k0_part18_skel
  sl_exec
  iapply (step_wait_x m c 5 1 (by decide) (κ := κ1) (dst := slotM (Memref.whole cc0_scratch6) 1) (slot_credit _ 1) (O := owedAfter c 35) (W := W)) $$ [C1 HO A1]
  · isplitr; · iexact I1
    isplitl [C1]; · iexact C1
    isplitl [HO]; · iexact HO
    isplitr; · iapply (mayWait_x_exchange c 5 (by decide) 1 (by decide) (n := 35) (by decide)); iexact HL
    iexact A1
  iintro ⟨HO, A1, -, P1⟩
  first | sl_step | skip
  ihave P1 := (Entails.of_eq (show xPay m c 5 1 = slotPts c (Memref.whole cc0_scratch6) 1 (rs2C m c) from rfl)) $$ P1
  unfold slotPts
  sl_exec
  iapply (step_wait_x m c 5 3 (by decide) (κ := κ3) (dst := slotM (Memref.whole cc0_scratch6) 3) (slot_credit _ 3) (O := owedAfter c 35) (W := (insert (SemLoc.dma (xsem 5 1), ()) W))) $$ [C3 HO A3]
  · isplitr; · iexact I3
    isplitl [C3]; · iexact C3
    isplitl [HO]; · iexact HO
    isplitr; · iapply (mayWait_x_exchange c 5 (by decide) 3 (by decide) (n := 35) (by decide)); iexact HL
    iexact A3
  iintro ⟨HO, A3, -, P3⟩
  first | sl_step | skip
  ihave P3 := (Entails.of_eq (show xPay m c 5 3 = slotPts c (Memref.whole cc0_scratch6) 3 (rs2C m c) from rfl)) $$ P3
  unfold slotPts
  sl_exec
  first | sl_step | (unfold Prog.bind; sl_step)
  have e1 : (Memref.whole cc0_scratch6 : Memref sig .tc .vmem S8x64x512 .bf16).view.readAt (Elt F) (Rect.unit (s := S8x64x512) ![1, 0, 0] S1x64x512.size inb_S8x64x512_S1x64x512_1_0_0).toLoadRect (rs2C m c) = in2 m c 1 := read_rs2C m c 1 _
  have e3 : (Memref.whole cc0_scratch6 : Memref sig .tc .vmem S8x64x512 .bf16).view.readAt (Elt F) (Rect.unit (s := S8x64x512) ![3, 0, 0] S1x64x512.size inb_S8x64x512_S1x64x512_3_0_0).toLoadRect (rs2C m c) = in2 m c 3 := read_rs2C m c 3 _
  rw [e1, e3]
  isplitr; · ipureintro; rfl
  isplitl [P1]; · iexact P1
  isplitl [P3]; · iexact P3
  isplitl [A1]; · iexact A1
  isplitl [A3]; · iexact A3
  iexists _; iexact HO

end Cert.KernelIdeal.Hand

end
-- ==== Proof.Part19.lean ====
import proofs.«900577_g7700000000000578_dist_mlpseq_tp1dT_cs_cs_b512_d256_h512_v7x_i8_f32_1_alg».proof.Proof.SecondProduct

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part19 (m : (ℓ : Loc nD τ sig) → Buf (Elt F) ℓ) (c : Dev nD) (w1 w2 : BitVec 32) (κ4 κ2 κ5 : ℕ) (W : Waits sig Unit) :
    iprop(levAts L lv
      ∗ cellInv ER (sched m) κ4 (xCell c 5 4) ∗ cellInv ER (sched m) κ2 (xCell c 5 2) ∗ cellInv ER (sched m) κ5 (xCell c 5 5)
      ∗ cred (tallyAt (xCell c 5 4) () N) ∗ cred (tallyAt (xCell c 5 2) () N) ∗ cred (tallyAt (xCell c 5 5) () N)
      ∗ atPos ER (xCell c 5 4) 0 ∅ 0 ∗ atPos ER (xCell c 5 2) 0 ∅ 0 ∗ atPos ER (xCell c 5 5) 0 ∅ 0
      ∗ owes (c : Thread nD τ) (owedAfter c 35) W)
      ⊢ wp frame (wpE (defs₀ (F := F)) 𝒱₀ (c : Thread nD τ) none) Set.univ ((bodyArgs% k0_part19) c w1 w2 (r2b m c))
          (fun r => iprop(⌜r = ⟨r2c m c, r2d m c⟩⌝
            ∗ slotPts c (Memref.whole cc0_scratch6) 4 (rs2C m c) ∗ slotPts c (Memref.whole cc0_scratch6) 2 (rs2C m c) ∗ slotPts c (Memref.whole cc0_scratch6) 5 (rs2C m c)
            ∗ atPos ER (xCell c 5 4) 1 ∅ 0 ∗ atPos ER (xCell c 5 2) 1 ∅ 0 ∗ atPos ER (xCell c 5 5) 1 ∅ 0
            ∗ ∃ W', owes (c : Thread nD τ) (owedAfter c 35) W')) := by
  iintro ⟨#HL, #I4, #I2, #I5, C4, C2, C5, A4, A2, A5, HO⟩
  rw [k0_part19_eq_skeleton]
  unfold k0_part19_skel
  sl_exec
  iapply (step_wait_x m c 5 4 (by decide) (κ := κ4) (dst := slotM (Memref.whole cc0_scratch6) 4) (slot_credit _ 4) (O := owedAfter c 35) (W := W)) $$ [C4 HO A4]
  · isplitr; · iexact I4
    isplitl [C4]; · iexact C4
    isplitl [HO]; · iexact HO
    isplitr; · iapply (mayWait_x_exchange c 5 (by decide) 4 (by decide) (n := 35) (by decide)); iexact HL
    iexact A4
  iintro ⟨HO, A4, -, P4⟩
  first | sl_step | skip
  ihave P4 := (Entails.of_eq (show xPay m c 5 4 = slotPts c (Memref.whole cc0_scratch6) 4 (rs2C m c) from rfl)) $$ P4
  unfold slotPts
  sl_exec
  iapply (step_wait_x m c 5 2 (by decide) (κ := κ2) (dst := slotM (Memref.whole cc0_scratch6) 2) (slot_credit _ 2) (O := owedAfter c 35) (W := (insert (SemLoc.dma (xsem 5 4), ()) W))) $$ [C2 HO A2]
  · isplitr; · iexact I2
    isplitl [C2]; · iexact C2
    isplitl [HO]; · iexact HO
    isplitr; · iapply (mayWait_x_exchange c 5 (by decide) 2 (by decide) (n := 35) (by decide)); iexact HL
    iexact A2
  iintro ⟨HO, A2, -, P2⟩
  first | sl_step | skip
  ihave P2 := (Entails.of_eq (show xPay m c 5 2 = slotPts c (Memref.whole cc0_scratch6) 2 (rs2C m c) from rfl)) $$ P2
  unfold slotPts
  sl_exec
  iapply (step_wait_x m c 5 5 (by decide) (κ := κ5) (dst := slotM (Memref.whole cc0_scratch6) 5) (slot_credit _ 5) (O := owedAfter c 35) (W := (insert (SemLoc.dma (xsem 5 2), ()) (insert (SemLoc.dma (xsem 5 4), ()) W)))) $$ [C5 HO A5]
  · isplitr; · iexact I5
    isplitl [C5]; · iexact C5
    isplitl [HO]; · iexact HO
    isplitr; · iapply (mayWait_x_exchange c 5 (by decide) 5 (by decide) (n := 35) (by decide)); iexact HL
    iexact A5
  iintro ⟨HO, A5, -, P5⟩
  first | sl_step | skip
  ihave P5 := (Entails.of_eq (show xPay m c 5 5 = slotPts c (Memref.whole cc0_scratch6) 5 (rs2C m c) from rfl)) $$ P5
  unfold slotPts
  sl_exec
  first | sl_step | (unfold Prog.bind; sl_step)
  have e4 : (Memref.whole cc0_scratch6 : Memref sig .tc .vmem S8x64x512 .bf16).view.readAt (Elt F) (Rect.unit (s := S8x64x512) ![4, 0, 0] S1x64x512.size inb_S8x64x512_S1x64x512_4_0_0).toLoadRect (rs2C m c) = in2 m c 4 := read_rs2C m c 4 _
  have e2 : (Memref.whole cc0_scratch6 : Memref sig .tc .vmem S8x64x512 .bf16).view.readAt (Elt F) (Rect.unit (s := S8x64x512) ![2, 0, 0] S1x64x512.size inb_S8x64x512_S1x64x512_2_0_0).toLoadRect (rs2C m c) = in2 m c 2 := read_rs2C m c 2 _
  have e5 : (Memref.whole cc0_scratch6 : Memref sig .tc .vmem S8x64x512 .bf16).view.readAt (Elt F) (Rect.unit (s := S8x64x512) ![5, 0, 0] S1x64x512.size inb_S8x64x512_S1x64x512_5_0_0).toLoadRect (rs2C m c) = in2 m c 5 := read_rs2C m c 5 _
  rw [e4, e2, e5]
  isplitr; · ipureintro; rfl
  isplitl [P4]; · iexact P4
  isplitl [P2]; · iexact P2
  isplitl [P5]; · iexact P5
  isplitl [A4]; · iexact A4
  isplitl [A2]; · iexact A2
  isplitl [A5]; · iexact A5
  iexists _; iexact HO

end Cert.KernelIdeal.Hand

end
-- ==== Proof.Part20.lean ====
import proofs.«900577_g7700000000000578_dist_mlpseq_tp1dT_cs_cs_b512_d256_h512_v7x_i8_f32_1_alg».proof.Proof.SecondProduct

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part20 (m : (ℓ : Loc nD τ sig) → Buf (Elt F) ℓ) (c : Dev nD) (w1 w2 w3 : BitVec 32) (κ7 κ6 : ℕ) (W : Waits sig Unit) :
    iprop(levAts L lv
      ∗ cellInv ER (sched m) κ7 (xCell c 5 7) ∗ cellInv ER (sched m) κ6 (xCell c 5 6)
      ∗ cred (tallyAt (xCell c 5 7) () N) ∗ cred (tallyAt (xCell c 5 6) () N)
      ∗ atPos ER (xCell c 5 7) 0 ∅ 0 ∗ atPos ER (xCell c 5 6) 0 ∅ 0
      ∗ (∃ f, slotPts c (Memref.whole cc0_scratch7) c f)
      ∗ owes (c : Thread nD τ) (owedAfter c 35) W)
      ⊢ wp frame (wpE (defs₀ (F := F)) 𝒱₀ (c : Thread nD τ) none) Set.univ ((bodyArgs% k0_part20) c w1 w2 w3 (r2c m c) (r2d m c))
          (fun r => iprop(⌜r = own2 m c⌝
            ∗ slotPts c (Memref.whole cc0_scratch6) 7 (rs2C m c) ∗ slotPts c (Memref.whole cc0_scratch6) 6 (rs2C m c)
            ∗ atPos ER (xCell c 5 7) 1 ∅ 0 ∗ atPos ER (xCell c 5 6) 1 ∅ 0
            ∗ slotPts c (Memref.whole cc0_scratch7) c (full2 m)
            ∗ ∃ W', owes (c : Thread nD τ) (owedAfter c 35) W')) := by
  iintro ⟨#HL, #I7, #I6, C7, C6, A7, A6, ⟨%f7, S7⟩, HO⟩
  rw [k0_part20_eq_skeleton]
  unfold k0_part20_skel
  sl_exec
  iapply (step_wait_x m c 5 7 (by decide) (κ := κ7) (dst := slotM (Memref.whole cc0_scratch6) 7) (slot_credit _ 7) (O := owedAfter c 35) (W := W)) $$ [C7 HO A7]
  · isplitr; · iexact I7
    isplitl [C7]; · iexact C7
    isplitl [HO]; · iexact HO
    isplitr; · iapply (mayWait_x_exchange c 5 (by decide) 7 (by decide) (n := 35) (by decide)); iexact HL
    iexact A7
  iintro ⟨HO, A7, -, P7⟩
  first | sl_step | skip
  ihave P7 := (Entails.of_eq (show xPay m c 5 7 = slotPts c (Memref.whole cc0_scratch6) 7 (rs2C m c) from rfl)) $$ P7
  unfold slotPts
  sl_exec
  iapply (step_wait_x m c 5 6 (by decide) (κ := κ6) (dst := slotM (Memref.whole cc0_scratch6) 6) (slot_credit _ 6) (O := owedAfter c 35) (W := (insert (SemLoc.dma (xsem 5 7), ()) W))) $$ [C6 HO A6]
  · isplitr; · iexact I6
    isplitl [C6]; · iexact C6
    isplitl [HO]; · iexact HO
    isplitr; · iapply (mayWait_x_exchange c 5 (by decide) 6 (by decide) (n := 35) (by decide)); iexact HL
    iexact A6
  iintro ⟨HO, A6, -, P6⟩
  first | sl_step | skip
  ihave P6 := (Entails.of_eq (show xPay m c 5 6 = slotPts c (Memref.whole cc0_scratch6) 6 (rs2C m c) from rfl)) $$ P6
  unfold slotPts
  sl_exec
  first | sl_step | (unfold Prog.bind; sl_step)
  unfold part20.sl.S7_w1
  have e7 : (Memref.whole cc0_scratch6 : Memref sig .tc .vmem S8x64x512 .bf16).view.readAt (Elt F) (Rect.unit (s := S8x64x512) ![7, 0, 0] S1x64x512.size inb_S8x64x512_S1x64x512_7_0_0).toLoadRect (rs2C m c) = in2 m c 7 := read_rs2C m c 7 _
  have e6 : (Memref.whole cc0_scratch6 : Memref sig .tc .vmem S8x64x512 .bf16).view.readAt (Elt F) (Rect.unit (s := S8x64x512) ![6, 0, 0] S1x64x512.size inb_S8x64x512_S1x64x512_6_0_0).toLoadRect (rs2C m c) = in2 m c 6 := read_rs2C m c 6 _
  rw [e7, e6]
  ihave S7 := (Entails.of_eq (own_slot_full2 m c f7)) $$ S7
  unfold slotPts
  isplitr; · ipureintro; rfl
  isplitl [P7]; · iexact P7
  isplitl [P6]; · iexact P6
  isplitl [A7]; · iexact A7
  isplitl [A6]; · iexact A6
  isplitl [S7]; · iexact S7
  iexists _; iexact HO

end Cert.KernelIdeal.Hand

end
-- ==== Proof.Part21.lean ====
import proofs.«900577_g7700000000000578_dist_mlpseq_tp1dT_cs_cs_b512_d256_h512_v7x_i8_f32_1_alg».proof.Proof.SecondProduct

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part21 (m : (ℓ : Loc nD τ sig) → Buf (Elt F) ℓ) (c : Dev nD) (v2 : BitVec 32) (κs6 κr6 κs2 κr2 κs5 κr5 : ℕ) (W : Waits sig Unit) :
    iprop(cellInv ER (sched m) κs6 (xCell c 8 6) ∗ cellInv ER (sched m) κr6 (xCell (px c 6) 9 6)
      ∗ cellInv ER (sched m) κs2 (xCell c 8 2) ∗ cellInv ER (sched m) κr2 (xCell (px c 2) 9 2)
      ∗ cellInv ER (sched m) κs5 (xCell c 8 5) ∗ cellInv ER (sched m) κr5 (xCell (px c 5) 9 5)
      ∗ reached ER (xCell c 8 6) 0 ∗ reached ER (xCell (px c 6) 9 6) 0
      ∗ reached ER (xCell c 8 2) 0 ∗ reached ER (xCell (px c 2) 9 2) 0
      ∗ reached ER (xCell c 8 5) 0 ∗ reached ER (xCell (px c 5) 9 5) 0
      ∗ dutyTok ER (xCell c 8 6) 0 0 ∗ dutyTok ER (xCell (px c 6) 9 6) 0 0
      ∗ dutyTok ER (xCell c 8 2) 0 0 ∗ dutyTok ER (xCell (px c 2) 9 2) 0 0
      ∗ dutyTok ER (xCell c 8 5) 0 0 ∗ dutyTok ER (xCell (px c 5) 9 5) 0 0
      ∗ (∃ f, slotPts (px c 6) (Memref.whole cc0_scratch7) c f) ∗ (∃ f, slotPts (px c 2) (Memref.whole cc0_scratch7) c f) ∗ (∃ f, slotPts (px c 5) (Memref.whole cc0_scratch7) c f)
      ∗ (∃ f, held c cc0_scratch9 f)
      ∗ owes (c : Thread nD τ) (owedAfter c 35) W)
      ⊢ wp frame (wpE (defs₀ (F := F)) 𝒱₀ (c : Thread nD τ) none) Set.univ ((bodyArgs% k0_part21) c v2 (own2 m c))
          (fun r => iprop(⌜r = ⟨Scalar.xori v2 6#32, Scalar.xori v2 2#32, Scalar.xori v2 5#32, Scalar.xori v2 7#32⟩⌝
            ∗ cred (tallyAt (xCell c 8 6) () N) ∗ cred (tallyAt (xCell c 8 2) () N) ∗ cred (tallyAt (xCell c 8 5) () N)
            ∗ chunkPts c (Memref.whole cc0_scratch9) (shr 0) (own2 m c) ∗ chunkPts c (Memref.whole cc0_scratch9) (shr 1) (own2 m c)
            ∗ chunkPts c (Memref.whole cc0_scratch9) (shr 3) (own2 m c) ∗ chunkPts c (Memref.whole cc0_scratch9) (shr 4) (own2 m c)
            ∗ chunkPts c (Memref.whole cc0_scratch9) (shr 7) (own2 m c)
            ∗ owes (c : Thread nD τ) (owedAfter c 38) W)) := by
  iintro ⟨#Is6, #Ir6, #Is2, #Ir2, #Is5, #Ir5, #Rs6, #Rr6, #Rs2, #Rr2, #Rs5, #Rr5, Ts6, Tr6, Ts2, Tr2, Ts5, Tr5, ⟨%fd6, D6⟩, ⟨%fd2, D2⟩, ⟨%fd5, D5⟩, ⟨%f9, H9⟩, HO⟩
  rw [k0_part21_eq_skeleton]
  unfold k0_part21_skel
  sl_exec
  ihave H9 := (Entails.of_eq (src9_stored m c f9)) $$ H9
  ihave H9 := (Entails.of_eq (shares_eq c (Memref.whole cc0_scratch9) (own2 m c))) $$ H9
  icases H9 with ⟨Q0, Q1, Q2, Q3, Q4, Q5, Q6, Q7⟩
  iapply (step_send_chunk m c ⟨k0_dev36 c, k0_dev36_lt c⟩ 6 (by decide) (dev36_eq c) 8 9 (Memref.whole cc0_scratch9) (Memref.whole cc0_scratch7) (own2 m c) (κ₁ := κs6) (κ₂ := κr6) (off3_slot _ c) fd6 Entails.rfl (Entails.of_eq (landed_full2 m c 6 fd6)) (owedAfter c 36) (owedAfter_step c 35 _ _ rfl) (W := W)) $$ [Q6 D6 HO Ts6 Tr6]
  · sl_close
  iintro ⟨Cr6, HO⟩
  first | sl_step | skip
  sl_exec
  iapply (step_send_chunk m c ⟨k0_dev37 c, k0_dev37_lt c⟩ 2 (by decide) (dev37_eq c) 8 9 (Memref.whole cc0_scratch9) (Memref.whole cc0_scratch7) (own2 m c) (κ₁ := κs2) (κ₂ := κr2) (off3_slot _ c) fd2 Entails.rfl (Entails.of_eq (landed_full2 m c 2 fd2)) (owedAfter c 37) (owedAfter_step c 36 _ _ rfl) (W := W)) $$ [Q2 D2 HO Ts2 Tr2]
  · sl_close
  iintro ⟨Cr2, HO⟩
  first | sl_step | skip
  sl_exec
  iapply (step_send_chunk m c ⟨k0_dev38 c, k0_dev38_lt c⟩ 5 (by decide) (dev38_eq c) 8 9 (Memref.whole cc0_scratch9) (Memref.whole cc0_scratch7) (own2 m c) (κ₁ := κs5) (κ₂ := κr5) (off3_slot _ c) fd5 Entails.rfl (Entails.of_eq (landed_full2 m c 5 fd5)) (owedAfter c 38) (owedAfter_step c 37 _ _ rfl) (W := W)) $$ [Q5 D5 HO Ts5 Tr5]
  · sl_close
  iintro ⟨Cr5, HO⟩
  first | sl_step | skip
  sl_exec
  first | sl_step | (unfold Prog.bind; sl_step)
  isplitr; · ipureintro; rfl
  sl_close

end Cert.KernelIdeal.Hand

end
-- ==== Proof.Part22.lean ====
import proofs.«900577_g7700000000000578_dist_mlpseq_tp1dT_cs_cs_b512_d256_h512_v7x_i8_f32_1_alg».proof.Proof.SecondProduct

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part22 (m : (ℓ : Loc nD τ sig) → Buf (Elt F) ℓ) (c : Dev nD) (v2 w1 : BitVec 32) (κs7 κr7 κs1 κr1 κs3 κr3 : ℕ) (W : Waits sig Unit) :
    iprop(cellInv ER (sched m) κs7 (xCell c 8 7) ∗ cellInv ER (sched m) κr7 (xCell (px c 7) 9 7)
      ∗ cellInv ER (sched m) κs1 (xCell c 8 1) ∗ cellInv ER (sched m) κr1 (xCell (px c 1) 9 1)
      ∗ cellInv ER (sched m) κs3 (xCell c 8 3) ∗ cellInv ER (sched m) κr3 (xCell (px c 3) 9 3)
      ∗ reached ER (xCell c 8 7) 0 ∗ reached ER (xCell (px c 7) 9 7) 0
      ∗ reached ER (xCell c 8 1) 0 ∗ reached ER (xCell (px c 1) 9 1) 0
      ∗ reached ER (xCell c 8 3) 0 ∗ reached ER (xCell (px c 3) 9 3) 0
      ∗ dutyTok ER (xCell c 8 7) 0 0 ∗ dutyTok ER (xCell (px c 7) 9 7) 0 0
      ∗ dutyTok ER (xCell c 8 1) 0 0 ∗ dutyTok ER (xCell (px c 1) 9 1) 0 0
      ∗ dutyTok ER (xCell c 8 3) 0 0 ∗ dutyTok ER (xCell (px c 3) 9 3) 0 0
      ∗ (∃ f, slotPts (px c 7) (Memref.whole cc0_scratch7) c f) ∗ (∃ f, slotPts (px c 1) (Memref.whole cc0_scratch7) c f) ∗ (∃ f, slotPts (px c 3) (Memref.whole cc0_scratch7) c f)
      ∗ chunkPts c (Memref.whole cc0_scratch9) (shr 7) (own2 m c) ∗ chunkPts c (Memref.whole cc0_scratch9) (shr 1) (own2 m c)
      ∗ chunkPts c (Memref.whole cc0_scratch9) (shr 3) (own2 m c)
      ∗ owes (c : Thread nD τ) (owedAfter c 38) W)
      ⊢ wp frame (wpE (defs₀ (F := F)) 𝒱₀ (c : Thread nD τ) none) Set.univ ((bodyArgs% k0_part22) c v2 w1)
          (fun r => iprop(⌜r = ⟨Scalar.xori v2 1#32, Scalar.xori v2 3#32, Scalar.xori v2 4#32⟩⌝
            ∗ cred (tallyAt (xCell c 8 7) () N) ∗ cred (tallyAt (xCell c 8 1) () N) ∗ cred (tallyAt (xCell c 8 3) () N)
            ∗ owes (c : Thread nD τ) (owedAfter c 41) W)) := by
  iintro ⟨#Is7, #Ir7, #Is1, #Ir1, #Is3, #Ir3, #Rs7, #Rr7, #Rs1, #Rr1, #Rs3, #Rr3, Ts7, Tr7, Ts1, Tr1, Ts3, Tr3, ⟨%fd7, D7⟩, ⟨%fd1, D1⟩, ⟨%fd3, D3⟩, Q7, Q1, Q3, HO⟩
  rw [k0_part22_eq_skeleton]
  unfold k0_part22_skel
  sl_exec
  iapply (step_send_chunk m c ⟨k0_dev39 c, k0_dev39_lt c⟩ 7 (by decide) (dev39_eq c) 8 9 (Memref.whole cc0_scratch9) (Memref.whole cc0_scratch7) (own2 m c) (κ₁ := κs7) (κ₂ := κr7) (off3_slot _ c) fd7 Entails.rfl (Entails.of_eq (landed_full2 m c 7 fd7)) (owedAfter c 39) (owedAfter_step c 38 _ _ rfl) (W := W)) $$ [Q7 D7 HO Ts7 Tr7]
  · sl_close
  iintro ⟨Cr7, HO⟩
  first | sl_step | skip
  sl_exec
  iapply (step_send_chunk m c ⟨k0_dev40 c, k0_dev40_lt c⟩ 1 (by decide) (dev40_eq c) 8 9 (Memref.whole cc0_scratch9) (Memref.whole cc0_scratch7) (own2 m c) (κ₁ := κs1) (κ₂ := κr1) (off3_slot _ c) fd1 Entails.rfl (Entails.of_eq (landed_full2 m c 1 fd1)) (owedAfter c 40) (owedAfter_step c 39 _ _ rfl) (W := W)) $$ [Q1 D1 HO Ts1 Tr1]
  · sl_close
  iintro ⟨Cr1, HO⟩
  first | sl_step | skip
  sl_exec
  iapply (step_send_chunk m c ⟨k0_dev41 c, k0_dev41_lt c⟩ 3 (by decide) (dev41_eq c) 8 9 (Memref.whole cc0_scratch9) (Memref.whole cc0_scratch7) (own2 m c) (κ₁ := κs3) (κ₂ := κr3) (off3_slot _ c) fd3 Entails.rfl (Entails.of_eq (landed_full2 m c 3 fd3)) (owedAfter c 41) (owedAfter_step c 40 _ _ rfl) (W := W)) $$ [Q3 D3 HO Ts3 Tr3]
  · sl_close
  iintro ⟨Cr3, HO⟩
  first | sl_step | skip
  sl_exec
  first | sl_step | (unfold Prog.bind; sl_step)
  isplitr; · ipureintro; rfl
  sl_close

end Cert.KernelIdeal.Hand

end
-- ==== Proof.SegD.lean ====
import proofs.«900577_g7700000000000578_dist_mlpseq_tp1dT_cs_cs_b512_d256_h512_v7x_i8_f32_1_alg».proof.Proof.Rest
import proofs.«900577_g7700000000000578_dist_mlpseq_tp1dT_cs_cs_b512_d256_h512_v7x_i8_f32_1_alg».proof.Proof.Compose
import proofs.«900577_g7700000000000578_dist_mlpseq_tp1dT_cs_cs_b512_d256_h512_v7x_i8_f32_1_alg».proof.Proof.Part18
import proofs.«900577_g7700000000000578_dist_mlpseq_tp1dT_cs_cs_b512_d256_h512_v7x_i8_f32_1_alg».proof.Proof.Part19
import proofs.«900577_g7700000000000578_dist_mlpseq_tp1dT_cs_cs_b512_d256_h512_v7x_i8_f32_1_alg».proof.Proof.Part20
import proofs.«900577_g7700000000000578_dist_mlpseq_tp1dT_cs_cs_b512_d256_h512_v7x_i8_f32_1_alg».proof.Proof.Part21
import proofs.«900577_g7700000000000578_dist_mlpseq_tp1dT_cs_cs_b512_d256_h512_v7x_i8_f32_1_alg».proof.Proof.Part22

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

set_option maxRecDepth 65536

theorem segD_inv_x (m : (ℓ : Loc nD τ sig) → Buf (Elt F) ℓ) (K : Dev nD × CIx → ℕ) (d : Dev nD) (a : Fin 12) (j : Fin 7) :
    records m K ⊢ cellInv ER (sched m) (K (d, some (a, j))) (xCell d a j.succ) :=
  inv_at m K (d, some (a, j))

theorem segD_reached_x (m : (ℓ : Loc nD τ sig) → Buf (Elt F) ℓ) (K : Dev nD × CIx → ℕ) (d : Dev nD) (a : Fin 12) (j : Fin 7) :
    records m K ⊢ reached ER (xCell d a j.succ) 0 :=
  reached_at m K (d, some (a, j))

def segD_pre (m : (ℓ : Loc nD τ sig) → Buf (Elt F) ℓ) (K : Dev nD × CIx → ℕ) (c : Dev nD) : sProp 𝕄 :=
  iprop(records m K ∗ levAts L lv
    ∗ (cred (tallyAt (xCell c 5 1) () N) ∗ cred (tallyAt (xCell c 5 2) () N) ∗ cred (tallyAt (xCell c 5 3) () N) ∗ cred (tallyAt (xCell c 5 4) () N)
        ∗ cred (tallyAt (xCell c 5 5) () N) ∗ cred (tallyAt (xCell c 5 6) () N) ∗ cred (tallyAt (xCell c 5 7) () N))
    ∗ (atPos ER (xCell c 5 1) 0 ∅ 0 ∗ atPos ER (xCell c 5 2) 0 ∅ 0 ∗ atPos ER (xCell c 5 3) 0 ∅ 0 ∗ atPos ER (xCell c 5 4) 0 ∅ 0
        ∗ atPos ER (xCell c 5 5) 0 ∅ 0 ∗ atPos ER (xCell c 5 6) 0 ∅ 0 ∗ atPos ER (xCell c 5 7) 0 ∅ 0)
    ∗ (dutyTok ER (xCell c 8 1) 0 0 ∗ dutyTok ER (xCell c 8 2) 0 0 ∗ dutyTok ER (xCell c 8 3) 0 0
        ∗ dutyTok ER (xCell c 8 5) 0 0 ∗ dutyTok ER (xCell c 8 6) 0 0 ∗ dutyTok ER (xCell c 8 7) 0 0)
    ∗ (dutyTok ER (xCell (px c 1) 9 1) 0 0 ∗ dutyTok ER (xCell (px c 2) 9 2) 0 0 ∗ dutyTok ER (xCell (px c 3) 9 3) 0 0
        ∗ dutyTok ER (xCell (px c 5) 9 5) 0 0 ∗ dutyTok ER (xCell (px c 6) 9 6) 0 0 ∗ dutyTok ER (xCell (px c 7) 9 7) 0 0)
    ∗ ((∃ f, slotPts (px c 1) (Memref.whole cc0_scratch7) c f) ∗ (∃ f, slotPts (px c 2) (Memref.whole cc0_scratch7) c f)
        ∗ (∃ f, slotPts (px c 3) (Memref.whole cc0_scratch7) c f) ∗ (∃ f, slotPts (px c 5) (Memref.whole cc0_scratch7) c f)
        ∗ (∃ f, slotPts (px c 6) (Memref.whole cc0_scratch7) c f) ∗ (∃ f, slotPts (px c 7) (Memref.whole cc0_scratch7) c f))
    ∗ (∃ f, slotPts c (Memref.whole cc0_scratch7) c f)
    ∗ (∃ f, held c cc0_scratch9 f)
    ∗ (∃ W, owes (c : Thread nD τ) (owedAfter c 35) W))

def segD_post (m : (ℓ : Loc nD τ sig) → Buf (Elt F) ℓ) (c : Dev nD) : sProp 𝕄 :=
  iprop((slotPts c (Memref.whole cc0_scratch6) 1 (rs2C m c) ∗ slotPts c (Memref.whole cc0_scratch6) 2 (rs2C m c) ∗ slotPts c (Memref.whole cc0_scratch6) 3 (rs2C m c)
        ∗ slotPts c (Memref.whole cc0_scratch6) 4 (rs2C m c) ∗ slotPts c (Memref.whole cc0_scratch6) 5 (rs2C m c) ∗ slotPts c (Memref.whole cc0_scratch6) 6 (rs2C m c)
        ∗ slotPts c (Memref.whole cc0_scratch6) 7 (rs2C m c))
    ∗ (semVal (xCell c 5 1) 0 ∗ semVal (xCell c 5 2) 0 ∗ semVal (xCell c 5 3) 0 ∗ semVal (xCell c 5 4) 0
        ∗ semVal (xCell c 5 5) 0 ∗ semVal (xCell c 5 6) 0 ∗ semVal (xCell c 5 7) 0)
    ∗ slotPts c (Memref.whole cc0_scratch7) c (full2 m)
    ∗ (cred (tallyAt (xCell c 8 1) () N) ∗ cred (tallyAt (xCell c 8 2) () N) ∗ cred (tallyAt (xCell c 8 3) () N)
        ∗ cred (tallyAt (xCell c 8 5) () N) ∗ cred (tallyAt (xCell c 8 6) () N) ∗ cred (tallyAt (xCell c 8 7) () N))
    ∗ (chunkPts c (Memref.whole cc0_scratch9) (shr 0) (own2 m c) ∗ chunkPts c (Memref.whole cc0_scratch9) (shr 4) (own2 m c))
    ∗ (∃ W, owes (c : Thread nD τ) (owedAfter c 41) W))

theorem segD (m : (ℓ : Loc nD τ sig) → Buf (Elt F) ℓ) (K : Dev nD × CIx → ℕ) (c : Dev nD)
    (v2 v164 v175 v186 v197 v208 v219 v230 v256 v267 v278 v289 v300 v311 v322 v429 v438 v447 v456 v465 v474 v483 c1 : BitVec 32)
    (Q : Dev nD → sProp 𝕄) :
    iprop(segD_pre m K c
      ∗ (segD_post m c -∗ wp frame (wpE (defs₀ (F := F)) 𝒱₀ (c : Thread nD τ) none) Set.univ
          ((bodyArgs% rest23) c v2 v256 v267 v278 v289 v300 v311 v322 v429 v438 v447 v456 v465 v474 v483
            (Scalar.xori v2 6#32) (Scalar.xori v2 2#32) (Scalar.xori v2 5#32) (Scalar.xori v2 7#32)
            (Scalar.xori v2 1#32) (Scalar.xori v2 3#32) (Scalar.xori v2 4#32)) Q))
      ⊢ wp frame (wpE (defs₀ (F := F)) 𝒱₀ (c : Thread nD τ) none) Set.univ
          ((bodyArgs% rest18) c v2 v164 v175 v186 v197 v208 v219 v230 v256 v267 v278 v289 v300 v311 v322 v429 v438 v447 v456 v465 v474 v483 (r2a m c) c1) Q := by
  unfold segD_pre
  iintro ⟨⟨#HR, #HL, ⟨C1, C2, C3, C4, C5, C6, C7⟩, ⟨A1, A2, A3, A4, A5, A6, A7⟩, ⟨Ts1, Ts2, Ts3, Ts5, Ts6, Ts7⟩, ⟨Tr1, Tr2, Tr3, Tr5, Tr6, Tr7⟩, ⟨D1, D2, D3, D5, D6, D7⟩, S7, H9, ⟨%W, HO⟩⟩, Hk⟩
  unfold rest18

  iapply (exec_cut frame _ Set.univ (part18 m c v208 v219 v230 c1 (K (c, some (5, 0))) (K (c, some (5, 2))) W)) $$ [C1 C3 A1 A3 HO]
  · isplitr; · iexact HL
    isplitr; · iapply (segD_inv_x m K c 5 0); iexact HR
    isplitr; · iapply (segD_inv_x m K c 5 2); iexact HR
    sl_close
  iintro %r18 HQ
  icases HQ with ⟨%hr, P1, P3, A1, A3, ⟨%W1, HO⟩⟩
  subst hr

  iapply (exec_cut frame _ Set.univ (part19 m c v175 v186 (K (c, some (5, 3))) (K (c, some (5, 1))) (K (c, some (5, 4))) W1)) $$ [C4 C2 C5 A4 A2 A5 HO]
  · isplitr; · iexact HL
    isplitr; · iapply (segD_inv_x m K c 5 3); iexact HR
    isplitr; · iapply (segD_inv_x m K c 5 1); iexact HR
    isplitr; · iapply (segD_inv_x m K c 5 4); iexact HR
    sl_close
  iintro %r19 HQ
  icases HQ with ⟨%hr, P4, P2, P5, A4, A2, A5, ⟨%W2, HO⟩⟩
  subst hr

  iapply (exec_cut frame _ Set.univ (part20 m c v2 v164 v197 (K (c, some (5, 6))) (K (c, some (5, 5))) W2)) $$ [C7 C6 A7 A6 S7 HO]
  · isplitr; · iexact HL
    isplitr; · iapply (segD_inv_x m K c 5 6); iexact HR
    isplitr; · iapply (segD_inv_x m K c 5 5); iexact HR
    isplitl [C7]; · iexact C7
    isplitl [C6]; · iexact C6
    isplitl [A7]; · iexact A7
    isplitl [A6]; · iexact A6
    isplitl [S7]; · iexact S7
    iexact HO
  iintro %r20 HQ
  icases HQ with ⟨%hr, P7, P6, A7, A6, S7, ⟨%W3, HO⟩⟩
  subst hr

  iapply (exec_cut frame _ Set.univ (part21 m c v2 (K (c, some (8, 5))) (K (px c 6, some (9, 5))) (K (c, some (8, 1))) (K (px c 2, some (9, 1)))
      (K (c, some (8, 4))) (K (px c 5, some (9, 4))) W3)) $$ [Ts6 Tr6 Ts2 Tr2 Ts5 Tr5 D6 D2 D5 H9 HO]
  · isplitr; · iapply (segD_inv_x m K c 8 5); iexact HR
    isplitr; · iapply (segD_inv_x m K (px c 6) 9 5); iexact HR
    isplitr; · iapply (segD_inv_x m K c 8 1); iexact HR
    isplitr; · iapply (segD_inv_x m K (px c 2) 9 1); iexact HR
    isplitr; · iapply (segD_inv_x m K c 8 4); iexact HR
    isplitr; · iapply (segD_inv_x m K (px c 5) 9 4); iexact HR
    isplitr; · iapply (segD_reached_x m K c 8 5); iexact HR
    isplitr; · iapply (segD_reached_x m K (px c 6) 9 5); iexact HR
    isplitr; · iapply (segD_reached_x m K c 8 1); iexact HR
    isplitr; · iapply (segD_reached_x m K (px c 2) 9 1); iexact HR
    isplitr; · iapply (segD_reached_x m K c 8 4); iexact HR
    isplitr; · iapply (segD_reached_x m K (px c 5) 9 4); iexact HR
    isplitl [Ts6]; · iexact Ts6
    isplitl [Tr6]; · iexact Tr6
    isplitl [Ts2]; · iexact Ts2
    isplitl [Tr2]; · iexact Tr2
    isplitl [Ts5]; · iexact Ts5
    isplitl [Tr5]; · iexact Tr5
    isplitl [D6]; · iexact D6
    isplitl [D2]; · iexact D2
    isplitl [D5]; · iexact D5
    isplitl [H9]; · iexact H9
    iexact HO
  iintro %r21 HQ
  icases HQ with ⟨%hr, Cr6, Cr2, Cr5, Q0, Q1, Q3, Q4, Q7, HO⟩
  subst hr

  iapply (exec_cut frame _ Set.univ (part22 m c v2 (Scalar.xori v2 7#32) (K (c, some (8, 6))) (K (px c 7, some (9, 6))) (K (c, some (8, 0))) (K (px c 1, some (9, 0)))
      (K (c, some (8, 2))) (K (px c 3, some (9, 2))) W3)) $$ [Ts7 Tr7 Ts1 Tr1 Ts3 Tr3 D7 D1 D3 Q7 Q1 Q3 HO]
  · isplitr; · iapply (segD_inv_x m K c 8 6); iexact HR
    isplitr; · iapply (segD_inv_x m K (px c 7) 9 6); iexact HR
    isplitr; · iapply (segD_inv_x m K c 8 0); iexact HR
    isplitr; · iapply (segD_inv_x m K (px c 1) 9 0); iexact HR
    isplitr; · iapply (segD_inv_x m K c 8 2); iexact HR
    isplitr; · iapply (segD_inv_x m K (px c 3) 9 2); iexact HR
    isplitr; · iapply (segD_reached_x m K c 8 6); iexact HR
    isplitr; · iapply (segD_reached_x m K (px c 7) 9 6); iexact HR
    isplitr; · iapply (segD_reached_x m K c 8 0); iexact HR
    isplitr; · iapply (segD_reached_x m K (px c 1) 9 0); iexact HR
    isplitr; · iapply (segD_reached_x m K c 8 2); iexact HR
    isplitr; · iapply (segD_reached_x m K (px c 3) 9 2); iexact HR
    isplitl [Ts7]; · iexact Ts7
    isplitl [Tr7]; · iexact Tr7
    isplitl [Ts1]; · iexact Ts1
    isplitl [Tr1]; · iexact Tr1
    isplitl [Ts3]; · iexact Ts3
    isplitl [Tr3]; · iexact Tr3
    isplitl [D7]; · iexact D7
    isplitl [D1]; · iexact D1
    isplitl [D3]; · iexact D3
    isplitl [Q7]; · iexact Q7
    isplitl [Q1]; · iexact Q1
    isplitl [Q3]; · iexact Q3
    iexact HO
  iintro %r22 HQ
  icases HQ with ⟨%hr, Cr7, Cr1, Cr3, HO⟩
  subst hr

  imod (close_x m c 5 1 (κ := K (c, some (5, 0)))) $$ [A1] with Z1
  · isplitr; · iapply (segD_inv_x m K c 5 0); iexact HR
    iexact A1
  imod (close_x m c 5 2 (κ := K (c, some (5, 1)))) $$ [A2] with Z2
  · isplitr; · iapply (segD_inv_x m K c 5 1); iexact HR
    iexact A2
  imod (close_x m c 5 3 (κ := K (c, some (5, 2)))) $$ [A3] with Z3
  · isplitr; · iapply (segD_inv_x m K c 5 2); iexact HR
    iexact A3
  imod (close_x m c 5 4 (κ := K (c, some (5, 3)))) $$ [A4] with Z4
  · isplitr; · iapply (segD_inv_x m K c 5 3); iexact HR
    iexact A4
  imod (close_x m c 5 5 (κ := K (c, some (5, 4)))) $$ [A5] with Z5
  · isplitr; · iapply (segD_inv_x m K c 5 4); iexact HR
    iexact A5
  imod (close_x m c 5 6 (κ := K (c, some (5, 5)))) $$ [A6] with Z6
  · isplitr; · iapply (segD_inv_x m K c 5 5); iexact HR
    iexact A6
  imod (close_x m c 5 7 (κ := K (c, some (5, 6)))) $$ [A7] with Z7
  · isplitr; · iapply (segD_inv_x m K c 5 6); iexact HR
    iexact A7

  iapply Hk
  unfold segD_post
  isplitl [P1 P2 P3 P4 P5 P6 P7]
  · sl_close
  isplitl [Z1 Z2 Z3 Z4 Z5 Z6 Z7]
  · sl_close
  isplitl [S7]; · iexact S7
  isplitl [Cr1 Cr2 Cr3 Cr5 Cr6 Cr7]
  · sl_close
  isplitl [Q0 Q4]
  · sl_close
  iexists _; iexact HO

end Cert.KernelIdeal.Hand

end
-- ==== Proof.Part23.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

open Idealize.ShloMosaic.ValueIdx (ix3) in

theorem p23_read_own (m : (ℓ : Loc nD τ sig) → Buf (Elt F) ℓ) (c : Dev nD) (off : Fin 3 → ℕ) (e : off = ![c.val, 0, 0])
    (h : ∀ a, off a + S1x64x512.size a ≤ S8x64x512.size a) :
    View.readAt (Elt F) (Memref.whole cc0_scratch0).view (Rect.unit (s := S8x64x512) off S1x64x512.size h).toLoadRect (part0 m c)
      = slot3 (part0 m c) c := by
  subst e
  funext (x : S1x64x512.Idx)
  have hI : (Rect.unit (s := S8x64x512) ![c.val, 0, 0] S1x64x512.size h).toLoadRect.idx x
      = ix3 (n0 := 8) (n1 := 64) (n2 := 512) c (x 1) (x 2) := by
    refine funext fun a => Fin.ext ?_
    match a with
    | ⟨0, _⟩ =>
      have h0 : (x 0).val < 1 := (x 0).isLt
      show c.val + 1 * (x 0).val = c.val
      omega
    | ⟨1, _⟩ => show 0 + 1 * (x 1).val = (x 1).val; omega
    | ⟨2, _⟩ => show 0 + 1 * (x 2).val = (x 2).val; omega
  show part0 m c ((Rect.unit (s := S8x64x512) ![c.val, 0, 0] S1x64x512.size h).toLoadRect.idx x) = slot3 (part0 m c) c x
  rw [hI]
  rfl

open Idealize.ShloMosaic.ValueIdx (ix3) in

theorem p23_read_rs0 (m : (ℓ : Loc nD τ sig) → Buf (Elt F) ℓ) (c : Dev nD) (kn : ℕ) (hk : kn < 8)
    (h : ∀ a, (![kn, 0, 0] : Fin 3 → ℕ) a + S1x64x512.size a ≤ S8x64x512.size a) :
    View.readAt (Elt F) (Memref.whole cc0_scratch1).view (Rect.unit (s := S8x64x512) ![kn, 0, 0] S1x64x512.size h).toLoadRect (rs0C m c)
      = in0 m c ⟨kn, hk⟩ := by
  funext (x : S1x64x512.Idx)
  have hI : (Rect.unit (s := S8x64x512) ![kn, 0, 0] S1x64x512.size h).toLoadRect.idx x
      = ix3 (n0 := 8) (n1 := 64) (n2 := 512) ⟨kn, hk⟩ (x 1) (x 2) := by
    refine funext fun a => Fin.ext ?_
    match a with
    | ⟨0, _⟩ =>
      have h0 : (x 0).val < 1 := (x 0).isLt
      show kn + 1 * (x 0).val = kn
      omega
    | ⟨1, _⟩ => show 0 + 1 * (x 1).val = (x 1).val; omega
    | ⟨2, _⟩ => show 0 + 1 * (x 2).val = (x 2).val; omega
  have hx : ix3 (n0 := 1) (n1 := 64) (n2 := 512) 0 (x 1) (x 2) = x := by
    refine funext fun a => Fin.ext ?_
    match a with
    | ⟨0, _⟩ =>
      have h0 : (x 0).val < 1 := (x 0).isLt
      show 0 = (x 0).val
      omega
    | ⟨1, _⟩ => rfl
    | ⟨2, _⟩ => rfl
  show rs0C m c ((Rect.unit (s := S8x64x512) ![kn, 0, 0] S1x64x512.size h).toLoadRect.idx x) = in0 m c ⟨kn, hk⟩ x
  rw [hI]
  exact congrArg (in0 m c ⟨kn, hk⟩) hx

theorem part23 (m : (ℓ : Loc nD τ sig) → Buf (Elt F) ℓ) (c : Dev nD) (w1 w2 w3 : BitVec 32) {κs κr κ₁ κ₃ : ℕ} (W : Waits sig Unit)
    (fd : Buf (Elt F) ((slotM (Memref.whole cc0_scratch7) c).view.loc (px c 4 : Thread nD τ))) :
    iprop(cellInv ER (sched m) κs (xCell c 8 4) ∗ cellInv ER (sched m) κr (xCell (px c 4) 9 4)
      ∗ cellInv ER (sched m) κ₁ (xCell c 1 1) ∗ cellInv ER (sched m) κ₃ (xCell c 1 3) ∗ levAts L lv
      ∗ owes (c : Thread nD τ) (owedAfter c 41) W
      ∗ chunkPts c (Memref.whole cc0_scratch9) (shr 4) (own2 m c) ∗ slotPts (px c 4) (Memref.whole cc0_scratch7) c fd
      ∗ dutyTok ER (xCell c 8 4) 0 0 ∗ reached ER (xCell c 8 4) 0
      ∗ dutyTok ER (xCell (px c 4) 9 4) 0 0 ∗ reached ER (xCell (px c 4) 9 4) 0
      ∗ slotPts c (Memref.whole cc0_scratch0) c (part0 m c)
      ∗ cred (tallyAt (xCell c 1 1) () N) ∗ atPos ER (xCell c 1 1) 0 ∅ 0
      ∗ cred (tallyAt (xCell c 1 3) () N) ∗ atPos ER (xCell c 1 3) 0 ∅ 0)
      ⊢ wp frame (wpE (defs₀ (F := F)) 𝒱₀ (c : Thread nD τ) none) Set.univ ((bodyArgs% k0_part23) c w1 w2 w3)
          (fun r => iprop(⌜r = r0b m c⌝
            ∗ (∃ W', owes (c : Thread nD τ) (owedAfter c 42) W')
            ∗ cred (tallyAt (xCell c 8 4) () N)
            ∗ slotPts c (Memref.whole cc0_scratch0) c (part0 m c)
            ∗ semVal (xCell c 1 1) 0 ∗ semVal (xCell c 1 3) 0
            ∗ slotPts c (Memref.whole cc0_scratch1) 1 (rs0C m c) ∗ slotPts c (Memref.whole cc0_scratch1) 3 (rs0C m c))) := by
  iintro ⟨#Is, #Ir, #I1, #I3, #Hlev, HO, Hsrc, Hdst, Ts, #Rs, Tr, #Rr, Hx0, Hc1, Hp1, Hc3, Hp3⟩
  rw [k0_part23_eq_skeleton]
  unfold k0_part23_skel
  sl_exec
  iapply (step_send_chunk m c _ 4 (by decide) (dev42_eq c) 8 9 (Memref.whole cc0_scratch9) (Memref.whole cc0_scratch7) (own2 m c) (off3_slot _ c) fd Entails.rfl (Entails.of_eq (landed_full2 m c 4 fd)) (owedAfter c 42) (owedAfter_step c 41 _ _ rfl)) $$ [Hsrc Hdst HO Ts Tr]
  · sl_close
  iintro ⟨Hcr, HO⟩
  first | sl_step | skip
  unfold slotPts
  sl_exec
  iapply (step_wait_x m c 1 1 (by decide) (κ := κ₁) (dst := slotM (Memref.whole cc0_scratch1) 1) rfl) $$ [Hc1 HO Hp1]
  · isplitr; · iexact I1
    isplitl [Hc1]; · iexact Hc1
    isplitl [HO]; · iexact HO
    isplitr; · iapply (mayWait_x_exchange c 1 (Or.inl rfl) 1 (by decide) (n := 42) (by decide)); iexact Hlev
    iexact Hp1
  iintro ⟨HO, Hp1, -, Hs1⟩
  imod (close_x m c 1 1 (κ := κ₁)) $$ [Hp1] with Hz1
  · sl_close
  ihave Hs1 := (Entails.of_eq (show (xPay m c 1 1 : sProp 𝕄) = ((slotM (Memref.whole cc0_scratch1) 1).view.loc (c : Thread nD τ) ↦[(slotM (Memref.whole cc0_scratch1) 1).view.set]{fullShare} rs0C m c) from rfl)) $$ Hs1
  first | sl_step | skip
  sl_exec
  iapply (step_wait_x m c 1 3 (by decide) (κ := κ₃) (dst := slotM (Memref.whole cc0_scratch1) 3) rfl) $$ [Hc3 HO Hp3]
  · isplitr; · iexact I3
    isplitl [Hc3]; · iexact Hc3
    isplitl [HO]; · iexact HO
    isplitr; · iapply (mayWait_x_exchange c 1 (Or.inl rfl) 3 (by decide) (n := 42) (by decide)); iexact Hlev
    iexact Hp3
  iintro ⟨HO, Hp3, -, Hs3⟩
  imod (close_x m c 1 3 (κ := κ₃)) $$ [Hp3] with Hz3
  · sl_close
  ihave Hs3 := (Entails.of_eq (show (xPay m c 1 3 : sProp 𝕄) = ((slotM (Memref.whole cc0_scratch1) 3).view.loc (c : Thread nD τ) ↦[(slotM (Memref.whole cc0_scratch1) 3).view.set]{fullShare} rs0C m c) from rfl)) $$ Hs3
  first | sl_step | skip
  sl_exec
  first | sl_step | (unfold Prog.bind; sl_step) | skip
  isplitr
  · ipureintro
    rw [p23_read_own m c (k0_off2 c) (k0_off2_eq c), p23_read_rs0 m c 1 (by decide), p23_read_rs0 m c 3 (by decide)]
    rfl
  isplitl [HO]; · iexists _; iexact HO
  sl_close

end Cert.KernelIdeal.Hand

end
-- ==== Proof.Part24.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

open Idealize.ShloMosaic.ValueIdx (ix3) in

theorem p24_read_rs0 (m : (ℓ : Loc nD τ sig) → Buf (Elt F) ℓ) (c : Dev nD) (kn : ℕ) (hk : kn < 8)
    (h : ∀ a, (![kn, 0, 0] : Fin 3 → ℕ) a + S1x64x512.size a ≤ S8x64x512.size a) :
    View.readAt (Elt F) (Memref.whole cc0_scratch1).view (Rect.unit (s := S8x64x512) ![kn, 0, 0] S1x64x512.size h).toLoadRect (rs0C m c)
      = in0 m c ⟨kn, hk⟩ := by
  funext (x : S1x64x512.Idx)
  have hI : (Rect.unit (s := S8x64x512) ![kn, 0, 0] S1x64x512.size h).toLoadRect.idx x
      = ix3 (n0 := 8) (n1 := 64) (n2 := 512) ⟨kn, hk⟩ (x 1) (x 2) := by
    refine funext fun a => Fin.ext ?_
    match a with
    | ⟨0, _⟩ =>
      have h0 : (x 0).val < 1 := (x 0).isLt
      show kn + 1 * (x 0).val = kn
      omega
    | ⟨1, _⟩ => show 0 + 1 * (x 1).val = (x 1).val; omega
    | ⟨2, _⟩ => show 0 + 1 * (x 2).val = (x 2).val; omega
  have hx : ix3 (n0 := 1) (n1 := 64) (n2 := 512) 0 (x 1) (x 2) = x := by
    refine funext fun a => Fin.ext ?_
    match a with
    | ⟨0, _⟩ =>
      have h0 : (x 0).val < 1 := (x 0).isLt
      show 0 = (x 0).val
      omega
    | ⟨1, _⟩ => rfl
    | ⟨2, _⟩ => rfl
  show rs0C m c ((Rect.unit (s := S8x64x512) ![kn, 0, 0] S1x64x512.size h).toLoadRect.idx x) = in0 m c ⟨kn, hk⟩ x
  rw [hI]
  exact congrArg (in0 m c ⟨kn, hk⟩) hx

theorem part24 (m : (ℓ : Loc nD τ sig) → Buf (Elt F) ℓ) (c : Dev nD) (w1 w2 w3 : BitVec 32) {κ₄ κ₂ : ℕ} (W : Waits sig Unit) :
    iprop(cellInv ER (sched m) κ₄ (xCell c 1 4) ∗ cellInv ER (sched m) κ₂ (xCell c 1 2) ∗ levAts L lv
      ∗ owes (c : Thread nD τ) (owedAfter c 42) W
      ∗ cred (tallyAt (xCell c 1 4) () N) ∗ atPos ER (xCell c 1 4) 0 ∅ 0
      ∗ cred (tallyAt (xCell c 1 2) () N) ∗ atPos ER (xCell c 1 2) 0 ∅ 0)
      ⊢ wp frame (wpE (defs₀ (F := F)) 𝒱₀ (c : Thread nD τ) none) Set.univ ((bodyArgs% k0_part24) c w1 w2 w3 (r0b m c))
          (fun r => iprop(⌜r = r0c m c⌝
            ∗ (∃ W', owes (c : Thread nD τ) (owedAfter c 42) W')
            ∗ semVal (xCell c 1 4) 0 ∗ semVal (xCell c 1 2) 0
            ∗ slotPts c (Memref.whole cc0_scratch1) 4 (rs0C m c) ∗ slotPts c (Memref.whole cc0_scratch1) 2 (rs0C m c))) := by
  iintro ⟨#I4, #I2, #Hlev, HO, Hc4, Hp4, Hc2, Hp2⟩
  rw [k0_part24_eq_skeleton]
  unfold k0_part24_skel
  sl_exec
  iapply (step_wait_x m c 1 4 (by decide) (κ := κ₄) (dst := slotM (Memref.whole cc0_scratch1) 4) rfl) $$ [Hc4 HO Hp4]
  · isplitr; · iexact I4
    isplitl [Hc4]; · iexact Hc4
    isplitl [HO]; · iexact HO
    isplitr; · iapply (mayWait_x_exchange c 1 (Or.inl rfl) 4 (by decide) (n := 42) (by decide)); iexact Hlev
    iexact Hp4
  iintro ⟨HO, Hp4, -, Hs4⟩
  imod (close_x m c 1 4 (κ := κ₄)) $$ [Hp4] with Hz4
  · sl_close
  ihave Hs4 := (Entails.of_eq (show (xPay m c 1 4 : sProp 𝕄) = ((slotM (Memref.whole cc0_scratch1) 4).view.loc (c : Thread nD τ) ↦[(slotM (Memref.whole cc0_scratch1) 4).view.set]{fullShare} rs0C m c) from rfl)) $$ Hs4
  first | sl_step | skip
  sl_exec
  iapply (step_wait_x m c 1 2 (by decide) (κ := κ₂) (dst := slotM (Memref.whole cc0_scratch1) 2) rfl) $$ [Hc2 HO Hp2]
  · isplitr; · iexact I2
    isplitl [Hc2]; · iexact Hc2
    isplitl [HO]; · iexact HO
    isplitr; · iapply (mayWait_x_exchange c 1 (Or.inl rfl) 2 (by decide) (n := 42) (by decide)); iexact Hlev
    iexact Hp2
  iintro ⟨HO, Hp2, -, Hs2⟩
  imod (close_x m c 1 2 (κ := κ₂)) $$ [Hp2] with Hz2
  · sl_close
  ihave Hs2 := (Entails.of_eq (show (xPay m c 1 2 : sProp 𝕄) = ((slotM (Memref.whole cc0_scratch1) 2).view.loc (c : Thread nD τ) ↦[(slotM (Memref.whole cc0_scratch1) 2).view.set]{fullShare} rs0C m c) from rfl)) $$ Hs2
  first | sl_step | skip
  sl_exec
  first | sl_step | (unfold Prog.bind; sl_step)
  unfold slotPts
  isplitr
  · ipureintro
    rw [p24_read_rs0 m c 4 (by decide), p24_read_rs0 m c 2 (by decide)]
    rfl
  isplitl [HO]; · iexists _; iexact HO
  sl_close

end Cert.KernelIdeal.Hand

end
-- ==== Proof.Part25.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

open Idealize.ShloMosaic.ValueIdx (ix3) in

theorem p25_read_rs0 (m : (ℓ : Loc nD τ sig) → Buf (Elt F) ℓ) (c : Dev nD) (kn : ℕ) (hk : kn < 8)
    (h : ∀ a, (![kn, 0, 0] : Fin 3 → ℕ) a + S1x64x512.size a ≤ S8x64x512.size a) :
    View.readAt (Elt F) (Memref.whole cc0_scratch1).view (Rect.unit (s := S8x64x512) ![kn, 0, 0] S1x64x512.size h).toLoadRect (rs0C m c)
      = in0 m c ⟨kn, hk⟩ := by
  funext (x : S1x64x512.Idx)
  have hI : (Rect.unit (s := S8x64x512) ![kn, 0, 0] S1x64x512.size h).toLoadRect.idx x
      = ix3 (n0 := 8) (n1 := 64) (n2 := 512) ⟨kn, hk⟩ (x 1) (x 2) := by
    refine funext fun a => Fin.ext ?_
    match a with
    | ⟨0, _⟩ =>
      have h0 : (x 0).val < 1 := (x 0).isLt
      show kn + 1 * (x 0).val = kn
      omega
    | ⟨1, _⟩ => show 0 + 1 * (x 1).val = (x 1).val; omega
    | ⟨2, _⟩ => show 0 + 1 * (x 2).val = (x 2).val; omega
  have hx : ix3 (n0 := 1) (n1 := 64) (n2 := 512) 0 (x 1) (x 2) = x := by
    refine funext fun a => Fin.ext ?_
    match a with
    | ⟨0, _⟩ =>
      have h0 : (x 0).val < 1 := (x 0).isLt
      show 0 = (x 0).val
      omega
    | ⟨1, _⟩ => rfl
    | ⟨2, _⟩ => rfl
  show rs0C m c ((Rect.unit (s := S8x64x512) ![kn, 0, 0] S1x64x512.size h).toLoadRect.idx x) = in0 m c ⟨kn, hk⟩ x
  rw [hI]
  exact congrArg (in0 m c ⟨kn, hk⟩) hx

theorem part25 (m : (ℓ : Loc nD τ sig) → Buf (Elt F) ℓ) (c : Dev nD) (w1 w2 : BitVec 32) {κ₅ κ₇ κ₆ : ℕ} (W : Waits sig Unit) :
    iprop(cellInv ER (sched m) κ₅ (xCell c 1 5) ∗ cellInv ER (sched m) κ₇ (xCell c 1 7) ∗ cellInv ER (sched m) κ₆ (xCell c 1 6) ∗ levAts L lv
      ∗ owes (c : Thread nD τ) (owedAfter c 42) W
      ∗ cred (tallyAt (xCell c 1 5) () N) ∗ atPos ER (xCell c 1 5) 0 ∅ 0
      ∗ cred (tallyAt (xCell c 1 7) () N) ∗ atPos ER (xCell c 1 7) 0 ∅ 0
      ∗ cred (tallyAt (xCell c 1 6) () N) ∗ atPos ER (xCell c 1 6) 0 ∅ 0)
      ⊢ wp frame (wpE (defs₀ (F := F)) 𝒱₀ (c : Thread nD τ) none) Set.univ ((bodyArgs% k0_part25) c w1 w2 (r0c m c))
          (fun r => iprop(⌜r = r0d m c⌝
            ∗ (∃ W', owes (c : Thread nD τ) (owedAfter c 42) W')
            ∗ semVal (xCell c 1 5) 0 ∗ semVal (xCell c 1 7) 0 ∗ semVal (xCell c 1 6) 0
            ∗ slotPts c (Memref.whole cc0_scratch1) 5 (rs0C m c) ∗ slotPts c (Memref.whole cc0_scratch1) 7 (rs0C m c)
            ∗ slotPts c (Memref.whole cc0_scratch1) 6 (rs0C m c))) := by
  iintro ⟨#I5, #I7, #I6, #Hlev, HO, Hc5, Hp5, Hc7, Hp7, Hc6, Hp6⟩
  rw [k0_part25_eq_skeleton]
  unfold k0_part25_skel
  sl_exec
  iapply (step_wait_x m c 1 5 (by decide) (κ := κ₅) (dst := slotM (Memref.whole cc0_scratch1) 5) rfl) $$ [Hc5 HO Hp5]
  · isplitr; · iexact I5
    isplitl [Hc5]; · iexact Hc5
    isplitl [HO]; · iexact HO
    isplitr; · iapply (mayWait_x_exchange c 1 (Or.inl rfl) 5 (by decide) (n := 42) (by decide)); iexact Hlev
    iexact Hp5
  iintro ⟨HO, Hp5, -, Hs5⟩
  imod (close_x m c 1 5 (κ := κ₅)) $$ [Hp5] with Hz5
  · sl_close
  ihave Hs5 := (Entails.of_eq (show (xPay m c 1 5 : sProp 𝕄) = ((slotM (Memref.whole cc0_scratch1) 5).view.loc (c : Thread nD τ) ↦[(slotM (Memref.whole cc0_scratch1) 5).view.set]{fullShare} rs0C m c) from rfl)) $$ Hs5
  first | sl_step | skip
  sl_exec
  iapply (step_wait_x m c 1 7 (by decide) (κ := κ₇) (dst := slotM (Memref.whole cc0_scratch1) 7) rfl) $$ [Hc7 HO Hp7]
  · isplitr; · iexact I7
    isplitl [Hc7]; · iexact Hc7
    isplitl [HO]; · iexact HO
    isplitr; · iapply (mayWait_x_exchange c 1 (Or.inl rfl) 7 (by decide) (n := 42) (by decide)); iexact Hlev
    iexact Hp7
  iintro ⟨HO, Hp7, -, Hs7⟩
  imod (close_x m c 1 7 (κ := κ₇)) $$ [Hp7] with Hz7
  · sl_close
  ihave Hs7 := (Entails.of_eq (show (xPay m c 1 7 : sProp 𝕄) = ((slotM (Memref.whole cc0_scratch1) 7).view.loc (c : Thread nD τ) ↦[(slotM (Memref.whole cc0_scratch1) 7).view.set]{fullShare} rs0C m c) from rfl)) $$ Hs7
  first | sl_step | skip
  sl_exec
  iapply (step_wait_x m c 1 6 (by decide) (κ := κ₆) (dst := slotM (Memref.whole cc0_scratch1) 6) rfl) $$ [Hc6 HO Hp6]
  · isplitr; · iexact I6
    isplitl [Hc6]; · iexact Hc6
    isplitl [HO]; · iexact HO
    isplitr; · iapply (mayWait_x_exchange c 1 (Or.inl rfl) 6 (by decide) (n := 42) (by decide)); iexact Hlev
    iexact Hp6
  iintro ⟨HO, Hp6, -, Hs6⟩
  imod (close_x m c 1 6 (κ := κ₆)) $$ [Hp6] with Hz6
  · sl_close
  ihave Hs6 := (Entails.of_eq (show (xPay m c 1 6 : sProp 𝕄) = ((slotM (Memref.whole cc0_scratch1) 6).view.loc (c : Thread nD τ) ↦[(slotM (Memref.whole cc0_scratch1) 6).view.set]{fullShare} rs0C m c) from rfl)) $$ Hs6
  first | sl_step | skip
  first | sl_step | (unfold Prog.bind; sl_step) | skip
  unfold slotPts
  isplitr
  · ipureintro
    rw [p25_read_rs0 m c 5 (by decide), p25_read_rs0 m c 7 (by decide)]
    rfl
  isplitl [HO]; · iexists _; iexact HO
  sl_close

end Cert.KernelIdeal.Hand

end
-- ==== Proof.Part26.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

open Idealize.ShloMosaic.ValueIdx (ix3) in

theorem p26_read_rs0 (m : (ℓ : Loc nD τ sig) → Buf (Elt F) ℓ) (c : Dev nD) (kn : ℕ) (hk : kn < 8)
    (h : ∀ a, (![kn, 0, 0] : Fin 3 → ℕ) a + S1x64x512.size a ≤ S8x64x512.size a) :
    View.readAt (Elt F) (Memref.whole cc0_scratch1).view (Rect.unit (s := S8x64x512) ![kn, 0, 0] S1x64x512.size h).toLoadRect (rs0C m c)
      = in0 m c ⟨kn, hk⟩ := by
  funext (x : S1x64x512.Idx)
  have hI : (Rect.unit (s := S8x64x512) ![kn, 0, 0] S1x64x512.size h).toLoadRect.idx x
      = ix3 (n0 := 8) (n1 := 64) (n2 := 512) ⟨kn, hk⟩ (x 1) (x 2) := by
    refine funext fun a => Fin.ext ?_
    match a with
    | ⟨0, _⟩ =>
      have h0 : (x 0).val < 1 := (x 0).isLt
      show kn + 1 * (x 0).val = kn
      omega
    | ⟨1, _⟩ => show 0 + 1 * (x 1).val = (x 1).val; omega
    | ⟨2, _⟩ => show 0 + 1 * (x 2).val = (x 2).val; omega
  have hx : ix3 (n0 := 1) (n1 := 64) (n2 := 512) 0 (x 1) (x 2) = x := by
    refine funext fun a => Fin.ext ?_
    match a with
    | ⟨0, _⟩ =>
      have h0 : (x 0).val < 1 := (x 0).isLt
      show 0 = (x 0).val
      omega
    | ⟨1, _⟩ => rfl
    | ⟨2, _⟩ => rfl
  show rs0C m c ((Rect.unit (s := S8x64x512) ![kn, 0, 0] S1x64x512.size h).toLoadRect.idx x) = in0 m c ⟨kn, hk⟩ x
  rw [hI]
  exact congrArg (in0 m c ⟨kn, hk⟩) hx

theorem part26 (m : (ℓ : Loc nD τ sig) → Buf (Elt F) ℓ) (c : Dev nD) (w1 w2 w3 w4 : BitVec 32) {κ₁ κ₃ κ₄ κ₂ : ℕ} (W : Waits sig Unit) :
    iprop(cellInv ER (sched m) κ₁ (xCell c 7 1) ∗ cellInv ER (sched m) κ₃ (xCell c 7 3) ∗ cellInv ER (sched m) κ₄ (xCell c 7 4)
      ∗ cellInv ER (sched m) κ₂ (xCell c 7 2) ∗ levAts L lv
      ∗ owes (c : Thread nD τ) (owedAfter c 42) W
      ∗ slotPts c (Memref.whole cc0_scratch1) 6 (rs0C m c)
      ∗ cred (tallyAt (xCell c 7 1) () N) ∗ atPos ER (xCell c 7 1) 0 ∅ 0
      ∗ cred (tallyAt (xCell c 7 3) () N) ∗ atPos ER (xCell c 7 3) 0 ∅ 0
      ∗ cred (tallyAt (xCell c 7 4) () N) ∗ atPos ER (xCell c 7 4) 0 ∅ 0
      ∗ cred (tallyAt (xCell c 7 2) () N) ∗ atPos ER (xCell c 7 2) 0 ∅ 0)
      ⊢ wp frame (wpE (defs₀ (F := F)) 𝒱₀ (c : Thread nD τ) none) Set.univ ((bodyArgs% k0_part26) c w1 w2 w3 w4 (r0d m c))
          (fun r => iprop(⌜r = h0 m c⌝
            ∗ (∃ W', owes (c : Thread nD τ) (owedAfter c 42) W')
            ∗ slotPts c (Memref.whole cc0_scratch1) 6 (rs0C m c)
            ∗ semVal (xCell c 7 1) 0 ∗ semVal (xCell c 7 3) 0 ∗ semVal (xCell c 7 4) 0 ∗ semVal (xCell c 7 2) 0
            ∗ slotPts c (Memref.whole cc0_scratch4) (px c 1) (full1 m) ∗ slotPts c (Memref.whole cc0_scratch4) (px c 3) (full1 m)
            ∗ slotPts c (Memref.whole cc0_scratch4) (px c 4) (full1 m) ∗ slotPts c (Memref.whole cc0_scratch4) (px c 2) (full1 m))) := by
  iintro ⟨#I1, #I3, #I4, #I2, #Hlev, HO, Hx6, Hc1, Hp1, Hc3, Hp3, Hc4, Hp4, Hc2, Hp2⟩
  rw [k0_part26_eq_skeleton]
  unfold k0_part26_skel
  unfold slotPts
  sl_exec
  iapply (step_wait_x m c 7 1 (by decide) (κ := κ₁) (dst := ((Memref.whole cc0_scratch4).slice (Rect.unit (s := S8x64x512) (k0_off3 c) S1x64x512.size (k0_off3_inb c)) (fun _ => rfl)).squeeze S64x512 squeezes_S1x64x512_S64x512) rfl) $$ [Hc1 HO Hp1]
  · isplitr; · iexact I1
    isplitl [Hc1]; · iexact Hc1
    isplitl [HO]; · iexact HO
    isplitr; · iapply (mayWait_x_gather c 7 (Or.inl rfl) 1 (by decide) (n := 42) (by decide)); iexact Hlev
    iexact Hp1
  iintro ⟨HO, Hp1, -, Hs1⟩
  imod (close_x m c 7 1 (κ := κ₁)) $$ [Hp1] with Hz1
  · sl_close
  ihave Hs1 := (Entails.of_eq (show (xPay m c 7 1 : sProp 𝕄) = ((slotM (Memref.whole cc0_scratch4) (px c 1)).view.loc (c : Thread nD τ) ↦[(slotM (Memref.whole cc0_scratch4) (px c 1)).view.set]{fullShare} full1 m) from rfl)) $$ Hs1
  first | sl_step | skip
  iapply (step_wait_x m c 7 3 (by decide) (κ := κ₃) (dst := ((Memref.whole cc0_scratch4).slice (Rect.unit (s := S8x64x512) (k0_off3 c) S1x64x512.size (k0_off3_inb c)) (fun _ => rfl)).squeeze S64x512 squeezes_S1x64x512_S64x512) rfl) $$ [Hc3 HO Hp3]
  · isplitr; · iexact I3
    isplitl [Hc3]; · iexact Hc3
    isplitl [HO]; · iexact HO
    isplitr; · iapply (mayWait_x_gather c 7 (Or.inl rfl) 3 (by decide) (n := 42) (by decide)); iexact Hlev
    iexact Hp3
  iintro ⟨HO, Hp3, -, Hs3⟩
  imod (close_x m c 7 3 (κ := κ₃)) $$ [Hp3] with Hz3
  · sl_close
  ihave Hs3 := (Entails.of_eq (show (xPay m c 7 3 : sProp 𝕄) = ((slotM (Memref.whole cc0_scratch4) (px c 3)).view.loc (c : Thread nD τ) ↦[(slotM (Memref.whole cc0_scratch4) (px c 3)).view.set]{fullShare} full1 m) from rfl)) $$ Hs3
  first | sl_step | skip
  iapply (step_wait_x m c 7 4 (by decide) (κ := κ₄) (dst := ((Memref.whole cc0_scratch4).slice (Rect.unit (s := S8x64x512) (k0_off3 c) S1x64x512.size (k0_off3_inb c)) (fun _ => rfl)).squeeze S64x512 squeezes_S1x64x512_S64x512) rfl) $$ [Hc4 HO Hp4]
  · isplitr; · iexact I4
    isplitl [Hc4]; · iexact Hc4
    isplitl [HO]; · iexact HO
    isplitr; · iapply (mayWait_x_gather c 7 (Or.inl rfl) 4 (by decide) (n := 42) (by decide)); iexact Hlev
    iexact Hp4
  iintro ⟨HO, Hp4, -, Hs4⟩
  imod (close_x m c 7 4 (κ := κ₄)) $$ [Hp4] with Hz4
  · sl_close
  ihave Hs4 := (Entails.of_eq (show (xPay m c 7 4 : sProp 𝕄) = ((slotM (Memref.whole cc0_scratch4) (px c 4)).view.loc (c : Thread nD τ) ↦[(slotM (Memref.whole cc0_scratch4) (px c 4)).view.set]{fullShare} full1 m) from rfl)) $$ Hs4
  first | sl_step | skip
  iapply (step_wait_x m c 7 2 (by decide) (κ := κ₂) (dst := ((Memref.whole cc0_scratch4).slice (Rect.unit (s := S8x64x512) (k0_off3 c) S1x64x512.size (k0_off3_inb c)) (fun _ => rfl)).squeeze S64x512 squeezes_S1x64x512_S64x512) rfl) $$ [Hc2 HO Hp2]
  · isplitr; · iexact I2
    isplitl [Hc2]; · iexact Hc2
    isplitl [HO]; · iexact HO
    isplitr; · iapply (mayWait_x_gather c 7 (Or.inl rfl) 2 (by decide) (n := 42) (by decide)); iexact Hlev
    iexact Hp2
  iintro ⟨HO, Hp2, -, Hs2⟩
  imod (close_x m c 7 2 (κ := κ₂)) $$ [Hp2] with Hz2
  · sl_close
  ihave Hs2 := (Entails.of_eq (show (xPay m c 7 2 : sProp 𝕄) = ((slotM (Memref.whole cc0_scratch4) (px c 2)).view.loc (c : Thread nD τ) ↦[(slotM (Memref.whole cc0_scratch4) (px c 2)).view.set]{fullShare} full1 m) from rfl)) $$ Hs2
  first | sl_step | skip
  first | sl_step | (unfold Prog.bind; sl_step) | skip
  isplitr
  · ipureintro
    rw [p26_read_rs0 m c 6 (by decide)]
    rfl
  isplitl [HO]; · iexists _; iexact HO
  sl_close

end Cert.KernelIdeal.Hand

end
-- ==== Proof.Part27.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Slots
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part27 (m : (ℓ : Loc nD τ sig) → Buf (Elt F) ℓ) (c : Dev nD) (w1 w2 w3 w4 : BitVec 32) {κ₅ κ₇ κ₆ : ℕ} (W : Waits sig Unit) :
    iprop(cellInv ER (sched m) κ₅ (xCell c 7 5) ∗ cellInv ER (sched m) κ₇ (xCell c 7 7) ∗ cellInv ER (sched m) κ₆ (xCell c 7 6) ∗ levAts L lv
      ∗ owes (c : Thread nD τ) (owedAfter c 42) W
      ∗ cred (tallyAt (xCell c 7 5) () N) ∗ atPos ER (xCell c 7 5) 0 ∅ 0
      ∗ cred (tallyAt (xCell c 7 7) () N) ∗ atPos ER (xCell c 7 7) 0 ∅ 0
      ∗ cred (tallyAt (xCell c 7 6) () N) ∗ atPos ER (xCell c 7 6) 0 ∅ 0
      ∗ slotPts c (Memref.whole cc0_scratch4) c (full1 m)
      ∗ slotPts c (Memref.whole cc0_scratch4) (px c 1) (full1 m) ∗ slotPts c (Memref.whole cc0_scratch4) (px c 2) (full1 m)
      ∗ slotPts c (Memref.whole cc0_scratch4) (px c 3) (full1 m) ∗ slotPts c (Memref.whole cc0_scratch4) (px c 4) (full1 m))
      ⊢ wp frame (wpE (defs₀ (F := F)) 𝒱₀ (c : Thread nD τ) none) Set.univ ((bodyArgs% k0_part27) c w1 w2 w3 w4 (h0 m c))
          (fun r => iprop(⌜r = h1 m c⌝
            ∗ (∃ W', owes (c : Thread nD τ) (owedAfter c 42) W')
            ∗ semVal (xCell c 7 5) 0 ∗ semVal (xCell c 7 7) 0 ∗ semVal (xCell c 7 6) 0
            ∗ held c cc0_scratch4 (full1 m))) := by
  iintro ⟨#I5, #I7, #I6, #Hlev, HO, Hc5, Hp5, Hc7, Hp7, Hc6, Hp6, Hsc, Hs1, Hs2, Hs3, Hs4⟩
  rw [k0_part27_eq_skeleton]
  unfold k0_part27_skel
  sl_exec
  iapply (step_wait_x m c 7 5 (by decide) (κ := κ₅) (dst := ((Memref.whole cc0_scratch4).slice (Rect.unit (s := S8x64x512) (k0_off3 c) S1x64x512.size (k0_off3_inb c)) (fun _ => rfl)).squeeze S64x512 squeezes_S1x64x512_S64x512) rfl) $$ [Hc5 HO Hp5]
  · isplitr; · iexact I5
    isplitl [Hc5]; · iexact Hc5
    isplitl [HO]; · iexact HO
    isplitr; · iapply (mayWait_x_gather c 7 (Or.inl rfl) 5 (by decide) (n := 42) (by decide)); iexact Hlev
    iexact Hp5
  iintro ⟨HO, Hp5, -, Hs5⟩
  imod (close_x m c 7 5 (κ := κ₅)) $$ [Hp5] with Hz5
  · sl_close
  ihave Hs5 := (Entails.of_eq (show (xPay m c 7 5 : sProp 𝕄) = ((slotM (Memref.whole cc0_scratch4) (px c 5)).view.loc (c : Thread nD τ) ↦[(slotM (Memref.whole cc0_scratch4) (px c 5)).view.set]{fullShare} full1 m) from rfl)) $$ Hs5
  first | sl_step | skip
  iapply (step_wait_x m c 7 7 (by decide) (κ := κ₇) (dst := ((Memref.whole cc0_scratch4).slice (Rect.unit (s := S8x64x512) (k0_off3 c) S1x64x512.size (k0_off3_inb c)) (fun _ => rfl)).squeeze S64x512 squeezes_S1x64x512_S64x512) rfl) $$ [Hc7 HO Hp7]
  · isplitr; · iexact I7
    isplitl [Hc7]; · iexact Hc7
    isplitl [HO]; · iexact HO
    isplitr; · iapply (mayWait_x_gather c 7 (Or.inl rfl) 7 (by decide) (n := 42) (by decide)); iexact Hlev
    iexact Hp7
  iintro ⟨HO, Hp7, -, Hs7⟩
  imod (close_x m c 7 7 (κ := κ₇)) $$ [Hp7] with Hz7
  · sl_close
  ihave Hs7 := (Entails.of_eq (show (xPay m c 7 7 : sProp 𝕄) = ((slotM (Memref.whole cc0_scratch4) (px c 7)).view.loc (c : Thread nD τ) ↦[(slotM (Memref.whole cc0_scratch4) (px c 7)).view.set]{fullShare} full1 m) from rfl)) $$ Hs7
  first | sl_step | skip
  iapply (step_wait_x m c 7 6 (by decide) (κ := κ₆) (dst := ((Memref.whole cc0_scratch4).slice (Rect.unit (s := S8x64x512) (k0_off3 c) S1x64x512.size (k0_off3_inb c)) (fun _ => rfl)).squeeze S64x512 squeezes_S1x64x512_S64x512) rfl) $$ [Hc6 HO Hp6]
  · isplitr; · iexact I6
    isplitl [Hc6]; · iexact Hc6
    isplitl [HO]; · iexact HO
    isplitr; · iapply (mayWait_x_gather c 7 (Or.inl rfl) 6 (by decide) (n := 42) (by decide)); iexact Hlev
    iexact Hp6
  iintro ⟨HO, Hp6, -, Hs6⟩
  imod (close_x m c 7 6 (κ := κ₆)) $$ [Hp6] with Hz6
  · sl_close
  ihave Hs6 := (Entails.of_eq (show (xPay m c 7 6 : sProp 𝕄) = ((slotM (Memref.whole cc0_scratch4) (px c 6)).view.loc (c : Thread nD τ) ↦[(slotM (Memref.whole cc0_scratch4) (px c 6)).view.set]{fullShare} full1 m) from rfl)) $$ Hs6
  ihave H4 := (Entails.of_eq ((slots_whole_eq c (Memref.whole cc0_scratch4) (Memref.isWhole_whole _) (full1 m)).trans
      (slots_peers c (Memref.whole cc0_scratch4) (full1 m))).symm) $$ [Hsc Hs1 Hs2 Hs3 Hs4 Hs5 Hs6 Hs7]
  · unfold slotPts
    sl_close
  first | sl_step | unfold Prog.bind
  first | sl_exec | skip
  first | sl_step | (unfold Prog.bind; sl_step) | skip
  isplitr
  · ipureintro
    exact congrArg (k0_pay22 (h0 m c))
      (Memref.readAt_unit_zero (Elt F) cc0_scratch4 (off := ![0, 0, 0]) (by funext a; fin_cases a <;> rfl) inb_S8x64x512_S8x64x512_0_0_0 (full1 m))
  isplitl [HO]; · iexists _; iexact HO
  sl_close

end Cert.KernelIdeal.Hand

end
-- ==== Proof.SegE.lean ====
import proofs.«900577_g7700000000000578_dist_mlpseq_tp1dT_cs_cs_b512_d256_h512_v7x_i8_f32_1_alg».proof.Proof.Rest
import proofs.«900577_g7700000000000578_dist_mlpseq_tp1dT_cs_cs_b512_d256_h512_v7x_i8_f32_1_alg».proof.Proof.Part23
import proofs.«900577_g7700000000000578_dist_mlpseq_tp1dT_cs_cs_b512_d256_h512_v7x_i8_f32_1_alg».proof.Proof.Part24
import proofs.«900577_g7700000000000578_dist_mlpseq_tp1dT_cs_cs_b512_d256_h512_v7x_i8_f32_1_alg».proof.Proof.Part25
import proofs.«900577_g7700000000000578_dist_mlpseq_tp1dT_cs_cs_b512_d256_h512_v7x_i8_f32_1_alg».proof.Proof.Part26
import proofs.«900577_g7700000000000578_dist_mlpseq_tp1dT_cs_cs_b512_d256_h512_v7x_i8_f32_1_alg».proof.Proof.Part27

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def segEPre (c : Dev nD) (κs κr : ℕ) (κ1 κ7 : Fin 8 → ℕ) (W : Waits sig Unit) : sProp 𝕄 :=
  iprop(owes (c : Thread nD τ) (owedAfter c 41) W
      ∗ levAts L lv
      ∗ cellInv ER (sched m) κs (xCell c 8 4) ∗ cellInv ER (sched m) κr (xCell (px c 4) 9 4)
      ∗ chunkPts c (Memref.whole cc0_scratch9) (shr 4) (own2 m c) ∗ (∃ f, slotPts (px c 4) (Memref.whole cc0_scratch7) c f)
      ∗ dutyTok ER (xCell c 8 4) 0 0 ∗ reached ER (xCell c 8 4) 0
      ∗ dutyTok ER (xCell (px c 4) 9 4) 0 0 ∗ reached ER (xCell (px c 4) 9 4) 0
      ∗ slotPts c (Memref.whole cc0_scratch0) c (part0 m c)
      ∗ cellInv ER (sched m) (κ1 1) (xCell c 1 1) ∗ cred (tallyAt (xCell c 1 1) () N) ∗ atPos ER (xCell c 1 1) 0 ∅ 0
      ∗ cellInv ER (sched m) (κ1 3) (xCell c 1 3) ∗ cred (tallyAt (xCell c 1 3) () N) ∗ atPos ER (xCell c 1 3) 0 ∅ 0
      ∗ cellInv ER (sched m) (κ1 4) (xCell c 1 4) ∗ cred (tallyAt (xCell c 1 4) () N) ∗ atPos ER (xCell c 1 4) 0 ∅ 0
      ∗ cellInv ER (sched m) (κ1 2) (xCell c 1 2) ∗ cred (tallyAt (xCell c 1 2) () N) ∗ atPos ER (xCell c 1 2) 0 ∅ 0
      ∗ cellInv ER (sched m) (κ1 5) (xCell c 1 5) ∗ cred (tallyAt (xCell c 1 5) () N) ∗ atPos ER (xCell c 1 5) 0 ∅ 0
      ∗ cellInv ER (sched m) (κ1 7) (xCell c 1 7) ∗ cred (tallyAt (xCell c 1 7) () N) ∗ atPos ER (xCell c 1 7) 0 ∅ 0
      ∗ cellInv ER (sched m) (κ1 6) (xCell c 1 6) ∗ cred (tallyAt (xCell c 1 6) () N) ∗ atPos ER (xCell c 1 6) 0 ∅ 0
      ∗ cellInv ER (sched m) (κ7 1) (xCell c 7 1) ∗ cred (tallyAt (xCell c 7 1) () N) ∗ atPos ER (xCell c 7 1) 0 ∅ 0
      ∗ cellInv ER (sched m) (κ7 3) (xCell c 7 3) ∗ cred (tallyAt (xCell c 7 3) () N) ∗ atPos ER (xCell c 7 3) 0 ∅ 0
      ∗ cellInv ER (sched m) (κ7 4) (xCell c 7 4) ∗ cred (tallyAt (xCell c 7 4) () N) ∗ atPos ER (xCell c 7 4) 0 ∅ 0
      ∗ cellInv ER (sched m) (κ7 2) (xCell c 7 2) ∗ cred (tallyAt (xCell c 7 2) () N) ∗ atPos ER (xCell c 7 2) 0 ∅ 0
      ∗ cellInv ER (sched m) (κ7 5) (xCell c 7 5) ∗ cred (tallyAt (xCell c 7 5) () N) ∗ atPos ER (xCell c 7 5) 0 ∅ 0
      ∗ cellInv ER (sched m) (κ7 7) (xCell c 7 7) ∗ cred (tallyAt (xCell c 7 7) () N) ∗ atPos ER (xCell c 7 7) 0 ∅ 0
      ∗ cellInv ER (sched m) (κ7 6) (xCell c 7 6) ∗ cred (tallyAt (xCell c 7 6) () N) ∗ atPos ER (xCell c 7 6) 0 ∅ 0
      ∗ slotPts c (Memref.whole cc0_scratch4) c (full1 m))

def segEPost (c : Dev nD) : sProp 𝕄 :=
  iprop((∃ W', owes (c : Thread nD τ) (owedAfter c 42) W')
      ∗ cred (tallyAt (xCell c 8 4) () N)
      ∗ slotPts c (Memref.whole cc0_scratch0) c (part0 m c)
      ∗ semVal (xCell c 1 1) 0 ∗ slotPts c (Memref.whole cc0_scratch1) 1 (rs0C m c)
      ∗ semVal (xCell c 1 3) 0 ∗ slotPts c (Memref.whole cc0_scratch1) 3 (rs0C m c)
      ∗ semVal (xCell c 1 4) 0 ∗ slotPts c (Memref.whole cc0_scratch1) 4 (rs0C m c)
      ∗ semVal (xCell c 1 2) 0 ∗ slotPts c (Memref.whole cc0_scratch1) 2 (rs0C m c)
      ∗ semVal (xCell c 1 5) 0 ∗ slotPts c (Memref.whole cc0_scratch1) 5 (rs0C m c)
      ∗ semVal (xCell c 1 7) 0 ∗ slotPts c (Memref.whole cc0_scratch1) 7 (rs0C m c)
      ∗ semVal (xCell c 1 6) 0 ∗ slotPts c (Memref.whole cc0_scratch1) 6 (rs0C m c)
      ∗ semVal (xCell c 7 1) 0 ∗ semVal (xCell c 7 3) 0 ∗ semVal (xCell c 7 4) 0 ∗ semVal (xCell c 7 2) 0
      ∗ semVal (xCell c 7 5) 0 ∗ semVal (xCell c 7 7) 0 ∗ semVal (xCell c 7 6) 0
      ∗ held c cc0_scratch4 (full1 m))

theorem segE (c : Dev nD)
    (v2 v256 v267 v278 v289 v300 v311 v322 v429 v438 v447 v456 v465 v474 v483 v588 v597 v606 v615 v624 v633 v642 : BitVec 32)
    (κs κr : ℕ) (κ1 κ7 : Fin 8 → ℕ) (W : Waits sig Unit) (Q : Dev nD → sProp 𝕄) :
    iprop(segEPre m c κs κr κ1 κ7 W
      ∗ (segEPost m c -∗ wp frame (wpE (defs₀ (F := F)) 𝒱₀ (c : Thread nD τ) none) Set.univ
          ((bodyArgs% rest28) c v2 v588 v597 v606 v615 v633 v642 (h1 m c)) Q))
      ⊢ wp frame (wpE (defs₀ (F := F)) 𝒱₀ (c : Thread nD τ) none) Set.univ
          ((bodyArgs% rest23) c v2 v256 v267 v278 v289 v300 v311 v322 v429 v438 v447 v456 v465 v474 v483 v588 v597 v606 v615 v624 v633 v642) Q := by
  unfold segEPre
  iintro ⟨⟨HO, #Hlev, #Is, #Ir, Hq, ⟨%fd, Hd⟩, Ts, #Rs, Tr, #Rr, Hx0,
    #I11, C11, P11, #I13, C13, P13, #I14, C14, P14, #I12, C12, P12, #I15, C15, P15, #I17, C17, P17, #I16, C16, P16,
    #I71, C71, P71, #I73, C73, P73, #I74, C74, P74, #I72, C72, P72, #I75, C75, P75, #I77, C77, P77, #I76, C76, P76,
    G4c⟩, Hk⟩
  unfold rest23

  iapply (exec_cut frame _ Set.univ (part23 m c v2 v300 v311 (κs := κs) (κr := κr) (κ₁ := κ1 1) (κ₃ := κ1 3) W fd))
    $$ [HO Hq Hd Ts Tr Hx0 C11 P11 C13 P13]
  · sl_close
  iintro %r23 HQ
  icases HQ with ⟨%hr, ⟨%W1, HO⟩, Hcr, Hx0, Z11, Z13, S11, S13⟩
  subst hr

  iapply (exec_cut frame _ Set.univ (part24 m c v267 v278 v322 (κ₄ := κ1 4) (κ₂ := κ1 2) W1)) $$ [HO C14 P14 C12 P12]
  · sl_close
  iintro %r24 HQ
  icases HQ with ⟨%hr, ⟨%W2, HO⟩, Z14, Z12, S14, S12⟩
  subst hr

  iapply (exec_cut frame _ Set.univ (part25 m c v256 v289 (κ₅ := κ1 5) (κ₇ := κ1 7) (κ₆ := κ1 6) W2)) $$ [HO C15 P15 C17 P17 C16 P16]
  · sl_close
  iintro %r25 HQ
  icases HQ with ⟨%hr, ⟨%W3, HO⟩, Z15, Z17, Z16, S15, S17, S16⟩
  subst hr

  iapply (exec_cut frame _ Set.univ (part26 m c v438 v465 v474 v483 (κ₁ := κ7 1) (κ₃ := κ7 3) (κ₄ := κ7 4) (κ₂ := κ7 2) W3))
    $$ [HO S16 C71 P71 C73 P73 C74 P74 C72 P72]
  · sl_close
  iintro %r26 HQ
  icases HQ with ⟨%hr, ⟨%W4, HO⟩, S16, Z71, Z73, Z74, Z72, G41, G43, G44, G42⟩
  subst hr

  iapply (exec_cut frame _ Set.univ (part27 m c v429 v447 v456 v624 (κ₅ := κ7 5) (κ₇ := κ7 7) (κ₆ := κ7 6) W4))
    $$ [HO C75 P75 C77 P77 C76 P76 G4c G41 G42 G43 G44]
  · sl_close
  iintro %r27 HQ
  icases HQ with ⟨%hr, HO, Z75, Z77, Z76, G4⟩
  subst hr

  iapply Hk
  unfold segEPost
  isplitl [HO]; · iexact HO
  isplitl [Hcr]; · iexact Hcr
  isplitl [Hx0]; · iexact Hx0
  isplitl [Z11]; · iexact Z11
  isplitl [S11]; · iexact S11
  isplitl [Z13]; · iexact Z13
  isplitl [S13]; · iexact S13
  isplitl [Z14]; · iexact Z14
  isplitl [S14]; · iexact S14
  isplitl [Z12]; · iexact Z12
  isplitl [S12]; · iexact S12
  isplitl [Z15]; · iexact Z15
  isplitl [S15]; · iexact S15
  isplitl [Z17]; · iexact Z17
  isplitl [S17]; · iexact S17
  isplitl [Z16]; · iexact Z16
  isplitl [S16]; · iexact S16
  isplitl [Z71]; · iexact Z71
  isplitl [Z73]; · iexact Z73
  isplitl [Z74]; · iexact Z74
  isplitl [Z72]; · iexact Z72
  isplitl [Z75]; · iexact Z75
  isplitl [Z77]; · iexact Z77
  isplitl [Z76]; · iexact Z76
  iexact G4

end Cert.KernelIdeal.Hand

end
-- ==== Proof.Part28.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

abbrev own7_p28 (c : Dev nD) : Memref sig .tc .vmem S64x512 .bf16 :=
  ((Memref.whole cc0_scratch7).slice (Rect.unit (s := S8x64x512) (k0_off3 c) S1x64x512.size (k0_off3_inb c)) (fun _ => rfl)).squeeze S64x512 squeezes_S1x64x512_S64x512

theorem xPay9_p28 (m : (ℓ : Loc nD τ sig) → Buf (Elt F) ℓ) (c : Dev nD) (k : Fin 8) :
    xPay m c 9 k = slotPts c (Memref.whole cc0_scratch7) (px c k) (full2 m) := rfl

theorem wait_gather9_p28 (m : (ℓ : Loc nD τ sig) → Buf (Elt F) ℓ) (c : Dev nD) (k : Fin 8) (hk : k ≠ 0) {κ : ℕ}
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {W : Waits sig Unit} {α : Type} {Q : α → sProp 𝕄} {kk : PUnit → Prog (TpuEff nD τ sig (Elt F) Λ₀ .tc) α} :
    iprop(levAts L lv ∗ cellInv ER (sched m) κ (xCell c 9 k) ∗ cred (tallyAt (xCell c 9 k) () N) ∗ atPos ER (xCell c 9 k) 0 ∅ 0
        ∗ owes (c : Thread nD τ) (owedAfter c 42) W)
      ⊢ iprop(((owes (c : Thread nD τ) (owedAfter c 42) (insert (SemLoc.dma (xsem 9 k), ()) W) ∗ semVal (xCell c 9 k) 0
              ∗ slotPts c (Memref.whole cc0_scratch7) (px c k) (full2 m))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (xsem 9 k) src dst hsrc hdst) kk) Q) := by
  iintro ⟨#Hlev, #Hinv, Hcr, Hat, HO⟩ Hk
  iapply (step_wait_x m c 9 k hk hN (κ := κ) (O := owedAfter c 42) (W := W)) $$ [Hcr Hat HO]
  · isplitr; · iexact Hinv
    isplitl [Hcr]; · iexact Hcr
    isplitl [HO]; · iexact HO
    isplitr
    · iapply (mayWait_x_gather c 9 (Or.inr rfl) k hk (n := 42) (le_refl _)); iexact Hlev
    · iexact Hat
  iintro ⟨HO, Hat, -, Hpay⟩
  ihave Hslot := (Entails.of_eq (xPay9_p28 m c k)) $$ Hpay
  imod (close_x m c 9 k (κ := κ)) $$ [Hat] with Hz
  · sl_close
  iapply Hk
  sl_close

theorem part28 (m : (ℓ : Loc nD τ sig) → Buf (Elt F) ℓ) (c : Dev nD) (κ1 κ3 κ4 κ2 κ5 : ℕ) (W : Waits sig Unit)
    (v597 v606 v615 v633 v642 : BitVec 32) :
    iprop(levAts L lv ∗ owes (c : Thread nD τ) (owedAfter c 42) W
      ∗ cellInv ER (sched m) κ1 (xCell c 9 1) ∗ cred (tallyAt (xCell c 9 1) () N) ∗ atPos ER (xCell c 9 1) 0 ∅ 0
      ∗ cellInv ER (sched m) κ3 (xCell c 9 3) ∗ cred (tallyAt (xCell c 9 3) () N) ∗ atPos ER (xCell c 9 3) 0 ∅ 0
      ∗ cellInv ER (sched m) κ4 (xCell c 9 4) ∗ cred (tallyAt (xCell c 9 4) () N) ∗ atPos ER (xCell c 9 4) 0 ∅ 0
      ∗ cellInv ER (sched m) κ2 (xCell c 9 2) ∗ cred (tallyAt (xCell c 9 2) () N) ∗ atPos ER (xCell c 9 2) 0 ∅ 0
      ∗ cellInv ER (sched m) κ5 (xCell c 9 5) ∗ cred (tallyAt (xCell c 9 5) () N) ∗ atPos ER (xCell c 9 5) 0 ∅ 0)
      ⊢ wp frame (wpE (defs₀ (F := F)) 𝒱₀ (c : Thread nD τ) none) Set.univ ((bodyArgs% k0_part28) c v597 v606 v615 v633 v642)
          (fun _ => iprop((∃ W', owes (c : Thread nD τ) (owedAfter c 42) W')
            ∗ slotPts c (Memref.whole cc0_scratch7) (px c 1) (full2 m) ∗ semVal (xCell c 9 1) 0
            ∗ slotPts c (Memref.whole cc0_scratch7) (px c 3) (full2 m) ∗ semVal (xCell c 9 3) 0
            ∗ slotPts c (Memref.whole cc0_scratch7) (px c 4) (full2 m) ∗ semVal (xCell c 9 4) 0
            ∗ slotPts c (Memref.whole cc0_scratch7) (px c 2) (full2 m) ∗ semVal (xCell c 9 2) 0
            ∗ slotPts c (Memref.whole cc0_scratch7) (px c 5) (full2 m) ∗ semVal (xCell c 9 5) 0)) := by
  iintro ⟨#Hlev, HO, #HI1, Hc1, Ha1, #HI3, Hc3, Ha3, #HI4, Hc4, Ha4, #HI2, Hc2, Ha2, #HI5, Hc5, Ha5⟩
  rw [k0_part28_eq_skeleton]
  unfold k0_part28_skel

  sl_exec
  iapply (wait_gather9_p28 m c 1 (by decide) (κ := κ1) (dst := own7_p28 c) rfl) $$ [Hc1 Ha1 HO]
  · sl_close
  iintro ⟨HO, Hz1, Hs1⟩

  sl_exec
  iapply (wait_gather9_p28 m c 3 (by decide) (κ := κ3) (dst := own7_p28 c) rfl) $$ [Hc3 Ha3 HO]
  · sl_close
  iintro ⟨HO, Hz3, Hs3⟩

  sl_exec
  iapply (wait_gather9_p28 m c 4 (by decide) (κ := κ4) (dst := own7_p28 c) rfl) $$ [Hc4 Ha4 HO]
  · sl_close
  iintro ⟨HO, Hz4, Hs4⟩

  sl_exec
  iapply (wait_gather9_p28 m c 2 (by decide) (κ := κ2) (dst := own7_p28 c) rfl) $$ [Hc2 Ha2 HO]
  · sl_close
  iintro ⟨HO, Hz2, Hs2⟩

  sl_exec
  iapply (wait_gather9_p28 m c 5 (by decide) (κ := κ5) (dst := own7_p28 c) rfl) $$ [Hc5 Ha5 HO]
  · sl_close
  iintro ⟨HO, Hz5, Hs5⟩

  sl_exec
  first | sl_step | (unfold Prog.bind; sl_step)
  isplitl [HO]; · iexists _; iexact HO
  sl_close

end Cert.KernelIdeal.Hand

end
-- ==== Proof.Part29.lean ====
import Idealize.ShloMosaic.Lib.ValueLayout
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.Slots

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

open Idealize.ShloMosaic.ValueIdx (ix2 ix3)

abbrev own7_p29 (c : Dev nD) : Memref sig .tc .vmem S64x512 .bf16 :=
  ((Memref.whole cc0_scratch7).slice (Rect.unit (s := S8x64x512) (k0_off3 c) S1x64x512.size (k0_off3_inb c)) (fun _ => rfl)).squeeze S64x512 squeezes_S1x64x512_S64x512

theorem xPay9_p29 (m : (ℓ : Loc nD τ sig) → Buf (Elt F) ℓ) (c : Dev nD) (k : Fin 8) :
    xPay m c 9 k = slotPts c (Memref.whole cc0_scratch7) (px c k) (full2 m) := rfl

theorem pay25_eq_p29 (X : FVec F S64x512 .f32) (Y : Vec F S8x64x512 .bf16) (r : Fin 64) (q : Fin 512) :
    k0_pay25 X Y (ix3 (n0 := 1) (n1 := 64) (n2 := 512) 0 r q) = k0_pay24 X Y (ix2 (n0 := 64) (n1 := 512) r q) := by
  show shapeCast S1x64x512 (truncf .bf16 (k0_pay23 X Y) bitsLt_bf16_f32) shapeCasts_S64x512_S1x64x512 (ix3 (n0 := 1) (n1 := 64) (n2 := 512) 0 r q)
    = shapeCast S64x512 (truncf .bf16 (k0_pay23 X Y) bitsLt_bf16_f32) shapeCasts_S64x512_S64x512 (ix2 (n0 := 64) (n1 := 512) r q)
  rw [shapeCast_self]
  exact ValueIdx.shapeCast_ab_1ab_apply (a := 64) (b := 512) _ _ 0 r q

theorem load7_p29 (f : cc0_scratch7.ty.Contents (Elt F)) :
    (Memref.whole cc0_scratch7).view.readAt (Elt F) (Rect.unit (s := S8x64x512) ![0, 0, 0] S8x64x512.size inb_S8x64x512_S8x64x512_0_0_0).toLoadRect f = f :=
  Memref.readAt_unit_zero (Elt F) cc0_scratch7 (by funext a; fin_cases a <;> rfl) _ f

theorem store10_p29 (f w : cc0_scratch10.ty.Contents (Elt F)) :
    (Memref.whole cc0_scratch10).view.writes (Elt F) f [⟨Rect.unit (s := S64x512) ![0, 0] S64x512.size inb_S64x512_S64x512_0_0, w⟩] = w :=
  Memref.write_access_unit_zero_univ (Elt F) cc0_scratch10 (off := ![0, 0]) (by funext a; fin_cases a <;> rfl) inb_S64x512_S64x512_0_0 f w

theorem hfull_own_p29 (m : (ℓ : Loc nD τ sig) → Buf (Elt F) ℓ) (c : Dev nD) (r : Fin 64) (q : Fin 512) :
    (Memref.whole cc0_scratch11).view.read (Elt F) (hfull m) (ix3 (n0 := 8) (n1 := 64) (n2 := 512) c r q)
      = k0_pay25 (h1 m c) (full2 m) (ix3 (n0 := 1) (n1 := 64) (n2 := 512) 0 r q) := by
  rw [pay25_eq_p29]; rfl

theorem part29 (m : (ℓ : Loc nD τ sig) → Buf (Elt F) ℓ) (c : Dev nD) (κ7 κ6 : ℕ) (W : Waits sig Unit) (v2 v588 : BitVec 32)
    (f10 : cc0_scratch10.ty.Contents (Elt F)) (f11 : cc0_scratch11.ty.Contents (Elt F)) :
    iprop(levAts L lv ∗ owes (c : Thread nD τ) (owedAfter c 42) W
      ∗ cellInv ER (sched m) κ7 (xCell c 9 7) ∗ cred (tallyAt (xCell c 9 7) () N) ∗ atPos ER (xCell c 9 7) 0 ∅ 0
      ∗ cellInv ER (sched m) κ6 (xCell c 9 6) ∗ cred (tallyAt (xCell c 9 6) () N) ∗ atPos ER (xCell c 9 6) 0 ∅ 0
      ∗ slotPts c (Memref.whole cc0_scratch7) c (full2 m)
      ∗ slotPts c (Memref.whole cc0_scratch7) (px c 1) (full2 m) ∗ slotPts c (Memref.whole cc0_scratch7) (px c 2) (full2 m)
      ∗ slotPts c (Memref.whole cc0_scratch7) (px c 3) (full2 m) ∗ slotPts c (Memref.whole cc0_scratch7) (px c 4) (full2 m)
      ∗ slotPts c (Memref.whole cc0_scratch7) (px c 5) (full2 m)
      ∗ held c cc0_scratch10 f10 ∗ slotPts c (Memref.whole cc0_scratch11) c f11)
      ⊢ wp frame (wpE (defs₀ (F := F)) 𝒱₀ (c : Thread nD τ) none) Set.univ ((bodyArgs% k0_part29) c v2 v588 (h1 m c))
          (fun r => iprop(⌜r = Scalar.xori v2 6#32⌝ ∗ (∃ W', owes (c : Thread nD τ) (owedAfter c 42) W')
            ∗ semVal (xCell c 9 7) 0 ∗ semVal (xCell c 9 6) 0
            ∗ held c cc0_scratch7 (full2 m) ∗ held c cc0_scratch10 (h2own m c)
            ∗ slotPts c (Memref.whole cc0_scratch11) c (hfull m))) := by
  iintro ⟨#Hlev, HO, #HI7, Hc7, Ha7, #HI6, Hc6, Ha6, Hs0, Hs1, Hs2, Hs3, Hs4, Hs5, H10, H11⟩
  rw [k0_part29_eq_skeleton]
  unfold k0_part29_skel
  sl_exec
  iapply (step_wait_x m c 9 7 (by decide) (κ := κ7) (dst := own7_p29 c) rfl (O := owedAfter c 42)) $$ [Hc7 HO Ha7]
  · isplitr; · iexact HI7
    isplitl [Hc7]; · iexact Hc7
    isplitl [HO]; · iexact HO
    isplitr; · iapply (mayWait_x_gather c 9 (Or.inr rfl) 7 (by decide) (n := 42) (le_refl _)); iexact Hlev
    iexact Ha7
  iintro ⟨HO, Ha7, -, Hp7⟩
  ihave Hs7 := (Entails.of_eq (xPay9_p29 m c 7)) $$ Hp7
  imod (close_x m c 9 7 (κ := κ7)) $$ [Ha7] with Hz7
  · sl_close
  sl_exec
  iapply (step_wait_x m c 9 6 (by decide) (κ := κ6) (dst := own7_p29 c) rfl (O := owedAfter c 42)) $$ [Hc6 HO Ha6]
  · isplitr; · iexact HI6
    isplitl [Hc6]; · iexact Hc6
    isplitl [HO]; · iexact HO
    isplitr; · iapply (mayWait_x_gather c 9 (Or.inr rfl) 6 (by decide) (n := 42) (le_refl _)); iexact Hlev
    iexact Ha6
  iintro ⟨HO, Ha6, -, Hp6⟩
  ihave Hs6 := (Entails.of_eq (xPay9_p29 m c 6)) $$ Hp6
  imod (close_x m c 9 6 (κ := κ6)) $$ [Ha6] with Hz6
  · sl_close
  ihave H7 := (Entails.of_eq ((slots_whole_eq c (Memref.whole cc0_scratch7) (Memref.isWhole_whole _) (full2 m)).trans
      (slots_peers c (Memref.whole cc0_scratch7) (full2 m))).symm) $$ [Hs0 Hs1 Hs2 Hs3 Hs4 Hs5 Hs6 Hs7]
  · sl_close
  sl_exec
  rw [load7_p29 (full2 m)]
  iapply (wp_load_slot 𝒱₀ c none Set.univ (Memref.whole cc0_scratch11) c (k0_off2_eq c) f11) $$ H11
  iintro H11
  iapply (wp_store_slot 𝒱₀ c none Set.univ (Memref.whole cc0_scratch11) c (k0_off2_eq c) f11 (hfull m) (hfull_own_p29 m c)) $$ H11
  iintro H11
  first | sl_step | unfold Prog.bind
  sl_exec
  have e10 : (Memref.whole cc0_scratch10).view.writes (Elt F) f10
      [⟨Rect.unit (s := S64x512) ![0, 0] S64x512.size inb_S64x512_S64x512_0_0, k0_pay24 (h1 m c) (full2 m)⟩] = h2own m c :=
    store10_p29 f10 _
  rw [e10]
  first | sl_step | (unfold Prog.bind; sl_step)
  isplitr; · ipureintro; rfl
  isplitl [HO]; · iexists _; iexact HO
  sl_close

end Cert.KernelIdeal.Hand

end
-- ==== Proof.Part30.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part30 (m : (ℓ : Loc nD τ sig) → Buf (Elt F) ℓ) (c : Dev nD) (κs6 κr6 κs2 κr2 κs5 κr5 κs7 κr7 : ℕ) (W : Waits sig Unit) (v2 : BitVec 32)
    (fd6 : Buf (Elt F) ((slotM (Memref.whole cc0_scratch11) c).view.loc (px c 6 : Thread nD τ)))
    (fd2 : Buf (Elt F) ((slotM (Memref.whole cc0_scratch11) c).view.loc (px c 2 : Thread nD τ)))
    (fd5 : Buf (Elt F) ((slotM (Memref.whole cc0_scratch11) c).view.loc (px c 5 : Thread nD τ)))
    (fd7 : Buf (Elt F) ((slotM (Memref.whole cc0_scratch11) c).view.loc (px c 7 : Thread nD τ))) :
    iprop(owes (c : Thread nD τ) (owedAfter c 42) W
      ∗ cellInv ER (sched m) κs6 (xCell c 10 6) ∗ cellInv ER (sched m) κr6 (xCell (px c 6) 11 6)
      ∗ chunkPts c (Memref.whole cc0_scratch10) (shr 6) (h2own m c) ∗ slotPts (px c 6) (Memref.whole cc0_scratch11) c fd6
      ∗ dutyTok ER (xCell c 10 6) 0 0 ∗ reached ER (xCell c 10 6) 0
      ∗ dutyTok ER (xCell (px c 6) 11 6) 0 0 ∗ reached ER (xCell (px c 6) 11 6) 0
      ∗ cellInv ER (sched m) κs2 (xCell c 10 2) ∗ cellInv ER (sched m) κr2 (xCell (px c 2) 11 2)
      ∗ chunkPts c (Memref.whole cc0_scratch10) (shr 2) (h2own m c) ∗ slotPts (px c 2) (Memref.whole cc0_scratch11) c fd2
      ∗ dutyTok ER (xCell c 10 2) 0 0 ∗ reached ER (xCell c 10 2) 0
      ∗ dutyTok ER (xCell (px c 2) 11 2) 0 0 ∗ reached ER (xCell (px c 2) 11 2) 0
      ∗ cellInv ER (sched m) κs5 (xCell c 10 5) ∗ cellInv ER (sched m) κr5 (xCell (px c 5) 11 5)
      ∗ chunkPts c (Memref.whole cc0_scratch10) (shr 5) (h2own m c) ∗ slotPts (px c 5) (Memref.whole cc0_scratch11) c fd5
      ∗ dutyTok ER (xCell c 10 5) 0 0 ∗ reached ER (xCell c 10 5) 0
      ∗ dutyTok ER (xCell (px c 5) 11 5) 0 0 ∗ reached ER (xCell (px c 5) 11 5) 0
      ∗ cellInv ER (sched m) κs7 (xCell c 10 7) ∗ cellInv ER (sched m) κr7 (xCell (px c 7) 11 7)
      ∗ chunkPts c (Memref.whole cc0_scratch10) (shr 7) (h2own m c) ∗ slotPts (px c 7) (Memref.whole cc0_scratch11) c fd7
      ∗ dutyTok ER (xCell c 10 7) 0 0 ∗ reached ER (xCell c 10 7) 0
      ∗ dutyTok ER (xCell (px c 7) 11 7) 0 0 ∗ reached ER (xCell (px c 7) 11 7) 0)
      ⊢ wp frame (wpE (defs₀ (F := F)) 𝒱₀ (c : Thread nD τ) none) Set.univ ((bodyArgs% k0_part30) c v2)
          (fun _ => iprop((∃ W', owes (c : Thread nD τ) (owedAfter c 46) W')
            ∗ cred (tallyAt (xCell c 10 6) () N) ∗ cred (tallyAt (xCell c 10 2) () N)
            ∗ cred (tallyAt (xCell c 10 5) () N) ∗ cred (tallyAt (xCell c 10 7) () N))) := by
  iintro ⟨HO, #HIs6, #HIr6, Hq6, Hd6, Hts6, #Hrs6, Htr6, #Hrr6, #HIs2, #HIr2, Hq2, Hd2, Hts2, #Hrs2, Htr2, #Hrr2,
    #HIs5, #HIr5, Hq5, Hd5, Hts5, #Hrs5, Htr5, #Hrr5, #HIs7, #HIr7, Hq7, Hd7, Hts7, #Hrs7, Htr7, #Hrr7⟩
  rw [k0_part30_eq_skeleton]
  unfold k0_part30_skel

  sl_exec
  iapply (step_send_chunk m c _ 6 (by decide) (dev43_eq c) 10 11 (Memref.whole cc0_scratch10) (Memref.whole cc0_scratch11) (h2own m c) (κ₁ := κs6) (κ₂ := κr6) (off3_slot _ c) fd6 Entails.rfl (Entails.of_eq (landed_hfull m c 6 fd6))
      (owedAfter c 43) (owedAfter_step c 42 _ _ rfl)) $$ [HO Hq6 Hd6 Hts6 Htr6]
  · sl_close
  iintro ⟨Hc6, HO⟩

  sl_exec
  iapply (step_send_chunk m c _ 2 (by decide) (dev44_eq c) 10 11 (Memref.whole cc0_scratch10) (Memref.whole cc0_scratch11) (h2own m c) (κ₁ := κs2) (κ₂ := κr2) (off3_slot _ c) fd2 Entails.rfl (Entails.of_eq (landed_hfull m c 2 fd2))
      (owedAfter c 44) (owedAfter_step c 43 _ _ rfl)) $$ [HO Hq2 Hd2 Hts2 Htr2]
  · sl_close
  iintro ⟨Hc2, HO⟩

  sl_exec
  iapply (step_send_chunk m c _ 5 (by decide) (dev45_eq c) 10 11 (Memref.whole cc0_scratch10) (Memref.whole cc0_scratch11) (h2own m c) (κ₁ := κs5) (κ₂ := κr5) (off3_slot _ c) fd5 Entails.rfl (Entails.of_eq (landed_hfull m c 5 fd5))
      (owedAfter c 45) (owedAfter_step c 44 _ _ rfl)) $$ [HO Hq5 Hd5 Hts5 Htr5]
  · sl_close
  iintro ⟨Hc5, HO⟩

  sl_exec
  iapply (step_send_chunk m c _ 7 (by decide) (dev46_eq c) 10 11 (Memref.whole cc0_scratch10) (Memref.whole cc0_scratch11) (h2own m c) (κ₁ := κs7) (κ₂ := κr7) (off3_slot _ c) fd7 Entails.rfl (Entails.of_eq (landed_hfull m c 7 fd7))
      (owedAfter c 46) (owedAfter_step c 45 _ _ rfl)) $$ [HO Hq7 Hd7 Hts7 Htr7]
  · sl_close
  iintro ⟨Hc7, HO⟩

  sl_exec
  first | sl_step | (unfold Prog.bind; sl_step)
  isplitl [HO]; · iexists _; iexact HO
  sl_close

end Cert.KernelIdeal.Hand

end
-- ==== Proof.WaitSend.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem landed_x (m : (ℓ : Loc nD τ sig) → Buf (Elt F) ℓ) (c : Dev nD) (a : Fin 12) (k : Fin 8) (hk : k ≠ 0) :
    bigSep ((sched (F := F) m).duties (xCell c a k) 0) (fun d => (sched (F := F) m).payload (xCell c a k) 0 d) = xPay m c a k := by
  have h := rest_x m c a k hk
  rwa [Finset.sdiff_empty] at h

theorem send_done (m : (ℓ : Loc nD τ sig) → Buf (Elt F) ℓ) (c : Dev nD) (a : Fin 12) (k : Fin 8) (hk : k ≠ 0) {κ : ℕ} :
    iprop(cellInv ER (sched m) κ (xCell c a k) ∗ atPos ER (xCell c a k) 1 ∅ 0
        ∗ bigSep ((sched (F := F) m).duties (xCell c a k) 0) (fun d => (sched (F := F) m).payload (xCell c a k) 0 d))
      ⊢ iprop(|={Set.univ}=> (semVal (xCell c a k) 0 ∗ xPay m c a k)) := by
  rw [landed_x m c a k hk]
  iintro ⟨#Hi, Hat, Hp⟩
  imod (close_x m c a k (κ := κ)) $$ [Hat] with Hz
  · sl_close
  imodintro
  sl_close

theorem send_done0 (m : (ℓ : Loc nD τ sig) → Buf (Elt F) ℓ) (c : Dev nD) (k : Fin 8) (hk : k ≠ 0) {κ : ℕ} :
    iprop(cellInv ER (sched m) κ (xCell c 0 k) ∗ atPos ER (xCell c 0 k) 1 ∅ 0
        ∗ bigSep ((sched (F := F) m).duties (xCell c 0 k) 0) (fun d => (sched (F := F) m).payload (xCell c 0 k) 0 d))
      ⊢ iprop(|={Set.univ}=> (semVal (xCell c 0 k) 0 ∗ slotPts c (Memref.whole cc0_scratch0) (px c k) (part0 m c))) :=
  send_done m c 0 k hk

theorem send_done2 (m : (ℓ : Loc nD τ sig) → Buf (Elt F) ℓ) (c : Dev nD) (k : Fin 8) (hk : k ≠ 0) {κ : ℕ} :
    iprop(cellInv ER (sched m) κ (xCell c 2 k) ∗ atPos ER (xCell c 2 k) 1 ∅ 0
        ∗ bigSep ((sched (F := F) m).duties (xCell c 2 k) 0) (fun d => (sched (F := F) m).payload (xCell c 2 k) 0 d))
      ⊢ iprop(|={Set.univ}=> (semVal (xCell c 2 k) 0 ∗ slotPts c (Memref.whole cc0_scratch2) (px c k) (part1 m c))) :=
  send_done m c 2 k hk

theorem send_done4 (m : (ℓ : Loc nD τ sig) → Buf (Elt F) ℓ) (c : Dev nD) (k : Fin 8) (hk : k ≠ 0) {κ : ℕ} :
    iprop(cellInv ER (sched m) κ (xCell c 4 k) ∗ atPos ER (xCell c 4 k) 1 ∅ 0
        ∗ bigSep ((sched (F := F) m).duties (xCell c 4 k) 0) (fun d => (sched (F := F) m).payload (xCell c 4 k) 0 d))
      ⊢ iprop(|={Set.univ}=> (semVal (xCell c 4 k) 0 ∗ slotPts c (Memref.whole cc0_scratch5) (px c k) (part2 m c))) :=
  send_done m c 4 k hk

theorem send_done6 (m : (ℓ : Loc nD τ sig) → Buf (Elt F) ℓ) (c : Dev nD) (k : Fin 8) (hk : k ≠ 0) {κ : ℕ} :
    iprop(cellInv ER (sched m) κ (xCell c 6 k) ∗ atPos ER (xCell c 6 k) 1 ∅ 0
        ∗ bigSep ((sched (F := F) m).duties (xCell c 6 k) 0) (fun d => (sched (F := F) m).payload (xCell c 6 k) 0 d))
      ⊢ iprop(|={Set.univ}=> (semVal (xCell c 6 k) 0 ∗ chunkPts c (Memref.whole cc0_scratch8) (shr k) (own1 m c))) :=
  send_done m c 6 k hk

theorem send_done8 (m : (ℓ : Loc nD τ sig) → Buf (Elt F) ℓ) (c : Dev nD) (k : Fin 8) (hk : k ≠ 0) {κ : ℕ} :
    iprop(cellInv ER (sched m) κ (xCell c 8 k) ∗ atPos ER (xCell c 8 k) 1 ∅ 0
        ∗ bigSep ((sched (F := F) m).duties (xCell c 8 k) 0) (fun d => (sched (F := F) m).payload (xCell c 8 k) 0 d))
      ⊢ iprop(|={Set.univ}=> (semVal (xCell c 8 k) 0 ∗ chunkPts c (Memref.whole cc0_scratch9) (shr k) (own2 m c))) :=
  send_done m c 8 k hk

theorem send_done10 (m : (ℓ : Loc nD τ sig) → Buf (Elt F) ℓ) (c : Dev nD) (k : Fin 8) (hk : k ≠ 0) {κ : ℕ} :
    iprop(cellInv ER (sched m) κ (xCell c 10 k) ∗ atPos ER (xCell c 10 k) 1 ∅ 0
        ∗ bigSep ((sched (F := F) m).duties (xCell c 10 k) 0) (fun d => (sched (F := F) m).payload (xCell c 10 k) 0 d))
      ⊢ iprop(|={Set.univ}=> (semVal (xCell c 10 k) 0 ∗ chunkPts c (Memref.whole cc0_scratch10) (shr k) (h2own m c))) :=
  send_done m c 10 k hk

end Cert.KernelIdeal.Hand

end
-- ==== Proof.Part31.lean ====
import proofs.«900577_g7700000000000578_dist_mlpseq_tp1dT_cs_cs_b512_d256_h512_v7x_i8_f32_1_alg».proof.Proof.Steps
import proofs.«900577_g7700000000000578_dist_mlpseq_tp1dT_cs_cs_b512_d256_h512_v7x_i8_f32_1_alg».proof.Proof.Local
import proofs.«900577_g7700000000000578_dist_mlpseq_tp1dT_cs_cs_b512_d256_h512_v7x_i8_f32_1_alg».proof.Proof.WaitSend
import proofs.«900577_g7700000000000578_dist_mlpseq_tp1dT_cs_cs_b512_d256_h512_v7x_i8_f32_1_alg».proof.Proof.Part30

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem xPay11_p31 (m : (ℓ : Loc nD τ sig) → Buf (Elt F) ℓ) (c : Dev nD) (k : Fin 8) :
    xPay m c 11 k = slotPts c (Memref.whole cc0_scratch11) (px c k) (hfull m) := rfl

theorem part31 (m : (ℓ : Loc nD τ sig) → Buf (Elt F) ℓ) (c : Dev nD) (κs1 κr1 κs3 κr3 κs4 κr4 κw1 : ℕ) (W : Waits sig Unit)
    (v2 v880 v881 c0 : BitVec 32)
    (fd1 : Buf (Elt F) ((slotM (Memref.whole cc0_scratch11) c).view.loc (px c 1 : Thread nD τ)))
    (fd3 : Buf (Elt F) ((slotM (Memref.whole cc0_scratch11) c).view.loc (px c 3 : Thread nD τ)))
    (fd4 : Buf (Elt F) ((slotM (Memref.whole cc0_scratch11) c).view.loc (px c 4 : Thread nD τ))) :
    iprop(owes (c : Thread nD τ) (owedAfter c 46) W
      ∗ cellInv ER (sched m) κs1 (xCell c 10 1) ∗ cellInv ER (sched m) κr1 (xCell (px c 1) 11 1)
      ∗ chunkPts c (Memref.whole cc0_scratch10) (shr 1) (h2own m c) ∗ slotPts (px c 1) (Memref.whole cc0_scratch11) c fd1
      ∗ dutyTok ER (xCell c 10 1) 0 0 ∗ reached ER (xCell c 10 1) 0
      ∗ dutyTok ER (xCell (px c 1) 11 1) 0 0 ∗ reached ER (xCell (px c 1) 11 1) 0
      ∗ cellInv ER (sched m) κs3 (xCell c 10 3) ∗ cellInv ER (sched m) κr3 (xCell (px c 3) 11 3)
      ∗ chunkPts c (Memref.whole cc0_scratch10) (shr 3) (h2own m c) ∗ slotPts (px c 3) (Memref.whole cc0_scratch11) c fd3
      ∗ dutyTok ER (xCell c 10 3) 0 0 ∗ reached ER (xCell c 10 3) 0
      ∗ dutyTok ER (xCell (px c 3) 11 3) 0 0 ∗ reached ER (xCell (px c 3) 11 3) 0
      ∗ cellInv ER (sched m) κs4 (xCell c 10 4) ∗ cellInv ER (sched m) κr4 (xCell (px c 4) 11 4)
      ∗ chunkPts c (Memref.whole cc0_scratch10) (shr 4) (h2own m c) ∗ slotPts (px c 4) (Memref.whole cc0_scratch11) c fd4
      ∗ dutyTok ER (xCell c 10 4) 0 0 ∗ reached ER (xCell c 10 4) 0
      ∗ dutyTok ER (xCell (px c 4) 11 4) 0 0 ∗ reached ER (xCell (px c 4) 11 4) 0
      ∗ cellInv ER (sched m) κw1 (xCell c 11 1) ∗ cred (tallyAt (xCell c 11 1) () N) ∗ atPos ER (xCell c 11 1) 0 ∅ 0)
      ⊢ wp frame (wpE (defs₀ (F := F)) 𝒱₀ (c : Thread nD τ) none) Set.univ ((bodyArgs% k0_part31) c v2 v880 v881 c0)
          (fun _ => iprop((∃ W', owes (c : Thread nD τ) (owedAfter c 49) W')
            ∗ cred (tallyAt (xCell c 10 1) () N) ∗ cred (tallyAt (xCell c 10 3) () N) ∗ cred (tallyAt (xCell c 10 4) () N)
            ∗ slotPts c (Memref.whole cc0_scratch11) (px c 1) (hfull m) ∗ semVal (xCell c 11 1) 0)) := by
  iintro ⟨HO, #HIs1, #HIr1, Hq1, Hd1, Hts1, #Hrs1, Htr1, #Hrr1, #HIs3, #HIr3, Hq3, Hd3, Hts3, #Hrs3, Htr3, #Hrr3, #HIs4, #HIr4, Hq4, Hd4, Hts4, #Hrs4, Htr4, #Hrr4, #HIw1, Hcw1, Haw1⟩
  rw [k0_part31_eq_skeleton]
  unfold k0_part31_skel
  sl_exec
  iapply (step_send_chunk m c _ 1 (by decide) (dev47_eq c) 10 11 (Memref.whole cc0_scratch10) (Memref.whole cc0_scratch11) (h2own m c) (κ₁ := κs1) (κ₂ := κr1) (off3_slot _ c) fd1 Entails.rfl (Entails.of_eq (landed_hfull m c 1 fd1))
      (owedAfter c 47) (owedAfter_step c 46 _ _ rfl)) $$ [HO Hq1 Hd1 Hts1 Htr1]
  · sl_close
  iintro ⟨Hc1, HO⟩
  sl_exec
  iapply (step_send_chunk m c _ 3 (by decide) (dev48_eq c) 10 11 (Memref.whole cc0_scratch10) (Memref.whole cc0_scratch11) (h2own m c) (κ₁ := κs3) (κ₂ := κr3) (off3_slot _ c) fd3 Entails.rfl (Entails.of_eq (landed_hfull m c 3 fd3))
      (owedAfter c 48) (owedAfter_step c 47 _ _ rfl)) $$ [HO Hq3 Hd3 Hts3 Htr3]
  · sl_close
  iintro ⟨Hc3, HO⟩
  sl_exec
  iapply (step_send_chunk m c _ 4 (by decide) (dev49_eq c) 10 11 (Memref.whole cc0_scratch10) (Memref.whole cc0_scratch11) (h2own m c) (κ₁ := κs4) (κ₂ := κr4) (off3_slot _ c) fd4 Entails.rfl (Entails.of_eq (landed_hfull m c 4 fd4))
      (owedAfter c 49) (owedAfter_step c 48 _ _ rfl)) $$ [HO Hq4 Hd4 Hts4 Htr4]
  · sl_close
  iintro ⟨Hc4, HO⟩
  sl_exec
  imod (send_done m c 11 1 (by decide) (κ := κw1)) $$ [Haw1 Haw1_pay1] with ⟨Hzw1, Hpw1⟩
  · sl_close
  ihave Hsw1 := (Entails.of_eq (xPay11_p31 m c 1)) $$ Hpw1
  first | sl_step | (unfold Prog.bind; sl_step)
  isplitl [HO]; · iexists _; iexact HO
  sl_close

end Cert.KernelIdeal.Hand

end
-- ==== Proof.Part32.lean ====
import proofs.«900577_g7700000000000578_dist_mlpseq_tp1dT_cs_cs_b512_d256_h512_v7x_i8_f32_1_alg».proof.Proof.WaitSend

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

private theorem recv_done11 (m : (ℓ : Loc nD τ sig) → Buf (Elt F) ℓ) (c : Dev nD) (k : Fin 8) (hk : k ≠ 0) {κ : ℕ} :
    iprop(cellInv ER (sched m) κ (xCell c 11 k) ∗ atPos ER (xCell c 11 k) 1 ∅ 0
        ∗ bigSep ((sched (F := F) m).duties (xCell c 11 k) 0) (fun d => (sched (F := F) m).payload (xCell c 11 k) 0 d))
      ⊢ iprop(|={Set.univ}=> (semVal (xCell c 11 k) 0 ∗ slotPts c (Memref.whole cc0_scratch11) (px c k) (hfull m))) :=
  send_done m c 11 k hk

theorem part32 (m : (ℓ : Loc nD τ sig) → Buf (Elt F) ℓ) (c : Dev nD) (κ3 κ4 κ2 κ5 : ℕ) (W : Waits sig Unit)
    (v853 v862 v871 v889 v898 w1 : BitVec 32) :
    iprop(owes (c : Thread nD τ) (owedAfter c 49) W
      ∗ cellInv ER (sched m) κ3 (xCell c 11 3) ∗ cred (tallyAt (xCell c 11 3) () N) ∗ atPos ER (xCell c 11 3) 0 ∅ 0
      ∗ cellInv ER (sched m) κ4 (xCell c 11 4) ∗ cred (tallyAt (xCell c 11 4) () N) ∗ atPos ER (xCell c 11 4) 0 ∅ 0
      ∗ cellInv ER (sched m) κ2 (xCell c 11 2) ∗ cred (tallyAt (xCell c 11 2) () N) ∗ atPos ER (xCell c 11 2) 0 ∅ 0
      ∗ cellInv ER (sched m) κ5 (xCell c 11 5) ∗ cred (tallyAt (xCell c 11 5) () N) ∗ atPos ER (xCell c 11 5) 0 ∅ 0)
      ⊢ wp frame (wpE (defs₀ (F := F)) 𝒱₀ (c : Thread nD τ) none) Set.univ ((bodyArgs% k0_part32) c v853 v862 v871 v889 v898 w1)
          (fun _ => iprop((∃ W', owes (c : Thread nD τ) (owedAfter c 49) W')
            ∗ slotPts c (Memref.whole cc0_scratch11) (px c 3) (hfull m) ∗ semVal (xCell c 11 3) 0
            ∗ slotPts c (Memref.whole cc0_scratch11) (px c 4) (hfull m) ∗ semVal (xCell c 11 4) 0
            ∗ slotPts c (Memref.whole cc0_scratch11) (px c 2) (hfull m) ∗ semVal (xCell c 11 2) 0
            ∗ slotPts c (Memref.whole cc0_scratch11) (px c 5) (hfull m) ∗ semVal (xCell c 11 5) 0)) := by
  iintro ⟨HO, #HI3, Hc3, Ha3, #HI4, Hc4, Ha4, #HI2, Hc2, Ha2, #HI5, Hc5, Ha5⟩
  rw [k0_part32_eq_skeleton]
  unfold k0_part32_skel
  sl_exec
  imod (recv_done11 m c 3 (by decide) (κ := κ3)) $$ [Ha3 Ha3_pay1] with ⟨Hz3, Hp3⟩
  · sl_close
  imod (recv_done11 m c 4 (by decide) (κ := κ4)) $$ [Ha4 Ha4_pay1] with ⟨Hz4, Hp4⟩
  · sl_close
  imod (recv_done11 m c 2 (by decide) (κ := κ2)) $$ [Ha2 Ha2_pay1] with ⟨Hz2, Hp2⟩
  · sl_close
  imod (recv_done11 m c 5 (by decide) (κ := κ5)) $$ [Ha5 Ha5_pay1] with ⟨Hz5, Hp5⟩
  · sl_close
  first | sl_step | (unfold Prog.bind; sl_step)
  isplitl [HO]; · iexists _; iexact HO
  sl_close

end Cert.KernelIdeal.Hand

end
-- ==== Proof.Part33.lean ====
import proofs.«900577_g7700000000000578_dist_mlpseq_tp1dT_cs_cs_b512_d256_h512_v7x_i8_f32_1_alg».proof.Proof.WaitSend
import proofs.«900577_g7700000000000578_dist_mlpseq_tp1dT_cs_cs_b512_d256_h512_v7x_i8_f32_1_alg».proof.Proof.Slots
import proofs.«900577_g7700000000000578_dist_mlpseq_tp1dT_cs_cs_b512_d256_h512_v7x_i8_f32_1_alg».proof.Proof.LocalWait

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

private theorem recv_done11 (m : (ℓ : Loc nD τ sig) → Buf (Elt F) ℓ) (c : Dev nD) (k : Fin 8) (hk : k ≠ 0) {κ : ℕ} :
    iprop(cellInv ER (sched m) κ (xCell c 11 k) ∗ atPos ER (xCell c 11 k) 1 ∅ 0
        ∗ bigSep ((sched (F := F) m).duties (xCell c 11 k) 0) (fun d => (sched (F := F) m).payload (xCell c 11 k) 0 d))
      ⊢ iprop(|={Set.univ}=> (semVal (xCell c 11 k) 0 ∗ slotPts c (Memref.whole cc0_scratch11) (px c k) (hfull m))) :=
  send_done m c 11 k hk

private theorem join11 (c : Dev nD) (f : cc0_scratch11.ty.Contents (Elt F)) :
    iprop(slotPts c (Memref.whole cc0_scratch11) c f ∗ slotPts c (Memref.whole cc0_scratch11) (px c 1) f
        ∗ slotPts c (Memref.whole cc0_scratch11) (px c 2) f ∗ slotPts c (Memref.whole cc0_scratch11) (px c 3) f
        ∗ slotPts c (Memref.whole cc0_scratch11) (px c 4) f ∗ slotPts c (Memref.whole cc0_scratch11) (px c 5) f
        ∗ slotPts c (Memref.whole cc0_scratch11) (px c 6) f ∗ slotPts c (Memref.whole cc0_scratch11) (px c 7) f)
      ⊢ (held c cc0_scratch11 f : sProp 𝕄) :=
  Entails.of_eq ((slots_whole_eq c (Memref.whole cc0_scratch11) (Memref.isWhole_whole _) f).trans
    (slots_peers c (Memref.whole cc0_scratch11) f)).symm

private theorem win2_to (c : Dev nD) (g : cc0_scratch14.ty.Contents (Elt F)) :
    (View.loc (c : Thread nD τ) (Memref.whole cc0_scratch14).view ↦[wovW2.view.set]{fullShare} g : sProp 𝕄)
      ⊢ (wovW2.view.loc (c : Thread nD τ) ↦[wovW2.view.set]{fullShare} g) := .rfl
private theorem win2_from (c : Dev nD) (g : cc0_scratch14.ty.Contents (Elt F)) :
    (wovW2.view.loc (c : Thread nD τ) ↦[wovW2.view.set]{fullShare} g : sProp 𝕄)
      ⊢ (View.loc (c : Thread nD τ) (Memref.whole cc0_scratch14).view ↦[wovW2.view.set]{fullShare} g) := .rfl

private theorem writes_full_stg (f7 : cc0_stg0_0.ty.Contents (Elt F)) (w : S512x256.Idx → Elt F .f32) :
    (Memref.whole cc0_stg0_0).view.writes (Elt F) f7 [⟨Rect.unit (s := S512x256) ![0, 0] S512x256.size inb_S512x256_S512x256_0_0, w⟩] = w :=
  Memref.write_access_unit_zero_univ (Elt F) cc0_stg0_0 (off := ![0, 0]) (funext fun a => by fin_cases a <;> rfl)
    inb_S512x256_S512x256_0_0 f7 w

private theorem outC_stored (m : (ℓ : Loc nD τ sig) → Buf (Elt F) ℓ) (c : Dev nD)
    (f14 : cc0_scratch14.ty.Contents (Elt F)) (f7 : cc0_stg0_0.ty.Contents (Elt F)) :
    (Memref.whole cc0_stg0_0).view.writes (Elt F) f7
      [⟨Rect.unit (s := S512x256) ![0, 0] S512x256.size inb_S512x256_S512x256_0_0,
        k0_pay26
          (View.readAt (Elt F) (Memref.whole cc0_scratch11).view
            (Rect.unit (s := S8x64x512) ![0, 0, 0] S8x64x512.size inb_S8x64x512_S8x64x512_0_0_0).toLoadRect (hfull m))
          (View.readAt (Elt F) (Memref.whole cc0_scratch14).view
            (Rect.unit (s := S3x512x256) ![2, 0, 0] S1x512x256.size inb_S3x512x256_S1x512x256_2_0_0).toLoadRect (g14_3 m c f14))⟩]
      = outC m c := by
  rw [writes_full_stg]
  unfold outC
  congr 1
  · exact Memref.readAt_unit_zero (Elt F) cc0_scratch11 (off := ![0, 0, 0]) (funext fun a => by fin_cases a <;> rfl)
      inb_S8x64x512_S8x64x512_0_0_0 (hfull m)
  · refine eq_up3_of_cast _ _ shapeCasts_S1x512x256_S512x256 ?_
    show wovW2.view.read (Elt F) (wovW2.view.write (Elt F) (g14_2 m c f14) (pay m c main_arg6) Finset.univ) = aWo2 m c
    rw [View.read_write_univ]; rfl

theorem part33 (m : (ℓ : Loc nD τ sig) → Buf (Elt F) ℓ) (c : Dev nD) (κ7 κ6 κs : ℕ) (W : Waits sig Unit)
    (f14 : cc0_scratch14.ty.Contents (Elt F)) (f7 : cc0_stg0_0.ty.Contents (Elt F)) (v844 : BitVec 32) :
    iprop(owes (c : Thread nD τ) (owedAfter c 49) W
      ∗ cellInv ER (sched m) κ7 (xCell c 11 7) ∗ cred (tallyAt (xCell c 11 7) () N) ∗ atPos ER (xCell c 11 7) 0 ∅ 0
      ∗ cellInv ER (sched m) κ6 (xCell c 11 6) ∗ cred (tallyAt (xCell c 11 6) () N) ∗ atPos ER (xCell c 11 6) 0 ∅ 0
      ∗ slotPts c (Memref.whole cc0_scratch11) c (hfull m)
      ∗ slotPts c (Memref.whole cc0_scratch11) (px c 1) (hfull m) ∗ slotPts c (Memref.whole cc0_scratch11) (px c 2) (hfull m)
      ∗ slotPts c (Memref.whole cc0_scratch11) (px c 3) (hfull m) ∗ slotPts c (Memref.whole cc0_scratch11) (px c 4) (hfull m)
      ∗ slotPts c (Memref.whole cc0_scratch11) (px c 5) (hfull m)
      ∗ lflight6 m c f14
      ∗ held c cc0_stg0_0 f7
      ∗ cellInv ER (sched m) κs (xCell c 0 6) ∗ cred (tallyAt (xCell c 0 6) () N) ∗ atPos ER (xCell c 0 6) 0 ∅ 0)
      ⊢ wp frame (wpE (defs₀ (F := F)) 𝒱₀ (c : Thread nD τ) none) Set.univ ((bodyArgs% k0_part33) c v844)
          (fun _ => iprop((∃ W', owes (c : Thread nD τ) (owedAfter c 49) W')
            ∗ semVal (xCell c 11 7) 0 ∗ semVal (xCell c 11 6) 0
            ∗ held c cc0_scratch11 (hfull m)
            ∗ semVal ((c : Thread nD τ), SemLoc.dma ls6) 0
            ∗ (View.loc (c : Thread nD τ) (Memref.whole cc0_scratch14).view ↦[wovW2.view.set]{fullShare} g14_3 m c f14)
            ∗ srcLent m c main_arg6
            ∗ held c cc0_stg0_0 (outC m c)
            ∗ semVal (xCell c 0 6) 0 ∗ slotPts c (Memref.whole cc0_scratch0) (px c 6) (part0 m c))) := by
  iintro ⟨HO, #HI7, Hc7, Ha7, #HI6, Hc6, Ha6, S0, S1, S2, S3, S4, S5, Fl6, H7, #HIs, Hcs, Has⟩
  rw [k0_part33_eq_skeleton]
  unfold k0_part33_skel
  sl_exec
  imod (recv_done11 m c 7 (by decide) (κ := κ7)) $$ [Ha7 Ha7_pay1] with ⟨Hz7, Hp7⟩
  · sl_close
  imod (recv_done11 m c 6 (by decide) (κ := κ6)) $$ [Ha6 Ha6_pay1] with ⟨Hz6, Hp6⟩
  · sl_close
  ihave Hw := (join11 c (hfull m)) $$ [S0 S1 S2 S3 S4 S5 Hp6 Hp7]
  · sl_close
  sl_exec
  ihave Hd := (win2_to c (g14_3 m c f14)) $$ Fl6_dst
  sl_exec
  imod (send_done0 m c 6 (by decide) (κ := κs)) $$ [Has Has_pay1] with ⟨Hzs, Hps⟩
  · sl_close
  ihave Hd' := (win2_from c (g14_3 m c f14)) $$ Hd
  ihave H7' : (held c cc0_stg0_0 (outC m c)) $$ [H7]
  · rw [← outC_stored m c f14 f7]; iexact H7
  first | sl_step | (unfold Prog.bind; sl_step)
  isplitl [HO]; · iexists _; iexact HO
  sl_close

end Cert.KernelIdeal.Hand

end
-- ==== Proof.SegF.lean ====
import proofs.«900577_g7700000000000578_dist_mlpseq_tp1dT_cs_cs_b512_d256_h512_v7x_i8_f32_1_alg».proof.Proof.Rest
import proofs.«900577_g7700000000000578_dist_mlpseq_tp1dT_cs_cs_b512_d256_h512_v7x_i8_f32_1_alg».proof.Proof.Part28
import proofs.«900577_g7700000000000578_dist_mlpseq_tp1dT_cs_cs_b512_d256_h512_v7x_i8_f32_1_alg».proof.Proof.Part29
import proofs.«900577_g7700000000000578_dist_mlpseq_tp1dT_cs_cs_b512_d256_h512_v7x_i8_f32_1_alg».proof.Proof.Part30
import proofs.«900577_g7700000000000578_dist_mlpseq_tp1dT_cs_cs_b512_d256_h512_v7x_i8_f32_1_alg».proof.Proof.Part31
import proofs.«900577_g7700000000000578_dist_mlpseq_tp1dT_cs_cs_b512_d256_h512_v7x_i8_f32_1_alg».proof.Proof.Part32
import proofs.«900577_g7700000000000578_dist_mlpseq_tp1dT_cs_cs_b512_d256_h512_v7x_i8_f32_1_alg».proof.Proof.Part33

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

def waitF (m : (ℓ : Loc nD τ sig) → Buf (Elt F) ℓ) (c : Dev nD) (a : Fin 12) (k : Fin 8) (κ : ℕ) : sProp 𝕄 :=
  iprop(cellInv ER (sched m) κ (xCell c a k) ∗ cred (tallyAt (xCell c a k) () N) ∗ atPos ER (xCell c a k) 0 ∅ 0)

def copyF (m : (ℓ : Loc nD τ sig) → Buf (Elt F) ℓ) (c : Dev nD) (k : Fin 8) (κs κr : ℕ) : sProp 𝕄 :=
  iprop(cellInv ER (sched m) κs (xCell c 10 k) ∗ cellInv ER (sched m) κr (xCell (px c k) 11 k)
    ∗ (∃ f, slotPts (px c k) (Memref.whole cc0_scratch11) c f)
    ∗ dutyTok ER (xCell c 10 k) 0 0 ∗ reached ER (xCell c 10 k) 0
    ∗ dutyTok ER (xCell (px c k) 11 k) 0 0 ∗ reached ER (xCell (px c k) 11 k) 0)

def RF (m : (ℓ : Loc nD τ sig) → Buf (Elt F) ℓ) (c : Dev nD) (f14 : cc0_scratch14.ty.Contents (Elt F))
    (κa1 κa3 κa4 κa2 κa5 κa7 κa6 κs6 κr6 κs2 κr2 κs5 κr5 κs7 κr7 κs1 κr1 κs3 κr3 κs4 κr4 κw1 κw3 κw4 κw2 κw5 κw7 κw6 κz : ℕ) : sProp 𝕄 :=
  iprop(levAts L lv ∗ (∃ W, owes (c : Thread nD τ) (owedAfter c 42) W)
    ∗ waitF m c 9 1 κa1 ∗ waitF m c 9 3 κa3 ∗ waitF m c 9 4 κa4 ∗ waitF m c 9 2 κa2 ∗ waitF m c 9 5 κa5 ∗ waitF m c 9 7 κa7 ∗ waitF m c 9 6 κa6
    ∗ slotPts c (Memref.whole cc0_scratch7) c (full2 m) ∗ (∃ f, held c cc0_scratch10 f) ∗ (∃ f, slotPts c (Memref.whole cc0_scratch11) c f)
    ∗ copyF m c 6 κs6 κr6 ∗ copyF m c 2 κs2 κr2 ∗ copyF m c 5 κs5 κr5 ∗ copyF m c 7 κs7 κr7 ∗ copyF m c 1 κs1 κr1 ∗ copyF m c 3 κs3 κr3 ∗ copyF m c 4 κs4 κr4
    ∗ waitF m c 11 1 κw1 ∗ waitF m c 11 3 κw3 ∗ waitF m c 11 4 κw4 ∗ waitF m c 11 2 κw2 ∗ waitF m c 11 5 κw5 ∗ waitF m c 11 7 κw7 ∗ waitF m c 11 6 κw6
    ∗ lflight6 m c f14 ∗ (∃ f, held c cc0_stg0_0 f)
    ∗ waitF m c 0 6 κz)

def PostF (m : (ℓ : Loc nD τ sig) → Buf (Elt F) ℓ) (c : Dev nD) (f14 : cc0_scratch14.ty.Contents (Elt F)) : sProp 𝕄 :=
  iprop((∃ W', owes (c : Thread nD τ) (owedAfter c 49) W')
    ∗ semVal (xCell c 9 1) 0 ∗ semVal (xCell c 9 3) 0 ∗ semVal (xCell c 9 4) 0 ∗ semVal (xCell c 9 2) 0 ∗ semVal (xCell c 9 5) 0
    ∗ semVal (xCell c 9 7) 0 ∗ semVal (xCell c 9 6) 0
    ∗ held c cc0_scratch7 (full2 m)
    ∗ chunkPts c (Memref.whole cc0_scratch10) (shr 0) (h2own m c)
    ∗ cred (tallyAt (xCell c 10 6) () N) ∗ cred (tallyAt (xCell c 10 2) () N) ∗ cred (tallyAt (xCell c 10 5) () N) ∗ cred (tallyAt (xCell c 10 7) () N)
    ∗ cred (tallyAt (xCell c 10 1) () N) ∗ cred (tallyAt (xCell c 10 3) () N) ∗ cred (tallyAt (xCell c 10 4) () N)
    ∗ semVal (xCell c 11 1) 0 ∗ semVal (xCell c 11 3) 0 ∗ semVal (xCell c 11 4) 0 ∗ semVal (xCell c 11 2) 0 ∗ semVal (xCell c 11 5) 0
    ∗ semVal (xCell c 11 7) 0 ∗ semVal (xCell c 11 6) 0
    ∗ held c cc0_scratch11 (hfull m)
    ∗ semVal ((c : Thread nD τ), SemLoc.dma ls6) 0
    ∗ (View.loc (c : Thread nD τ) (Memref.whole cc0_scratch14).view ↦[wovW2.view.set]{fullShare} g14_3 m c f14)
    ∗ srcLent m c main_arg6
    ∗ held c cc0_stg0_0 (outC m c)
    ∗ semVal (xCell c 0 6) 0 ∗ slotPts c (Memref.whole cc0_scratch0) (px c 6) (part0 m c))

theorem held10_eq_segF (c : Dev nD) (f : cc0_scratch10.ty.Contents (Elt F)) :
    (held c cc0_scratch10 f : sProp 𝕄) = chunkPts c (Memref.whole cc0_scratch10) fullShare f :=
  congrArg (fun I => ((Memref.whole cc0_scratch10 : Memref sig .tc .vmem S64x512 .bf16).view.loc (c : Thread nD τ) ↦[I]{fullShare} f : sProp 𝕄))
    (Memref.isWhole_whole cc0_scratch10).set_eq_univ.symm

theorem segF (m : (ℓ : Loc nD τ sig) → Buf (Elt F) ℓ) (c : Dev nD) (f14 : cc0_scratch14.ty.Contents (Elt F))
    {κa1 κa3 κa4 κa2 κa5 κa7 κa6 κs6 κr6 κs2 κr2 κs5 κr5 κs7 κr7 κs1 κr1 κs3 κr3 κs4 κr4 κw1 κw3 κw4 κw2 κw5 κw7 κw6 κz : ℕ}
    (v2 v588 v597 v606 v615 v633 v642 : BitVec 32) (Q : Dev nD → sProp 𝕄) :
    iprop(RF m c f14 κa1 κa3 κa4 κa2 κa5 κa7 κa6 κs6 κr6 κs2 κr2 κs5 κr5 κs7 κr7 κs1 κr1 κs3 κr3 κs4 κr4 κw1 κw3 κw4 κw2 κw5 κw7 κw6 κz
        ∗ (PostF m c f14 -∗ wp frame (wpE (defs₀ (F := F)) 𝒱₀ (c : Thread nD τ) none) Set.univ ((bodyArgs% rest34) c) Q))
      ⊢ wp frame (wpE (defs₀ (F := F)) 𝒱₀ (c : Thread nD τ) none) Set.univ
          ((bodyArgs% rest28) c v2 v588 v597 v606 v615 v633 v642 (h1 m c)) Q := by
  unfold RF waitF copyF
  iintro ⟨⟨#Hlev, ⟨%W, HO⟩, ⟨Ia1, Ca1, Aa1⟩, ⟨Ia3, Ca3, Aa3⟩, ⟨Ia4, Ca4, Aa4⟩, ⟨Ia2, Ca2, Aa2⟩, ⟨Ia5, Ca5, Aa5⟩,
      ⟨Ia7, Ca7, Aa7⟩, ⟨Ia6, Ca6, Aa6⟩, S7o, ⟨%f10, H10⟩, ⟨%f11, H11⟩,
      ⟨Is6, Ir6, ⟨%fd6, D6⟩, Ts6, Rs6, Tr6, Rr6⟩, ⟨Is2, Ir2, ⟨%fd2, D2⟩, Ts2, Rs2, Tr2, Rr2⟩,
      ⟨Is5, Ir5, ⟨%fd5, D5⟩, Ts5, Rs5, Tr5, Rr5⟩, ⟨Is7, Ir7, ⟨%fd7, D7⟩, Ts7, Rs7, Tr7, Rr7⟩,
      ⟨Is1, Ir1, ⟨%fd1, D1⟩, Ts1, Rs1, Tr1, Rr1⟩, ⟨Is3, Ir3, ⟨%fd3, D3⟩, Ts3, Rs3, Tr3, Rr3⟩,
      ⟨Is4, Ir4, ⟨%fd4, D4⟩, Ts4, Rs4, Tr4, Rr4⟩,
      ⟨Iw1, Cw1, Aw1⟩, ⟨Iw3, Cw3, Aw3⟩, ⟨Iw4, Cw4, Aw4⟩, ⟨Iw2, Cw2, Aw2⟩, ⟨Iw5, Cw5, Aw5⟩, ⟨Iw7, Cw7, Aw7⟩, ⟨Iw6, Cw6, Aw6⟩,
      Fl6, ⟨%f7, H7⟩, ⟨Iz, Cz, Az⟩⟩, Hk⟩
  unfold rest28

  iapply (exec_cut frame _ Set.univ (part28 m c κa1 κa3 κa4 κa2 κa5 W v597 v606 v615 v633 v642)) $$ [HO Ia1 Ca1 Aa1 Ia3 Ca3 Aa3 Ia4 Ca4 Aa4 Ia2 Ca2 Aa2 Ia5 Ca5 Aa5]
  · iframe; iexact Hlev
  iintro %r1 HQ
  icases HQ with ⟨⟨%W1, HO⟩, S71, Za1, S73, Za3, S74, Za4, S72, Za2, S75, Za5⟩

  iapply (exec_cut frame _ Set.univ (part29 m c κa7 κa6 W1 v2 v588 f10 f11)) $$ [HO Ia7 Ca7 Aa7 Ia6 Ca6 Aa6 S7o S71 S72 S73 S74 S75 H10 H11]
  · iframe; iexact Hlev
  iintro %r2 HQ
  icases HQ with ⟨%hr2, ⟨%W2, HO⟩, Za7, Za6, H7w, H10, H11⟩
  subst hr2

  ihave Hq := (Entails.of_eq ((held10_eq_segF c (h2own m c)).trans (shares_eq c (Memref.whole cc0_scratch10) (h2own m c)))) $$ H10
  icases Hq with ⟨Q0, Q1, Q2, Q3, Q4, Q5, Q6, Q7⟩

  iapply (exec_cut frame _ Set.univ (part30 m c κs6 κr6 κs2 κr2 κs5 κr5 κs7 κr7 W2 v2 fd6 fd2 fd5 fd7)) $$ [HO Is6 Ir6 Q6 D6 Ts6 Rs6 Tr6 Rr6 Is2 Ir2 Q2 D2 Ts2 Rs2 Tr2 Rr2 Is5 Ir5 Q5 D5 Ts5 Rs5 Tr5 Rr5 Is7 Ir7 Q7 D7 Ts7 Rs7 Tr7 Rr7]
  · iframe
  iintro %r3 HQ
  icases HQ with ⟨⟨%W3, HO⟩, Cs6, Cs2, Cs5, Cs7⟩
  rcases r3 with ⟨v853, v862, v871, v880, v881, c0⟩

  iapply (exec_cut frame _ Set.univ (part31 m c κs1 κr1 κs3 κr3 κs4 κr4 κw1 W3 v2 v880 v881 c0 fd1 fd3 fd4)) $$ [HO Is1 Ir1 Q1 D1 Ts1 Rs1 Tr1 Rr1 Is3 Ir3 Q3 D3 Ts3 Rs3 Tr3 Rr3 Is4 Ir4 Q4 D4 Ts4 Rs4 Tr4 Rr4 Iw1 Cw1 Aw1]
  · iframe
  iintro %r4 HQ
  icases HQ with ⟨⟨%W4, HO⟩, Cs1, Cs3, Cs4, S111, Zw1⟩
  rcases r4 with ⟨v889, v898, c1⟩

  iapply (exec_cut frame _ Set.univ (part32 m c κw3 κw4 κw2 κw5 W4 v853 v862 v871 v889 v898 c1)) $$ [HO Iw3 Cw3 Aw3 Iw4 Cw4 Aw4 Iw2 Cw2 Aw2 Iw5 Cw5 Aw5]
  · iframe
  iintro %r5 HQ
  icases HQ with ⟨⟨%W5, HO⟩, S113, Zw3, S114, Zw4, S112, Zw2, S115, Zw5⟩

  iapply (exec_cut frame _ Set.univ (part33 m c κw7 κw6 κz W5 f14 f7 (Scalar.xori v2 6#32))) $$ [HO Iw7 Cw7 Aw7 Iw6 Cw6 Aw6 H11 S111 S112 S113 S114 S115 Fl6 H7 Iz Cz Az]
  · iframe
  iintro %r6 HQ
  icases HQ with ⟨⟨%W6, HO⟩, Zw7, Zw6, H11w, Zl6, Hwin, Hsrc, Hstg, Zz, S06⟩

  iapply Hk
  unfold PostF
  isplitl [HO]; · iexists W6; iexact HO
  iframe

end Cert.KernelIdeal.Hand

end
-- ==== Proof.Part34.lean ====
import proofs.«900577_g7700000000000578_dist_mlpseq_tp1dT_cs_cs_b512_d256_h512_v7x_i8_f32_1_alg».proof.Proof.WaitSend

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part34 (m : (ℓ : Loc nD τ sig) → Buf (Elt F) ℓ) (c : Dev nD) (κ₁ κ₂ κ₃ κ₄ : ℕ) (W : Waits sig Unit) :
    iprop(cellInv ER (sched m) κ₁ (xCell c 0 2) ∗ cellInv ER (sched m) κ₂ (xCell c 0 5) ∗ cellInv ER (sched m) κ₃ (xCell c 0 7) ∗ cellInv ER (sched m) κ₄ (xCell c 0 1)
      ∗ cred (tallyAt (xCell c 0 2) () N) ∗ atPos ER (xCell c 0 2) 0 ∅ 0
      ∗ cred (tallyAt (xCell c 0 5) () N) ∗ atPos ER (xCell c 0 5) 0 ∅ 0
      ∗ cred (tallyAt (xCell c 0 7) () N) ∗ atPos ER (xCell c 0 7) 0 ∅ 0
      ∗ cred (tallyAt (xCell c 0 1) () N) ∗ atPos ER (xCell c 0 1) 0 ∅ 0
      ∗ owes (c : Thread nD τ) (owedAfter c 49) W)
      ⊢ wp frame (wpE (defs₀ (F := F)) 𝒱₀ (c : Thread nD τ) none) Set.univ ((bodyArgs% k0_part34) c)
          (fun _ => iprop(∃ W' : Waits sig Unit, owes (c : Thread nD τ) (owedAfter c 49) W'
            ∗ semVal (xCell c 0 2) 0 ∗ slotPts c (Memref.whole cc0_scratch0) (px c 2) (part0 m c)
            ∗ semVal (xCell c 0 5) 0 ∗ slotPts c (Memref.whole cc0_scratch0) (px c 5) (part0 m c)
            ∗ semVal (xCell c 0 7) 0 ∗ slotPts c (Memref.whole cc0_scratch0) (px c 7) (part0 m c)
            ∗ semVal (xCell c 0 1) 0 ∗ slotPts c (Memref.whole cc0_scratch0) (px c 1) (part0 m c))) := by
  iintro ⟨#I1, #I2, #I3, #I4, C1, P1, C2, P2, C3, P3, C4, P4, HO⟩
  rw [k0_part34_eq_skeleton]
  unfold k0_part34_skel
  sl_exec
  imod (send_done0 m c 2 (by decide) (κ := κ₁)) $$ [P1 P1_pay1] with ⟨Z1, S1⟩
  · sl_close
  imod (send_done0 m c 5 (by decide) (κ := κ₂)) $$ [P2 P2_pay1] with ⟨Z2, S2⟩
  · sl_close
  imod (send_done0 m c 7 (by decide) (κ := κ₃)) $$ [P3 P3_pay1] with ⟨Z3, S3⟩
  · sl_close
  imod (send_done0 m c 1 (by decide) (κ := κ₄)) $$ [P4 P4_pay1] with ⟨Z4, S4⟩
  · sl_close
  sl_step
  sl_close

end Cert.KernelIdeal.Hand

end
-- ==== Proof.Part35.lean ====
import proofs.«900577_g7700000000000578_dist_mlpseq_tp1dT_cs_cs_b512_d256_h512_v7x_i8_f32_1_alg».proof.Proof.WaitSend

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part35 (m : (ℓ : Loc nD τ sig) → Buf (Elt F) ℓ) (c : Dev nD) (κ₁ κ₂ κ₃ κ₄ : ℕ) (W : Waits sig Unit) :
    iprop(cellInv ER (sched m) κ₁ (xCell c 0 3) ∗ cellInv ER (sched m) κ₂ (xCell c 0 4) ∗ cellInv ER (sched m) κ₃ (xCell c 2 6) ∗ cellInv ER (sched m) κ₄ (xCell c 2 2)
      ∗ cred (tallyAt (xCell c 0 3) () N) ∗ atPos ER (xCell c 0 3) 0 ∅ 0
      ∗ cred (tallyAt (xCell c 0 4) () N) ∗ atPos ER (xCell c 0 4) 0 ∅ 0
      ∗ cred (tallyAt (xCell c 2 6) () N) ∗ atPos ER (xCell c 2 6) 0 ∅ 0
      ∗ cred (tallyAt (xCell c 2 2) () N) ∗ atPos ER (xCell c 2 2) 0 ∅ 0
      ∗ owes (c : Thread nD τ) (owedAfter c 49) W)
      ⊢ wp frame (wpE (defs₀ (F := F)) 𝒱₀ (c : Thread nD τ) none) Set.univ ((bodyArgs% k0_part35) c)
          (fun _ => iprop(∃ W' : Waits sig Unit, owes (c : Thread nD τ) (owedAfter c 49) W'
            ∗ semVal (xCell c 0 3) 0 ∗ slotPts c (Memref.whole cc0_scratch0) (px c 3) (part0 m c)
            ∗ semVal (xCell c 0 4) 0 ∗ slotPts c (Memref.whole cc0_scratch0) (px c 4) (part0 m c)
            ∗ semVal (xCell c 2 6) 0 ∗ slotPts c (Memref.whole cc0_scratch2) (px c 6) (part1 m c)
            ∗ semVal (xCell c 2 2) 0 ∗ slotPts c (Memref.whole cc0_scratch2) (px c 2) (part1 m c))) := by
  iintro ⟨#I1, #I2, #I3, #I4, C1, P1, C2, P2, C3, P3, C4, P4, HO⟩
  rw [k0_part35_eq_skeleton]
  unfold k0_part35_skel
  sl_exec
  imod (send_done0 m c 3 (by decide) (κ := κ₁)) $$ [P1 P1_pay1] with ⟨Z1, S1⟩
  · sl_close
  imod (send_done0 m c 4 (by decide) (κ := κ₂)) $$ [P2 P2_pay1] with ⟨Z2, S2⟩
  · sl_close
  imod (send_done2 m c 6 (by decide) (κ := κ₃)) $$ [P3 P3_pay1] with ⟨Z3, S3⟩
  · sl_close
  imod (send_done2 m c 2 (by decide) (κ := κ₄)) $$ [P4 P4_pay1] with ⟨Z4, S4⟩
  · sl_close
  sl_step
  sl_close

end Cert.KernelIdeal.Hand

end
-- ==== Proof.Part36.lean ====
import proofs.«900577_g7700000000000578_dist_mlpseq_tp1dT_cs_cs_b512_d256_h512_v7x_i8_f32_1_alg».proof.Proof.WaitSend

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part36 (m : (ℓ : Loc nD τ sig) → Buf (Elt F) ℓ) (c : Dev nD) (κ₁ κ₂ κ₃ κ₄ : ℕ) (W : Waits sig Unit) :
    iprop(cellInv ER (sched m) κ₁ (xCell c 2 5) ∗ cellInv ER (sched m) κ₂ (xCell c 2 7) ∗ cellInv ER (sched m) κ₃ (xCell c 2 1) ∗ cellInv ER (sched m) κ₄ (xCell c 2 3)
      ∗ cred (tallyAt (xCell c 2 5) () N) ∗ atPos ER (xCell c 2 5) 0 ∅ 0
      ∗ cred (tallyAt (xCell c 2 7) () N) ∗ atPos ER (xCell c 2 7) 0 ∅ 0
      ∗ cred (tallyAt (xCell c 2 1) () N) ∗ atPos ER (xCell c 2 1) 0 ∅ 0
      ∗ cred (tallyAt (xCell c 2 3) () N) ∗ atPos ER (xCell c 2 3) 0 ∅ 0
      ∗ owes (c : Thread nD τ) (owedAfter c 49) W)
      ⊢ wp frame (wpE (defs₀ (F := F)) 𝒱₀ (c : Thread nD τ) none) Set.univ ((bodyArgs% k0_part36) c)
          (fun _ => iprop(∃ W' : Waits sig Unit, owes (c : Thread nD τ) (owedAfter c 49) W'
            ∗ semVal (xCell c 2 5) 0 ∗ slotPts c (Memref.whole cc0_scratch2) (px c 5) (part1 m c)
            ∗ semVal (xCell c 2 7) 0 ∗ slotPts c (Memref.whole cc0_scratch2) (px c 7) (part1 m c)
            ∗ semVal (xCell c 2 1) 0 ∗ slotPts c (Memref.whole cc0_scratch2) (px c 1) (part1 m c)
            ∗ semVal (xCell c 2 3) 0 ∗ slotPts c (Memref.whole cc0_scratch2) (px c 3) (part1 m c))) := by
  iintro ⟨#I1, #I2, #I3, #I4, C1, P1, C2, P2, C3, P3, C4, P4, HO⟩
  rw [k0_part36_eq_skeleton]
  unfold k0_part36_skel
  sl_exec
  imod (send_done2 m c 5 (by decide) (κ := κ₁)) $$ [P1 P1_pay1] with ⟨Z1, S1⟩
  · sl_close
  imod (send_done2 m c 7 (by decide) (κ := κ₂)) $$ [P2 P2_pay1] with ⟨Z2, S2⟩
  · sl_close
  imod (send_done2 m c 1 (by decide) (κ := κ₃)) $$ [P3 P3_pay1] with ⟨Z3, S3⟩
  · sl_close
  imod (send_done2 m c 3 (by decide) (κ := κ₄)) $$ [P4 P4_pay1] with ⟨Z4, S4⟩
  · sl_close
  sl_step
  sl_close

end Cert.KernelIdeal.Hand

end
-- ==== Proof.Part37.lean ====
import proofs.«900577_g7700000000000578_dist_mlpseq_tp1dT_cs_cs_b512_d256_h512_v7x_i8_f32_1_alg».proof.Proof.WaitSend

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part37 (m : (ℓ : Loc nD τ sig) → Buf (Elt F) ℓ) (c : Dev nD) (κ₁ κ₂ κ₃ κ₄ : ℕ) (W : Waits sig Unit) :
    iprop(cellInv ER (sched m) κ₁ (xCell c 2 4) ∗ cellInv ER (sched m) κ₂ (xCell c 4 6) ∗ cellInv ER (sched m) κ₃ (xCell c 4 2) ∗ cellInv ER (sched m) κ₄ (xCell c 4 5)
      ∗ cred (tallyAt (xCell c 2 4) () N) ∗ atPos ER (xCell c 2 4) 0 ∅ 0
      ∗ cred (tallyAt (xCell c 4 6) () N) ∗ atPos ER (xCell c 4 6) 0 ∅ 0
      ∗ cred (tallyAt (xCell c 4 2) () N) ∗ atPos ER (xCell c 4 2) 0 ∅ 0
      ∗ cred (tallyAt (xCell c 4 5) () N) ∗ atPos ER (xCell c 4 5) 0 ∅ 0
      ∗ owes (c : Thread nD τ) (owedAfter c 49) W)
      ⊢ wp frame (wpE (defs₀ (F := F)) 𝒱₀ (c : Thread nD τ) none) Set.univ ((bodyArgs% k0_part37) c)
          (fun _ => iprop(∃ W' : Waits sig Unit, owes (c : Thread nD τ) (owedAfter c 49) W'
            ∗ semVal (xCell c 2 4) 0 ∗ slotPts c (Memref.whole cc0_scratch2) (px c 4) (part1 m c)
            ∗ semVal (xCell c 4 6) 0 ∗ slotPts c (Memref.whole cc0_scratch5) (px c 6) (part2 m c)
            ∗ semVal (xCell c 4 2) 0 ∗ slotPts c (Memref.whole cc0_scratch5) (px c 2) (part2 m c)
            ∗ semVal (xCell c 4 5) 0 ∗ slotPts c (Memref.whole cc0_scratch5) (px c 5) (part2 m c))) := by
  iintro ⟨#I1, #I2, #I3, #I4, C1, P1, C2, P2, C3, P3, C4, P4, HO⟩
  rw [k0_part37_eq_skeleton]
  unfold k0_part37_skel
  sl_exec
  imod (send_done2 m c 4 (by decide) (κ := κ₁)) $$ [P1 P1_pay1] with ⟨Z1, S1⟩
  · sl_close
  imod (send_done4 m c 6 (by decide) (κ := κ₂)) $$ [P2 P2_pay1] with ⟨Z2, S2⟩
  · sl_close
  imod (send_done4 m c 2 (by decide) (κ := κ₃)) $$ [P3 P3_pay1] with ⟨Z3, S3⟩
  · sl_close
  imod (send_done4 m c 5 (by decide) (κ := κ₄)) $$ [P4 P4_pay1] with ⟨Z4, S4⟩
  · sl_close
  sl_step
  sl_close

end Cert.KernelIdeal.Hand

end
-- ==== Proof.Part38.lean ====
import proofs.«900577_g7700000000000578_dist_mlpseq_tp1dT_cs_cs_b512_d256_h512_v7x_i8_f32_1_alg».proof.Proof.WaitSend

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part38 (m : (ℓ : Loc nD τ sig) → Buf (Elt F) ℓ) (c : Dev nD) (κ₁ κ₂ κ₃ κ₄ : ℕ) (W : Waits sig Unit) :
    iprop(cellInv ER (sched m) κ₁ (xCell c 4 7) ∗ cellInv ER (sched m) κ₂ (xCell c 4 1) ∗ cellInv ER (sched m) κ₃ (xCell c 4 3) ∗ cellInv ER (sched m) κ₄ (xCell c 4 4)
      ∗ cred (tallyAt (xCell c 4 7) () N) ∗ atPos ER (xCell c 4 7) 0 ∅ 0
      ∗ cred (tallyAt (xCell c 4 1) () N) ∗ atPos ER (xCell c 4 1) 0 ∅ 0
      ∗ cred (tallyAt (xCell c 4 3) () N) ∗ atPos ER (xCell c 4 3) 0 ∅ 0
      ∗ cred (tallyAt (xCell c 4 4) () N) ∗ atPos ER (xCell c 4 4) 0 ∅ 0
      ∗ owes (c : Thread nD τ) (owedAfter c 49) W)
      ⊢ wp frame (wpE (defs₀ (F := F)) 𝒱₀ (c : Thread nD τ) none) Set.univ ((bodyArgs% k0_part38) c)
          (fun _ => iprop(∃ W' : Waits sig Unit, owes (c : Thread nD τ) (owedAfter c 49) W'
            ∗ semVal (xCell c 4 7) 0 ∗ slotPts c (Memref.whole cc0_scratch5) (px c 7) (part2 m c)
            ∗ semVal (xCell c 4 1) 0 ∗ slotPts c (Memref.whole cc0_scratch5) (px c 1) (part2 m c)
            ∗ semVal (xCell c 4 3) 0 ∗ slotPts c (Memref.whole cc0_scratch5) (px c 3) (part2 m c)
            ∗ semVal (xCell c 4 4) 0 ∗ slotPts c (Memref.whole cc0_scratch5) (px c 4) (part2 m c))) := by
  iintro ⟨#I1, #I2, #I3, #I4, C1, P1, C2, P2, C3, P3, C4, P4, HO⟩
  rw [k0_part38_eq_skeleton]
  unfold k0_part38_skel
  sl_exec
  imod (send_done4 m c 7 (by decide) (κ := κ₁)) $$ [P1 P1_pay1] with ⟨Z1, S1⟩
  · sl_close
  imod (send_done4 m c 1 (by decide) (κ := κ₂)) $$ [P2 P2_pay1] with ⟨Z2, S2⟩
  · sl_close
  imod (send_done4 m c 3 (by decide) (κ := κ₃)) $$ [P3 P3_pay1] with ⟨Z3, S3⟩
  · sl_close
  imod (send_done4 m c 4 (by decide) (κ := κ₄)) $$ [P4 P4_pay1] with ⟨Z4, S4⟩
  · sl_close
  sl_step
  sl_close

end Cert.KernelIdeal.Hand

end
-- ==== Proof.Part39.lean ====
import proofs.«900577_g7700000000000578_dist_mlpseq_tp1dT_cs_cs_b512_d256_h512_v7x_i8_f32_1_alg».proof.Proof.WaitSend

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part39 (m : (ℓ : Loc nD τ sig) → Buf (Elt F) ℓ) (c : Dev nD) (κ₁ κ₂ κ₃ κ₄ κ₅ κ₆ : ℕ) (W : Waits sig Unit) :
    iprop(cellInv ER (sched m) κ₁ (xCell c 6 6) ∗ cellInv ER (sched m) κ₂ (xCell c 6 2) ∗ cellInv ER (sched m) κ₃ (xCell c 6 5) ∗ cellInv ER (sched m) κ₄ (xCell c 6 7) ∗ cellInv ER (sched m) κ₅ (xCell c 6 1) ∗ cellInv ER (sched m) κ₆ (xCell c 6 3)
      ∗ cred (tallyAt (xCell c 6 6) () N) ∗ atPos ER (xCell c 6 6) 0 ∅ 0
      ∗ cred (tallyAt (xCell c 6 2) () N) ∗ atPos ER (xCell c 6 2) 0 ∅ 0
      ∗ cred (tallyAt (xCell c 6 5) () N) ∗ atPos ER (xCell c 6 5) 0 ∅ 0
      ∗ cred (tallyAt (xCell c 6 7) () N) ∗ atPos ER (xCell c 6 7) 0 ∅ 0
      ∗ cred (tallyAt (xCell c 6 1) () N) ∗ atPos ER (xCell c 6 1) 0 ∅ 0
      ∗ cred (tallyAt (xCell c 6 3) () N) ∗ atPos ER (xCell c 6 3) 0 ∅ 0
      ∗ owes (c : Thread nD τ) (owedAfter c 49) W)
      ⊢ wp frame (wpE (defs₀ (F := F)) 𝒱₀ (c : Thread nD τ) none) Set.univ ((bodyArgs% k0_part39) c)
          (fun _ => iprop(∃ W' : Waits sig Unit, owes (c : Thread nD τ) (owedAfter c 49) W'
            ∗ semVal (xCell c 6 6) 0 ∗ chunkPts c (Memref.whole cc0_scratch8) (shr 6) (own1 m c)
            ∗ semVal (xCell c 6 2) 0 ∗ chunkPts c (Memref.whole cc0_scratch8) (shr 2) (own1 m c)
            ∗ semVal (xCell c 6 5) 0 ∗ chunkPts c (Memref.whole cc0_scratch8) (shr 5) (own1 m c)
            ∗ semVal (xCell c 6 7) 0 ∗ chunkPts c (Memref.whole cc0_scratch8) (shr 7) (own1 m c)
            ∗ semVal (xCell c 6 1) 0 ∗ chunkPts c (Memref.whole cc0_scratch8) (shr 1) (own1 m c)
            ∗ semVal (xCell c 6 3) 0 ∗ chunkPts c (Memref.whole cc0_scratch8) (shr 3) (own1 m c))) := by
  iintro ⟨#I1, #I2, #I3, #I4, #I5, #I6, C1, P1, C2, P2, C3, P3, C4, P4, C5, P5, C6, P6, HO⟩
  rw [k0_part39_eq_skeleton]
  unfold k0_part39_skel
  sl_exec
  imod (send_done6 m c 6 (by decide) (κ := κ₁)) $$ [P1 P1_pay1] with ⟨Z1, S1⟩
  · sl_close
  imod (send_done6 m c 2 (by decide) (κ := κ₂)) $$ [P2 P2_pay1] with ⟨Z2, S2⟩
  · sl_close
  imod (send_done6 m c 5 (by decide) (κ := κ₃)) $$ [P3 P3_pay1] with ⟨Z3, S3⟩
  · sl_close
  imod (send_done6 m c 7 (by decide) (κ := κ₄)) $$ [P4 P4_pay1] with ⟨Z4, S4⟩
  · sl_close
  imod (send_done6 m c 1 (by decide) (κ := κ₅)) $$ [P5 P5_pay1] with ⟨Z5, S5⟩
  · sl_close
  imod (send_done6 m c 3 (by decide) (κ := κ₆)) $$ [P6 P6_pay1] with ⟨Z6, S6⟩
  · sl_close
  sl_step
  sl_close

end Cert.KernelIdeal.Hand

end
-- ==== Proof.Part40.lean ====
import proofs.«900577_g7700000000000578_dist_mlpseq_tp1dT_cs_cs_b512_d256_h512_v7x_i8_f32_1_alg».proof.Proof.WaitSend

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part40 (m : (ℓ : Loc nD τ sig) → Buf (Elt F) ℓ) (c : Dev nD) (κ₁ κ₂ κ₃ κ₄ κ₅ κ₆ : ℕ) (W : Waits sig Unit) :
    iprop(cellInv ER (sched m) κ₁ (xCell c 6 4) ∗ cellInv ER (sched m) κ₂ (xCell c 8 6) ∗ cellInv ER (sched m) κ₃ (xCell c 8 2) ∗ cellInv ER (sched m) κ₄ (xCell c 8 5) ∗ cellInv ER (sched m) κ₅ (xCell c 8 7) ∗ cellInv ER (sched m) κ₆ (xCell c 8 1)
      ∗ cred (tallyAt (xCell c 6 4) () N) ∗ atPos ER (xCell c 6 4) 0 ∅ 0
      ∗ cred (tallyAt (xCell c 8 6) () N) ∗ atPos ER (xCell c 8 6) 0 ∅ 0
      ∗ cred (tallyAt (xCell c 8 2) () N) ∗ atPos ER (xCell c 8 2) 0 ∅ 0
      ∗ cred (tallyAt (xCell c 8 5) () N) ∗ atPos ER (xCell c 8 5) 0 ∅ 0
      ∗ cred (tallyAt (xCell c 8 7) () N) ∗ atPos ER (xCell c 8 7) 0 ∅ 0
      ∗ cred (tallyAt (xCell c 8 1) () N) ∗ atPos ER (xCell c 8 1) 0 ∅ 0
      ∗ owes (c : Thread nD τ) (owedAfter c 49) W)
      ⊢ wp frame (wpE (defs₀ (F := F)) 𝒱₀ (c : Thread nD τ) none) Set.univ ((bodyArgs% k0_part40) c)
          (fun _ => iprop(∃ W' : Waits sig Unit, owes (c : Thread nD τ) (owedAfter c 49) W'
            ∗ semVal (xCell c 6 4) 0 ∗ chunkPts c (Memref.whole cc0_scratch8) (shr 4) (own1 m c)
            ∗ semVal (xCell c 8 6) 0 ∗ chunkPts c (Memref.whole cc0_scratch9) (shr 6) (own2 m c)
            ∗ semVal (xCell c 8 2) 0 ∗ chunkPts c (Memref.whole cc0_scratch9) (shr 2) (own2 m c)
            ∗ semVal (xCell c 8 5) 0 ∗ chunkPts c (Memref.whole cc0_scratch9) (shr 5) (own2 m c)
            ∗ semVal (xCell c 8 7) 0 ∗ chunkPts c (Memref.whole cc0_scratch9) (shr 7) (own2 m c)
            ∗ semVal (xCell c 8 1) 0 ∗ chunkPts c (Memref.whole cc0_scratch9) (shr 1) (own2 m c))) := by
  iintro ⟨#I1, #I2, #I3, #I4, #I5, #I6, C1, P1, C2, P2, C3, P3, C4, P4, C5, P5, C6, P6, HO⟩
  rw [k0_part40_eq_skeleton]
  unfold k0_part40_skel
  sl_exec
  imod (send_done6 m c 4 (by decide) (κ := κ₁)) $$ [P1 P1_pay1] with ⟨Z1, S1⟩
  · sl_close
  imod (send_done8 m c 6 (by decide) (κ := κ₂)) $$ [P2 P2_pay1] with ⟨Z2, S2⟩
  · sl_close
  imod (send_done8 m c 2 (by decide) (κ := κ₃)) $$ [P3 P3_pay1] with ⟨Z3, S3⟩
  · sl_close
  imod (send_done8 m c 5 (by decide) (κ := κ₄)) $$ [P4 P4_pay1] with ⟨Z4, S4⟩
  · sl_close
  imod (send_done8 m c 7 (by decide) (κ := κ₅)) $$ [P5 P5_pay1] with ⟨Z5, S5⟩
  · sl_close
  imod (send_done8 m c 1 (by decide) (κ := κ₆)) $$ [P6 P6_pay1] with ⟨Z6, S6⟩
  · sl_close
  sl_step
  sl_close

end Cert.KernelIdeal.Hand

end
-- ==== Proof.Part41.lean ====
import proofs.«900577_g7700000000000578_dist_mlpseq_tp1dT_cs_cs_b512_d256_h512_v7x_i8_f32_1_alg».proof.Proof.WaitSend

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem part41 (m : (ℓ : Loc nD τ sig) → Buf (Elt F) ℓ) (c : Dev nD) (κ₁ κ₂ κ₃ κ₄ κ₅ κ₆ : ℕ) (W : Waits sig Unit) :
    iprop(cellInv ER (sched m) κ₁ (xCell c 8 3) ∗ cellInv ER (sched m) κ₂ (xCell c 8 4) ∗ cellInv ER (sched m) κ₃ (xCell c 10 6) ∗ cellInv ER (sched m) κ₄ (xCell c 10 2) ∗ cellInv ER (sched m) κ₅ (xCell c 10 5) ∗ cellInv ER (sched m) κ₆ (xCell c 10 7)
      ∗ cred (tallyAt (xCell c 8 3) () N) ∗ atPos ER (xCell c 8 3) 0 ∅ 0
      ∗ cred (tallyAt (xCell c 8 4) () N) ∗ atPos ER (xCell c 8 4) 0 ∅ 0
      ∗ cred (tallyAt (xCell c 10 6) () N) ∗ atPos ER (xCell c 10 6) 0 ∅ 0
      ∗ cred (tallyAt (xCell c 10 2) () N) ∗ atPos ER (xCell c 10 2) 0 ∅ 0
      ∗ cred (tallyAt (xCell c 10 5) () N) ∗ atPos ER (xCell c 10 5) 0 ∅ 0
      ∗ cred (tallyAt (xCell c 10 7) () N) ∗ atPos ER (xCell c 10 7) 0 ∅ 0
      ∗ owes (c : Thread nD τ) (owedAfter c 49) W)
      ⊢ wp frame (wpE (defs₀ (F := F)) 𝒱₀ (c : Thread nD τ) none) Set.univ ((bodyArgs% k0_part41) c)
          (fun _ => iprop(∃ W' : Waits sig Unit, owes (c : Thread nD τ) (owedAfter c 49) W'
            ∗ semVal (xCell c 8 3) 0 ∗ chunkPts c (Memref.whole cc0_scratch9) (shr 3) (own2 m c)
            ∗ semVal (xCell c 8 4) 0 ∗ chunkPts c (Memref.whole cc0_scratch9) (shr 4) (own2 m c)
            ∗ semVal (xCell c 10 6) 0 ∗ chunkPts c (Memref.whole cc0_scratch10) (shr 6) (h2own m c)
            ∗ semVal (xCell c 10 2) 0 ∗ chunkPts c (Memref.whole cc0_scratch10) (shr 2) (h2own m c)
            ∗ semVal (xCell c 10 5) 0 ∗ chunkPts c (Memref.whole cc0_scratch10) (shr 5) (h2own m c)
            ∗ semVal (xCell c 10 7) 0 ∗ chunkPts c (Memref.whole cc0_scratch10) (shr 7) (h2own m c))) := by
  iintro ⟨#I1, #I2, #I3, #I4, #I5, #I6, C1, P1, C2, P2, C3, P3, C4, P4, C5, P5, C6, P6, HO⟩
  rw [k0_part41_eq_skeleton]
  unfold k0_part41_skel
  sl_exec
  imod (send_done8 m c 3 (by decide) (κ := κ₁)) $$ [P1 P1_pay1] with ⟨Z1, S1⟩
  · sl_close
  imod (send_done8 m c 4 (by decide) (κ := κ₂)) $$ [P2 P2_pay1] with ⟨Z2, S2⟩
  · sl_close
  imod (send_done10 m c 6 (by decide) (κ := κ₃)) $$ [P3 P3_pay1] with ⟨Z3, S3⟩
  · sl_close
  imod (send_done10 m c 2 (by decide) (κ := κ₄)) $$ [P4 P4_pay1] with ⟨Z4, S4⟩
  · sl_close
  imod (send_done10 m c 5 (by decide) (κ := κ₅)) $$ [P5 P5_pay1] with ⟨Z5, S5⟩
  · sl_close
  imod (send_done10 m c 7 (by decide) (κ := κ₆)) $$ [P6 P6_pay1] with ⟨Z6, S6⟩
  · sl_close
  sl_step
  sl_close

end Cert.KernelIdeal.Hand

end
-- ==== Proof.ChainTail.lean ====
import proofs.«900577_g7700000000000578_dist_mlpseq_tp1dT_cs_cs_b512_d256_h512_v7x_i8_f32_1_alg».proof.Proof.Compose
import proofs.«900577_g7700000000000578_dist_mlpseq_tp1dT_cs_cs_b512_d256_h512_v7x_i8_f32_1_alg».proof.Proof.Part34
import proofs.«900577_g7700000000000578_dist_mlpseq_tp1dT_cs_cs_b512_d256_h512_v7x_i8_f32_1_alg».proof.Proof.Part35
import proofs.«900577_g7700000000000578_dist_mlpseq_tp1dT_cs_cs_b512_d256_h512_v7x_i8_f32_1_alg».proof.Proof.Part36
import proofs.«900577_g7700000000000578_dist_mlpseq_tp1dT_cs_cs_b512_d256_h512_v7x_i8_f32_1_alg».proof.Proof.Part37
import proofs.«900577_g7700000000000578_dist_mlpseq_tp1dT_cs_cs_b512_d256_h512_v7x_i8_f32_1_alg».proof.Proof.Part38
import proofs.«900577_g7700000000000578_dist_mlpseq_tp1dT_cs_cs_b512_d256_h512_v7x_i8_f32_1_alg».proof.Proof.Part39
import proofs.«900577_g7700000000000578_dist_mlpseq_tp1dT_cs_cs_b512_d256_h512_v7x_i8_f32_1_alg».proof.Proof.Part40
import proofs.«900577_g7700000000000578_dist_mlpseq_tp1dT_cs_cs_b512_d256_h512_v7x_i8_f32_1_alg».proof.Proof.Part41

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def tailPre (c : Dev nD) (W : Waits sig Unit) : sProp 𝕄 :=
  iprop(owes (c : Thread nD τ) (owedAfter c 49) W
      ∗ cred (tallyAt (xCell c 0 2) () N) ∗ atPos ER (xCell c 0 2) 0 ∅ 0
      ∗ cred (tallyAt (xCell c 0 5) () N) ∗ atPos ER (xCell c 0 5) 0 ∅ 0
      ∗ cred (tallyAt (xCell c 0 7) () N) ∗ atPos ER (xCell c 0 7) 0 ∅ 0
      ∗ cred (tallyAt (xCell c 0 1) () N) ∗ atPos ER (xCell c 0 1) 0 ∅ 0
      ∗ cred (tallyAt (xCell c 0 3) () N) ∗ atPos ER (xCell c 0 3) 0 ∅ 0
      ∗ cred (tallyAt (xCell c 0 4) () N) ∗ atPos ER (xCell c 0 4) 0 ∅ 0
      ∗ cred (tallyAt (xCell c 2 6) () N) ∗ atPos ER (xCell c 2 6) 0 ∅ 0
      ∗ cred (tallyAt (xCell c 2 2) () N) ∗ atPos ER (xCell c 2 2) 0 ∅ 0
      ∗ cred (tallyAt (xCell c 2 5) () N) ∗ atPos ER (xCell c 2 5) 0 ∅ 0
      ∗ cred (tallyAt (xCell c 2 7) () N) ∗ atPos ER (xCell c 2 7) 0 ∅ 0
      ∗ cred (tallyAt (xCell c 2 1) () N) ∗ atPos ER (xCell c 2 1) 0 ∅ 0
      ∗ cred (tallyAt (xCell c 2 3) () N) ∗ atPos ER (xCell c 2 3) 0 ∅ 0
      ∗ cred (tallyAt (xCell c 2 4) () N) ∗ atPos ER (xCell c 2 4) 0 ∅ 0
      ∗ cred (tallyAt (xCell c 4 6) () N) ∗ atPos ER (xCell c 4 6) 0 ∅ 0
      ∗ cred (tallyAt (xCell c 4 2) () N) ∗ atPos ER (xCell c 4 2) 0 ∅ 0
      ∗ cred (tallyAt (xCell c 4 5) () N) ∗ atPos ER (xCell c 4 5) 0 ∅ 0
      ∗ cred (tallyAt (xCell c 4 7) () N) ∗ atPos ER (xCell c 4 7) 0 ∅ 0
      ∗ cred (tallyAt (xCell c 4 1) () N) ∗ atPos ER (xCell c 4 1) 0 ∅ 0
      ∗ cred (tallyAt (xCell c 4 3) () N) ∗ atPos ER (xCell c 4 3) 0 ∅ 0
      ∗ cred (tallyAt (xCell c 4 4) () N) ∗ atPos ER (xCell c 4 4) 0 ∅ 0
      ∗ cred (tallyAt (xCell c 6 6) () N) ∗ atPos ER (xCell c 6 6) 0 ∅ 0
      ∗ cred (tallyAt (xCell c 6 2) () N) ∗ atPos ER (xCell c 6 2) 0 ∅ 0
      ∗ cred (tallyAt (xCell c 6 5) () N) ∗ atPos ER (xCell c 6 5) 0 ∅ 0
      ∗ cred (tallyAt (xCell c 6 7) () N) ∗ atPos ER (xCell c 6 7) 0 ∅ 0
      ∗ cred (tallyAt (xCell c 6 1) () N) ∗ atPos ER (xCell c 6 1) 0 ∅ 0
      ∗ cred (tallyAt (xCell c 6 3) () N) ∗ atPos ER (xCell c 6 3) 0 ∅ 0
      ∗ cred (tallyAt (xCell c 6 4) () N) ∗ atPos ER (xCell c 6 4) 0 ∅ 0
      ∗ cred (tallyAt (xCell c 8 6) () N) ∗ atPos ER (xCell c 8 6) 0 ∅ 0
      ∗ cred (tallyAt (xCell c 8 2) () N) ∗ atPos ER (xCell c 8 2) 0 ∅ 0
      ∗ cred (tallyAt (xCell c 8 5) () N) ∗ atPos ER (xCell c 8 5) 0 ∅ 0
      ∗ cred (tallyAt (xCell c 8 7) () N) ∗ atPos ER (xCell c 8 7) 0 ∅ 0
      ∗ cred (tallyAt (xCell c 8 1) () N) ∗ atPos ER (xCell c 8 1) 0 ∅ 0
      ∗ cred (tallyAt (xCell c 8 3) () N) ∗ atPos ER (xCell c 8 3) 0 ∅ 0
      ∗ cred (tallyAt (xCell c 8 4) () N) ∗ atPos ER (xCell c 8 4) 0 ∅ 0
      ∗ cred (tallyAt (xCell c 10 6) () N) ∗ atPos ER (xCell c 10 6) 0 ∅ 0
      ∗ cred (tallyAt (xCell c 10 2) () N) ∗ atPos ER (xCell c 10 2) 0 ∅ 0
      ∗ cred (tallyAt (xCell c 10 5) () N) ∗ atPos ER (xCell c 10 5) 0 ∅ 0
      ∗ cred (tallyAt (xCell c 10 7) () N) ∗ atPos ER (xCell c 10 7) 0 ∅ 0)

def tailMid (c : Dev nD) (W : Waits sig Unit) : sProp 𝕄 :=
  iprop(owes (c : Thread nD τ) (owedAfter c 49) W
      ∗ semVal (xCell c 0 2) 0 ∗ slotPts c (Memref.whole cc0_scratch0) (px c 2) (part0 m c)
      ∗ semVal (xCell c 0 5) 0 ∗ slotPts c (Memref.whole cc0_scratch0) (px c 5) (part0 m c)
      ∗ semVal (xCell c 0 7) 0 ∗ slotPts c (Memref.whole cc0_scratch0) (px c 7) (part0 m c)
      ∗ semVal (xCell c 0 1) 0 ∗ slotPts c (Memref.whole cc0_scratch0) (px c 1) (part0 m c)
      ∗ semVal (xCell c 0 3) 0 ∗ slotPts c (Memref.whole cc0_scratch0) (px c 3) (part0 m c)
      ∗ semVal (xCell c 0 4) 0 ∗ slotPts c (Memref.whole cc0_scratch0) (px c 4) (part0 m c)
      ∗ semVal (xCell c 2 6) 0 ∗ slotPts c (Memref.whole cc0_scratch2) (px c 6) (part1 m c)
      ∗ semVal (xCell c 2 2) 0 ∗ slotPts c (Memref.whole cc0_scratch2) (px c 2) (part1 m c)
      ∗ semVal (xCell c 2 5) 0 ∗ slotPts c (Memref.whole cc0_scratch2) (px c 5) (part1 m c)
      ∗ semVal (xCell c 2 7) 0 ∗ slotPts c (Memref.whole cc0_scratch2) (px c 7) (part1 m c)
      ∗ semVal (xCell c 2 1) 0 ∗ slotPts c (Memref.whole cc0_scratch2) (px c 1) (part1 m c)
      ∗ semVal (xCell c 2 3) 0 ∗ slotPts c (Memref.whole cc0_scratch2) (px c 3) (part1 m c)
      ∗ semVal (xCell c 2 4) 0 ∗ slotPts c (Memref.whole cc0_scratch2) (px c 4) (part1 m c)
      ∗ semVal (xCell c 4 6) 0 ∗ slotPts c (Memref.whole cc0_scratch5) (px c 6) (part2 m c)
      ∗ semVal (xCell c 4 2) 0 ∗ slotPts c (Memref.whole cc0_scratch5) (px c 2) (part2 m c)
      ∗ semVal (xCell c 4 5) 0 ∗ slotPts c (Memref.whole cc0_scratch5) (px c 5) (part2 m c)
      ∗ semVal (xCell c 4 7) 0 ∗ slotPts c (Memref.whole cc0_scratch5) (px c 7) (part2 m c)
      ∗ semVal (xCell c 4 1) 0 ∗ slotPts c (Memref.whole cc0_scratch5) (px c 1) (part2 m c)
      ∗ semVal (xCell c 4 3) 0 ∗ slotPts c (Memref.whole cc0_scratch5) (px c 3) (part2 m c)
      ∗ semVal (xCell c 4 4) 0 ∗ slotPts c (Memref.whole cc0_scratch5) (px c 4) (part2 m c)
      ∗ semVal (xCell c 6 6) 0 ∗ chunkPts c (Memref.whole cc0_scratch8) (shr 6) (own1 m c)
      ∗ semVal (xCell c 6 2) 0 ∗ chunkPts c (Memref.whole cc0_scratch8) (shr 2) (own1 m c)
      ∗ semVal (xCell c 6 5) 0 ∗ chunkPts c (Memref.whole cc0_scratch8) (shr 5) (own1 m c)
      ∗ semVal (xCell c 6 7) 0 ∗ chunkPts c (Memref.whole cc0_scratch8) (shr 7) (own1 m c)
      ∗ semVal (xCell c 6 1) 0 ∗ chunkPts c (Memref.whole cc0_scratch8) (shr 1) (own1 m c)
      ∗ semVal (xCell c 6 3) 0 ∗ chunkPts c (Memref.whole cc0_scratch8) (shr 3) (own1 m c)
      ∗ semVal (xCell c 6 4) 0 ∗ chunkPts c (Memref.whole cc0_scratch8) (shr 4) (own1 m c)
      ∗ semVal (xCell c 8 6) 0 ∗ chunkPts c (Memref.whole cc0_scratch9) (shr 6) (own2 m c)
      ∗ semVal (xCell c 8 2) 0 ∗ chunkPts c (Memref.whole cc0_scratch9) (shr 2) (own2 m c)
      ∗ semVal (xCell c 8 5) 0 ∗ chunkPts c (Memref.whole cc0_scratch9) (shr 5) (own2 m c)
      ∗ semVal (xCell c 8 7) 0 ∗ chunkPts c (Memref.whole cc0_scratch9) (shr 7) (own2 m c)
      ∗ semVal (xCell c 8 1) 0 ∗ chunkPts c (Memref.whole cc0_scratch9) (shr 1) (own2 m c)
      ∗ semVal (xCell c 8 3) 0 ∗ chunkPts c (Memref.whole cc0_scratch9) (shr 3) (own2 m c)
      ∗ semVal (xCell c 8 4) 0 ∗ chunkPts c (Memref.whole cc0_scratch9) (shr 4) (own2 m c)
      ∗ semVal (xCell c 10 6) 0 ∗ chunkPts c (Memref.whole cc0_scratch10) (shr 6) (h2own m c)
      ∗ semVal (xCell c 10 2) 0 ∗ chunkPts c (Memref.whole cc0_scratch10) (shr 2) (h2own m c)
      ∗ semVal (xCell c 10 5) 0 ∗ chunkPts c (Memref.whole cc0_scratch10) (shr 5) (h2own m c)
      ∗ semVal (xCell c 10 7) 0 ∗ chunkPts c (Memref.whole cc0_scratch10) (shr 7) (h2own m c))

def tailEnd (c : Dev nD) : sProp 𝕄 :=
  iprop(semVal (xCell c 0 6) 0 ∗ slotPts c (Memref.whole cc0_scratch0) (px c 6) (part0 m c)
      ∗ semVal (xCell c 0 2) 0 ∗ slotPts c (Memref.whole cc0_scratch0) (px c 2) (part0 m c)
      ∗ semVal (xCell c 0 5) 0 ∗ slotPts c (Memref.whole cc0_scratch0) (px c 5) (part0 m c)
      ∗ semVal (xCell c 0 7) 0 ∗ slotPts c (Memref.whole cc0_scratch0) (px c 7) (part0 m c)
      ∗ semVal (xCell c 0 1) 0 ∗ slotPts c (Memref.whole cc0_scratch0) (px c 1) (part0 m c)
      ∗ semVal (xCell c 0 3) 0 ∗ slotPts c (Memref.whole cc0_scratch0) (px c 3) (part0 m c)
      ∗ semVal (xCell c 0 4) 0 ∗ slotPts c (Memref.whole cc0_scratch0) (px c 4) (part0 m c)
      ∗ semVal (xCell c 2 6) 0 ∗ slotPts c (Memref.whole cc0_scratch2) (px c 6) (part1 m c)
      ∗ semVal (xCell c 2 2) 0 ∗ slotPts c (Memref.whole cc0_scratch2) (px c 2) (part1 m c)
      ∗ semVal (xCell c 2 5) 0 ∗ slotPts c (Memref.whole cc0_scratch2) (px c 5) (part1 m c)
      ∗ semVal (xCell c 2 7) 0 ∗ slotPts c (Memref.whole cc0_scratch2) (px c 7) (part1 m c)
      ∗ semVal (xCell c 2 1) 0 ∗ slotPts c (Memref.whole cc0_scratch2) (px c 1) (part1 m c)
      ∗ semVal (xCell c 2 3) 0 ∗ slotPts c (Memref.whole cc0_scratch2) (px c 3) (part1 m c)
      ∗ semVal (xCell c 2 4) 0 ∗ slotPts c (Memref.whole cc0_scratch2) (px c 4) (part1 m c)
      ∗ semVal (xCell c 4 6) 0 ∗ slotPts c (Memref.whole cc0_scratch5) (px c 6) (part2 m c)
      ∗ semVal (xCell c 4 2) 0 ∗ slotPts c (Memref.whole cc0_scratch5) (px c 2) (part2 m c)
      ∗ semVal (xCell c 4 5) 0 ∗ slotPts c (Memref.whole cc0_scratch5) (px c 5) (part2 m c)
      ∗ semVal (xCell c 4 7) 0 ∗ slotPts c (Memref.whole cc0_scratch5) (px c 7) (part2 m c)
      ∗ semVal (xCell c 4 1) 0 ∗ slotPts c (Memref.whole cc0_scratch5) (px c 1) (part2 m c)
      ∗ semVal (xCell c 4 3) 0 ∗ slotPts c (Memref.whole cc0_scratch5) (px c 3) (part2 m c)
      ∗ semVal (xCell c 4 4) 0 ∗ slotPts c (Memref.whole cc0_scratch5) (px c 4) (part2 m c)
      ∗ semVal (xCell c 6 6) 0 ∗ chunkPts c (Memref.whole cc0_scratch8) (shr 6) (own1 m c)
      ∗ semVal (xCell c 6 2) 0 ∗ chunkPts c (Memref.whole cc0_scratch8) (shr 2) (own1 m c)
      ∗ semVal (xCell c 6 5) 0 ∗ chunkPts c (Memref.whole cc0_scratch8) (shr 5) (own1 m c)
      ∗ semVal (xCell c 6 7) 0 ∗ chunkPts c (Memref.whole cc0_scratch8) (shr 7) (own1 m c)
      ∗ semVal (xCell c 6 1) 0 ∗ chunkPts c (Memref.whole cc0_scratch8) (shr 1) (own1 m c)
      ∗ semVal (xCell c 6 3) 0 ∗ chunkPts c (Memref.whole cc0_scratch8) (shr 3) (own1 m c)
      ∗ semVal (xCell c 6 4) 0 ∗ chunkPts c (Memref.whole cc0_scratch8) (shr 4) (own1 m c)
      ∗ semVal (xCell c 8 6) 0 ∗ chunkPts c (Memref.whole cc0_scratch9) (shr 6) (own2 m c)
      ∗ semVal (xCell c 8 2) 0 ∗ chunkPts c (Memref.whole cc0_scratch9) (shr 2) (own2 m c)
      ∗ semVal (xCell c 8 5) 0 ∗ chunkPts c (Memref.whole cc0_scratch9) (shr 5) (own2 m c)
      ∗ semVal (xCell c 8 7) 0 ∗ chunkPts c (Memref.whole cc0_scratch9) (shr 7) (own2 m c)
      ∗ semVal (xCell c 8 1) 0 ∗ chunkPts c (Memref.whole cc0_scratch9) (shr 1) (own2 m c)
      ∗ semVal (xCell c 8 3) 0 ∗ chunkPts c (Memref.whole cc0_scratch9) (shr 3) (own2 m c)
      ∗ semVal (xCell c 8 4) 0 ∗ chunkPts c (Memref.whole cc0_scratch9) (shr 4) (own2 m c)
      ∗ semVal (xCell c 10 6) 0 ∗ chunkPts c (Memref.whole cc0_scratch10) (shr 6) (h2own m c)
      ∗ semVal (xCell c 10 2) 0 ∗ chunkPts c (Memref.whole cc0_scratch10) (shr 2) (h2own m c)
      ∗ semVal (xCell c 10 5) 0 ∗ chunkPts c (Memref.whole cc0_scratch10) (shr 5) (h2own m c)
      ∗ semVal (xCell c 10 7) 0 ∗ chunkPts c (Memref.whole cc0_scratch10) (shr 7) (h2own m c)
      ∗ semVal (xCell c 10 1) 0 ∗ chunkPts c (Memref.whole cc0_scratch10) (shr 1) (h2own m c)
      ∗ semVal (xCell c 10 3) 0 ∗ chunkPts c (Memref.whole cc0_scratch10) (shr 3) (h2own m c)
      ∗ semVal (xCell c 10 4) 0 ∗ chunkPts c (Memref.whole cc0_scratch10) (shr 4) (h2own m c)
      ∗ slotPts c (Memref.whole cc0_scratch0) c (part0 m c) ∗ slotPts c (Memref.whole cc0_scratch2) c (part1 m c) ∗ slotPts c (Memref.whole cc0_scratch5) c (part2 m c)
      ∗ chunkPts c (Memref.whole cc0_scratch8) (shr 0) (own1 m c) ∗ chunkPts c (Memref.whole cc0_scratch9) (shr 0) (own2 m c) ∗ chunkPts c (Memref.whole cc0_scratch10) (shr 0) (h2own m c))

def tailPost (c : Dev nD) : sProp 𝕄 :=
  iprop(semX c 0 ∗ semX c 2 ∗ semX c 4 ∗ semX c 6 ∗ semX c 8 ∗ semX c 10
      ∗ (∃ f, held c cc0_scratch0 f) ∗ (∃ f, held c cc0_scratch2 f) ∗ (∃ f, held c cc0_scratch5 f)
      ∗ (∃ f, held c cc0_scratch8 f) ∗ (∃ f, held c cc0_scratch9 f) ∗ (∃ f, held c cc0_scratch10 f))

theorem inv_x (K : Dev nD × CIx → ℕ) (c : Dev nD) (a : Fin 12) (k : Fin 8) (j : Fin 7) (hj : j.succ = k) :
    records m K ⊢ cellInv ER (sched m) (K (c, some (a, j))) (xCell c a k) := by
  subst hj; exact inv_at m K (c, some (a, j))

theorem semX_cells (c : Dev nD) (a : Fin 12) : (semX c a : sProp 𝕄)
    = iprop(semVal (xCell c a 1) 0 ∗ semVal (xCell c a 2) 0 ∗ semVal (xCell c a 3) 0 ∗ semVal (xCell c a 4) 0
        ∗ semVal (xCell c a 5) 0 ∗ semVal (xCell c a 6) 0 ∗ semVal (xCell c a 7) 0) := by
  unfold semX; rw [fin7_flat]; rfl

theorem whole_peers (c : Dev nD) (M : Memref sig .tc .vmem S8x64x512 .bf16) (hM : M.IsWhole) (f : Buf (Elt F) (M.view.loc (c : Thread nD τ))) :
    (M.view.loc (c : Thread nD τ) ↦{fullShare} f : sProp 𝕄)
      = iprop(slotPts c M c f ∗ slotPts c M (px c 1) f ∗ slotPts c M (px c 2) f ∗ slotPts c M (px c 3) f ∗ slotPts c M (px c 4) f
          ∗ slotPts c M (px c 5) f ∗ slotPts c M (px c 6) f ∗ slotPts c M (px c 7) f) :=
  (slots_whole_eq c M hM f).trans (slots_peers c M f)

theorem whole_shares (c : Dev nD) (M : Memref sig .tc .vmem S64x512 .bf16) (hM : M.IsWhole) (f : Buf (Elt F) (M.view.loc (c : Thread nD τ))) :
    (M.view.loc (c : Thread nD τ) ↦{fullShare} f : sProp 𝕄)
      = iprop(chunkPts c M (shr 0) f ∗ chunkPts c M (shr 1) f ∗ chunkPts c M (shr 2) f ∗ chunkPts c M (shr 3) f ∗ chunkPts c M (shr 4) f
          ∗ chunkPts c M (shr 5) f ∗ chunkPts c M (shr 6) f ∗ chunkPts c M (shr 7) f) :=
  (congrArg (fun I => (M.view.loc (c : Thread nD τ) ↦[I]{fullShare} f : sProp 𝕄)) hM.set_eq_univ.symm).trans (shares_eq c M f)

theorem tail_join (c : Dev nD) : tailEnd m c ⊢ tailPost (F := F) c := by
  unfold tailEnd tailPost
  iintro ⟨Z0_6, S0_6, Z0_2, S0_2, Z0_5, S0_5, Z0_7, S0_7, Z0_1, S0_1, Z0_3, S0_3, Z0_4, S0_4, Z2_6, S2_6, Z2_2, S2_2, Z2_5, S2_5, Z2_7, S2_7, Z2_1, S2_1, Z2_3, S2_3, Z2_4, S2_4, Z4_6, S4_6, Z4_2, S4_2, Z4_5, S4_5, Z4_7, S4_7, Z4_1, S4_1, Z4_3, S4_3, Z4_4, S4_4, Z6_6, S6_6, Z6_2, S6_2, Z6_5, S6_5, Z6_7, S6_7, Z6_1, S6_1, Z6_3, S6_3, Z6_4, S6_4, Z8_6, S8_6, Z8_2, S8_2, Z8_5, S8_5, Z8_7, S8_7, Z8_1, S8_1, Z8_3, S8_3, Z8_4, S8_4, Z10_6, S10_6, Z10_2, S10_2, Z10_5, S10_5, Z10_7, S10_7, Z10_1, S10_1, Z10_3, S10_3, Z10_4, S10_4, O0, O2, O5, H8, H9, H10⟩
  isplitl [Z0_1 Z0_2 Z0_3 Z0_4 Z0_5 Z0_6 Z0_7]
  · rw [semX_cells c 0]
    sl_close
  isplitl [Z2_1 Z2_2 Z2_3 Z2_4 Z2_5 Z2_6 Z2_7]
  · rw [semX_cells c 2]
    sl_close
  isplitl [Z4_1 Z4_2 Z4_3 Z4_4 Z4_5 Z4_6 Z4_7]
  · rw [semX_cells c 4]
    sl_close
  isplitl [Z6_1 Z6_2 Z6_3 Z6_4 Z6_5 Z6_6 Z6_7]
  · rw [semX_cells c 6]
    sl_close
  isplitl [Z8_1 Z8_2 Z8_3 Z8_4 Z8_5 Z8_6 Z8_7]
  · rw [semX_cells c 8]
    sl_close
  isplitl [Z10_1 Z10_2 Z10_3 Z10_4 Z10_5 Z10_6 Z10_7]
  · rw [semX_cells c 10]
    sl_close
  isplitl [O0 S0_1 S0_2 S0_3 S0_4 S0_5 S0_6 S0_7]
  · iexists (part0 m c)
    iapply (Entails.of_eq (whole_peers c (Memref.whole cc0_scratch0) (Memref.isWhole_whole _) (part0 m c)).symm)
    sl_close
  isplitl [O2 S2_1 S2_2 S2_3 S2_4 S2_5 S2_6 S2_7]
  · iexists (part1 m c)
    iapply (Entails.of_eq (whole_peers c (Memref.whole cc0_scratch2) (Memref.isWhole_whole _) (part1 m c)).symm)
    sl_close
  isplitl [O5 S4_1 S4_2 S4_3 S4_4 S4_5 S4_6 S4_7]
  · iexists (part2 m c)
    iapply (Entails.of_eq (whole_peers c (Memref.whole cc0_scratch5) (Memref.isWhole_whole _) (part2 m c)).symm)
    sl_close
  isplitl [H8 S6_1 S6_2 S6_3 S6_4 S6_5 S6_6 S6_7]
  · iexists (own1 m c)
    iapply (Entails.of_eq (whole_shares c (Memref.whole cc0_scratch8) (Memref.isWhole_whole _) (own1 m c)).symm)
    sl_close
  isplitl [H9 S8_1 S8_2 S8_3 S8_4 S8_5 S8_6 S8_7]
  · iexists (own2 m c)
    iapply (Entails.of_eq (whole_shares c (Memref.whole cc0_scratch9) (Memref.isWhole_whole _) (own2 m c)).symm)
    sl_close
  iexists (h2own m c)
  iapply (Entails.of_eq (whole_shares c (Memref.whole cc0_scratch10) (Memref.isWhole_whole _) (h2own m c)).symm)
  sl_close

theorem chain_parts (K : Dev nD × CIx → ℕ) (c : Dev nD) (W : Waits sig Unit) {β : Type}
    {kk : PUnit → Prog (TpuEff nD τ sig (Elt F) Λ₀ .tc) β} {Q : β → sProp 𝕄} :
    iprop(records m K ∗ tailPre (F := F) c W)
      ⊢ iprop((∀ W' : Waits sig Unit, tailMid m c W' -∗ wp frame (wpE (defs₀ (F := F)) 𝒱₀ (c : Thread nD τ) none) Set.univ (kk ⟨⟩) Q)
          -∗ wp frame (wpE (defs₀ (F := F)) 𝒱₀ (c : Thread nD τ) none) Set.univ
              ((bodyArgs% k0_part34) c >>= fun _ =>
                (bodyArgs% k0_part35) c >>= fun _ =>
                (bodyArgs% k0_part36) c >>= fun _ =>
                (bodyArgs% k0_part37) c >>= fun _ =>
                (bodyArgs% k0_part38) c >>= fun _ =>
                (bodyArgs% k0_part39) c >>= fun _ =>
                (bodyArgs% k0_part40) c >>= fun _ =>
                (bodyArgs% k0_part41) c >>= kk) Q) := by
  unfold tailPre
  iintro ⟨#HR, HO, C0_2, P0_2, C0_5, P0_5, C0_7, P0_7, C0_1, P0_1, C0_3, P0_3, C0_4, P0_4, C2_6, P2_6, C2_2, P2_2, C2_5, P2_5, C2_7, P2_7, C2_1, P2_1, C2_3, P2_3, C2_4, P2_4, C4_6, P4_6, C4_2, P4_2, C4_5, P4_5, C4_7, P4_7, C4_1, P4_1, C4_3, P4_3, C4_4, P4_4, C6_6, P6_6, C6_2, P6_2, C6_5, P6_5, C6_7, P6_7, C6_1, P6_1, C6_3, P6_3, C6_4, P6_4, C8_6, P8_6, C8_2, P8_2, C8_5, P8_5, C8_7, P8_7, C8_1, P8_1, C8_3, P8_3, C8_4, P8_4, C10_6, P10_6, C10_2, P10_2, C10_5, P10_5, C10_7, P10_7⟩ Hk
  iapply (exec_cut frame _ Set.univ (part34 m c (K (c, some (0, 1))) (K (c, some (0, 4))) (K (c, some (0, 6))) (K (c, some (0, 0))) W)) $$ [HO C0_2 P0_2 C0_5 P0_5 C0_7 P0_7 C0_1 P0_1]
  · isplitr; · iapply (inv_x m K c 0 2 1 rfl); iexact HR
    isplitr; · iapply (inv_x m K c 0 5 4 rfl); iexact HR
    isplitr; · iapply (inv_x m K c 0 7 6 rfl); iexact HR
    isplitr; · iapply (inv_x m K c 0 1 0 rfl); iexact HR
    sl_close
  iintro %_ ⟨%W34, HO, Z0_2, S0_2, Z0_5, S0_5, Z0_7, S0_7, Z0_1, S0_1⟩
  iapply (exec_cut frame _ Set.univ (part35 m c (K (c, some (0, 2))) (K (c, some (0, 3))) (K (c, some (2, 5))) (K (c, some (2, 1))) W34)) $$ [HO C0_3 P0_3 C0_4 P0_4 C2_6 P2_6 C2_2 P2_2]
  · isplitr; · iapply (inv_x m K c 0 3 2 rfl); iexact HR
    isplitr; · iapply (inv_x m K c 0 4 3 rfl); iexact HR
    isplitr; · iapply (inv_x m K c 2 6 5 rfl); iexact HR
    isplitr; · iapply (inv_x m K c 2 2 1 rfl); iexact HR
    sl_close
  iintro %_ ⟨%W35, HO, Z0_3, S0_3, Z0_4, S0_4, Z2_6, S2_6, Z2_2, S2_2⟩
  iapply (exec_cut frame _ Set.univ (part36 m c (K (c, some (2, 4))) (K (c, some (2, 6))) (K (c, some (2, 0))) (K (c, some (2, 2))) W35)) $$ [HO C2_5 P2_5 C2_7 P2_7 C2_1 P2_1 C2_3 P2_3]
  · isplitr; · iapply (inv_x m K c 2 5 4 rfl); iexact HR
    isplitr; · iapply (inv_x m K c 2 7 6 rfl); iexact HR
    isplitr; · iapply (inv_x m K c 2 1 0 rfl); iexact HR
    isplitr; · iapply (inv_x m K c 2 3 2 rfl); iexact HR
    sl_close
  iintro %_ ⟨%W36, HO, Z2_5, S2_5, Z2_7, S2_7, Z2_1, S2_1, Z2_3, S2_3⟩
  iapply (exec_cut frame _ Set.univ (part37 m c (K (c, some (2, 3))) (K (c, some (4, 5))) (K (c, some (4, 1))) (K (c, some (4, 4))) W36)) $$ [HO C2_4 P2_4 C4_6 P4_6 C4_2 P4_2 C4_5 P4_5]
  · isplitr; · iapply (inv_x m K c 2 4 3 rfl); iexact HR
    isplitr; · iapply (inv_x m K c 4 6 5 rfl); iexact HR
    isplitr; · iapply (inv_x m K c 4 2 1 rfl); iexact HR
    isplitr; · iapply (inv_x m K c 4 5 4 rfl); iexact HR
    sl_close
  iintro %_ ⟨%W37, HO, Z2_4, S2_4, Z4_6, S4_6, Z4_2, S4_2, Z4_5, S4_5⟩
  iapply (exec_cut frame _ Set.univ (part38 m c (K (c, some (4, 6))) (K (c, some (4, 0))) (K (c, some (4, 2))) (K (c, some (4, 3))) W37)) $$ [HO C4_7 P4_7 C4_1 P4_1 C4_3 P4_3 C4_4 P4_4]
  · isplitr; · iapply (inv_x m K c 4 7 6 rfl); iexact HR
    isplitr; · iapply (inv_x m K c 4 1 0 rfl); iexact HR
    isplitr; · iapply (inv_x m K c 4 3 2 rfl); iexact HR
    isplitr; · iapply (inv_x m K c 4 4 3 rfl); iexact HR
    sl_close
  iintro %_ ⟨%W38, HO, Z4_7, S4_7, Z4_1, S4_1, Z4_3, S4_3, Z4_4, S4_4⟩
  iapply (exec_cut frame _ Set.univ (part39 m c (K (c, some (6, 5))) (K (c, some (6, 1))) (K (c, some (6, 4))) (K (c, some (6, 6))) (K (c, some (6, 0))) (K (c, some (6, 2))) W38)) $$ [HO C6_6 P6_6 C6_2 P6_2 C6_5 P6_5 C6_7 P6_7 C6_1 P6_1 C6_3 P6_3]
  · isplitr; · iapply (inv_x m K c 6 6 5 rfl); iexact HR
    isplitr; · iapply (inv_x m K c 6 2 1 rfl); iexact HR
    isplitr; · iapply (inv_x m K c 6 5 4 rfl); iexact HR
    isplitr; · iapply (inv_x m K c 6 7 6 rfl); iexact HR
    isplitr; · iapply (inv_x m K c 6 1 0 rfl); iexact HR
    isplitr; · iapply (inv_x m K c 6 3 2 rfl); iexact HR
    sl_close
  iintro %_ ⟨%W39, HO, Z6_6, S6_6, Z6_2, S6_2, Z6_5, S6_5, Z6_7, S6_7, Z6_1, S6_1, Z6_3, S6_3⟩
  iapply (exec_cut frame _ Set.univ (part40 m c (K (c, some (6, 3))) (K (c, some (8, 5))) (K (c, some (8, 1))) (K (c, some (8, 4))) (K (c, some (8, 6))) (K (c, some (8, 0))) W39)) $$ [HO C6_4 P6_4 C8_6 P8_6 C8_2 P8_2 C8_5 P8_5 C8_7 P8_7 C8_1 P8_1]
  · isplitr; · iapply (inv_x m K c 6 4 3 rfl); iexact HR
    isplitr; · iapply (inv_x m K c 8 6 5 rfl); iexact HR
    isplitr; · iapply (inv_x m K c 8 2 1 rfl); iexact HR
    isplitr; · iapply (inv_x m K c 8 5 4 rfl); iexact HR
    isplitr; · iapply (inv_x m K c 8 7 6 rfl); iexact HR
    isplitr; · iapply (inv_x m K c 8 1 0 rfl); iexact HR
    sl_close
  iintro %_ ⟨%W40, HO, Z6_4, S6_4, Z8_6, S8_6, Z8_2, S8_2, Z8_5, S8_5, Z8_7, S8_7, Z8_1, S8_1⟩
  iapply (exec_cut frame _ Set.univ (part41 m c (K (c, some (8, 2))) (K (c, some (8, 3))) (K (c, some (10, 5))) (K (c, some (10, 1))) (K (c, some (10, 4))) (K (c, some (10, 6))) W40)) $$ [HO C8_3 P8_3 C8_4 P8_4 C10_6 P10_6 C10_2 P10_2 C10_5 P10_5 C10_7 P10_7]
  · isplitr; · iapply (inv_x m K c 8 3 2 rfl); iexact HR
    isplitr; · iapply (inv_x m K c 8 4 3 rfl); iexact HR
    isplitr; · iapply (inv_x m K c 10 6 5 rfl); iexact HR
    isplitr; · iapply (inv_x m K c 10 2 1 rfl); iexact HR
    isplitr; · iapply (inv_x m K c 10 5 4 rfl); iexact HR
    isplitr; · iapply (inv_x m K c 10 7 6 rfl); iexact HR
    sl_close
  iintro %_ ⟨%W41, HO, Z8_3, S8_3, Z8_4, S8_4, Z10_6, S10_6, Z10_2, S10_2, Z10_5, S10_5, Z10_7, S10_7⟩
  iapply Hk $$ %W41
  unfold tailMid
  sl_close

end Cert.KernelIdeal.Hand

end
-- ==== Proof.SegG.lean ====
import proofs.«900577_g7700000000000578_dist_mlpseq_tp1dT_cs_cs_b512_d256_h512_v7x_i8_f32_1_alg».proof.Proof.ChainTail
import proofs.«900577_g7700000000000578_dist_mlpseq_tp1dT_cs_cs_b512_d256_h512_v7x_i8_f32_1_alg».proof.Proof.Rest

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

def preG (m : (ℓ : Loc nD τ sig) → Buf (Elt F) ℓ) (K : Dev nD × CIx → ℕ) (c : Dev nD) (W : Waits sig Unit) : sProp 𝕄 :=
  iprop(records m K ∗ tailPre (F := F) c W
      ∗ cred (tallyAt (xCell c 10 1) () N) ∗ atPos ER (xCell c 10 1) 0 ∅ 0
      ∗ cred (tallyAt (xCell c 10 3) () N) ∗ atPos ER (xCell c 10 3) 0 ∅ 0)

def postG (m : (ℓ : Loc nD τ sig) → Buf (Elt F) ℓ) (c : Dev nD) : sProp 𝕄 :=
  iprop(∃ W', tailMid m c W'
      ∗ semVal (xCell c 10 1) 0 ∗ chunkPts c (Memref.whole cc0_scratch10) (shr 1) (h2own m c)
      ∗ semVal (xCell c 10 3) 0 ∗ chunkPts c (Memref.whole cc0_scratch10) (shr 3) (h2own m c))

theorem segG (m : (ℓ : Loc nD τ sig) → Buf (Elt F) ℓ) (K : Dev nD × CIx → ℕ) (c : Dev nD) (W : Waits sig Unit) :
    preG m K c W
      ⊢ wp frame (wpE (defs₀ (F := F)) 𝒱₀ (c : Thread nD τ) none) Set.univ ((bodyArgs% rest34) c)
          (fun r => iprop(⌜r = c⌝ ∗ postG m c)) := by
  unfold preG postG
  iintro ⟨#HR, Hpre, C10_1, P10_1, C10_3, P10_3⟩
  ihave #I10_1 := (inv_x m K c 10 1 0 rfl) $$ HR
  ihave #I10_3 := (inv_x m K c 10 3 2 rfl) $$ HR
  unfold rest34
  iapply (chain_parts m K c W) $$ [Hpre]
  · sl_close
  iintro %Wm Hmid
  unfold tailMid
  icases Hmid with ⟨HO, Hrest⟩
  sl_exec
  imod (send_done10 m c 1 (by decide) (κ := K (c, some (10, 0)))) $$ [P10_1 P10_1_pay1] with ⟨Z10_1, S10_1⟩
  · sl_close
  imod (send_done10 m c 3 (by decide) (κ := K (c, some (10, 2)))) $$ [P10_3 P10_3_pay1] with ⟨Z10_3, S10_3⟩
  · sl_close
  first | sl_step | (unfold Prog.bind; sl_step)
  isplitr; · ipureintro; rfl
  iexists _
  isplitl [HO Hrest]
  · isplitl [HO]; · iexact HO
    iexact Hrest
  sl_close

end Cert.KernelIdeal.Hand

end
-- ==== Proof.EndJoin.lean ====
import proofs.«900577_g7700000000000578_dist_mlpseq_tp1dT_cs_cs_b512_d256_h512_v7x_i8_f32_1_alg».proof.Proof.ChainTail

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem end_join (m : (ℓ : Loc nD τ sig) → Buf (Elt F) ℓ) (c : Dev nD) (W' : Waits sig Unit) :
    iprop(tailMid m c W'
        ∗ semVal (xCell c 0 6) 0 ∗ slotPts c (Memref.whole cc0_scratch0) (px c 6) (part0 m c)
        ∗ semVal (xCell c 10 1) 0 ∗ chunkPts c (Memref.whole cc0_scratch10) (shr 1) (h2own m c)
        ∗ semVal (xCell c 10 3) 0 ∗ chunkPts c (Memref.whole cc0_scratch10) (shr 3) (h2own m c)
        ∗ semVal (xCell c 10 4) 0 ∗ chunkPts c (Memref.whole cc0_scratch10) (shr 4) (h2own m c)
        ∗ slotPts c (Memref.whole cc0_scratch0) c (part0 m c) ∗ slotPts c (Memref.whole cc0_scratch2) c (part1 m c)
        ∗ slotPts c (Memref.whole cc0_scratch5) c (part2 m c)
        ∗ chunkPts c (Memref.whole cc0_scratch8) (shr 0) (own1 m c) ∗ chunkPts c (Memref.whole cc0_scratch9) (shr 0) (own2 m c)
        ∗ chunkPts c (Memref.whole cc0_scratch10) (shr 0) (h2own m c))
      ⊢ iprop(owes (c : Thread nD τ) (owedAfter c 49) W' ∗ tailPost (F := F) c) := by
  unfold tailMid
  iintro ⟨⟨HO, Z0_2, S0_2, Z0_5, S0_5, Z0_7, S0_7, Z0_1, S0_1, Z0_3, S0_3, Z0_4, S0_4,
      Z2_6, S2_6, Z2_2, S2_2, Z2_5, S2_5, Z2_7, S2_7, Z2_1, S2_1, Z2_3, S2_3, Z2_4, S2_4,
      Z4_6, S4_6, Z4_2, S4_2, Z4_5, S4_5, Z4_7, S4_7, Z4_1, S4_1, Z4_3, S4_3, Z4_4, S4_4,
      Z6_6, S6_6, Z6_2, S6_2, Z6_5, S6_5, Z6_7, S6_7, Z6_1, S6_1, Z6_3, S6_3, Z6_4, S6_4,
      Z8_6, S8_6, Z8_2, S8_2, Z8_5, S8_5, Z8_7, S8_7, Z8_1, S8_1, Z8_3, S8_3, Z8_4, S8_4,
      Z10_6, S10_6, Z10_2, S10_2, Z10_5, S10_5, Z10_7, S10_7⟩,
    Z0_6, S0_6, Z10_1, S10_1, Z10_3, S10_3, Z10_4, S10_4, O0, O2, O5, H8, H9, H10⟩
  isplitl [HO]; · iexact HO
  iapply (tail_join m c)
  unfold tailEnd
  sl_close

end Cert.KernelIdeal.Hand

end
-- ==== Proof.Rejoin.lean ====
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem wov_set (r : Rect S3x512x256) (hr : ∀ a, r.stride a = 1) (hq : r.shape.Squeezes S512x256) :
    (((Memref.whole cc0_scratch14).slice r hr).squeeze S512x256 hq).view.set = r.set.map (Memref.whole cc0_scratch14).view.emb := by
  show (((Memref.whole cc0_scratch14).view.slice r).reshape S512x256 _).set = _
  rw [View.set_reshape, View.set_slice]

theorem wiv_set (r : Rect S3x256x512) (hr : ∀ a, r.stride a = 1) (hq : r.shape.Squeezes S256x512) :
    (((Memref.whole cc0_scratch13).slice r hr).squeeze S256x512 hq).view.set = r.set.map (Memref.whole cc0_scratch13).view.emb := by
  show (((Memref.whole cc0_scratch13).view.slice r).reshape S256x512 _).set = _
  rw [View.set_reshape, View.set_slice]

theorem wov01 : Disjoint wovW0.view.set wovW1.view.set := by
  rw [show wovW0.view.set = _ from wov_set _ _ _, show wovW1.view.set = _ from wov_set _ _ _, Finset.disjoint_map]
  exact Rect.unit_disjoint 0 (Or.inl (by decide))
theorem wov02 : Disjoint wovW0.view.set wovW2.view.set := by
  rw [show wovW0.view.set = _ from wov_set _ _ _, show wovW2.view.set = _ from wov_set _ _ _, Finset.disjoint_map]
  exact Rect.unit_disjoint 0 (Or.inl (by decide))
theorem wov12 : Disjoint wovW1.view.set wovW2.view.set := by
  rw [show wovW1.view.set = _ from wov_set _ _ _, show wovW2.view.set = _ from wov_set _ _ _, Finset.disjoint_map]
  exact Rect.unit_disjoint 0 (Or.inl (by decide))
theorem wiv01 : Disjoint wivW0.view.set wivW1.view.set := by
  rw [show wivW0.view.set = _ from wiv_set _ _ _, show wivW1.view.set = _ from wiv_set _ _ _, Finset.disjoint_map]
  exact Rect.unit_disjoint 0 (Or.inl (by decide))
theorem wiv02 : Disjoint wivW0.view.set wivW2.view.set := by
  rw [show wivW0.view.set = _ from wiv_set _ _ _, show wivW2.view.set = _ from wiv_set _ _ _, Finset.disjoint_map]
  exact Rect.unit_disjoint 0 (Or.inl (by decide))
theorem wiv12 : Disjoint wivW1.view.set wivW2.view.set := by
  rw [show wivW1.view.set = _ from wiv_set _ _ _, show wivW2.view.set = _ from wiv_set _ _ _, Finset.disjoint_map]
  exact Rect.unit_disjoint 0 (Or.inl (by decide))

variable (m : (ℓ : Loc nD τ sig) → Buf (Elt F) ℓ) (c : Dev nD)

theorem rejoin14 (f14 : cc0_scratch14.ty.Contents (Elt F)) :
    iprop((wovW0.view.loc (c : Thread nD τ) ↦[wovW0.view.set]{fullShare} g14_1 m c f14)
      ∗ (wovW1.view.loc (c : Thread nD τ) ↦[wovW1.view.set]{fullShare} g14_2 m c f14)
      ∗ (View.loc (c : Thread nD τ) (Memref.whole cc0_scratch14).view ↦[wovW2.view.set]{fullShare} g14_3 m c f14)
      ∗ rest14_3 m c f14)
      ⊢ iprop(∃ f, held c cc0_scratch14 f) := by
  iintro ⟨H0, H1, H2, HR⟩
  have ha : wovW2.view.set ⊆ Finset.univ \ wovW0.view.set := Finset.subset_sdiff.mpr ⟨Finset.subset_univ _, wov02.symm⟩
  have hb : wovW2.view.set ⊆ (Finset.univ \ wovW0.view.set) \ wovW1.view.set := Finset.subset_sdiff.mpr ⟨ha, wov12.symm⟩
  ihave Ha := (pointsTo_join_subset (ℓ := View.loc (c : Thread nD τ) (Memref.whole cc0_scratch14).view) (I := wovW2.view.set) (S := (Finset.univ \ wovW0.view.set) \ wovW1.view.set) hb) $$ [H2 HR]
  · sl_close
  ihave Hb := (pointsTo_join_subset (ℓ := View.loc (c : Thread nD τ) (Memref.whole cc0_scratch14).view) (I := wovW1.view.set) (S := Finset.univ \ wovW0.view.set)
    (Finset.subset_sdiff.mpr ⟨Finset.subset_univ _, wov01.symm⟩)) $$ [H1 Ha]
  · sl_close
  ihave Hc := (pointsTo_join_subset (ℓ := View.loc (c : Thread nD τ) (Memref.whole cc0_scratch14).view) (I := wovW0.view.set) (S := Finset.univ) (Finset.subset_univ _)) $$ [H0 Hb]
  · sl_close
  sl_close

theorem rejoin13 (f13 : cc0_scratch13.ty.Contents (Elt F)) :
    iprop((wivW1.view.loc (c : Thread nD τ) ↦[wivW1.view.set]{fullShare} g13_1 m c f13)
      ∗ (wivW2.view.loc (c : Thread nD τ) ↦[wivW2.view.set]{fullShare} g13_2 m c f13)
      ∗ (wivW0.view.loc (c : Thread nD τ) ↦[wivW0.view.set]{fullShare} g13_3 m c f13)
      ∗ rest13_3 m c f13)
      ⊢ iprop(∃ f, held c cc0_scratch13 f) := by
  iintro ⟨H1, H2, H0, HR⟩
  have ha : wivW0.view.set ⊆ Finset.univ \ wivW1.view.set := Finset.subset_sdiff.mpr ⟨Finset.subset_univ _, wiv01⟩
  have hb : wivW0.view.set ⊆ (Finset.univ \ wivW1.view.set) \ wivW2.view.set := Finset.subset_sdiff.mpr ⟨ha, wiv02⟩
  ihave Ha := (pointsTo_join_subset (ℓ := View.loc (c : Thread nD τ) (Memref.whole cc0_scratch13).view) (I := wivW0.view.set) (S := (Finset.univ \ wivW1.view.set) \ wivW2.view.set) hb) $$ [H0 HR]
  · sl_close
  ihave Hb := (pointsTo_join_subset (ℓ := View.loc (c : Thread nD τ) (Memref.whole cc0_scratch13).view) (I := wivW2.view.set) (S := Finset.univ \ wivW1.view.set)
    (Finset.subset_sdiff.mpr ⟨Finset.subset_univ _, wiv12.symm⟩)) $$ [H2 Ha]
  · sl_close
  ihave Hc := (pointsTo_join_subset (ℓ := View.loc (c : Thread nD τ) (Memref.whole cc0_scratch13).view) (I := wivW1.view.set) (S := Finset.univ) (Finset.subset_univ _)) $$ [H1 Hb]
  · sl_close
  sl_close

theorem rejoinArg (b : Ref sig .tc) :
    iprop(srcLent m c b ∗ srcRest m c b) ⊢ held c b (m ((c : Thread nD τ).loc b)) :=
  (pointsTo_split_subset (Finset.subset_univ _)).2

end Cert.KernelIdeal.Hand

end
-- ==== Proof.RecvJoin.lean ====
import proofs.«900577_g7700000000000578_dist_mlpseq_tp1dT_cs_cs_b512_d256_h512_v7x_i8_f32_1_alg».proof.Proof.Slots
import proofs.«900577_g7700000000000578_dist_mlpseq_tp1dT_cs_cs_b512_d256_h512_v7x_i8_f32_1_alg».proof.Proof.Local

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

theorem recv_join (c : Dev nD) (M : Memref sig .tc .vmem S8x64x512 .bf16) (hM : M.IsWhole)
    (f0 g : Buf (Elt F) (M.view.loc (c : Thread nD τ))) :
    iprop(slotPts c M 0 f0 ∗ slotPts c M 1 g ∗ slotPts c M 2 g ∗ slotPts c M 3 g ∗ slotPts c M 4 g ∗ slotPts c M 5 g
        ∗ slotPts c M 6 g ∗ slotPts c M 7 g)
      ⊢ iprop(∃ f, (M.view.loc (c : Thread nD τ) ↦{fullShare} f : sProp 𝕄)) := by
  classical
  let h : Buf (Elt F) (M.view.loc (c : Thread nD τ)) :=
    ((slotM M 0).view.set : Finset (Idx (M.view.loc (c : Thread nD τ)))).piecewise f0 g
  have e0 : (slotPts c M 0 f0 : sProp 𝕄) = slotPts c M 0 h := by
    rw [slotPts_eq, slotPts_eq]
    exact pointsTo_congr fun i hi => (Finset.piecewise_eq_of_mem _ _ _ hi).symm
  have ek : ∀ k : Fin 8, k ≠ 0 → (slotPts c M k g : sProp 𝕄) = slotPts c M k h := fun k hk => by
    rw [slotPts_eq, slotPts_eq]
    exact pointsTo_congr fun i hi =>
      (Finset.piecewise_eq_of_notMem _ _ _ fun h0 => Finset.disjoint_left.mp (slotM_set_disjoint M k 0 hk) hi h0).symm
  rw [e0, ek 1 (by decide), ek 2 (by decide), ek 3 (by decide), ek 4 (by decide), ek 5 (by decide), ek 6 (by decide),
    ek 7 (by decide), ← slots_flat c M h, ← slots_whole_eq c M hM h]
  iintro H
  iexists h
  iexact H

theorem recv_join1 (m : (ℓ : Loc nD τ sig) → Buf (Elt F) ℓ) (c : Dev nD) (f1 : cc0_scratch1.ty.Contents (Elt F)) :
    iprop(slotPts c (Memref.whole cc0_scratch1) 0 f1 ∗ slotPts c (Memref.whole cc0_scratch1) 1 (rs0C m c)
        ∗ slotPts c (Memref.whole cc0_scratch1) 2 (rs0C m c) ∗ slotPts c (Memref.whole cc0_scratch1) 3 (rs0C m c)
        ∗ slotPts c (Memref.whole cc0_scratch1) 4 (rs0C m c) ∗ slotPts c (Memref.whole cc0_scratch1) 5 (rs0C m c)
        ∗ slotPts c (Memref.whole cc0_scratch1) 6 (rs0C m c) ∗ slotPts c (Memref.whole cc0_scratch1) 7 (rs0C m c))
      ⊢ iprop(∃ f, held c cc0_scratch1 f) :=
  recv_join c (Memref.whole cc0_scratch1) (Memref.isWhole_whole _) f1 (rs0C m c)

theorem recv_join3 (m : (ℓ : Loc nD τ sig) → Buf (Elt F) ℓ) (c : Dev nD) (f3 : cc0_scratch3.ty.Contents (Elt F)) :
    iprop(slotPts c (Memref.whole cc0_scratch3) 0 f3 ∗ slotPts c (Memref.whole cc0_scratch3) 1 (rs1C m c)
        ∗ slotPts c (Memref.whole cc0_scratch3) 2 (rs1C m c) ∗ slotPts c (Memref.whole cc0_scratch3) 3 (rs1C m c)
        ∗ slotPts c (Memref.whole cc0_scratch3) 4 (rs1C m c) ∗ slotPts c (Memref.whole cc0_scratch3) 5 (rs1C m c)
        ∗ slotPts c (Memref.whole cc0_scratch3) 6 (rs1C m c) ∗ slotPts c (Memref.whole cc0_scratch3) 7 (rs1C m c))
      ⊢ iprop(∃ f, held c cc0_scratch3 f) :=
  recv_join c (Memref.whole cc0_scratch3) (Memref.isWhole_whole _) f3 (rs1C m c)

theorem recv_join6 (m : (ℓ : Loc nD τ sig) → Buf (Elt F) ℓ) (c : Dev nD) (f6 : cc0_scratch6.ty.Contents (Elt F)) :
    iprop(slotPts c (Memref.whole cc0_scratch6) 0 f6 ∗ slotPts c (Memref.whole cc0_scratch6) 1 (rs2C m c)
        ∗ slotPts c (Memref.whole cc0_scratch6) 2 (rs2C m c) ∗ slotPts c (Memref.whole cc0_scratch6) 3 (rs2C m c)
        ∗ slotPts c (Memref.whole cc0_scratch6) 4 (rs2C m c) ∗ slotPts c (Memref.whole cc0_scratch6) 5 (rs2C m c)
        ∗ slotPts c (Memref.whole cc0_scratch6) 6 (rs2C m c) ∗ slotPts c (Memref.whole cc0_scratch6) 7 (rs2C m c))
      ⊢ iprop(∃ f, held c cc0_scratch6 f) :=
  recv_join c (Memref.whole cc0_scratch6) (Memref.isWhole_whole _) f6 (rs2C m c)

end Cert.KernelIdeal.Hand

end
-- ==== Proof.Top.lean ====
import proofs.«900577_g7700000000000578_dist_mlpseq_tp1dT_cs_cs_b512_d256_h512_v7x_i8_f32_1_alg».proof.Proof.Compose
import proofs.«900577_g7700000000000578_dist_mlpseq_tp1dT_cs_cs_b512_d256_h512_v7x_i8_f32_1_alg».proof.Proof.Rest
import proofs.«900577_g7700000000000578_dist_mlpseq_tp1dT_cs_cs_b512_d256_h512_v7x_i8_f32_1_alg».proof.Proof.Part01
import proofs.«900577_g7700000000000578_dist_mlpseq_tp1dT_cs_cs_b512_d256_h512_v7x_i8_f32_1_alg».proof.Proof.Part02
import proofs.«900577_g7700000000000578_dist_mlpseq_tp1dT_cs_cs_b512_d256_h512_v7x_i8_f32_1_alg».proof.Proof.Part03
import proofs.«900577_g7700000000000578_dist_mlpseq_tp1dT_cs_cs_b512_d256_h512_v7x_i8_f32_1_alg».proof.Proof.Part04
import proofs.«900577_g7700000000000578_dist_mlpseq_tp1dT_cs_cs_b512_d256_h512_v7x_i8_f32_1_alg».proof.Proof.Part05
import proofs.«900577_g7700000000000578_dist_mlpseq_tp1dT_cs_cs_b512_d256_h512_v7x_i8_f32_1_alg».proof.Proof.Part06
import proofs.«900577_g7700000000000578_dist_mlpseq_tp1dT_cs_cs_b512_d256_h512_v7x_i8_f32_1_alg».proof.Proof.Part07
import proofs.«900577_g7700000000000578_dist_mlpseq_tp1dT_cs_cs_b512_d256_h512_v7x_i8_f32_1_alg».proof.Proof.Part08
import proofs.«900577_g7700000000000578_dist_mlpseq_tp1dT_cs_cs_b512_d256_h512_v7x_i8_f32_1_alg».proof.Proof.Part09
import proofs.«900577_g7700000000000578_dist_mlpseq_tp1dT_cs_cs_b512_d256_h512_v7x_i8_f32_1_alg».proof.Proof.Part10
import proofs.«900577_g7700000000000578_dist_mlpseq_tp1dT_cs_cs_b512_d256_h512_v7x_i8_f32_1_alg».proof.Proof.Part11
import proofs.«900577_g7700000000000578_dist_mlpseq_tp1dT_cs_cs_b512_d256_h512_v7x_i8_f32_1_alg».proof.Proof.Part12
import proofs.«900577_g7700000000000578_dist_mlpseq_tp1dT_cs_cs_b512_d256_h512_v7x_i8_f32_1_alg».proof.Proof.SegC
import proofs.«900577_g7700000000000578_dist_mlpseq_tp1dT_cs_cs_b512_d256_h512_v7x_i8_f32_1_alg».proof.Proof.SegD
import proofs.«900577_g7700000000000578_dist_mlpseq_tp1dT_cs_cs_b512_d256_h512_v7x_i8_f32_1_alg».proof.Proof.SegE
import proofs.«900577_g7700000000000578_dist_mlpseq_tp1dT_cs_cs_b512_d256_h512_v7x_i8_f32_1_alg».proof.Proof.SegF
import proofs.«900577_g7700000000000578_dist_mlpseq_tp1dT_cs_cs_b512_d256_h512_v7x_i8_f32_1_alg».proof.Proof.SegG
import proofs.«900577_g7700000000000578_dist_mlpseq_tp1dT_cs_cs_b512_d256_h512_v7x_i8_f32_1_alg».proof.Proof.EndJoin
import proofs.«900577_g7700000000000578_dist_mlpseq_tp1dT_cs_cs_b512_d256_h512_v7x_i8_f32_1_alg».proof.Proof.Rejoin
import proofs.«900577_g7700000000000578_dist_mlpseq_tp1dT_cs_cs_b512_d256_h512_v7x_i8_f32_1_alg».proof.Proof.RecvJoin

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

namespace Top

theorem barPay_own (c : Dev nD) (k : Fin 8) : (barPay (F := F) (px c k) k : sProp 𝕄) =
    iprop((∃ f, slotPts c (Memref.whole cc0_scratch1) k f) ∗ (∃ f, slotPts c (Memref.whole cc0_scratch3) k f) ∗ (∃ f, slotPts c (Memref.whole cc0_scratch6) k f)
      ∗ (∃ f, slotPts c (Memref.whole cc0_scratch4) (px c k) f) ∗ (∃ f, slotPts c (Memref.whole cc0_scratch7) (px c k) f) ∗ (∃ f, slotPts c (Memref.whole cc0_scratch11) (px c k) f)
      ∗ reached ER (xCell c 1 k) 0 ∗ reached ER (xCell c 3 k) 0 ∗ reached ER (xCell c 5 k) 0
      ∗ reached ER (xCell c 7 k) 0 ∗ reached ER (xCell c 9 k) 0 ∗ reached ER (xCell c 11 k) 0) := by
  unfold barPay; rw [px_px]

theorem barPay_intro (K : Dev nD × CIx → ℕ) (c : Dev nD) (j : Fin 7)
    (f1 : cc0_scratch1.ty.Contents (Elt F)) (f3 : cc0_scratch3.ty.Contents (Elt F)) (f6 : cc0_scratch6.ty.Contents (Elt F))
    (f4 : cc0_scratch4.ty.Contents (Elt F)) (f7 : cc0_scratch7.ty.Contents (Elt F)) (f11 : cc0_scratch11.ty.Contents (Elt F)) :
    iprop(records m K ∗ slotPts c (Memref.whole cc0_scratch1) j.succ f1 ∗ slotPts c (Memref.whole cc0_scratch3) j.succ f3 ∗ slotPts c (Memref.whole cc0_scratch6) j.succ f6
      ∗ slotPts c (Memref.whole cc0_scratch4) (px c j.succ) f4 ∗ slotPts c (Memref.whole cc0_scratch7) (px c j.succ) f7 ∗ slotPts c (Memref.whole cc0_scratch11) (px c j.succ) f11)
      ⊢ barPay (px c j.succ) j.succ := by
  rw [barPay_own]
  iintro ⟨#HR, H1, H3, H6, H4, H7, H11⟩
  isplitl [H1]; · iexists f1; iexact H1
  isplitl [H3]; · iexists f3; iexact H3
  isplitl [H6]; · iexists f6; iexact H6
  isplitl [H4]; · iexists f4; iexact H4
  isplitl [H7]; · iexists f7; iexact H7
  isplitl [H11]; · iexists f11; iexact H11
  isplitr; · iapply (reached_at m K (c, some (1, j))); iexact HR
  isplitr; · iapply (reached_at m K (c, some (3, j))); iexact HR
  isplitr; · iapply (reached_at m K (c, some (5, j))); iexact HR
  isplitr; · iapply (reached_at m K (c, some (7, j))); iexact HR
  isplitr; · iapply (reached_at m K (c, some (9, j))); iexact HR
  iapply (reached_at m K (c, some (11, j))); iexact HR

-- A stack held whole is its eight slots, one after the other.
theorem whole_flat (c : Dev nD) (M : Memref sig .tc .vmem S8x64x512 .bf16) (hM : M.IsWhole) (f : Buf (Elt F) (M.view.loc (c : Thread nD τ))) :
    (M.view.loc (c : Thread nD τ) ↦{fullShare} f : sProp 𝕄)
      = iprop(slotPts c M 0 f ∗ slotPts c M 1 f ∗ slotPts c M 2 f ∗ slotPts c M 3 f ∗ slotPts c M 4 f ∗ slotPts c M 5 f ∗ slotPts c M 6 f ∗ slotPts c M 7 f) :=
  (slots_whole_eq c M hM f).trans (slots_flat c M f)

def κown (K : Dev nD × CIx → ℕ) (c : Dev nD) (a : Fin 12) : Fin 8 → ℕ := fun k => K (c, some (a, ⟨k.val - 1, by omega⟩))
def κpeer (K : Dev nD × CIx → ℕ) (c : Dev nD) (a : Fin 12) : Fin 8 → ℕ := fun k => K (px c k, some (a, ⟨k.val - 1, by omega⟩))

theorem erase0_flat (Φ : Fin 8 → sProp 𝕄) :
    bigSep (Finset.univ.erase (0 : Fin 8)) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

theorem copy_facts (K : Dev nD × CIx → ℕ) (c : Dev nD) (a a' : Fin 12) (k : Fin 8) (j : Fin 7) (hk : k = j.succ) :
    records m K ⊢ iprop(cellInv ER (sched m) (κown K c a k) (xCell c a k)
      ∗ cellInv ER (sched m) (κpeer K c a' k) (xCell (px c k) a' k)
      ∗ reached ER (xCell c a k) 0 ∗ reached ER (xCell (px c k) a' k) 0) := by
  subst hk
  iintro #HR
  isplitr; · iapply (inv_at m K (c, some (a, j))); iexact HR
  isplitr; · iapply (inv_at m K (px c j.succ, some (a', j))); iexact HR
  isplitr; · iapply (reached_at m K (c, some (a, j))); iexact HR
  iapply (reached_at m K (px c j.succ, some (a', j))); iexact HR

theorem own_inv (K : Dev nD × CIx → ℕ) (c : Dev nD) (a : Fin 12) (k : Fin 8) (j : Fin 7) (hk : k = j.succ) :
    records m K ⊢ cellInv ER (sched m) (κown K c a k) (xCell c a k) := by
  subst hk; exact inv_at m K (c, some (a, j))

theorem posA_flat (c : Dev nD) (a : Fin 12) : (posA c a : sProp 𝕄)
    = iprop(atPos ER (xCell c a 1) 0 ∅ 0 ∗ atPos ER (xCell c a 2) 0 ∅ 0 ∗ atPos ER (xCell c a 3) 0 ∅ 0 ∗ atPos ER (xCell c a 4) 0 ∅ 0
      ∗ atPos ER (xCell c a 5) 0 ∅ 0 ∗ atPos ER (xCell c a 6) 0 ∅ 0 ∗ atPos ER (xCell c a 7) 0 ∅ 0) := by
  unfold posA; rw [fin7_flat]; rfl

theorem tokS_flat (c : Dev nD) (b : Fin 6) (a : Fin 12) (ha : a.val = 2 * b.val) : (tokS c b : sProp 𝕄)
    = iprop(dutyTok ER (xCell c a 1) 0 0 ∗ dutyTok ER (xCell c a 2) 0 0 ∗ dutyTok ER (xCell c a 3) 0 0 ∗ dutyTok ER (xCell c a 4) 0 0
      ∗ dutyTok ER (xCell c a 5) 0 0 ∗ dutyTok ER (xCell c a 6) 0 0 ∗ dutyTok ER (xCell c a 7) 0 0) := by
  have hb : 2 * b.val < 12 := by have := b.isLt; clear ha; omega
  obtain rfl : a = ⟨2 * b.val, hb⟩ := Fin.ext ha
  unfold tokS; rw [fin7_flat]; rfl

theorem tokR_flat (c : Dev nD) (b : Fin 6) (a : Fin 12) (ha : a.val = 2 * b.val + 1) : (tokR c b : sProp 𝕄)
    = iprop(dutyTok ER (xCell (px c 1) a 1) 0 0 ∗ dutyTok ER (xCell (px c 2) a 2) 0 0 ∗ dutyTok ER (xCell (px c 3) a 3) 0 0
      ∗ dutyTok ER (xCell (px c 4) a 4) 0 0 ∗ dutyTok ER (xCell (px c 5) a 5) 0 0 ∗ dutyTok ER (xCell (px c 6) a 6) 0 0
      ∗ dutyTok ER (xCell (px c 7) a 7) 0 0) := by
  have hb : 2 * b.val + 1 < 12 := by have := b.isLt; clear ha; omega
  obtain rfl : a = ⟨2 * b.val + 1, hb⟩ := Fin.ext ha
  unfold tokR; rw [fin7_flat]; rfl

theorem credR_flat (c : Dev nD) (b : Fin 6) (a : Fin 12) (ha : a.val = 2 * b.val + 1) : (credR c b : sProp 𝕄)
    = iprop(cred (tallyAt (xCell c a 1) () N) ∗ cred (tallyAt (xCell c a 2) () N) ∗ cred (tallyAt (xCell c a 3) () N)
      ∗ cred (tallyAt (xCell c a 4) () N) ∗ cred (tallyAt (xCell c a 5) () N) ∗ cred (tallyAt (xCell c a 6) () N)
      ∗ cred (tallyAt (xCell c a 7) () N)) := by
  have hb : 2 * b.val + 1 < 12 := by have := b.isLt; clear ha; omega
  obtain rfl : a = ⟨2 * b.val + 1, hb⟩ := Fin.ext ha
  unfold credR; rw [fin7_flat]; rfl

end Top

open Top

set_option maxHeartbeats 4000000 in
theorem body_run (c : Dev nD) (Kt : PUnit → sProp 𝕄) :
    iprop(bodyPre m ρ c ∗ (bodyPost m ρ c -∗ Kt ⟨⟩))
      ⊢ wp frame (wpE (defs₀ (F := F)) 𝒱₀ c none) Set.univ (bodyAt0 (F := F) t₀) Kt := by
  iintro ⟨Hpre, Hk⟩
  ihave Hf := (prologue m ρ c) $$ Hpre
  icases Hf with ⟨%K, %W, Hf⟩
  unfold flat₀
  icases Hf with ⟨#HR, #Hlev, ⟨HpB, Hp0, Hp1, Hp2, Hp3, Hp4, Hp5, Hp6, Hp7, Hp8, Hp9, Hp10, Hp11⟩, ⟨HtB, ⟨HtS0, HtS1, HtS2, HtS3, HtS4, HtS5⟩, ⟨HtR0, HtR1, HtR2, HtR3, HtR4, HtR5⟩⟩, ⟨Hz, HL0, HL1, HL2, HL3, HL4, HL5, HL6⟩, ⟨HcB, Hc0, Hc1, Hc2, Hc3, Hc4, Hc5⟩, ⟨A0, A1, A2, A3, A4, A5, A6⟩, ⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩⟩, HO, ⟨%fstg, Hstg⟩⟩
  unfold bodyAt0
  rw [cc0_body_eq_skeleton]; unfold cc0_body_skel
  rw [wp_bind, k0_part42_eq_skeleton, skel42_eq]
  have h1 := part01 (F := F) m c
  set_option sl_exec.maxSteps 2 in
  sl_exec
  cases hk0_part1_0

  ihave X1 := (Entails.of_eq (whole_flat c (Memref.whole cc0_scratch1) (Memref.isWhole_whole _) f1)) $$ S1
  icases X1 with ⟨S1_0, S1_1, S1_2, S1_3, S1_4, S1_5, S1_6, S1_7⟩
  ihave X3 := (Entails.of_eq (whole_flat c (Memref.whole cc0_scratch3) (Memref.isWhole_whole _) f3)) $$ S3
  icases X3 with ⟨S3_0, S3_1, S3_2, S3_3, S3_4, S3_5, S3_6, S3_7⟩
  ihave X6 := (Entails.of_eq (whole_flat c (Memref.whole cc0_scratch6) (Memref.isWhole_whole _) f6)) $$ S6
  icases X6 with ⟨S6_0, S6_1, S6_2, S6_3, S6_4, S6_5, S6_6, S6_7⟩
  ihave X4 := (Entails.of_eq (whole_peers c (Memref.whole cc0_scratch4) (Memref.isWhole_whole _) f4)) $$ S4
  icases X4 with ⟨S4_c, S4_1, S4_2, S4_3, S4_4, S4_5, S4_6, S4_7⟩
  ihave X7 := (Entails.of_eq (whole_peers c (Memref.whole cc0_scratch7) (Memref.isWhole_whole _) f7)) $$ S7
  icases X7 with ⟨S7_c, S7_1, S7_2, S7_3, S7_4, S7_5, S7_6, S7_7⟩
  ihave X11 := (Entails.of_eq (whole_peers c (Memref.whole cc0_scratch11) (Memref.isWhole_whole _) f11)) $$ S11
  icases X11 with ⟨S11_c, S11_1, S11_2, S11_3, S11_4, S11_5, S11_6, S11_7⟩
  ihave BP1 := (barPay_intro m K c 0 f1 f3 f6 f4 f7 f11) $$ [S1_1 S3_1 S6_1 S4_1 S7_1 S11_1]
  · sl_close
  ihave BP2 := (barPay_intro m K c 1 f1 f3 f6 f4 f7 f11) $$ [S1_2 S3_2 S6_2 S4_2 S7_2 S11_2]
  · sl_close
  ihave BP3 := (barPay_intro m K c 2 f1 f3 f6 f4 f7 f11) $$ [S1_3 S3_3 S6_3 S4_3 S7_3 S11_3]
  · sl_close
  ihave BP4 := (barPay_intro m K c 3 f1 f3 f6 f4 f7 f11) $$ [S1_4 S3_4 S6_4 S4_4 S7_4 S11_4]
  · sl_close
  ihave BP5 := (barPay_intro m K c 4 f1 f3 f6 f4 f7 f11) $$ [S1_5 S3_5 S6_5 S4_5 S7_5 S11_5]
  · sl_close
  ihave BP6 := (barPay_intro m K c 5 f1 f3 f6 f4 f7 f11) $$ [S1_6 S3_6 S6_6 S4_6 S7_6 S11_6]
  · sl_close
  ihave BP7 := (barPay_intro m K c 6 f1 f3 f6 f4 f7 f11) $$ [S1_7 S3_7 S6_7 S4_7 S7_7 S11_7]
  · sl_close

  unfold tokB
  ihave TB := (Entails.of_eq (fin7_flat fun j : Fin 7 => (dutyTok ER (barCell (px c j.succ)) 0 j.succ : sProp 𝕄))) $$ HtB
  icases TB with ⟨TB1, TB2, TB3, TB4, TB5, TB6, TB7⟩
  ihave IB1 := (inv_at m K (px c 1, none)) $$ HR
  ihave RB1 := (reached_at m K (px c 1, none)) $$ HR
  ihave IB2 := (inv_at m K (px c 2, none)) $$ HR
  ihave RB2 := (reached_at m K (px c 2, none)) $$ HR
  ihave IB3 := (inv_at m K (px c 3, none)) $$ HR
  ihave RB3 := (reached_at m K (px c 3, none)) $$ HR
  ihave IB4 := (inv_at m K (px c 4, none)) $$ HR
  ihave RB4 := (reached_at m K (px c 4, none)) $$ HR
  ihave IB5 := (inv_at m K (px c 5, none)) $$ HR
  ihave RB5 := (reached_at m K (px c 5, none)) $$ HR
  ihave IB6 := (inv_at m K (px c 6, none)) $$ HR
  ihave RB6 := (reached_at m K (px c 6, none)) $$ HR
  ihave IB7 := (inv_at m K (px c 7, none)) $$ HR
  ihave RB7 := (reached_at m K (px c 7, none)) $$ HR
  have h2 := part02 (F := F) m c
  set_option sl_exec.maxSteps 2 in
  sl_exec
  cases hk0_part2_0

  ihave IBc := (inv_at m K (c, none)) $$ HR
  have h3 := part03 (F := F) m c
  set_option sl_exec.maxSteps 2 in
  sl_exec
  cases hk0_part3_0

  ihave BPs := (Entails.of_eq (erase0_flat fun k : Fin 8 => (barPay (F := F) c k : sProp 𝕄))) $$ Hk0_part3_4
  icases BPs with ⟨Q1, Q2, Q3, Q4, Q5, Q6, Q7⟩
  unfold barPay
  icases Q1 with ⟨⟨%a1_1, P1_1⟩, ⟨%a3_1, P3_1⟩, ⟨%a6_1, P6_1⟩, ⟨%a4_1, P4_1⟩, ⟨%a7_1, P7_1⟩, ⟨%a11_1, P11_1⟩, -, -, -, -, -, -⟩
  icases Q2 with ⟨⟨%a1_2, P1_2⟩, ⟨%a3_2, P3_2⟩, ⟨%a6_2, P6_2⟩, ⟨%a4_2, P4_2⟩, ⟨%a7_2, P7_2⟩, ⟨%a11_2, P11_2⟩, -, -, -, -, -, -⟩
  icases Q3 with ⟨⟨%a1_3, P1_3⟩, ⟨%a3_3, P3_3⟩, ⟨%a6_3, P6_3⟩, ⟨%a4_3, P4_3⟩, ⟨%a7_3, P7_3⟩, ⟨%a11_3, P11_3⟩, -, -, -, -, -, -⟩
  icases Q4 with ⟨⟨%a1_4, P1_4⟩, ⟨%a3_4, P3_4⟩, ⟨%a6_4, P6_4⟩, ⟨%a4_4, P4_4⟩, ⟨%a7_4, P7_4⟩, ⟨%a11_4, P11_4⟩, -, -, -, -, -, -⟩
  icases Q5 with ⟨⟨%a1_5, P1_5⟩, ⟨%a3_5, P3_5⟩, ⟨%a6_5, P6_5⟩, ⟨%a4_5, P4_5⟩, ⟨%a7_5, P7_5⟩, ⟨%a11_5, P11_5⟩, -, -, -, -, -, -⟩
  icases Q6 with ⟨⟨%a1_6, P1_6⟩, ⟨%a3_6, P3_6⟩, ⟨%a6_6, P6_6⟩, ⟨%a4_6, P4_6⟩, ⟨%a7_6, P7_6⟩, ⟨%a11_6, P11_6⟩, -, -, -, -, -, -⟩
  icases Q7 with ⟨⟨%a1_7, P1_7⟩, ⟨%a3_7, P3_7⟩, ⟨%a6_7, P6_7⟩, ⟨%a4_7, P4_7⟩, ⟨%a7_7, P7_7⟩, ⟨%a11_7, P11_7⟩, -, -, -, -, -, -⟩

  ihave X2 := (Entails.of_eq (whole_peers c (Memref.whole cc0_scratch2) (Memref.isWhole_whole _) (part1 m c))) $$ Hk0_part3_11
  icases X2 with ⟨S2_c, S2_1, S2_2, S2_3, S2_4, S2_5, S2_6, S2_7⟩
  ihave TS1 := (Entails.of_eq (tokS_flat c 1 2 rfl)) $$ HtS1
  icases TS1 with ⟨TS2_1, TS2_2, TS2_3, TS2_4, TS2_5, TS2_6, TS2_7⟩
  ihave TR1 := (Entails.of_eq (tokR_flat c 1 3 rfl)) $$ HtR1
  icases TR1 with ⟨TR3_1, TR3_2, TR3_3, TR3_4, TR3_5, TR3_6, TR3_7⟩
  ihave CF := (copy_facts m K c 2 3 1 0 rfl) $$ HR
  icases CF with ⟨#Is2_1, #Ir3_1, #Rs2_1, #Rr3_1⟩
  ihave CF := (copy_facts m K c 2 3 2 1 rfl) $$ HR
  icases CF with ⟨#Is2_2, #Ir3_2, #Rs2_2, #Rr3_2⟩
  ihave CF := (copy_facts m K c 2 3 3 2 rfl) $$ HR
  icases CF with ⟨#Is2_3, #Ir3_3, #Rs2_3, #Rr3_3⟩
  ihave CF := (copy_facts m K c 2 3 4 3 rfl) $$ HR
  icases CF with ⟨#Is2_4, #Ir3_4, #Rs2_4, #Rr3_4⟩
  ihave CF := (copy_facts m K c 2 3 5 4 rfl) $$ HR
  icases CF with ⟨#Is2_5, #Ir3_5, #Rs2_5, #Rr3_5⟩
  ihave CF := (copy_facts m K c 2 3 6 5 rfl) $$ HR
  icases CF with ⟨#Is2_6, #Ir3_6, #Rs2_6, #Rr3_6⟩
  ihave CF := (copy_facts m K c 2 3 7 6 rfl) $$ HR
  icases CF with ⟨#Is2_7, #Ir3_7, #Rs2_7, #Rr3_7⟩
  have h4 := part04 (F := F) m c (v2w c) (κown K c 2) (κpeer K c 3)
  set_option sl_exec.maxSteps 2 in
  sl_exec
  cases hk0_part4_0
  have h5 := part05 (F := F) m c (v2w c) (κown K c 2) (κpeer K c 3)
  set_option sl_exec.maxSteps 2 in
  sl_exec
  cases hk0_part5_0
  have h6 := part06 (F := F) m c (v2w c) (Scalar.xori (v2w c) 4#32) f5 f13 f14 (κown K c 2) (κpeer K c 3)
  set_option sl_exec.maxSteps 2 in
  sl_exec
  cases hk0_part6_0

  ihave X5 := (Entails.of_eq (whole_peers c (Memref.whole cc0_scratch5) (Memref.isWhole_whole _) (part2 m c))) $$ Hk0_part6_9
  icases X5 with ⟨S5_c, S5_1, S5_2, S5_3, S5_4, S5_5, S5_6, S5_7⟩
  ihave TS2 := (Entails.of_eq (tokS_flat c 2 4 rfl)) $$ HtS2
  icases TS2 with ⟨TS4_1, TS4_2, TS4_3, TS4_4, TS4_5, TS4_6, TS4_7⟩
  ihave TR2 := (Entails.of_eq (tokR_flat c 2 5 rfl)) $$ HtR2
  icases TR2 with ⟨TR5_1, TR5_2, TR5_3, TR5_4, TR5_5, TR5_6, TR5_7⟩
  ihave CF := (copy_facts m K c 4 5 1 0 rfl) $$ HR
  icases CF with ⟨#Is4_1, #Ir5_1, #Rs4_1, #Rr5_1⟩
  ihave CF := (copy_facts m K c 4 5 2 1 rfl) $$ HR
  icases CF with ⟨#Is4_2, #Ir5_2, #Rs4_2, #Rr5_2⟩
  ihave CF := (copy_facts m K c 4 5 3 2 rfl) $$ HR
  icases CF with ⟨#Is4_3, #Ir5_3, #Rs4_3, #Rr5_3⟩
  ihave CF := (copy_facts m K c 4 5 4 3 rfl) $$ HR
  icases CF with ⟨#Is4_4, #Ir5_4, #Rs4_4, #Rr5_4⟩
  ihave CF := (copy_facts m K c 4 5 5 4 rfl) $$ HR
  icases CF with ⟨#Is4_5, #Ir5_5, #Rs4_5, #Rr5_5⟩
  ihave CF := (copy_facts m K c 4 5 6 5 rfl) $$ HR
  icases CF with ⟨#Is4_6, #Ir5_6, #Rs4_6, #Rr5_6⟩
  ihave CF := (copy_facts m K c 4 5 7 6 rfl) $$ HR
  icases CF with ⟨#Is4_7, #Ir5_7, #Rs4_7, #Rr5_7⟩
  have h7 := part07 (F := F) m c (v2w c) (Scalar.xori (v2w c) 6#32) (κown K c 4) (κpeer K c 5)
  set_option sl_exec.maxSteps 2 in
  sl_exec
  cases hk0_part7_0
  have h8 := part08 (F := F) m c (v2w c) (κown K c 4) (κpeer K c 5)
  set_option sl_exec.maxSteps 2 in
  sl_exec
  cases hk0_part8_0
  have h9 := part09 (F := F) m c (v2w c) (κown K c 4) (κpeer K c 5)
  set_option sl_exec.maxSteps 2 in
  sl_exec
  cases hk0_part9_0

  ihave TS0 := (Entails.of_eq (tokS_flat c 0 0 rfl)) $$ HtS0
  icases TS0 with ⟨TS0_1, TS0_2, TS0_3, TS0_4, TS0_5, TS0_6, TS0_7⟩
  ihave TR0 := (Entails.of_eq (tokR_flat c 0 1 rfl)) $$ HtR0
  icases TR0 with ⟨TR1_1, TR1_2, TR1_3, TR1_4, TR1_5, TR1_6, TR1_7⟩
  ihave CF := (copy_facts m K c 0 1 1 0 rfl) $$ HR
  icases CF with ⟨#Is0_1, #Ir1_1, #Rs0_1, #Rr1_1⟩
  ihave CF := (copy_facts m K c 0 1 2 1 rfl) $$ HR
  icases CF with ⟨#Is0_2, #Ir1_2, #Rs0_2, #Rr1_2⟩
  ihave CF := (copy_facts m K c 0 1 3 2 rfl) $$ HR
  icases CF with ⟨#Is0_3, #Ir1_3, #Rs0_3, #Rr1_3⟩
  ihave CF := (copy_facts m K c 0 1 4 3 rfl) $$ HR
  icases CF with ⟨#Is0_4, #Ir1_4, #Rs0_4, #Rr1_4⟩
  ihave CF := (copy_facts m K c 0 1 5 4 rfl) $$ HR
  icases CF with ⟨#Is0_5, #Ir1_5, #Rs0_5, #Rr1_5⟩
  ihave CF := (copy_facts m K c 0 1 6 5 rfl) $$ HR
  icases CF with ⟨#Is0_6, #Ir1_6, #Rs0_6, #Rr1_6⟩
  ihave CF := (copy_facts m K c 0 1 7 6 rfl) $$ HR
  icases CF with ⟨#Is0_7, #Ir1_7, #Rs0_7, #Rr1_7⟩
  have h10 := part10 (F := F) m c (v2w c) (κown K c 0) (κpeer K c 1)
  set_option sl_exec.maxSteps 2 in
  sl_exec
  cases hk0_part10_0
  have h11 := part11 (F := F) m c (v2w c) (κown K c 0) (κpeer K c 1)
  set_option sl_exec.maxSteps 2 in
  sl_exec
  cases hk0_part11_0

  ihave CR1 := (Entails.of_eq (credR_flat c 1 3 rfl)) $$ Hc1
  icases CR1 with ⟨C3_1, C3_2, C3_3, C3_4, C3_5, C3_6, C3_7⟩
  ihave PA3 := (Entails.of_eq (posA_flat c 3)) $$ Hp3
  icases PA3 with ⟨O3_1, O3_2, O3_3, O3_4, O3_5, O3_6, O3_7⟩
  ihave I3_1 := (own_inv m K c 3 1 0 rfl) $$ HR
  ihave I3_2 := (own_inv m K c 3 2 1 rfl) $$ HR
  ihave I3_3 := (own_inv m K c 3 3 2 rfl) $$ HR
  ihave I3_4 := (own_inv m K c 3 4 3 rfl) $$ HR
  ihave I3_5 := (own_inv m K c 3 5 4 rfl) $$ HR
  ihave I3_6 := (own_inv m K c 3 6 5 rfl) $$ HR
  ihave I3_7 := (own_inv m K c 3 7 6 rfl) $$ HR

  iapply (exec_cut_last frame _ Set.univ (part12 (F := F) m c (v2w c) (Scalar.xori (v2w c) 1#32) (Scalar.muli (Scalar.xori (v2w c) 3#32) 1#32) 0#32 (κown K c 0) (κpeer K c 1) (κown K c 3 1) _)) $$ [Hk0_part10_6 P1_3 TS0_3 TR1_3 Hk0_part10_7 P1_4 TS0_4 TR1_4 Hk0_part11_4 S2_c C3_1 O3_1]
  · sl_close
  iintro %r12 HQ12
  icases HQ12 with ⟨%hr12, C0_3, C0_4, ⟨%W12, HO12⟩, S2_c, S3_1, Z3_1⟩
  subst hr12

  ihave TS3 := (Entails.of_eq (tokS_flat c 3 6 rfl)) $$ HtS3
  icases TS3 with ⟨TS6_1, TS6_2, TS6_3, TS6_4, TS6_5, TS6_6, TS6_7⟩
  ihave TR3 := (Entails.of_eq (tokR_flat c 3 7 rfl)) $$ HtR3
  icases TR3 with ⟨TR7_1, TR7_2, TR7_3, TR7_4, TR7_5, TR7_6, TR7_7⟩
  ihave CF := (copy_facts m K c 6 7 1 0 rfl) $$ HR
  icases CF with ⟨#Is6_1, #Ir7_1, #Rs6_1, #Rr7_1⟩
  ihave CF := (copy_facts m K c 6 7 2 1 rfl) $$ HR
  icases CF with ⟨#Is6_2, #Ir7_2, #Rs6_2, #Rr7_2⟩
  ihave CF := (copy_facts m K c 6 7 3 2 rfl) $$ HR
  icases CF with ⟨#Is6_3, #Ir7_3, #Rs6_3, #Rr7_3⟩
  ihave CF := (copy_facts m K c 6 7 4 3 rfl) $$ HR
  icases CF with ⟨#Is6_4, #Ir7_4, #Rs6_4, #Rr7_4⟩
  ihave CF := (copy_facts m K c 6 7 5 4 rfl) $$ HR
  icases CF with ⟨#Is6_5, #Ir7_5, #Rs6_5, #Rr7_5⟩
  ihave CF := (copy_facts m K c 6 7 6 5 rfl) $$ HR
  icases CF with ⟨#Is6_6, #Ir7_6, #Rs6_6, #Rr7_6⟩
  ihave CF := (copy_facts m K c 6 7 7 6 rfl) $$ HR
  icases CF with ⟨#Is6_7, #Ir7_7, #Rs6_7, #Rr7_7⟩
  iapply (segC (F := F) m c (κown K c 3) (κown K c 6) (κpeer K c 7) W12 f4 f8 _ _ _ _ _ _ _ _ _ _ _ _ _ _ _ _ _ _ _ _ _ _)
  isplitl [HO12 C3_2 C3_3 C3_4 C3_5 C3_6 C3_7 O3_2 O3_3 O3_4 O3_5 O3_6 O3_7 S3_1 S4_c S8 S5_c TS6_1 TS6_2 TS6_3 TS6_4 TS6_5 TS6_6 TS6_7 TR7_1 TR7_2 TR7_3 TR7_4 TR7_5 TR7_6 TR7_7 P4_1 P4_2 P4_3 P4_4 P4_5 P4_6 P4_7]
  · unfold segC_R
    sl_close
  iintro PostC
  unfold segC_Post
  icases PostC with ⟨⟨S3_1, S3_3, S3_4, Z3_3, Z3_4⟩, ⟨S3_2, S3_5, Z3_2, Z3_5⟩, ⟨S3_7, S3_6, Z3_7, Z3_6, S4_cc⟩, Ch8_0, ⟨C6_6, C6_2, C6_5, C6_7⟩, ⟨C6_1, C6_3, C6_4, ⟨%W35, HO35⟩, S5_cc⟩⟩

  ihave CR2 := (Entails.of_eq (credR_flat c 2 5 rfl)) $$ Hc2
  icases CR2 with ⟨C5_1, C5_2, C5_3, C5_4, C5_5, C5_6, C5_7⟩
  ihave PA5 := (Entails.of_eq (posA_flat c 5)) $$ Hp5
  icases PA5 with ⟨O5_1, O5_2, O5_3, O5_4, O5_5, O5_6, O5_7⟩
  ihave TS4 := (Entails.of_eq (tokS_flat c 4 8 rfl)) $$ HtS4
  icases TS4 with ⟨TS8_1, TS8_2, TS8_3, TS8_4, TS8_5, TS8_6, TS8_7⟩
  ihave TR4 := (Entails.of_eq (tokR_flat c 4 9 rfl)) $$ HtR4
  icases TR4 with ⟨TR9_1, TR9_2, TR9_3, TR9_4, TR9_5, TR9_6, TR9_7⟩
  iapply (segD (F := F) m K c _ _ _ _ _ _ _ _ _ _ _ _ _ _ _ _ _ _ _ _ _ _ _ _)
  isplitl [C5_1 C5_2 C5_3 C5_4 C5_5 C5_6 C5_7 O5_1 O5_2 O5_3 O5_4 O5_5 O5_6 O5_7 TS8_1 TS8_2 TS8_3 TS8_5 TS8_6 TS8_7 TR9_1 TR9_2 TR9_3 TR9_5 TR9_6 TR9_7 P7_1 P7_2 P7_3 P7_5 P7_6 P7_7 S7_c S9 HO35]
  · unfold segD_pre
    sl_close
  iintro PostD
  unfold segD_post
  icases PostD with ⟨⟨S6_1, S6_2, S6_3, S6_4, S6_5, S6_6, S6_7⟩, ⟨Z5_1, Z5_2, Z5_3, Z5_4, Z5_5, Z5_6, Z5_7⟩, S7_cc, ⟨C8_1, C8_2, C8_3, C8_5, C8_6, C8_7⟩, ⟨Ch9_0, Ch9_4⟩, ⟨%W41, HO41⟩⟩

  ihave CF := (copy_facts m K c 8 9 4 3 rfl) $$ HR
  icases CF with ⟨#Is8_4, #Ir9_4, #Rs8_4, #Rr9_4⟩
  ihave CR0 := (Entails.of_eq (credR_flat c 0 1 rfl)) $$ Hc0
  icases CR0 with ⟨C1_1, C1_2, C1_3, C1_4, C1_5, C1_6, C1_7⟩
  ihave PA1 := (Entails.of_eq (posA_flat c 1)) $$ Hp1
  icases PA1 with ⟨O1_1, O1_2, O1_3, O1_4, O1_5, O1_6, O1_7⟩
  ihave CR3 := (Entails.of_eq (credR_flat c 3 7 rfl)) $$ Hc3
  icases CR3 with ⟨C7_1, C7_2, C7_3, C7_4, C7_5, C7_6, C7_7⟩
  ihave PA7 := (Entails.of_eq (posA_flat c 7)) $$ Hp7
  icases PA7 with ⟨O7_1, O7_2, O7_3, O7_4, O7_5, O7_6, O7_7⟩
  ihave I1_1 := (own_inv m K c 1 1 0 rfl) $$ HR
  ihave I1_2 := (own_inv m K c 1 2 1 rfl) $$ HR
  ihave I1_3 := (own_inv m K c 1 3 2 rfl) $$ HR
  ihave I1_4 := (own_inv m K c 1 4 3 rfl) $$ HR
  ihave I1_5 := (own_inv m K c 1 5 4 rfl) $$ HR
  ihave I1_6 := (own_inv m K c 1 6 5 rfl) $$ HR
  ihave I1_7 := (own_inv m K c 1 7 6 rfl) $$ HR
  ihave I7_1 := (own_inv m K c 7 1 0 rfl) $$ HR
  ihave I7_2 := (own_inv m K c 7 2 1 rfl) $$ HR
  ihave I7_3 := (own_inv m K c 7 3 2 rfl) $$ HR
  ihave I7_4 := (own_inv m K c 7 4 3 rfl) $$ HR
  ihave I7_5 := (own_inv m K c 7 5 4 rfl) $$ HR
  ihave I7_6 := (own_inv m K c 7 6 5 rfl) $$ HR
  ihave I7_7 := (own_inv m K c 7 7 6 rfl) $$ HR
  iapply (segE (F := F) m c _ _ _ _ _ _ _ _ _ _ _ _ _ _ _ _ _ _ _ _ _ _ (κown K c 8 4) (κpeer K c 9 4) (κown K c 1) (κown K c 7) W41 _)
  isplitl [HO41 Ch9_4 P7_4 TS8_4 TR9_4 Hk0_part10_4 C1_1 C1_2 C1_3 C1_4 C1_5 C1_6 C1_7 O1_1 O1_2 O1_3 O1_4 O1_5 O1_6 O1_7 C7_1 C7_2 C7_3 C7_4 C7_5 C7_6 C7_7 O7_1 O7_2 O7_3 O7_4 O7_5 O7_6 O7_7 S4_cc]
  · unfold segEPre
    sl_close
  iintro PostE
  unfold segEPost
  icases PostE with ⟨⟨%W42, HO42⟩, C8_4, S0_c, Z1_1, L1_1, Z1_3, L1_3, Z1_4, L1_4, Z1_2, L1_2, Z1_5, L1_5, Z1_7, L1_7, Z1_6, L1_6, Z7_1, Z7_3, Z7_4, Z7_2, Z7_5, Z7_7, Z7_6, H4full⟩

  ihave CR4 := (Entails.of_eq (credR_flat c 4 9 rfl)) $$ Hc4
  icases CR4 with ⟨C9_1, C9_2, C9_3, C9_4, C9_5, C9_6, C9_7⟩
  ihave PA9 := (Entails.of_eq (posA_flat c 9)) $$ Hp9
  icases PA9 with ⟨O9_1, O9_2, O9_3, O9_4, O9_5, O9_6, O9_7⟩
  ihave CR5 := (Entails.of_eq (credR_flat c 5 11 rfl)) $$ Hc5
  icases CR5 with ⟨C11_1, C11_2, C11_3, C11_4, C11_5, C11_6, C11_7⟩
  ihave PA11 := (Entails.of_eq (posA_flat c 11)) $$ Hp11
  icases PA11 with ⟨O11_1, O11_2, O11_3, O11_4, O11_5, O11_6, O11_7⟩
  ihave PA0 := (Entails.of_eq (posA_flat c 0)) $$ Hp0
  icases PA0 with ⟨O0_1, O0_2, O0_3, O0_4, O0_5, O0_6, O0_7⟩
  ihave TS5 := (Entails.of_eq (tokS_flat c 5 10 rfl)) $$ HtS5
  icases TS5 with ⟨TS10_1, TS10_2, TS10_3, TS10_4, TS10_5, TS10_6, TS10_7⟩
  ihave TR5 := (Entails.of_eq (tokR_flat c 5 11 rfl)) $$ HtR5
  icases TR5 with ⟨TR11_1, TR11_2, TR11_3, TR11_4, TR11_5, TR11_6, TR11_7⟩
  ihave CF := (copy_facts m K c 10 11 1 0 rfl) $$ HR
  icases CF with ⟨#Is10_1, #Ir11_1, #Rs10_1, #Rr11_1⟩
  ihave CF := (copy_facts m K c 10 11 2 1 rfl) $$ HR
  icases CF with ⟨#Is10_2, #Ir11_2, #Rs10_2, #Rr11_2⟩
  ihave CF := (copy_facts m K c 10 11 3 2 rfl) $$ HR
  icases CF with ⟨#Is10_3, #Ir11_3, #Rs10_3, #Rr11_3⟩
  ihave CF := (copy_facts m K c 10 11 4 3 rfl) $$ HR
  icases CF with ⟨#Is10_4, #Ir11_4, #Rs10_4, #Rr11_4⟩
  ihave CF := (copy_facts m K c 10 11 5 4 rfl) $$ HR
  icases CF with ⟨#Is10_5, #Ir11_5, #Rs10_5, #Rr11_5⟩
  ihave CF := (copy_facts m K c 10 11 6 5 rfl) $$ HR
  icases CF with ⟨#Is10_6, #Ir11_6, #Rs10_6, #Rr11_6⟩
  ihave CF := (copy_facts m K c 10 11 7 6 rfl) $$ HR
  icases CF with ⟨#Is10_7, #Ir11_7, #Rs10_7, #Rr11_7⟩
  ihave I9_1 := (own_inv m K c 9 1 0 rfl) $$ HR
  ihave I9_2 := (own_inv m K c 9 2 1 rfl) $$ HR
  ihave I9_3 := (own_inv m K c 9 3 2 rfl) $$ HR
  ihave I9_4 := (own_inv m K c 9 4 3 rfl) $$ HR
  ihave I9_5 := (own_inv m K c 9 5 4 rfl) $$ HR
  ihave I9_6 := (own_inv m K c 9 6 5 rfl) $$ HR
  ihave I9_7 := (own_inv m K c 9 7 6 rfl) $$ HR
  ihave I11_1 := (own_inv m K c 11 1 0 rfl) $$ HR
  ihave I11_2 := (own_inv m K c 11 2 1 rfl) $$ HR
  ihave I11_3 := (own_inv m K c 11 3 2 rfl) $$ HR
  ihave I11_4 := (own_inv m K c 11 4 3 rfl) $$ HR
  ihave I11_5 := (own_inv m K c 11 5 4 rfl) $$ HR
  ihave I11_6 := (own_inv m K c 11 6 5 rfl) $$ HR
  ihave I11_7 := (own_inv m K c 11 7 6 rfl) $$ HR
  iapply (segF (F := F) m c f14 (κa1 := κown K c 9 1) (κa3 := κown K c 9 3) (κa4 := κown K c 9 4) (κa2 := κown K c 9 2) (κa5 := κown K c 9 5) (κa7 := κown K c 9 7) (κa6 := κown K c 9 6)
    (κs6 := κown K c 10 6) (κr6 := κpeer K c 11 6) (κs2 := κown K c 10 2) (κr2 := κpeer K c 11 2) (κs5 := κown K c 10 5) (κr5 := κpeer K c 11 5) (κs7 := κown K c 10 7) (κr7 := κpeer K c 11 7)
    (κs1 := κown K c 10 1) (κr1 := κpeer K c 11 1) (κs3 := κown K c 10 3) (κr3 := κpeer K c 11 3) (κs4 := κown K c 10 4) (κr4 := κpeer K c 11 4)
    (κw1 := κown K c 11 1) (κw3 := κown K c 11 3) (κw4 := κown K c 11 4) (κw2 := κown K c 11 2) (κw5 := κown K c 11 5) (κw7 := κown K c 11 7) (κw6 := κown K c 11 6)
    (κz := κown K c 0 6) _ _ _ _ _ _ _ _)
  isplitl [HO42 C9_1 C9_2 C9_3 C9_4 C9_5 C9_6 C9_7 O9_1 O9_2 O9_3 O9_4 O9_5 O9_6 O9_7 S7_cc S10 S11_c P11_1 P11_2 P11_3 P11_4 P11_5 P11_6 P11_7 TS10_1 TS10_2 TS10_3 TS10_4 TS10_5 TS10_6 TS10_7 TR11_1 TR11_2 TR11_3 TR11_4 TR11_5 TR11_6 TR11_7 C11_1 C11_2 C11_3 C11_4 C11_5 C11_6 C11_7 O11_1 O11_2 O11_3 O11_4 O11_5 O11_6 O11_7 Hk0_part2_1 Hstg Hk0_part10_1 O0_6]
  · unfold RF waitF copyF
    sl_close
  iintro PostFh
  unfold PostF
  icases PostFh with ⟨⟨%W49, HO49⟩, Z9_1, Z9_3, Z9_4, Z9_2, Z9_5, Z9_7, Z9_6, H7full, Ch10_0, C10_6, C10_2, C10_5, C10_7, C10_1, C10_3, C10_4, Z11_1, Z11_3, Z11_4, Z11_2, Z11_5, Z11_7, Z11_6, H11full, ZL6, Wov2, Lent6, HstgOut, Z0_6, S0_6⟩

  ihave PA2 := (Entails.of_eq (posA_flat c 2)) $$ Hp2
  icases PA2 with ⟨O2_1, O2_2, O2_3, O2_4, O2_5, O2_6, O2_7⟩
  ihave PA4 := (Entails.of_eq (posA_flat c 4)) $$ Hp4
  icases PA4 with ⟨O4_1, O4_2, O4_3, O4_4, O4_5, O4_6, O4_7⟩
  ihave PA6 := (Entails.of_eq (posA_flat c 6)) $$ Hp6
  icases PA6 with ⟨O6_1, O6_2, O6_3, O6_4, O6_5, O6_6, O6_7⟩
  ihave PA8 := (Entails.of_eq (posA_flat c 8)) $$ Hp8
  icases PA8 with ⟨O8_1, O8_2, O8_3, O8_4, O8_5, O8_6, O8_7⟩
  ihave PA10 := (Entails.of_eq (posA_flat c 10)) $$ Hp10
  icases PA10 with ⟨O10_1, O10_2, O10_3, O10_4, O10_5, O10_6, O10_7⟩
  iapply (exec_cut_last frame _ Set.univ (segG (F := F) m K c W49)) $$ [HO49 Hk0_part10_2 O0_2 Hk0_part11_1 O0_5 Hk0_part11_2 O0_7 Hk0_part11_3 O0_1 C0_3 O0_3 C0_4 O0_4 Hk0_part4_1 O2_6 Hk0_part4_2 O2_2 Hk0_part4_3 O2_5 Hk0_part5_1 O2_7 Hk0_part5_2 O2_1 Hk0_part5_3 O2_3 Hk0_part6_1 O2_4 Hk0_part7_1 O4_6 Hk0_part7_2 O4_2 Hk0_part8_1 O4_5 Hk0_part8_2 O4_7 Hk0_part8_3 O4_1 Hk0_part9_1 O4_3 Hk0_part9_2 O4_4 C6_6 O6_6 C6_2 O6_2 C6_5 O6_5 C6_7 O6_7 C6_1 O6_1 C6_3 O6_3 C6_4 O6_4 C8_6 O8_6 C8_2 O8_2 C8_5 O8_5 C8_7 O8_7 C8_1 O8_1 C8_3 O8_3 C8_4 O8_4 C10_6 O10_6 C10_2 O10_2 C10_5 O10_5 C10_7 O10_7 C10_1 O10_1 C10_3 O10_3]
  · unfold preG tailPre
    sl_close
  iintro %rG HQG
  icases HQG with ⟨%hrG, HpostG⟩
  subst rG
  unfold postG
  icases HpostG with ⟨%WG, Hmid, Z10_1, Ch10_1, Z10_3, Ch10_3⟩

  unfold tailMid
  icases Hmid with ⟨HOG, Hmid'⟩
  sl_exec
  imod (send_done10 m c 4 (by decide) (κ := κown K c 10 4)) $$ [O10_4 O10_4_pay1] with ⟨Z10_4, Ch10_4⟩
  · sl_close
  sl_step
  iapply Hk

  ihave EJ := (end_join (F := F) m c _) $$ [HOG Hmid' Z0_6 S0_6 Z10_1 Ch10_1 Z10_3 Ch10_3 Z10_4 Ch10_4 S0_c S2_c S5_cc Ch8_0 Ch9_0 Ch10_0]
  · isplitl [HOG Hmid']
    · unfold tailMid
      isplitl [HOG]; · iexact HOG
      iexact Hmid'
    sl_close
  icases EJ with ⟨HOend, HTP⟩
  unfold tailPost
  icases HTP with ⟨X0, X2, X4, X6, X8, X10, ⟨%g0, B0⟩, ⟨%g2, B2⟩, ⟨%g5, B5⟩, ⟨%g8, B8⟩, ⟨%g9, B9⟩, ⟨%g10, B10⟩⟩

  ihave B1 := (recv_join1 m c f1) $$ [S1_0 L1_1 L1_2 L1_3 L1_4 L1_5 L1_6 L1_7]
  · sl_close
  icases B1 with ⟨%g1, B1⟩
  ihave B3 := (recv_join3 m c f3) $$ [S3_0 S3_1 S3_2 S3_3 S3_4 S3_5 S3_6 S3_7]
  · sl_close
  icases B3 with ⟨%g3, B3⟩
  ihave B6 := (recv_join6 m c f6) $$ [S6_0 S6_1 S6_2 S6_3 S6_4 S6_5 S6_6 S6_7]
  · sl_close
  icases B6 with ⟨%g6, B6⟩

  ihave B13 := (rejoin13 m c f13) $$ [Hk0_part3_10 Hk0_part6_8 Hk0_part9_9 Hk0_part1_13]
  · sl_close
  icases B13 with ⟨%g13, B13⟩
  ihave B14 := (rejoin14 m c f14) $$ [Hk0_part3_9 Hk0_part6_7 Wov2 Hk0_part2_3]
  · sl_close
  icases B14 with ⟨%g14, B14⟩
  ihave A6' := (rejoinArg m c main_arg6) $$ [Lent6 Hk0_part2_2]
  · sl_close

  ihave X1 := (Entails.of_eq (semX_cells (F := F) c 1).symm) $$ [Z1_1 Z1_2 Z1_3 Z1_4 Z1_5 Z1_6 Z1_7]
  · sl_close
  ihave X3 := (Entails.of_eq (semX_cells (F := F) c 3).symm) $$ [Z3_1 Z3_2 Z3_3 Z3_4 Z3_5 Z3_6 Z3_7]
  · sl_close
  ihave X5 := (Entails.of_eq (semX_cells (F := F) c 5).symm) $$ [Z5_1 Z5_2 Z5_3 Z5_4 Z5_5 Z5_6 Z5_7]
  · sl_close
  ihave X7 := (Entails.of_eq (semX_cells (F := F) c 7).symm) $$ [Z7_1 Z7_2 Z7_3 Z7_4 Z7_5 Z7_6 Z7_7]
  · sl_close
  ihave X9 := (Entails.of_eq (semX_cells (F := F) c 9).symm) $$ [Z9_1 Z9_2 Z9_3 Z9_4 Z9_5 Z9_6 Z9_7]
  · sl_close
  ihave X11 := (Entails.of_eq (semX_cells (F := F) c 11).symm) $$ [Z11_1 Z11_2 Z11_3 Z11_4 Z11_5 Z11_6 Z11_7]
  · sl_close
  iapply (epilogue m ρ c _)
  sl_close

end Cert.KernelIdeal.Hand

end
-- ==== Proof.Body.lean ====
import proofs.«900577_g7700000000000578_dist_mlpseq_tp1dT_cs_cs_b512_d256_h512_v7x_i8_f32_1_alg».proof.Proof.Proto
import proofs.«900577_g7700000000000578_dist_mlpseq_tp1dT_cs_cs_b512_d256_h512_v7x_i8_f32_1_alg».proof.Proof.Top

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ (bodyAt0 (F := F) t₀) Kt :=
  body_run m ρ c Kt

omit [FloatOps F] in

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ (bodyAt0 (F := F) t₀) (fun _ => bodyPost m ρ c)
  iintro H
  iapply (sound_body m ρ c fun _ => bodyPost m ρ c)
  isplitl [H]
  · iexact H
  · iintro H; iexact H

end Cert.KernelIdeal.Hand

end
-- ==== Proof.Launch.lean ====
import proofs.«900577_g7700000000000578_dist_mlpseq_tp1dT_cs_cs_b512_d256_h512_v7x_i8_f32_1_alg».proof.Proof.Body

noncomputable section

namespace Cert.KernelIdeal.Hand

open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev OIx : Type := (Fin 12 × Fin 7) ⊕ (Fin 12 ⊕ Fin 7)
abbrev osem : OIx → SemLoc sig
  | .inl aj => .dma (xsem aj.1 aj.2.succ)
  | .inr (.inl a) => .dma (xsem a 0)
  | .inr (.inr i) => .dma (⟨97 + i.val, by have := i.isLt; decide +revert⟩ : DmaSem sig)

theorem ownSemFacts : Pipeline.OwnSemFacts cfg0.spec osem := by decide +kernel

theorem share_eq (c : Dev nD) (w : Fin cfg0.W) : (dats m ρ 0 c).share w = fullShare := by unfold Dat.share; split <;> rfl

theorem xsem_succ_inj {a a' : Fin 12} {j j' : Fin 7} (h : xsem a j.succ = xsem a' j'.succ) : a = a' ∧ j = j' := by
  have h4 : 1 + 8 * a.val + j.succ.val = 1 + 8 * a'.val + j'.succ.val := congrArg (fun s : DmaSem sig => s.val) h
  simp only [Fin.val_succ] at h4
  have := j.isLt; have := j'.isLt
  exact ⟨Fin.ext (by omega), Fin.ext (by omega)⟩

theorem kcell_injective : Function.Injective (kcell : Dev nD × CIx → GSem nD τ sig) := by
  rintro ⟨c, i⟩ ⟨c', i'⟩ h
  have h1 : c = c' := by
    have := congrArg (fun g : GSem nD τ sig => g.1.1) h
    rcases i with _ | ⟨a, j⟩ <;> rcases i' with _ | ⟨a', j'⟩ <;> exact this
  subst h1
  have h2 := congrArg Prod.snd h
  rcases i with _ | ⟨a, j⟩ <;> rcases i' with _ | ⟨a', j'⟩
  · rfl
  · exact absurd h2 (fun h => by cases h)
  · exact absurd h2 (fun h => by cases h)
  · obtain ⟨ha, hj⟩ := xsem_succ_inj (SemLoc.dma.inj h2)
    subst ha; subst hj; rfl

def exCells : Finset (GSem nD τ sig) := Finset.univ.map ⟨kcell, kcell_injective⟩

abbrev TIx : Type := Fin 7 ⊕ (Fin 12 × Fin 7)
abbrev tokOf (ct : Dev nD × TIx) : GSem nD τ sig × ℕ × Fin 8 := match ct.2 with
  | .inl j => (barCell ct.1, 0, j.succ)
  | .inr (a, j) => (xCell ct.1 a j.succ, 0, 0)

theorem tokOf_injective : Function.Injective (tokOf : Dev nD × TIx → GSem nD τ sig × ℕ × Fin 8) := by
  rintro ⟨c, i⟩ ⟨c', i'⟩ h
  have h1 : c = c' := by
    have := congrArg (fun x : GSem nD τ sig × ℕ × Fin 8 => x.1.1.1) h
    rcases i with j | ⟨a, j⟩ <;> rcases i' with j' | ⟨a', j'⟩ <;> exact this
  subst h1
  have hs := congrArg (fun x : GSem nD τ sig × ℕ × Fin 8 => x.1.2) h
  have hd := congrArg (fun x : GSem nD τ sig × ℕ × Fin 8 => x.2.2) h
  rcases i with j | ⟨a, j⟩ <;> rcases i' with j' | ⟨a', j'⟩
  · have hj : j = j' := Fin.succ_injective _ hd
    subst hj; rfl
  · exact absurd hs (fun h => by cases h)
  · exact absurd hs (fun h => by cases h)
  · obtain ⟨ha, hj⟩ := xsem_succ_inj (SemLoc.dma.inj hs)
    subst ha; subst hj; rfl

def exToks : Finset (GSem nD τ sig × ℕ × Fin 8) := Finset.univ.map ⟨tokOf, tokOf_injective⟩

def u₀ : UU :=
  (initOf (Pipeline.cells cfgs cellOf_inj) (Pipeline.launchToks cfgs cellOf_inj), (initOf exCells exToks, 1))

def toks (c : Dev nD) : sProp 𝕄 :=
  iprop((bigSep Finset.univ fun j : Fin 7 => dutyTok ER (barCell c) 0 j.succ)
    ∗ bigSep Finset.univ fun aj : Fin 12 × Fin 7 => dutyTok ER (xCell c aj.1 aj.2.succ) 0 0)

def G (c : Dev nD) : sProp 𝕄 :=
  iprop((bigSep Finset.univ fun i : CIx => roundState ER (sched m) (kcell (c, i)) 0)
    ∗ (bigSep Finset.univ fun i : CIx => iprop(atPos ER (kcell (c, i)) 0 ∅ 0 ∗ reached ER (kcell (c, i)) 0)) ∗ toks c)

def G' (c : Dev nD) : sProp 𝕄 := iprop((∃ K, ghost m K c) ∗ idleSems c)

theorem fund_cells : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun i : CIx => Φ (kcell (c, i)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun aj : Fin 12 × Fin 7 => semVal (xCell c aj.1 aj.2.succ) 0) ∗ idleSems c) := by
  unfold Pipeline.ownSems0 idleSems
  rw [bigSep_univ_sum, bigSep_univ_sum]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_univ_option {α : Type} [Fintype α] [DecidableEq α] (Φ : Option α → sProp 𝕄) :
    bigSep Finset.univ Φ = iprop(Φ none ∗ bigSep Finset.univ fun a => Φ (some a)) := by
  rw [bigSep_univ_at Φ none]
  have h : (Finset.univ.erase (none : Option α)) = Finset.univ.map Function.Embedding.some := by
    ext x; cases x <;> simp
  rw [h, bigSep_map]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun i : CIx => semVal (kcell (c, i)) 0) ∗ idleSems c : sProp 𝕄) := by
  rw [ownSems0_eq, unscopedSems0_eq, bigSep_univ_option]
  iintro ⟨⟨HX, HI⟩, HB⟩
  isplitr [HI]
  · sl_close
  · iexact HI

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun i : CIx => semVal (kcell (c, i)) 0) ∗ bigSep Finset.univ fun i : CIx => roundState ER (sched m) (kcell (c, i)) 0)
      ⊢ (|={Set.univ}=> bigSep Finset.univ fun i : CIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  sl_close

instance records_persistent (K : Dev nD × CIx → ℕ) : BI.Persistent (records m K) := by unfold records; infer_instance

theorem deal_around {J : Type} [Fintype J] (κ : J → Fin 8) (Ψ : Dev nD → J → sProp 𝕄) :
    (bigSep Finset.univ fun c : Dev nD => bigSep Finset.univ fun j : J => Ψ c j)
      = bigSep Finset.univ fun c : Dev nD => bigSep Finset.univ fun j : J => Ψ (px c (κ j)) j :=
  (bigSep_univ_comm (fun (c : Dev nD) (j : J) => Ψ c j)).trans
    ((bigSep_congr fun j _ => bigSep_univ_equiv (pxEquiv (κ j)) (fun c => Ψ c j)).trans
      (bigSep_univ_comm (fun (c : Dev nD) (j : J) => Ψ (px c (κ j)) j)).symm)

def parity : (Fin 6 × Fin 7) ⊕ (Fin 6 × Fin 7) ≃ Fin 12 × Fin 7 where
  toFun
    | .inl bj => (⟨2 * bj.1.val, by omega⟩, bj.2)
    | .inr bj => (⟨2 * bj.1.val + 1, by omega⟩, bj.2)
  invFun aj := if aj.1.val % 2 = 0 then .inl (⟨aj.1.val / 2, by omega⟩, aj.2) else .inr (⟨aj.1.val / 2, by omega⟩, aj.2)
  left_inv := fun x => by revert x; decide +kernel
  right_inv := fun x => by revert x; decide +kernel

theorem toks_split (c : Dev nD) : (toks c : sProp 𝕄) =
    iprop((bigSep Finset.univ fun j : Fin 7 => dutyTok ER (barCell c) 0 j.succ)
      ∗ (bigSep Finset.univ fun bj : Fin 6 × Fin 7 => dutyTok ER (xCell c ⟨2 * bj.1.val, by omega⟩ bj.2.succ) 0 0)
      ∗ (bigSep Finset.univ fun bj : Fin 6 × Fin 7 => dutyTok ER (xCell c ⟨2 * bj.1.val + 1, by omega⟩ bj.2.succ) 0 0)) := by
  unfold toks
  rw [bigSep_univ_equiv parity (fun aj : Fin 12 × Fin 7 => (dutyTok ER (xCell c aj.1 aj.2.succ) 0 0 : sProp 𝕄)), bigSep_univ_sum]
  rfl

theorem toks_around : (bigSep Finset.univ fun c : Dev nD => (toks c : sProp 𝕄)) = bigSep Finset.univ fun c : Dev nD => payToks c := by
  rw [bigSep_congr (fun c _ => toks_split c), bigSep_sep', bigSep_sep',
    deal_around (fun j : Fin 7 => j.succ) (fun c j => (dutyTok ER (barCell c) 0 j.succ : sProp 𝕄)),
    deal_around (fun bj : Fin 6 × Fin 7 => bj.2.succ) (fun c bj => (dutyTok ER (xCell c ⟨2 * bj.1.val + 1, by omega⟩ bj.2.succ) 0 0 : sProp 𝕄)),
    ← bigSep_sep', ← bigSep_sep']
  rfl

theorem ghost_intro (K : Dev nD × CIx → ℕ) (c : Dev nD) :
    iprop(records m K ∗ (positions c ∗ payToks c ∗ idleSems c)) ⊢ G' m c := by
  unfold G' ghost
  iintro ⟨#HR, Hp, Ht, Hi⟩
  isplitr [Hi]
  · iexists K
    isplitr; · iexact HR
    isplitl [Hp] <;> iassumption
  · iexact Hi

theorem regroup :
    (bigSep Finset.univ fun c : Dev nD => iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toks c ∗ idleSems c) : sProp 𝕄)
      ⊢ bigSep Finset.univ (G' m) := by
  rw [bigSep_sep', bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄)), toks_around]
  iintro ⟨HI, ⟨Hat, #HR⟩, Htok, Hidle⟩
  ihave HK := (BI.bigSep_exists_pi Finset.univ (fun (ck : Dev nD × CIx) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq ((bigSep_sep' Finset.univ (fun c : Dev nD => (positions c : sProp 𝕄)) (fun c => iprop(payToks c ∗ idleSems c))).trans
      (congrArg (fun X => iprop(bigSep Finset.univ (fun c : Dev nD => (positions c : sProp 𝕄)) ∗ X)) (bigSep_sep' Finset.univ (fun c : Dev nD => (payToks c : sProp 𝕄)) idleSems))).symm)
    isplitl [Hat]; · unfold positions; iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem foldr_tally {α : Type} (t : α → CellTallies nD τ sig Unit) (l : List α) :
    l.foldr (fun x acc => acc + t x) 0 = (l.map t).sum := by
  induction l with
  | nil => rfl
  | cons x l ih => rw [List.foldr_cons, List.map_cons, List.sum_cons, ih]; exact add_comm _ _

def barList : List (Fin 8) := [1, 2, 3, 4, 5, 6, 7]
def xList : List (Fin 12 × Fin 8) := recvOrder.flatMap fun a => farK.map fun k => (a, k)
theorem barList_nodup : barList.Nodup := by decide
theorem xList_nodup : xList.Nodup := by decide

theorem debts_eq (d : Dev nD) :
    debts d = (barList.map fun k => (barCell (px d k), 1)) ++ xList.map fun ak => (xCell (px d ak.2) ak.1 ak.2, N) := rfl

theorem O₀_eq (d : Dev nD) : O₀ d = (∑ k ∈ barList.toFinset, tallyAt (barCell (px d k)) () 1)
      + ∑ ak ∈ xList.toFinset, tallyAt (xCell (px d ak.2) ak.1 ak.2) () N := by
  unfold O₀ owedAfter
  rw [List.drop_zero, foldr_tally (fun x : GSem nD τ sig × ℕ => tallyAt x.1 () x.2), debts_eq, List.map_append, List.sum_append, List.map_map, List.map_map,
    List.sum_toFinset _ barList_nodup, List.sum_toFinset _ xList_nodup]
  rfl

theorem sum_units (g : GSem nD τ sig) : (∑ k ∈ barList.toFinset, (tallyAt g () 1 : CellTallies nD τ sig Unit)) = tallyAt g () 7 := by
  rw [List.sum_toFinset _ barList_nodup]
  simp only [barList, List.map_cons, List.map_nil, List.sum_cons, List.sum_nil, add_zero, tallyAt_add, Nat.reduceAdd]

def recvAt (bj : Fin 6 × Fin 7) : Fin 12 × Fin 8 := (⟨2 * bj.1.val + 1, by omega⟩, bj.2.succ)
theorem recvAt_inj : Function.Injective recvAt := by decide
theorem xList_eq : xList.toFinset = Finset.univ.image recvAt := by decide

theorem creds_intro (c : Dev nD) : (Pipeline.launchCred O₀ c : sProp 𝕄) ⊢ creds c := by
  rw [show (O₀ : Dev nD → CellTallies nD τ sig Unit) = fun d => (∑ k ∈ barList.toFinset, tallyAt (barCell (px d k)) () 1)
      + ∑ ak ∈ xList.toFinset, tallyAt (xCell (px d ak.2) ak.1 ak.2) () N from funext O₀_eq,
    Pipeline.launchCred_add, Pipeline.launchCred_sum, Pipeline.launchCred_sum]
  unfold creds
  refine (sep_mono_left ?_).trans (sep_mono_right ?_)
  · refine (bigSep_mono fun k _ => Pipeline.launchCred_tallyAt (.reg barS) (fun d => px d k) (fun d => px d k) (fun c => px_px c k) (fun d => px_px d k) () 1 c).trans ?_
    rw [← Pipeline.cred_finsetSum, sum_units]
    exact Entails.refl _
  · refine (bigSep_mono fun ak _ => Pipeline.launchCred_tallyAt (.dma (xsem ak.1 ak.2)) (fun d => px d ak.2) (fun d => px d ak.2) (fun c => px_px c ak.2) (fun d => px_px d ak.2) () N c).trans ?_
    rw [xList_eq, bigSep_image_of_injOn recvAt_inj.injOn]
    exact Entails.refl _

def lvD (s : DmaSem sig) : ℕ := lv (((0 : Dev nD) : Thread nD τ), .dma s) ()

theorem lvD_x : ∀ ak ∈ xList, 0 < lvD (xsem ak.1 ak.2) := by decide +kernel

theorem O₀_pos {c : Dev nD} {g : GSem nD τ sig} {u : Unit} (h : 0 < O₀ c g u) :
    (∃ k : Fin 8, g = barCell (px c k)) ∨ ∃ ak ∈ xList, g = xCell (px c ak.2) ak.1 ak.2 := by
  rw [O₀_eq] at h
  rcases Pipeline.add_pos_cases h with h1 | h2
  · obtain ⟨k, _, hk⟩ := Pipeline.sum_pos_exists h1
    rw [tallyAt_apply] at hk
    by_cases hg : g = barCell (px c k) ∧ u = ()
    · exact Or.inl ⟨k, hg.1⟩
    · rw [if_neg hg] at hk; exact absurd hk (Nat.lt_irrefl 0)
  · obtain ⟨ak, hak, hk⟩ := Pipeline.sum_pos_exists h2
    rw [tallyAt_apply] at hk
    by_cases hg : g = xCell (px c ak.2) ak.1 ak.2 ∧ u = ()
    · exact Or.inr ⟨ak, List.mem_toFinset.mp hak, hg.1⟩
    · rw [if_neg hg] at hk; exact absurd hk (Nat.lt_irrefl 0)

theorem mayWait_stage (c : Dev nD) (q : DmaSem sig) (hq : lvD q = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rcases O₀_pos hg with ⟨k, rfl⟩ | ⟨ak, hak, rfl⟩
    · refine ⟨by rw [L_tc]; exact Finset.mem_singleton_self _, ?_⟩
      show lvD q < (if barS = barS then 1 else 0)
      rw [hq, if_pos rfl]; exact Nat.one_pos
    · refine ⟨by rw [L_tc]; exact Finset.mem_singleton_self _, ?_⟩
      show lvD q < lvD (xsem ak.1 ak.2)
      rw [hq]; exact lvD_x ak hak
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ argsPts m c) ∗ emp) := by
  rw [Pipeline.unscopedRestP_none, unscopedRest0_eq]
  iintro ⟨Hargs, Hlev, Hcr, -, HG⟩
  ihave Hc := (creds_intro (F := F) c) $$ Hcr
  unfold G'
  icases HG with ⟨HG, Hidle⟩
  imodintro
  isplitl
  · isplitr [Hargs]
    · unfold start
      isplitl [HG]; · iexact HG
      isplitl [Hidle]; · iexact Hidle
      isplitl [Hc]; · iexact Hc
      iexact Hlev
    · unfold argsPts; iexact Hargs
  · iempintro

theorem phi0_intro (c : Dev nD) :
    iprop((start m c ∗ argsPts m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ scratchPts
  iintro ⟨⟨Hs, Ha⟩, -, Hr⟩
  sl_close

theorem phi1_exit (c : Dev nD) :
    (dats m ρ 0 c).Φ (Fin.last cfg0.N) ⊢ iprop(argsPts m c ∗ Pipeline.ownSems0 osem c ∗ Pipeline.scopedRest cfg0.spec c) := by
  rw [show (dats m ρ 0 c).Φ (Fin.last cfg0.N) = Φ₁ m c from rfl, ownSems0_eq]
  unfold Φ₁ scratchPts
  iintro ⟨Ha, Hr, Hidle, Hx⟩
  isplitl [Ha]; · iexact Ha
  isplitr [Hr]
  · sl_close
  · iexact Hr

theorem final_out (c : Dev nD) : (dats m ρ 0 c).arrAt (0 : Fin cfg0.W) cfg0.N = outC m c := by
  have h := (dats m ρ 0 c).arrAt_succ (0 : Fin cfg0.W) t₀
  rw [flush0_0 t₀, if_pos rfl] at h
  have hn : cfg0.N = t₀.val + 1 := cfg0_N
  rw [congrArg ((dats m ρ 0 c).arrAt (0 : Fin cfg0.W)) hn, h]
  refine Memref.write_access_unit_zero_univ (Elt F) main_v1 ?_ _ _ _
  funext a
  exact (congrArg (· * (cfg0.win 0).size a) (show (cfg0.win 0).index t₀ a = 0 from rfl)).trans (Nat.zero_mul _)

theorem run_main : θ_run defs (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_cells m) $$ HR with HG
      imodintro
      isplitl [HP] <;> iassumption)
    (hglob := glob m)
    (hA := fun _ _ => rfl) (hpf := fun _ k => k.elim0)
    (X := fun c => iprop(start m c ∗ argsPts m c)) (Y := argsPts m) (Z := fun _ => iprop(emp))
    (hX := start_intro m ρ) (hin := phi0_intro m ρ) (hout := phi1_exit m ρ)
    (QY := fun c s =>
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hY := fun c s' => by
      unfold argsPts
      iintro ⟨⟨H0, H1, H2, H3, H4, H5, H6⟩, -, HSI⟩
      icombine HSI H0 gives %h0
      icombine HSI H1 gives %h1
      icombine HSI H2 gives %h2
      icombine HSI H3 gives %h3
      icombine HSI H4 gives %h4
      icombine HSI H5 gives %h5
      icombine HSI H6 gives %h6
      imodintro
      isplitr
      · ipureintro
        exact ⟨Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩
      iexact HSI)
    (hQ := fun s h c => ⟨((h c).1 0).trans (final_out m ρ c), (h c).2.2⟩)

end Cert.KernelIdeal.Hand

end
-- ==== Proof.Spec.lean ====
import Mathlib.Data.EReal.Basic
import Mathlib.Algebra.BigOperators.Fin

noncomputable section

namespace Cert.KernelIdeal.Hand.Spec

def mm {p q r : Nat} (A : Fin p → Fin q → EReal) (B : Fin q → Fin r → EReal) : Fin p → Fin r → EReal :=
  fun i j => ∑ k, A i k * B k j

def relu {p q : Nat} (A : Fin p → Fin q → EReal) : Fin p → Fin q → EReal := fun i j => max (A i j) 0

def AllReal {p q : Nat} (A : Fin p → Fin q → EReal) : Prop := ∀ i j, ∃ x : ℝ, A i j = (x : EReal)

def ref (X : Fin 512 → Fin 2048 → EReal) (Wi0 : Fin 2048 → Fin 512 → EReal) (Wo0 : Fin 512 → Fin 2048 → EReal)
    (Wi1 : Fin 2048 → Fin 512 → EReal) (Wo1 : Fin 512 → Fin 2048 → EReal) (Wi2 : Fin 2048 → Fin 512 → EReal)
    (Wo2 : Fin 512 → Fin 2048 → EReal) : Fin 512 → Fin 2048 → EReal :=
  mm (relu (mm (mm (relu (mm (mm (relu (mm X Wi0)) Wo0) Wi1)) Wo1) Wi2)) Wo2

def ker (X : Fin 512 → Fin 2048 → EReal) (Wi0 : Fin 2048 → Fin 512 → EReal) (Wo0 : Fin 512 → Fin 2048 → EReal)
    (Wi1 : Fin 2048 → Fin 512 → EReal) (Wo1 : Fin 512 → Fin 2048 → EReal) (Wi2 : Fin 2048 → Fin 512 → EReal)
    (Wo2 : Fin 512 → Fin 2048 → EReal) : Fin 512 → Fin 2048 → EReal :=
  mm (relu (mm (relu (mm (relu (mm X Wi0)) (mm Wo0 Wi1))) (mm Wo1 Wi2))) Wo2

end Cert.KernelIdeal.Hand.Spec

end
-- ==== Proof.KerLow.lean ====
import proofs.«900577_g7700000000000578_dist_mlpseq_tp1dT_cs_cs_b512_d256_h512_v7x_i8_f32_1_alg».proof.Proof.Contents
import proofs.«900577_g7700000000000578_dist_mlpseq_tp1dT_cs_cs_b512_d256_h512_v7x_i8_f32_1_alg».proof.Proof.Spec
import Idealize.ShloMosaic.PureOps.Ideal
import Idealize.ShloMosaic.PureOps.Ideal.Laws
import Idealize.ShloMosaic.Lib.Pipeline.Value

noncomputable section

namespace Cert.KernelIdeal.Hand

open Idealize.ShloMosaic Idealize.ShloMosaic.TcCoe Cert.KernelIdeal Cert.KernelIdeal.Gen
open Idealize.ShloMosaic.ValueIdx (ix2 ix3)

variable (m : (ℓ : Loc nD τ sig) → Buf (Elt Ideal) ℓ)

def row (s : Fin 8) (r : Fin 64) : Fin 512 := ⟨s.val * 64 + r.val, by have := s.isLt; have := r.isLt; omega⟩

theorem unstack_tall (X : Vec Ideal S512x256 .f32) :
    shapeCast S512x256 (up3 X) shapeCasts_S1x512x256_S512x256 = X := by
  funext j
  obtain ⟨a, b, rfl⟩ : ∃ (a : Fin 512) (b : Fin 256), j = ix2 a b := ⟨j 0, j 1, ValueIdx.eq_ix2 j⟩
  exact shapeCast_apply (up3 X) _ (ix2 a b) (ix3 0 a b) (by
    rw [Shape.rowMajor_val_three, Shape.rowMajor_val_two]
    show (0 * 512 + a.val) * 256 + b.val = a.val * 256 + b.val
    omega)

theorem unstack_wide (X : Vec Ideal S256x512 .f32) :
    shapeCast S256x512 (up3 X) shapeCasts_S1x256x512_S256x512 = X := by
  funext j
  obtain ⟨a, b, rfl⟩ : ∃ (a : Fin 256) (b : Fin 512), j = ix2 a b := ⟨j 0, j 1, ValueIdx.eq_ix2 j⟩
  exact shapeCast_apply (up3 X) _ (ix2 a b) (ix3 0 a b) (by
    rw [Shape.rowMajor_val_three, Shape.rowMajor_val_two]
    show (0 * 256 + a.val) * 512 + b.val = a.val * 512 + b.val
    omega)

theorem slot_apply (P : Vec Ideal S8x64x512 .bf16) (s : Fin 8) (r : Fin 64) (q : Fin 512) :
    shapeCast S64x512 (slot3 P s) shapeCasts_S1x64x512_S64x512 (ix2 r q) = P (ix3 s r q) :=
  shapeCast_apply (slot3 P s) _ (ix2 r q) (ix3 0 r q) (by
    rw [Shape.rowMajor_val_three, Shape.rowMajor_val_two]
    show (0 * 64 + r.val) * 512 + q.val = r.val * 512 + q.val
    omega)

theorem chunk_apply (X : Vec Ideal S512x512 .bf16) (s : Fin 8) (r : Fin 64) (q : Fin 512) :
    shapeCast S8x64x512 X shapeCasts_S512x512_S8x64x512 (ix3 s r q) = X (ix2 (row s r) q) :=
  shapeCast_apply X _ (ix3 s r q) (ix2 (row s r) q) (by
    rw [Shape.rowMajor_val_two, Shape.rowMajor_val_three]
    rfl)

theorem lhs_blk_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_blk_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhs_blk_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhs_blk_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

theorem blk_mm_apply (A : Vec Ideal S512x256 .f32) (B : Vec Ideal S256x512 .f32) (p q : Fin 512) :
    (matmul (F := Ideal) (φ₁ := .f32) (φ₂ := .f32) dot_S512x256_S256x512_S512x512_1_0_0_1_n_n none A B (constant S512x512 .f32 0x00000000#32)) (ix2 p q)
      = Spec.mm (mat A) (mat B) p q := by
  simp only [matmul]
  rw [Ideal.matmul_constant_zero_apply, ← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx (ix2 p q) ((ValueIdx.contrEquiv1 dot_S512x256_S256x512_S512x512_1_0_0_1_n_n 256 rfl rfl).symm k) = ix2 p k := funext fun a => Fin.ext (by
    match a with
    | ⟨0, _⟩ => exact lhs_blk_0 _ _
    | ⟨1, _⟩ => exact (lhs_blk_1 _ _).trans hk)
  have er : dot_S512x256_S256x512_S512x512_1_0_0_1_n_n.rhsIdx (ix2 p q) ((ValueIdx.contrEquiv1 dot_S512x256_S256x512_S512x512_1_0_0_1_n_n 256 rfl rfl).symm k) = ix2 k q := funext fun a => Fin.ext (by
    match a with
    | ⟨0, _⟩ => exact (rhs_blk_0 _ _).trans hk
    | ⟨1, _⟩ => exact rhs_blk_1 _ _)
  rw [el, er]
  rfl

theorem px_self_inv (c : Dev nD) (k : Fin 8) : px c (px c k) = k := by revert c k; decide

def peerEquiv (c : Dev nD) : Fin 8 ≃ Dev nD where
  toFun k := px c k
  invFun d := px c d
  left_inv k := px_self_inv c k
  right_inv d := px_self_inv c d

theorem sum_peers (f : Dev nD → EReal) (c : Dev nD) :
    f c + f (px c 1) + f (px c 3) + f (px c 4) + f (px c 2) + f (px c 5) + f (px c 7) + f (px c 6) = ∑ e : Dev nD, f e := by
  rw [← Equiv.sum_comp (peerEquiv c) f, Fin.sum_univ_eight]
  show _ = f (px c 0) + f (px c 1) + f (px c 2) + f (px c 3) + f (px c 4) + f (px c 5) + f (px c 6) + f (px c 7)
  rw [px_zero]
  ac_rfl

theorem wide_slot_apply (P : Vec Ideal S8x64x512 .bf16) (s : Fin 8) (r : Fin 64) (q : Fin 512) :
    (extf (F := Ideal) .f32 (shapeCast S64x512 (slot3 P s) shapeCasts_S1x64x512_S64x512) bitsLt_bf16_f32) (ix2 r q) = P (ix3 s r q) := by
  rw [ValueIdx.extf_apply, slot_apply]

theorem part1_apply (e : Dev nD) (s : Fin 8) (r : Fin 64) (q : Fin 512) :
    part1 (F := Ideal) m e (ix3 s r q) = Spec.mm (mat (aWo0 (F := Ideal) m e)) (mat (aWi1 (F := Ideal) m e)) (row s r) q := by
  unfold part1 k0_pay1
  rw [shapeCast_self, chunk_apply, ValueIdx.truncf_apply, unstack_tall, unstack_wide]
  exact blk_mm_apply _ _ _ _
theorem part2_apply (e : Dev nD) (s : Fin 8) (r : Fin 64) (q : Fin 512) :
    part2 (F := Ideal) m e (ix3 s r q) = Spec.mm (mat (aWo1 (F := Ideal) m e)) (mat (aWi2 (F := Ideal) m e)) (row s r) q := by
  unfold part2 k0_pay2
  rw [shapeCast_self, chunk_apply, ValueIdx.truncf_apply, unstack_tall, unstack_wide]
  exact blk_mm_apply _ _ _ _
theorem part0_apply (e : Dev nD) (s : Fin 8) (r : Fin 64) (q : Fin 512) :
    part0 (F := Ideal) m e (ix3 s r q) = Spec.mm (mat (aX (F := Ideal) m e)) (mat (aWi0 (F := Ideal) m e)) (row s r) q := by
  unfold part0 k0_pay4 k0_pay3
  rw [shapeCast_self, chunk_apply, ValueIdx.truncf_apply, unstack_wide]
  exact blk_mm_apply _ _ _ _

theorem own1_apply (c : Dev nD) (r : Fin 64) (q : Fin 512) :
    own1 (F := Ideal) m c (ix2 r q) = ∑ e : Dev nD, Spec.mm (mat (aWo0 (F := Ideal) m e)) (mat (aWi1 (F := Ideal) m e)) (row c r) q := by
  unfold own1 k0_pay8 k0_pay7 k0_pay6 k0_pay5 in1
  simp only [ValueIdx.truncf_apply, ValueIdx.addf_apply, wide_slot_apply]
  exact (sum_peers (fun e => part1 (F := Ideal) m e (ix3 c r q)) c).trans (Finset.sum_congr rfl fun e _ => part1_apply m e c r q)
theorem own2_apply (c : Dev nD) (r : Fin 64) (q : Fin 512) :
    own2 (F := Ideal) m c (ix2 r q) = ∑ e : Dev nD, Spec.mm (mat (aWo1 (F := Ideal) m e)) (mat (aWi2 (F := Ideal) m e)) (row c r) q := by
  unfold own2 k0_pay15 k0_pay14 k0_pay13 k0_pay12 k0_pay11 in2
  simp only [ValueIdx.truncf_apply, ValueIdx.addf_apply, wide_slot_apply]
  exact (sum_peers (fun e => part2 (F := Ideal) m e (ix3 c r q)) c).trans (Finset.sum_congr rfl fun e _ => part2_apply m e c r q)
theorem h0_apply (c : Dev nD) (r : Fin 64) (q : Fin 512) :
    h0 (F := Ideal) m c (ix2 r q) = max (∑ e : Dev nD, Spec.mm (mat (aX (F := Ideal) m e)) (mat (aWi0 (F := Ideal) m e)) (row c r) q) 0 := by
  unfold h0 k0_pay21 k0_pay20 k0_pay19 k0_pay18 in0
  simp only [ValueIdx.maximumf_apply, ValueIdx.addf_apply, wide_slot_apply, ValueIdx.broadcast_apply]
  exact congrArg₂ max
    ((sum_peers (fun e => part0 (F := Ideal) m e (ix3 c r q)) c).trans (Finset.sum_congr rfl fun e _ => part0_apply m e c r q))
    Ideal.ofBits_zero_f32

end Cert.KernelIdeal.Hand

end
-- ==== Proof.KerHigh.lean ====
import proofs.«900577_g7700000000000578_dist_mlpseq_tp1dT_cs_cs_b512_d256_h512_v7x_i8_f32_1_alg».proof.Proof.KerLow
import Idealize.ShloMosaic.Lib.ValueLayout
import Idealize.ShloMosaic.Lib.ValueIdx
import Idealize.ShloMosaic.PureOps.Ideal.Laws

noncomputable section

namespace Cert.KernelIdeal.Hand

open Idealize.ShloMosaic Idealize.ShloMosaic.TcCoe Cert.KernelIdeal Cert.KernelIdeal.Gen
open Idealize.ShloMosaic.ValueIdx (ix2 ix3)

theorem exists_row (k : Fin 512) : ∃ (s : Fin 8) (r : Fin 64), k = row s r :=
  ⟨⟨k.val / 64, by have := k.isLt; omega⟩, ⟨k.val % 64, Nat.mod_lt _ (by decide)⟩,
    Fin.ext (by show k.val = k.val / 64 * 64 + k.val % 64; omega)⟩

theorem cast_stack_apply {α : Type} (X : S8x64x512.Idx → α) (h : S8x64x512.ShapeCasts S512x512)
    (s : Fin 8) (r : Fin 64) (q : Fin 512) : shapeCast S512x512 X h (ix2 (row s r) q) = X (ix3 s r q) :=
  shapeCast_apply X h _ _ (by
    rw [Shape.rowMajor_val_three, Shape.rowMajor_val_two]
    rfl)

theorem lhs_a_0 (i : S64x512.Idx) (q : dot_S64x512_S512x512_S64x512_1_0_0_1_n_n.contr.Idx) :
    (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem lhs_a_1 (i : S64x512.Idx) (q : dot_S64x512_S512x512_S64x512_1_0_0_1_n_n.contr.Idx) :
    (dot_S64x512_S512x512_S64x512_1_0_0_1_n_n.lhsIdx i q 1).val = (q ⟨0, by decide⟩).val :=
  dot_S64x512_S512x512_S64x512_1_0_0_1_n_n.lhsIdx_val_of_single rfl i q
theorem rhs_a_0 (i : S64x512.Idx) (q : dot_S64x512_S512x512_S64x512_1_0_0_1_n_n.contr.Idx) :
    (dot_S64x512_S512x512_S64x512_1_0_0_1_n_n.rhsIdx i q 0).val = (q ⟨0, by decide⟩).val :=
  dot_S64x512_S512x512_S64x512_1_0_0_1_n_n.rhsIdx_val_of_single rfl i q
theorem rhs_a_1 (i : S64x512.Idx) (q : dot_S64x512_S512x512_S64x512_1_0_0_1_n_n.contr.Idx) :
    (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

theorem matmul_a_apply (a : FVec Ideal S64x512 .f32) (b : FVec Ideal S512x512 .bf16) (r : Fin 64) (q : Fin 512) :
    matmul dot_S64x512_S512x512_S64x512_1_0_0_1_n_n none a b (constant S64x512 .f32 0x00000000#32) (ix2 r q)
      = ∑ k : Fin 512, a (ix2 r k) * b (ix2 k q) := by
  show FloatOps.matmul dot_S64x512_S512x512_S64x512_1_0_0_1_n_n none a b (constant S64x512 .f32 0x00000000#32) (ix2 r q) = _
  rw [Ideal.matmul_constant_zero_apply, ← Equiv.sum_comp (ValueIdx.contrEquiv1 dot_S64x512_S512x512_S64x512_1_0_0_1_n_n 512 rfl rfl).symm]
  refine Finset.sum_congr rfl fun k _ => ?_
  have hk := ValueIdx.contrEquiv1_symm_val dot_S64x512_S512x512_S64x512_1_0_0_1_n_n 512 rfl rfl k
  have el : dot_S64x512_S512x512_S64x512_1_0_0_1_n_n.lhsIdx (ix2 r q) ((ValueIdx.contrEquiv1 dot_S64x512_S512x512_S64x512_1_0_0_1_n_n 512 rfl rfl).symm k) = ix2 r k := funext fun a => Fin.ext (by
    match a with
    | ⟨0, _⟩ => exact lhs_a_0 _ _
    | ⟨1, _⟩ => exact (lhs_a_1 _ _).trans hk)
  have er : dot_S64x512_S512x512_S64x512_1_0_0_1_n_n.rhsIdx (ix2 r q) ((ValueIdx.contrEquiv1 dot_S64x512_S512x512_S64x512_1_0_0_1_n_n 512 rfl rfl).symm k) = ix2 k q := funext fun a => Fin.ext (by
    match a with
    | ⟨0, _⟩ => exact (rhs_a_0 _ _).trans hk
    | ⟨1, _⟩ => exact rhs_a_1 _ _)
  rw [el, er]

theorem lhs_b_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_b_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_b_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_b_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

theorem matmul_b_apply (a : FVec Ideal S512x512 .bf16) (b : FVec Ideal S512x256 .f32) (r : Fin 512) (q : Fin 256) :
    matmul dot_S512x512_S512x256_S512x256_1_0_0_1_n_n none a b (constant S512x256 .f32 0x00000000#32) (ix2 r q)
      = ∑ k : Fin 512, a (ix2 r k) * b (ix2 k q) := by
  show FloatOps.matmul dot_S512x512_S512x256_S512x256_1_0_0_1_n_n none a b (constant S512x256 .f32 0x00000000#32) (ix2 r q) = _
  rw [Ideal.matmul_constant_zero_apply, ← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx (ix2 r q) ((ValueIdx.contrEquiv1 dot_S512x512_S512x256_S512x256_1_0_0_1_n_n 512 rfl rfl).symm k) = ix2 r k := funext fun a => Fin.ext (by
    match a with
    | ⟨0, _⟩ => exact lhs_b_0 _ _
    | ⟨1, _⟩ => exact (lhs_b_1 _ _).trans hk)
  have er : dot_S512x512_S512x256_S512x256_1_0_0_1_n_n.rhsIdx (ix2 r q) ((ValueIdx.contrEquiv1 dot_S512x512_S512x256_S512x256_1_0_0_1_n_n 512 rfl rfl).symm k) = ix2 k q := funext fun a => Fin.ext (by
    match a with
    | ⟨0, _⟩ => exact (rhs_b_0 _ _).trans hk
    | ⟨1, _⟩ => exact rhs_b_1 _ _)
  rw [el, er]

theorem layer_apply (a : FVec Ideal S64x512 .f32) (X : Vec Ideal S8x64x512 .bf16) (W : Fin 512 → Fin 512 → EReal)
    (hX : ∀ (s : Fin 8) (r : Fin 64) (q : Fin 512), X (ix3 s r q) = W (row s r) q) (r : Fin 64) (q : Fin 512) :
    k0_pay22 (F := Ideal) a X (ix2 r q) = max (∑ k : Fin 512, a (ix2 r k) * W k q) 0 := by
  unfold k0_pay22
  show max (matmul dot_S64x512_S512x512_S64x512_1_0_0_1_n_n none a (shapeCast S512x512 X _) (constant S64x512 .f32 0x00000000#32) (ix2 r q))
      (Ideal.ofBits .f32 0x00000000#32) = _
  rw [matmul_a_apply, Ideal.ofBits_zero_f32]
  congr 1
  refine Finset.sum_congr rfl fun k _ => ?_
  obtain ⟨s, r', rfl⟩ := exists_row k
  rw [cast_stack_apply, hX]

theorem layer_apply' (a : FVec Ideal S64x512 .f32) (X : Vec Ideal S8x64x512 .bf16) (W : Fin 512 → Fin 512 → EReal)
    (hX : ∀ (s : Fin 8) (r : Fin 64) (q : Fin 512), X (ix3 s r q) = W (row s r) q) (r : Fin 64) (q : Fin 512) :
    k0_pay23 (F := Ideal) a X (ix2 r q) = max (∑ k : Fin 512, a (ix2 r k) * W k q) 0 :=
  layer_apply a X W hX r q

variable (m : (ℓ : Loc nD τ sig) → Buf (Elt Ideal) ℓ)

def W1 : Fin 512 → Fin 512 → EReal := fun k q => ∑ e : Dev nD, Spec.mm (mat (aWo0 (F := Ideal) m e)) (mat (aWi1 (F := Ideal) m e)) k q
def W2 : Fin 512 → Fin 512 → EReal := fun k q => ∑ e : Dev nD, Spec.mm (mat (aWo1 (F := Ideal) m e)) (mat (aWi2 (F := Ideal) m e)) k q

theorem full1_apply (s : Fin 8) (r : Fin 64) (q : Fin 512) : full1 (F := Ideal) m (ix3 s r q) = W1 m (row s r) q := by
  show own1 (F := Ideal) m s (ix2 r q) = _
  rw [own1_apply]
  rfl
theorem full2_apply (s : Fin 8) (r : Fin 64) (q : Fin 512) : full2 (F := Ideal) m (ix3 s r q) = W2 m (row s r) q := by
  show own2 (F := Ideal) m s (ix2 r q) = _
  rw [own2_apply]
  rfl
theorem h1_apply (c : Dev nD) (r : Fin 64) (q : Fin 512) :
    h1 (F := Ideal) m c (ix2 r q) = max (∑ k : Fin 512, h0 (F := Ideal) m c (ix2 r k) * W1 m k q) 0 :=
  layer_apply (h0 (F := Ideal) m c) (full1 (F := Ideal) m) (W1 m) (full1_apply m) r q
theorem h2own_apply (c : Dev nD) (r : Fin 64) (q : Fin 512) :
    h2own (F := Ideal) m c (ix2 r q) = max (∑ k : Fin 512, h1 (F := Ideal) m c (ix2 r k) * W2 m k q) 0 := by
  unfold h2own k0_pay24
  show shapeCast S64x512 (truncf .bf16 (k0_pay23 (F := Ideal) (h1 (F := Ideal) m c) (full2 (F := Ideal) m)) _) _ (ix2 r q) = _
  rw [shapeCast_self, ValueIdx.truncf_apply]
  exact layer_apply' (h1 (F := Ideal) m c) (full2 (F := Ideal) m) (W2 m) (full2_apply m) r q
theorem hfull_apply (s : Fin 8) (r : Fin 64) (q : Fin 512) : hfull (F := Ideal) m (ix3 s r q) = h2own (F := Ideal) m s (ix2 r q) :=
  rfl
theorem outC_apply (c : Dev nD) (s : Fin 8) (r : Fin 64) (j : Fin 256) :
    outC (F := Ideal) m c (ix2 (row s r) j) = ∑ k : Fin 512, h2own (F := Ideal) m s (ix2 r k) * mat (aWo2 (F := Ideal) m c) k j := by
  unfold outC k0_pay26
  show matmul dot_S512x512_S512x256_S512x256_1_0_0_1_n_n none
      (shapeCast S512x512 (hfull (F := Ideal) m) _ : FVec Ideal S512x512 .bf16)
      (shapeCast S512x256 (up3 (aWo2 (F := Ideal) m c)) _ : FVec Ideal S512x256 .f32)
      (constant S512x256 .f32 0x00000000#32) (ix2 (row s r) j) = _
  rw [matmul_b_apply]
  refine Finset.sum_congr rfl fun k _ => ?_
  rw [cast_stack_apply, hfull_apply, ValueIdx.shapeCast_1ab_ab_apply]
  rfl

end Cert.KernelIdeal.Hand

end
-- ==== Proof.SpecAlg.lean ====
import proofs.«900577_g7700000000000578_dist_mlpseq_tp1dT_cs_cs_b512_d256_h512_v7x_i8_f32_1_alg».proof.Proof.Spec
import Mathlib.Data.EReal.Basic
import Mathlib.Algebra.BigOperators.Ring.Finset
import Mathlib.Algebra.BigOperators.Group.Finset.Sigma
import Mathlib.Data.Fintype.BigOperators
import Mathlib.Logic.Equiv.Fin.Basic

noncomputable section

namespace Cert.KernelIdeal.Hand.Spec

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem AllReal.eq_coe {p q : Nat} {A : Fin p → Fin q → EReal} (hA : AllReal A) :
    ∃ a : Fin p → Fin q → ℝ, A = fun i j => (a i j : EReal) := by
  choose a ha using hA
  exact ⟨a, funext fun i => funext fun j => ha i j⟩

theorem mm_coe {p q r : Nat} (a : Fin p → Fin q → ℝ) (b : Fin q → Fin r → ℝ) :
    mm (fun i k => (a i k : EReal)) (fun k j => (b k j : EReal))
      = fun i j => ((∑ k, a i k * b k j : ℝ) : EReal) := by
  funext i j
  simp only [mm, coe_sum, EReal.coe_mul]

theorem mm_real {p q r : Nat} {A : Fin p → Fin q → EReal} {B : Fin q → Fin r → EReal}
    (hA : AllReal A) (hB : AllReal B) : AllReal (mm A B) := by
  obtain ⟨a, rfl⟩ := hA.eq_coe
  obtain ⟨b, rfl⟩ := hB.eq_coe
  intro i j
  exact ⟨∑ k, a i k * b k j, congrFun (congrFun (mm_coe a b) i) j⟩

theorem relu_real {p q : Nat} {A : Fin p → Fin q → EReal} (hA : AllReal A) : AllReal (relu A) := by
  intro i j
  obtain ⟨x, hx⟩ := hA i j
  refine ⟨max x 0, ?_⟩
  show max (A i j) 0 = ((max x 0 : ℝ) : EReal)
  rw [hx, ← EReal.coe_zero]
  exact (EReal.coe_strictMono.monotone.map_max).symm

theorem mm_assoc {p q r s : Nat} {A : Fin p → Fin q → EReal} {B : Fin q → Fin r → EReal}
    {C : Fin r → Fin s → EReal} (hA : AllReal A) (hB : AllReal B) (hC : AllReal C) :
    mm (mm A B) C = mm A (mm B C) := by
  obtain ⟨a, rfl⟩ := hA.eq_coe
  obtain ⟨b, rfl⟩ := hB.eq_coe
  obtain ⟨c, rfl⟩ := hC.eq_coe
  rw [mm_coe a b, mm_coe b c, mm_coe, mm_coe]
  funext i j
  congr 1
  simp only [Finset.sum_mul, Finset.mul_sum]
  rw [Finset.sum_comm]
  exact Finset.sum_congr rfl fun k _ => Finset.sum_congr rfl fun l _ => mul_assoc _ _ _

theorem ker_eq_ref {X : Fin 512 → Fin 2048 → EReal} {Wi0 : Fin 2048 → Fin 512 → EReal}
    {Wo0 : Fin 512 → Fin 2048 → EReal} {Wi1 : Fin 2048 → Fin 512 → EReal} {Wo1 : Fin 512 → Fin 2048 → EReal}
    {Wi2 : Fin 2048 → Fin 512 → EReal} {Wo2 : Fin 512 → Fin 2048 → EReal}
    (hX : AllReal X) (h0 : AllReal Wi0) (h1 : AllReal Wo0) (h2 : AllReal Wi1) (h3 : AllReal Wo1)
    (h4 : AllReal Wi2) (h5 : AllReal Wo2) :
    ker X Wi0 Wo0 Wi1 Wo1 Wi2 Wo2 = ref X Wi0 Wo0 Wi1 Wo1 Wi2 Wo2 := by
  have e1 : AllReal (relu (mm X Wi0)) := relu_real (mm_real hX h0)
  have e2 : AllReal (relu (mm (relu (mm X Wi0)) (mm Wo0 Wi1))) := relu_real (mm_real e1 (mm_real h1 h2))
  unfold ker ref
  rw [mm_assoc e1 h1 h2, mm_assoc e2 h3 h4]

theorem blk_lt {q : Nat} (e : Fin 8) (k : Fin q) : e.val * q + k.val < 8 * q := by
  have h : e.val * q ≤ 7 * q := Nat.mul_le_mul_right q (by omega)
  omega

theorem mm_blocks {p q r : Nat} (A : Fin p → Fin (8 * q) → EReal) (B : Fin (8 * q) → Fin r → EReal) :
    mm A B = fun i j => ∑ e : Fin 8,
      mm (fun a (k : Fin q) => A a ⟨e.val * q + k.val, blk_lt e k⟩)
         (fun (k : Fin q) b => B ⟨e.val * q + k.val, blk_lt e k⟩ b) i j := by
  funext i j
  simp only [mm]
  rw [← (finProdFinEquiv (m := 8) (n := q)).sum_comp, Fintype.sum_prod_type]
  refine Finset.sum_congr rfl fun e _ => Finset.sum_congr rfl fun k _ => ?_
  have hk : finProdFinEquiv (e, k) = (⟨e.val * q + k.val, blk_lt e k⟩ : Fin (8 * q)) :=
    Fin.ext (by simp only [finProdFinEquiv_apply_val]; rw [Nat.mul_comm, Nat.add_comm])
  rw [hk]

theorem mm_blocks_2048 {p r : Nat} (A : Fin p → Fin 2048 → EReal) (B : Fin 2048 → Fin r → EReal) :
    mm A B = fun i j => ∑ e : Fin 8,
      mm (fun a (k : Fin 256) => A a ⟨e.val * 256 + k.val, by omega⟩)
         (fun (k : Fin 256) b => B ⟨e.val * 256 + k.val, by omega⟩ b) i j :=
  mm_blocks (q := 256) A B

end Cert.KernelIdeal.Hand.Spec

end
-- ==== Proof.RefValue.lean ====
import proofs.«900577_g7700000000000578_dist_mlpseq_tp1dT_cs_cs_b512_d256_h512_v7x_i8_f32_1_alg».proof.Proof.Gen.ReferenceIdeal.Read
import proofs.«900577_g7700000000000578_dist_mlpseq_tp1dT_cs_cs_b512_d256_h512_v7x_i8_f32_1_alg».proof.Proof.Spec
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic
open Cert.KernelIdeal.Hand

abbrev mat {p q : Nat} (x : (⟨⟨2, ![p, q]⟩, .f32⟩ : BufTy).Contents (Elt Ideal)) : Fin p → Fin q → EReal :=
  fun a b => x (ValueIdx.ix2 a b)

theorem idx2_ext {n0 n1 : Nat} (f g : (⟨2, ![n0, n1]⟩ : Shape).Idx) (h0 : f 0 = g 0) (h1 : f 1 = g 1) : f = g := by
  funext a
  match a with
  | ⟨0, _⟩ => exact h0
  | ⟨1, _⟩ => exact h1

theorem mm_of_apply {p q s : Nat}
    (Y : (⟨⟨2, ![p, s]⟩, .f32⟩ : BufTy).Contents (Elt Ideal))
    (A : (⟨⟨2, ![p, q]⟩, .f32⟩ : BufTy).Contents (Elt Ideal))
    (B : (⟨⟨2, ![q, s]⟩, .f32⟩ : BufTy).Contents (Elt Ideal))
    (l : (⟨2, ![p, s]⟩ : Shape).Idx → Fin q → (⟨2, ![p, q]⟩ : Shape).Idx)
    (r : (⟨2, ![p, s]⟩ : Shape).Idx → Fin q → (⟨2, ![q, s]⟩ : Shape).Idx)
    (hY : ∀ i, Y i = ∑ k : Fin q, A (l i k) * B (r i k))
    (hl : ∀ (i : Fin p) (j : Fin s) (k : Fin q), l (ValueIdx.ix2 i j) k = ValueIdx.ix2 i k)
    (hr : ∀ (i : Fin p) (j : Fin s) (k : Fin q), r (ValueIdx.ix2 i j) k = ValueIdx.ix2 k j) :
    mat Y = Spec.mm (mat A) (mat B) := by
  funext i j
  show Y (ValueIdx.ix2 i j) = ∑ k : Fin q, A (ValueIdx.ix2 i k) * B (ValueIdx.ix2 k j)
  rw [hY]
  exact Finset.sum_congr rfl fun k _ => by rw [hl, hr]

theorem relu_of_apply {p q : Nat}
    (Y A Z : (⟨⟨2, ![p, q]⟩, .f32⟩ : BufTy).Contents (Elt Ideal))
    (hY : ∀ i, Y i = FloatOps.maximumf (F := Ideal) (φ := .f32) (A i) (Z i))
    (hZ : ∀ i, Z i = FloatOps.ofBits (F := Ideal) .f32 0x00000000#32) :
    mat Y = Spec.relu (mat A) := by
  funext i j
  show Y (ValueIdx.ix2 i j) = max (A (ValueIdx.ix2 i j)) 0
  rw [hY, hZ, Ideal.maximumf_def, Ideal.ofBits_def, Ideal.ofBits_zero_f32]

theorem dot_v0 (x0 : (⟨S512x2048, .f32⟩ : BufTy).Contents (Elt Ideal)) (x1 : (⟨S2048x512, .f32⟩ : BufTy).Contents (Elt Ideal)) :
    mat (val_main_v0 (F := Ideal) x0 x1) = Spec.mm (mat x0) (mat x1) :=
  mm_of_apply _ _ _ lidx_main_v0 ridx_main_v0 (val_main_v0_apply x0 x1)
    (fun _ _ _ => idx2_ext _ _ rfl rfl) (fun _ _ _ => idx2_ext _ _ rfl rfl)

theorem relu_v2 (x0 : (⟨S512x2048, .f32⟩ : BufTy).Contents (Elt Ideal)) (x1 : (⟨S2048x512, .f32⟩ : BufTy).Contents (Elt Ideal)) :
    mat (val_main_v2 (F := Ideal) x0 x1) = Spec.relu (mat (val_main_v0 (F := Ideal) x0 x1)) :=
  relu_of_apply _ _ (val_main_v1 (F := Ideal)) (val_main_v2_apply x0 x1)
    (fun i => (val_main_v1_apply i).trans (val_main_cst_apply _))

theorem dot_v3 (x0 : (⟨S512x2048, .f32⟩ : BufTy).Contents (Elt Ideal)) (x1 : (⟨S2048x512, .f32⟩ : BufTy).Contents (Elt Ideal))
    (x2 : (⟨S512x2048, .f32⟩ : BufTy).Contents (Elt Ideal)) :
    mat (val_main_v3 (F := Ideal) x0 x1 x2) = Spec.mm (mat (val_main_v2 (F := Ideal) x0 x1)) (mat x2) :=
  mm_of_apply _ _ _ lidx_main_v3 ridx_main_v3 (val_main_v3_apply x0 x1 x2)
    (fun _ _ _ => idx2_ext _ _ rfl rfl) (fun _ _ _ => idx2_ext _ _ rfl rfl)

theorem dot_v4 (x0 : (⟨S512x2048, .f32⟩ : BufTy).Contents (Elt Ideal)) (x1 : (⟨S2048x512, .f32⟩ : BufTy).Contents (Elt Ideal))
    (x2 : (⟨S512x2048, .f32⟩ : BufTy).Contents (Elt Ideal)) (x3 : (⟨S2048x512, .f32⟩ : BufTy).Contents (Elt Ideal)) :
    mat (val_main_v4 (F := Ideal) x0 x1 x2 x3) = Spec.mm (mat (val_main_v3 (F := Ideal) x0 x1 x2)) (mat x3) :=
  mm_of_apply _ _ _ lidx_main_v4 ridx_main_v4 (val_main_v4_apply x0 x1 x2 x3)
    (fun _ _ _ => idx2_ext _ _ rfl rfl) (fun _ _ _ => idx2_ext _ _ rfl rfl)

theorem relu_v6 (x0 : (⟨S512x2048, .f32⟩ : BufTy).Contents (Elt Ideal)) (x1 : (⟨S2048x512, .f32⟩ : BufTy).Contents (Elt Ideal))
    (x2 : (⟨S512x2048, .f32⟩ : BufTy).Contents (Elt Ideal)) (x3 : (⟨S2048x512, .f32⟩ : BufTy).Contents (Elt Ideal)) :
    mat (val_main_v6 (F := Ideal) x0 x1 x2 x3) = Spec.relu (mat (val_main_v4 (F := Ideal) x0 x1 x2 x3)) :=
  relu_of_apply _ _ (val_main_v5 (F := Ideal)) (val_main_v6_apply x0 x1 x2 x3)
    (fun i => (val_main_v5_apply i).trans (val_main_cst_0_apply _))

theorem dot_v7 (x0 : (⟨S512x2048, .f32⟩ : BufTy).Contents (Elt Ideal)) (x1 : (⟨S2048x512, .f32⟩ : BufTy).Contents (Elt Ideal))
    (x2 : (⟨S512x2048, .f32⟩ : BufTy).Contents (Elt Ideal)) (x3 : (⟨S2048x512, .f32⟩ : BufTy).Contents (Elt Ideal))
    (x4 : (⟨S512x2048, .f32⟩ : BufTy).Contents (Elt Ideal)) :
    mat (val_main_v7 (F := Ideal) x0 x1 x2 x3 x4) = Spec.mm (mat (val_main_v6 (F := Ideal) x0 x1 x2 x3)) (mat x4) :=
  mm_of_apply _ _ _ lidx_main_v7 ridx_main_v7 (val_main_v7_apply x0 x1 x2 x3 x4)
    (fun _ _ _ => idx2_ext _ _ rfl rfl) (fun _ _ _ => idx2_ext _ _ rfl rfl)

theorem dot_v8 (x0 : (⟨S512x2048, .f32⟩ : BufTy).Contents (Elt Ideal)) (x1 : (⟨S2048x512, .f32⟩ : BufTy).Contents (Elt Ideal))
    (x2 : (⟨S512x2048, .f32⟩ : BufTy).Contents (Elt Ideal)) (x3 : (⟨S2048x512, .f32⟩ : BufTy).Contents (Elt Ideal))
    (x4 : (⟨S512x2048, .f32⟩ : BufTy).Contents (Elt Ideal)) (x5 : (⟨S2048x512, .f32⟩ : BufTy).Contents (Elt Ideal)) :
    mat (val_main_v8 (F := Ideal) x0 x1 x2 x3 x4 x5) = Spec.mm (mat (val_main_v7 (F := Ideal) x0 x1 x2 x3 x4)) (mat x5) :=
  mm_of_apply _ _ _ lidx_main_v8 ridx_main_v8 (val_main_v8_apply x0 x1 x2 x3 x4 x5)
    (fun _ _ _ => idx2_ext _ _ rfl rfl) (fun _ _ _ => idx2_ext _ _ rfl rfl)

theorem relu_v10 (x0 : (⟨S512x2048, .f32⟩ : BufTy).Contents (Elt Ideal)) (x1 : (⟨S2048x512, .f32⟩ : BufTy).Contents (Elt Ideal))
    (x2 : (⟨S512x2048, .f32⟩ : BufTy).Contents (Elt Ideal)) (x3 : (⟨S2048x512, .f32⟩ : BufTy).Contents (Elt Ideal))
    (x4 : (⟨S512x2048, .f32⟩ : BufTy).Contents (Elt Ideal)) (x5 : (⟨S2048x512, .f32⟩ : BufTy).Contents (Elt Ideal)) :
    mat (val_main_v10 (F := Ideal) x0 x1 x2 x3 x4 x5) = Spec.relu (mat (val_main_v8 (F := Ideal) x0 x1 x2 x3 x4 x5)) :=
  relu_of_apply _ _ (val_main_v9 (F := Ideal)) (val_main_v10_apply x0 x1 x2 x3 x4 x5)
    (fun i => (val_main_v9_apply i).trans (val_main_cst_1_apply _))

theorem dot_v11 (x0 : (⟨S512x2048, .f32⟩ : BufTy).Contents (Elt Ideal)) (x1 : (⟨S2048x512, .f32⟩ : BufTy).Contents (Elt Ideal))
    (x2 : (⟨S512x2048, .f32⟩ : BufTy).Contents (Elt Ideal)) (x3 : (⟨S2048x512, .f32⟩ : BufTy).Contents (Elt Ideal))
    (x4 : (⟨S512x2048, .f32⟩ : BufTy).Contents (Elt Ideal)) (x5 : (⟨S2048x512, .f32⟩ : BufTy).Contents (Elt Ideal))
    (x6 : (⟨S512x2048, .f32⟩ : BufTy).Contents (Elt Ideal)) :
    mat (val_main_v11 (F := Ideal) x0 x1 x2 x3 x4 x5 x6)
      = Spec.mm (mat (val_main_v10 (F := Ideal) x0 x1 x2 x3 x4 x5)) (mat x6) :=
  mm_of_apply _ _ _ lidx_main_v11 ridx_main_v11 (val_main_v11_apply x0 x1 x2 x3 x4 x5 x6)
    (fun _ _ _ => idx2_ext _ _ rfl rfl) (fun _ _ _ => idx2_ext _ _ rfl rfl)

theorem ref_mat (x0 : (⟨S512x2048, .f32⟩ : BufTy).Contents (Elt Ideal)) (x1 : (⟨S2048x512, .f32⟩ : BufTy).Contents (Elt Ideal))
    (x2 : (⟨S512x2048, .f32⟩ : BufTy).Contents (Elt Ideal)) (x3 : (⟨S2048x512, .f32⟩ : BufTy).Contents (Elt Ideal))
    (x4 : (⟨S512x2048, .f32⟩ : BufTy).Contents (Elt Ideal)) (x5 : (⟨S2048x512, .f32⟩ : BufTy).Contents (Elt Ideal))
    (x6 : (⟨S512x2048, .f32⟩ : BufTy).Contents (Elt Ideal)) :
    mat (val_main_v11 (F := Ideal) x0 x1 x2 x3 x4 x5 x6)
      = Spec.ref (mat x0) (mat x1) (mat x2) (mat x3) (mat x4) (mat x5) (mat x6) := by
  rw [dot_v11, relu_v10, dot_v8, dot_v7, relu_v6, dot_v4, dot_v3, relu_v2, dot_v0]
  rfl

theorem ref_value (x0 : (⟨S512x2048, .f32⟩ : BufTy).Contents (Elt Ideal)) (x1 : (⟨S2048x512, .f32⟩ : BufTy).Contents (Elt Ideal))
    (x2 : (⟨S512x2048, .f32⟩ : BufTy).Contents (Elt Ideal)) (x3 : (⟨S2048x512, .f32⟩ : BufTy).Contents (Elt Ideal))
    (x4 : (⟨S512x2048, .f32⟩ : BufTy).Contents (Elt Ideal)) (x5 : (⟨S2048x512, .f32⟩ : BufTy).Contents (Elt Ideal))
    (x6 : (⟨S512x2048, .f32⟩ : BufTy).Contents (Elt Ideal)) (i : Fin 512) (j : Fin 2048) :
    Cert.ReferenceIdeal.Read.val_main_v11 (F := Ideal) x0 x1 x2 x3 x4 x5 x6 (ValueIdx.ix2 i j)
      = Cert.KernelIdeal.Hand.Spec.ref (fun a b => x0 (ValueIdx.ix2 a b)) (fun a b => x1 (ValueIdx.ix2 a b))
          (fun a b => x2 (ValueIdx.ix2 a b)) (fun a b => x3 (ValueIdx.ix2 a b)) (fun a b => x4 (ValueIdx.ix2 a b))
          (fun a b => x5 (ValueIdx.ix2 a b)) (fun a b => x6 (ValueIdx.ix2 a b)) i j :=
  congrFun (congrFun (ref_mat x0 x1 x2 x3 x4 x5 x6) i) j

end Cert.ReferenceIdeal.RefValue

end
-- ==== Proof.Finite.lean ====
import proofs.«900577_g7700000000000578_dist_mlpseq_tp1dT_cs_cs_b512_d256_h512_v7x_i8_f32_1_alg».proof.Defs
import proofs.«900577_g7700000000000578_dist_mlpseq_tp1dT_cs_cs_b512_d256_h512_v7x_i8_f32_1_alg».proof.Proof.Contents
import proofs.«900577_g7700000000000578_dist_mlpseq_tp1dT_cs_cs_b512_d256_h512_v7x_i8_f32_1_alg».proof.Proof.Spec
import proofs.«900577_g7700000000000578_dist_mlpseq_tp1dT_cs_cs_b512_d256_h512_v7x_i8_f32_1_alg».proof.Proof.Gen.Pre_finite_inputs_Kernel
import Idealize.ShloMosaic.Lib.ReduceAll
import Idealize.ShloMosaic.Lib.ValueIdx

noncomputable section

namespace Cert.KernelIdeal.Hand

open Idealize.ShloMosaic Idealize.ShloMosaic.TcCoe Cert.KernelIdeal Cert.KernelIdeal.Gen
open Idealize.ShloMosaic.ValueIdx (ix0 ix2)

instance : Subsingleton Cert.Pre_finite_inputs_Kernel.S_.Idx := ⟨fun a b => funext fun d => d.elim0⟩

theorem inf_eq_top : Ideal.ofBits .f32 0x7F800000#32 = (⊤ : EReal) := by simp [Ideal.ofBits, Ideal.ieee]

theorem real_of_abs_lt_top (x : EReal) (hx : Ideal.cmp .olt (max x (-x)) (Ideal.ofBits .f32 0x7F800000#32) = 1#1) :
    ∃ r : ℝ, x = (r : EReal) := by
  rw [inf_eq_top] at hx
  have hlt : max x (-x) < ⊤ := by
    by_contra hn
    simp [Ideal.cmp, hn] at hx
  induction x using EReal.rec with
  | bot => simp at hlt
  | coe r => exact ⟨r, rfl⟩
  | top => simp at hlt

theorem real_of_all {s : Shape} {axes : List (Fin s.rank)}
    (hb : Cert.Pre_finite_inputs_Kernel.S_.BroadcastsInDim s (![] : Fin 0 → Fin s.rank))
    (hr : s.ReducesTo axes Cert.Pre_finite_inputs_Kernel.S_) (hu : 0 < Cert.Pre_finite_inputs_Kernel.S_.numel)
    (X : FVec Ideal s .f32) (init : IVec Cert.Pre_finite_inputs_Kernel.S_ 1)
    (e : Host.reduce IntOp.andi
        (cmpf .olt (Host.absf X) (broadcastInDim s ![] hb (constant Cert.Pre_finite_inputs_Kernel.S_ .f32 0x7F800000#32)))
        init hr hu ix0 = 1#1)
    (i : s.Idx) : ∃ r : ℝ, X i = (r : EReal) :=
  real_of_abs_lt_top (X i) (Host.reduce_andi_all _ init hr hu ix0 e i)

theorem finite_args [hP : Cert.Pre_finite_inputs_Kernel.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Spec.AllReal (mat (aX (F := Ideal) m c)) ∧ Spec.AllReal (mat (aWi0 (F := Ideal) m c))
      ∧ Spec.AllReal (mat (aWo0 (F := Ideal) m c)) ∧ Spec.AllReal (mat (aWi1 (F := Ideal) m c))
      ∧ Spec.AllReal (mat (aWo1 (F := Ideal) m c)) ∧ Spec.AllReal (mat (aWi2 (F := Ideal) m c))
      ∧ Spec.AllReal (mat (aWo2 (F := Ideal) m c)) := by
  have h0 := congrFun (h c) ix0
  dsimp only [Cert.Pre_finite_inputs_Kernel.fn, Cert.Pre_finite_inputs_Kernel.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun a b => real_of_all _ _ _ _ _ e0 (ix2 a b), fun a b => real_of_all _ _ _ _ _ e1 (ix2 a b),
    fun a b => real_of_all _ _ _ _ _ e2 (ix2 a b), fun a b => real_of_all _ _ _ _ _ e3 (ix2 a b),
    fun a b => real_of_all _ _ _ _ _ e4 (ix2 a b), fun a b => real_of_all _ _ _ _ _ e5 (ix2 a b),
    fun a b => real_of_all _ _ _ _ _ e6 (ix2 a b)⟩

end Cert.KernelIdeal.Hand

end
-- ==== Proof.Value.lean ====
import proofs.«900577_g7700000000000578_dist_mlpseq_tp1dT_cs_cs_b512_d256_h512_v7x_i8_f32_1_alg».proof.Defs
import proofs.«900577_g7700000000000578_dist_mlpseq_tp1dT_cs_cs_b512_d256_h512_v7x_i8_f32_1_alg».proof.Proof.KerHigh
import proofs.«900577_g7700000000000578_dist_mlpseq_tp1dT_cs_cs_b512_d256_h512_v7x_i8_f32_1_alg».proof.Proof.SpecAlg
import proofs.«900577_g7700000000000578_dist_mlpseq_tp1dT_cs_cs_b512_d256_h512_v7x_i8_f32_1_alg».proof.Proof.RefValue
import proofs.«900577_g7700000000000578_dist_mlpseq_tp1dT_cs_cs_b512_d256_h512_v7x_i8_f32_1_alg».proof.Proof.Finite
import proofs.«900577_g7700000000000578_dist_mlpseq_tp1dT_cs_cs_b512_d256_h512_v7x_i8_f32_1_alg».proof.Proof.Gen.ReferenceIdeal.Read
import Idealize.ShloMosaic.Lib.Layout
import Idealize.ShloMosaic.Lib.ValueIdx

noncomputable section

namespace Cert.KernelIdeal.Hand

open Idealize.ShloMosaic Idealize.ShloMosaic.TcCoe
open Idealize.ShloMosaic.ValueIdx (ix2 ix3 eq_ix2)

def refOut (m' : (ℓ : Loc Cert.ReferenceIdeal.nD Cert.ReferenceIdeal.τ Cert.ReferenceIdeal.sig) → Buf (Elt Ideal) ℓ) : Buf (Elt Ideal) (((0 : Dev Cert.ReferenceIdeal.nD).tc : Thread Cert.ReferenceIdeal.nD Cert.ReferenceIdeal.τ).loc Cert.ReferenceIdeal.main_v11) :=
  Cert.ReferenceIdeal.Read.val_main_v11 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6))

def at8 (c : Fin 8) (b : Fin 256) : Fin 2048 := ⟨c.val * 256 + b.val, by omega⟩

theorem at8_div_mod (j : Fin 2048) : at8 ⟨j.val / 256, by omega⟩ ⟨j.val % 256, by omega⟩ = j :=
  Fin.ext (by show j.val / 256 * 256 + j.val % 256 = j.val; omega)

theorem row_div_mod (i : Fin 512) : row ⟨i.val / 64, by omega⟩ ⟨i.val % 64, by omega⟩ = i :=
  Fin.ext (by show i.val / 64 * 64 + i.val % 64 = i.val; omega)

theorem idx_cols (h : Layout.Tiles ⟨2, ![512, 256]⟩ ⟨2, ![512, 2048]⟩ 1 8) (c : Fin 8) (a : Fin 512) (b : Fin 256) :
    h.idx c (ix2 a b) = ix2 a (at8 c b) := by
  funext d
  match d with
  | ⟨0, _⟩ => exact Fin.ext rfl
  | ⟨1, _⟩ => exact Fin.ext rfl

theorem idx_rows (h : Layout.Tiles ⟨2, ![256, 512]⟩ ⟨2, ![2048, 512]⟩ 0 8) (c : Fin 8) (a : Fin 256) (b : Fin 512) :
    h.idx c (ix2 a b) = ix2 (at8 c a) b := by
  funext d
  match d with
  | ⟨0, _⟩ => exact Fin.ext rfl
  | ⟨1, _⟩ => exact Fin.ext rfl

theorem mat_block_cols (x : Vec Ideal ⟨2, ![512, 2048]⟩ .f32) (c : Fin 8)
    (h : Layout.Tiles ⟨2, ![512, 256]⟩ ⟨2, ![512, 2048]⟩ 1 8) :
    mat (F := Ideal) (e := .f32) (Layout.block ⟨2, ![512, 256]⟩ ⟨2, ![512, 2048]⟩ 1 8 c x h)
      = fun a b => mat (F := Ideal) (e := .f32) x a (at8 c b) := by
  funext a b
  show x (h.idx c (ix2 a b)) = x (ix2 a (at8 c b))
  rw [idx_cols]

theorem mat_block_rows (x : Vec Ideal ⟨2, ![2048, 512]⟩ .f32) (c : Fin 8)
    (h : Layout.Tiles ⟨2, ![256, 512]⟩ ⟨2, ![2048, 512]⟩ 0 8) :
    mat (F := Ideal) (e := .f32) (Layout.block ⟨2, ![256, 512]⟩ ⟨2, ![2048, 512]⟩ 0 8 c x h)
      = fun a b => mat (F := Ideal) (e := .f32) x (at8 c a) b := by
  funext a b
  show x (h.idx c (ix2 a b)) = x (ix2 (at8 c a) b)
  rw [idx_rows]

theorem mm_cut {p r : Nat} (A : Fin p → Fin 2048 → EReal) (B : Fin 2048 → Fin r → EReal) (i : Fin p) (j : Fin r) :
    ∑ e : Fin 8, Spec.mm (fun a (k : Fin 256) => A a (at8 e k)) (fun (k : Fin 256) b => B (at8 e k) b) i j = Spec.mm A B i j :=
  (congrFun (congrFun (Spec.mm_blocks_2048 A B) i) j).symm

theorem allReal_cols {p : Nat} (A : Fin p → Fin 2048 → EReal) (B : Fin 8 → Fin p → Fin 256 → EReal)
    (hB : ∀ c, B c = fun a b => A a (at8 c b)) (hr : ∀ c, Spec.AllReal (B c)) : Spec.AllReal A := by
  intro i j
  obtain ⟨x, hx⟩ := hr ⟨j.val / 256, by omega⟩ i ⟨j.val % 256, by omega⟩
  rw [hB] at hx
  have hx' : A i (at8 ⟨j.val / 256, by omega⟩ ⟨j.val % 256, by omega⟩) = (x : EReal) := hx
  rw [at8_div_mod] at hx'
  exact ⟨x, hx'⟩

theorem allReal_rows {r : Nat} (A : Fin 2048 → Fin r → EReal) (B : Fin 8 → Fin 256 → Fin r → EReal)
    (hB : ∀ c, B c = fun a b => A (at8 c a) b) (hr : ∀ c, Spec.AllReal (B c)) : Spec.AllReal A := by
  intro i j
  obtain ⟨x, hx⟩ := hr ⟨i.val / 256, by omega⟩ ⟨i.val % 256, by omega⟩ j
  rw [hB] at hx
  have hx' : A (at8 ⟨i.val / 256, by omega⟩ ⟨i.val % 256, by omega⟩) j = (x : EReal) := hx
  rw [at8_div_mod] at hx'
  exact ⟨x, hx'⟩

section Whole

variable (m : (ℓ : Loc Cert.KernelIdeal.nD Cert.KernelIdeal.τ Cert.KernelIdeal.sig) → Buf (Elt Ideal) ℓ)
variable (X : Fin 512 → Fin 2048 → EReal) (Wi0 : Fin 2048 → Fin 512 → EReal) (Wo0 : Fin 512 → Fin 2048 → EReal)
  (Wi1 : Fin 2048 → Fin 512 → EReal) (Wo1 : Fin 512 → Fin 2048 → EReal) (Wi2 : Fin 2048 → Fin 512 → EReal)
  (Wo2 : Fin 512 → Fin 2048 → EReal)

structure Placed : Prop where
  hX : ∀ c : Fin 8, mat (aX (F := Ideal) m c) = fun a b => X a (at8 c b)
  hWi0 : ∀ c : Fin 8, mat (aWi0 (F := Ideal) m c) = fun a b => Wi0 (at8 c a) b
  hWo0 : ∀ c : Fin 8, mat (aWo0 (F := Ideal) m c) = fun a b => Wo0 a (at8 c b)
  hWi1 : ∀ c : Fin 8, mat (aWi1 (F := Ideal) m c) = fun a b => Wi1 (at8 c a) b
  hWo1 : ∀ c : Fin 8, mat (aWo1 (F := Ideal) m c) = fun a b => Wo1 a (at8 c b)
  hWi2 : ∀ c : Fin 8, mat (aWi2 (F := Ideal) m c) = fun a b => Wi2 (at8 c a) b
  hWo2 : ∀ c : Fin 8, mat (aWo2 (F := Ideal) m c) = fun a b => Wo2 a (at8 c b)

variable {m X Wi0 Wo0 Wi1 Wo1 Wi2 Wo2}
variable (P : Placed m X Wi0 Wo0 Wi1 Wo1 Wi2 Wo2)
include P

theorem Placed.sum0 (i : Fin 512) (q : Fin 512) :
    ∑ e : Dev Cert.KernelIdeal.nD, Spec.mm (mat (aX (F := Ideal) m e)) (mat (aWi0 (F := Ideal) m e)) i q = Spec.mm X Wi0 i q := by
  have h : ∀ e : Fin 8, Spec.mm (mat (aX (F := Ideal) m e)) (mat (aWi0 (F := Ideal) m e)) i q
      = Spec.mm (fun a (k : Fin 256) => X a (at8 e k)) (fun (k : Fin 256) b => Wi0 (at8 e k) b) i q :=
    fun e => by rw [P.hX e, P.hWi0 e]
  exact (Finset.sum_congr rfl fun e _ => h e).trans (mm_cut X Wi0 i q)

theorem Placed.sum1 (i : Fin 512) (q : Fin 512) :
    ∑ e : Dev Cert.KernelIdeal.nD, Spec.mm (mat (aWo0 (F := Ideal) m e)) (mat (aWi1 (F := Ideal) m e)) i q = Spec.mm Wo0 Wi1 i q := by
  have h : ∀ e : Fin 8, Spec.mm (mat (aWo0 (F := Ideal) m e)) (mat (aWi1 (F := Ideal) m e)) i q
      = Spec.mm (fun a (k : Fin 256) => Wo0 a (at8 e k)) (fun (k : Fin 256) b => Wi1 (at8 e k) b) i q :=
    fun e => by rw [P.hWo0 e, P.hWi1 e]
  exact (Finset.sum_congr rfl fun e _ => h e).trans (mm_cut Wo0 Wi1 i q)

theorem Placed.sum2 (i : Fin 512) (q : Fin 512) :
    ∑ e : Dev Cert.KernelIdeal.nD, Spec.mm (mat (aWo1 (F := Ideal) m e)) (mat (aWi2 (F := Ideal) m e)) i q = Spec.mm Wo1 Wi2 i q := by
  have h : ∀ e : Fin 8, Spec.mm (mat (aWo1 (F := Ideal) m e)) (mat (aWi2 (F := Ideal) m e)) i q
      = Spec.mm (fun a (k : Fin 256) => Wo1 a (at8 e k)) (fun (k : Fin 256) b => Wi2 (at8 e k) b) i q :=
    fun e => by rw [P.hWo1 e, P.hWi2 e]
  exact (Finset.sum_congr rfl fun e _ => h e).trans (mm_cut Wo1 Wi2 i q)

theorem Placed.W1 : W1 m = Spec.mm Wo0 Wi1 := funext fun k => funext fun q => P.sum1 k q
theorem Placed.W2 : W2 m = Spec.mm Wo1 Wi2 := funext fun k => funext fun q => P.sum2 k q

theorem Placed.h0 (c : Dev Cert.KernelIdeal.nD) (r : Fin 64) (q : Fin 512) :
    h0 (F := Ideal) m c (ix2 r q) = Spec.relu (Spec.mm X Wi0) (row c r) q := by
  rw [h0_apply, P.sum0]
  rfl

theorem Placed.h1 (c : Dev Cert.KernelIdeal.nD) (r : Fin 64) (q : Fin 512) :
    h1 (F := Ideal) m c (ix2 r q) = Spec.relu (Spec.mm (Spec.relu (Spec.mm X Wi0)) (Spec.mm Wo0 Wi1)) (row c r) q := by
  rw [h1_apply, P.W1]
  simp only [P.h0]
  rfl

theorem Placed.h2own (c : Dev Cert.KernelIdeal.nD) (r : Fin 64) (q : Fin 512) :
    h2own (F := Ideal) m c (ix2 r q)
      = Spec.relu (Spec.mm (Spec.relu (Spec.mm (Spec.relu (Spec.mm X Wi0)) (Spec.mm Wo0 Wi1))) (Spec.mm Wo1 Wi2)) (row c r) q := by
  rw [h2own_apply, P.W2]
  simp only [P.h1]
  rfl

theorem Placed.out_row (c : Dev Cert.KernelIdeal.nD) (s : Fin 8) (r : Fin 64) (j : Fin 256) :
    outC (F := Ideal) m c (ix2 (row s r) j) = Spec.ker X Wi0 Wo0 Wi1 Wo1 Wi2 Wo2 (row s r) (at8 c j) := by
  rw [outC_apply, P.hWo2 c]
  simp only [P.h2own]
  rfl

theorem Placed.out (c : Dev Cert.KernelIdeal.nD) (i : Fin 512) (j : Fin 256) :
    outC (F := Ideal) m c (ix2 i j) = Spec.ker X Wi0 Wo0 Wi1 Wo1 Wi2 Wo2 i (at8 c j) := by
  have h := P.out_row c ⟨i.val / 64, by omega⟩ ⟨i.val % 64, by omega⟩ j
  rwa [row_div_mod] at h

theorem Placed.real [hP : Cert.Pre_finite_inputs_Kernel.Facts] (hpre : Cert.Pre_KernelIdeal m) :
    Spec.AllReal X ∧ Spec.AllReal Wi0 ∧ Spec.AllReal Wo0 ∧ Spec.AllReal Wi1 ∧ Spec.AllReal Wo1 ∧ Spec.AllReal Wi2
      ∧ Spec.AllReal Wo2 :=
  ⟨allReal_cols X _ P.hX fun c => (finite_args m hpre c).1,
   allReal_rows Wi0 _ P.hWi0 fun c => (finite_args m hpre c).2.1,
   allReal_cols Wo0 _ P.hWo0 fun c => (finite_args m hpre c).2.2.1,
   allReal_rows Wi1 _ P.hWi1 fun c => (finite_args m hpre c).2.2.2.1,
   allReal_cols Wo1 _ P.hWo1 fun c => (finite_args m hpre c).2.2.2.2.1,
   allReal_rows Wi2 _ P.hWi2 fun c => (finite_args m hpre c).2.2.2.2.2.1,
   allReal_cols Wo2 _ P.hWo2 fun c => (finite_args m hpre c).2.2.2.2.2.2⟩

theorem Placed.value [hP : Cert.Pre_finite_inputs_Kernel.Facts] (hpre : Cert.Pre_KernelIdeal m)
    (c : Dev Cert.KernelIdeal.nD) (i : Fin 512) (j : Fin 256) :
    outC (F := Ideal) m c (ix2 i j) = Spec.ref X Wi0 Wo0 Wi1 Wo1 Wi2 Wo2 i (at8 c j) := by
  obtain ⟨r0, r1, r2, r3, r4, r5, r6⟩ := P.real hpre
  rw [P.out, Spec.ker_eq_ref r0 r1 r2 r3 r4 r5 r6]

end Whole

theorem value_block [hPre_finite_inputs_Kernel : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg6)))
    (c : Dev Cert.KernelIdeal.nD) :
    (outC (F := Ideal) m c : Buf (Elt Ideal) ((c.tc : Thread Cert.KernelIdeal.nD Cert.KernelIdeal.τ).loc Cert.KernelIdeal.main_v1)) = Layout.block ⟨2, ![512, 256]⟩ ⟨2, ![512, 2048]⟩ 1 8 c (refOut m') := by
  have P : Placed m
      (mat (F := Ideal) (e := .f32) (m' (((0 : Dev Cert.ReferenceIdeal.nD).tc : Thread Cert.ReferenceIdeal.nD Cert.ReferenceIdeal.τ).loc Cert.ReferenceIdeal.main_arg0)))
      (mat (F := Ideal) (e := .f32) (m' (((0 : Dev Cert.ReferenceIdeal.nD).tc : Thread Cert.ReferenceIdeal.nD Cert.ReferenceIdeal.τ).loc Cert.ReferenceIdeal.main_arg1)))
      (mat (F := Ideal) (e := .f32) (m' (((0 : Dev Cert.ReferenceIdeal.nD).tc : Thread Cert.ReferenceIdeal.nD Cert.ReferenceIdeal.τ).loc Cert.ReferenceIdeal.main_arg2)))
      (mat (F := Ideal) (e := .f32) (m' (((0 : Dev Cert.ReferenceIdeal.nD).tc : Thread Cert.ReferenceIdeal.nD Cert.ReferenceIdeal.τ).loc Cert.ReferenceIdeal.main_arg3)))
      (mat (F := Ideal) (e := .f32) (m' (((0 : Dev Cert.ReferenceIdeal.nD).tc : Thread Cert.ReferenceIdeal.nD Cert.ReferenceIdeal.τ).loc Cert.ReferenceIdeal.main_arg4)))
      (mat (F := Ideal) (e := .f32) (m' (((0 : Dev Cert.ReferenceIdeal.nD).tc : Thread Cert.ReferenceIdeal.nD Cert.ReferenceIdeal.τ).loc Cert.ReferenceIdeal.main_arg5)))
      (mat (F := Ideal) (e := .f32) (m' (((0 : Dev Cert.ReferenceIdeal.nD).tc : Thread Cert.ReferenceIdeal.nD Cert.ReferenceIdeal.τ).loc Cert.ReferenceIdeal.main_arg6))) :=
    { hX := fun e => by unfold aX; rw [(hagree e).1]; exact mat_block_cols _ e _
      hWi0 := fun e => by unfold aWi0; rw [(hagree e).2.1]; exact mat_block_rows _ e _
      hWo0 := fun e => by unfold aWo0; rw [(hagree e).2.2.1]; exact mat_block_cols _ e _
      hWi1 := fun e => by unfold aWi1; rw [(hagree e).2.2.2.1]; exact mat_block_rows _ e _
      hWo1 := fun e => by unfold aWo1; rw [(hagree e).2.2.2.2.1]; exact mat_block_cols _ e _
      hWi2 := fun e => by unfold aWi2; rw [(hagree e).2.2.2.2.2.1]; exact mat_block_rows _ e _
      hWo2 := fun e => by unfold aWo2; rw [(hagree e).2.2.2.2.2.2]; exact mat_block_cols _ e _ }
  have key : ∀ (a : Fin 512) (b : Fin 256),
      outC (F := Ideal) m c (ix2 a b) = refOut m' (ix2 a (at8 c b)) := fun a b =>
    (P.value hpre c a b).trans (Cert.ReferenceIdeal.RefValue.ref_value _ _ _ _ _ _ _ a (at8 c b)).symm
  have e : (outC (F := Ideal) m c : Vec Ideal ⟨2, ![512, 256]⟩ .f32)
      = Layout.block ⟨2, ![512, 256]⟩ ⟨2, ![512, 2048]⟩ 1 8 c (refOut m') := by
    funext idx
    obtain ⟨a, b, rfl⟩ : ∃ a b, idx = ix2 a b := ⟨_, _, eq_ix2 idx⟩
    rw [Layout.block_apply, idx_cols]
    exact key a b
  exact e

end Cert.KernelIdeal.Hand

end
-- ==== Proof.Claims.lean ====
import proofs.«900577_g7700000000000578_dist_mlpseq_tp1dT_cs_cs_b512_d256_h512_v7x_i8_f32_1_alg».proof.Defs
import proofs.«900577_g7700000000000578_dist_mlpseq_tp1dT_cs_cs_b512_d256_h512_v7x_i8_f32_1_alg».proof.Proof.Launch
import proofs.«900577_g7700000000000578_dist_mlpseq_tp1dT_cs_cs_b512_d256_h512_v7x_i8_f32_1_alg».proof.Proof.K.Launch
import proofs.«900577_g7700000000000578_dist_mlpseq_tp1dT_cs_cs_b512_d256_h512_v7x_i8_f32_1_alg».proof.Proof.Value
import proofs.«900577_g7700000000000578_dist_mlpseq_tp1dT_cs_cs_b512_d256_h512_v7x_i8_f32_1_alg».proof.Proof.Gen.Kernel
import proofs.«900577_g7700000000000578_dist_mlpseq_tp1dT_cs_cs_b512_d256_h512_v7x_i8_f32_1_alg».proof.Proof.Gen.KernelIdeal
import proofs.«900577_g7700000000000578_dist_mlpseq_tp1dT_cs_cs_b512_d256_h512_v7x_i8_f32_1_alg».proof.Proof.Gen.ReferenceIdeal
import proofs.«900577_g7700000000000578_dist_mlpseq_tp1dT_cs_cs_b512_d256_h512_v7x_i8_f32_1_alg».proof.Proof.Gen.ReferenceIdeal.Run
import proofs.«900577_g7700000000000578_dist_mlpseq_tp1dT_cs_cs_b512_d256_h512_v7x_i8_f32_1_alg».proof.Proof.Gen.ReferenceIdeal.Read
import proofs.«900577_g7700000000000578_dist_mlpseq_tp1dT_cs_cs_b512_d256_h512_v7x_i8_f32_1_alg».proof.Proof.Gen.Pre_finite_inputs_Kernel
import proofs.«900577_g7700000000000578_dist_mlpseq_tp1dT_cs_cs_b512_d256_h512_v7x_i8_f32_1_alg».proof.Proof.Gen.Pre_finite_inputs_ReferenceIdeal

noncomputable section

namespace Cert.Proof.Claims

open Idealize.ShloMosaic Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨Cert.KernelIdeal.Hand.refOut m', ?_, ?_⟩
  · exact (θ_run Cert.KernelIdeal.defs _ _).mono
      (fun _ h c => ⟨(h c).1.trans (Cert.KernelIdeal.Hand.value_block m m' hpre hagree c), (h c).2⟩)
      (Cert.KernelIdeal.Hand.run_main (F := Ideal) m ρ)
  · exact (θ_run Cert.ReferenceIdeal.defs _ _).mono
      (fun _ h => ⟨(h 0).1.trans (Cert.ReferenceIdeal.Read.val_main_v11_eq _ _ _ _ _ _ _), (h 0).2⟩)
      (Cert.ReferenceIdeal.Value.run (F := Ideal) m' ρ')

end Cert.Proof.Claims

end
-- ==== Proof.lean ====
import proofs.«900577_g7700000000000578_dist_mlpseq_tp1dT_cs_cs_b512_d256_h512_v7x_i8_f32_1_alg».proof.Defs
import proofs.«900577_g7700000000000578_dist_mlpseq_tp1dT_cs_cs_b512_d256_h512_v7x_i8_f32_1_alg».proof.Proof.Gen.Kernel
import proofs.«900577_g7700000000000578_dist_mlpseq_tp1dT_cs_cs_b512_d256_h512_v7x_i8_f32_1_alg».proof.Proof.Gen.Kernel.Skeleton
import proofs.«900577_g7700000000000578_dist_mlpseq_tp1dT_cs_cs_b512_d256_h512_v7x_i8_f32_1_alg».proof.Proof.Gen.Kernel.Launch
import proofs.«900577_g7700000000000578_dist_mlpseq_tp1dT_cs_cs_b512_d256_h512_v7x_i8_f32_1_alg».proof.Proof.Gen.Kernel.Points
import proofs.«900577_g7700000000000578_dist_mlpseq_tp1dT_cs_cs_b512_d256_h512_v7x_i8_f32_1_alg».proof.Proof.Gen.Kernel.Frame
import proofs.«900577_g7700000000000578_dist_mlpseq_tp1dT_cs_cs_b512_d256_h512_v7x_i8_f32_1_alg».proof.Proof.Gen.KernelIdeal
import proofs.«900577_g7700000000000578_dist_mlpseq_tp1dT_cs_cs_b512_d256_h512_v7x_i8_f32_1_alg».proof.Proof.Gen.KernelIdeal.Skeleton
import proofs.«900577_g7700000000000578_dist_mlpseq_tp1dT_cs_cs_b512_d256_h512_v7x_i8_f32_1_alg».proof.Proof.Gen.KernelIdeal.Launch
import proofs.«900577_g7700000000000578_dist_mlpseq_tp1dT_cs_cs_b512_d256_h512_v7x_i8_f32_1_alg».proof.Proof.Gen.KernelIdeal.Points
import proofs.«900577_g7700000000000578_dist_mlpseq_tp1dT_cs_cs_b512_d256_h512_v7x_i8_f32_1_alg».proof.Proof.Gen.KernelIdeal.Frame
import proofs.«900577_g7700000000000578_dist_mlpseq_tp1dT_cs_cs_b512_d256_h512_v7x_i8_f32_1_alg».proof.Proof.Gen.ReferenceIdeal
import proofs.«900577_g7700000000000578_dist_mlpseq_tp1dT_cs_cs_b512_d256_h512_v7x_i8_f32_1_alg».proof.Proof.Gen.ReferenceIdeal.Run
import proofs.«900577_g7700000000000578_dist_mlpseq_tp1dT_cs_cs_b512_d256_h512_v7x_i8_f32_1_alg».proof.Proof.Gen.ReferenceIdeal.Read
import proofs.«900577_g7700000000000578_dist_mlpseq_tp1dT_cs_cs_b512_d256_h512_v7x_i8_f32_1_alg».proof.Proof.Gen.Pre_finite_inputs_Kernel
import proofs.«900577_g7700000000000578_dist_mlpseq_tp1dT_cs_cs_b512_d256_h512_v7x_i8_f32_1_alg».proof.Proof.Gen.Pre_finite_inputs_ReferenceIdeal
import proofs.«900577_g7700000000000578_dist_mlpseq_tp1dT_cs_cs_b512_d256_h512_v7x_i8_f32_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, ⟨Claims.frame_k, Claims.frame_ki, Claims.frame_ri, Claims.preserves, Claims.algebraic⟩⟩

end Cert.Proof

end
